-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  IdealRules.named_const.Statement Cert.KernelIdeal.κ "neg_big" .f32 0xFF333332#32 ⊥
  ∧ IdealRules.named_const.Statement Cert.KernelIdeal.κ "neg_big" .f32 0xFF333332#32 ⊥
  ∧ IdealRules.named_const.Statement Cert.KernelIdeal.κ "neg_big" .f32 0xFF333332#32 ⊥
  ∧ IdealRules.named_const.Statement Cert.KernelIdeal.κ "neg_big" .f32 0xFF333332#32 ⊥
  ∧ IdealRules.named_const.Statement Cert.KernelIdeal.κ "neg_big" .f32 0xFF333332#32 ⊥
  ∧ IdealRules.named_const.Statement Cert.KernelIdeal.κ "neg_big" .f32 0xFF333332#32 ⊥
  ∧ IdealRules.named_const.Statement Cert.KernelIdeal.κ "neg_big" .f32 0xFF333332#32 ⊥
  ∧ IdealRules.named_const.Statement Cert.KernelIdeal.κ "neg_big" .f32 0xFF333332#32 ⊥
  ∧ IdealRules.named_const.Statement Cert.KernelIdeal.κ "neg_big" .f32 0xFF333332#32 ⊥
  ∧ IdealRules.named_const.Statement Cert.KernelIdeal.κ "neg_big" .f32 0xFF333332#32 ⊥
  ∧ IdealRules.named_const.Statement Cert.KernelIdeal.κ "neg_big" .f32 0xFF333332#32 ⊥
  ∧ IdealRules.named_const.Statement Cert.KernelIdeal.κ "neg_big" .f32 0xFF333332#32 ⊥
  ∧ IdealRules.named_const.Statement Cert.KernelIdeal.κ "neg_big" .f32 0xFF333332#32 ⊥
  ∧ IdealRules.named_const.Statement Cert.KernelIdeal.κ "neg_big" .f32 0xFF333332#32 ⊥
  ∧ IdealRules.named_const.Statement Cert.KernelIdeal.κ "neg_big" .f32 0xFF333332#32 ⊥
  ∧ IdealRules.named_const.Statement Cert.KernelIdeal.κ "neg_big" .f32 0xFF333332#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S3072x1024 : Shape := ⟨2, ![3072, 1024]⟩
abbrev S3072 : Shape := ⟨1, ![3072]⟩
abbrev S1024x1024 : Shape := ⟨2, ![1024, 1024]⟩
abbrev S1024 : Shape := ⟨1, ![1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S3072x1024 : S_.BroadcastsInDim S3072x1024 (![] : Fin 0 → Fin S3072x1024.rank)
  reducesTo_S3072x1024_S_d0_1 : S3072x1024.ReducesTo [0, 1] S_
  bcast_S_S3072 : S_.BroadcastsInDim S3072 (![] : Fin 0 → Fin S3072.rank)
  reducesTo_S3072_S_d0 : S3072.ReducesTo [0] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  main_v23

def fn {F : FTy → Type} [FloatOps F] (main_arg0 : FVec F S4x2048x1024 .f32) (main_arg1 : FVec F S3072x1024 .f32) (main_arg2 : FVec F S3072 .f32) (main_arg3 : FVec F S1024x1024 .f32) (main_arg4 : FVec F S1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S3072x1024 .f32 := Host.absf main_arg1
  let main_cst_0 : FVec F S_ .f32 := constant S_ .f32 0x7F800000#32
  let main_v5 : FVec F S3072x1024 .f32 := broadcastInDim S3072x1024 ![] bcast_S_S3072x1024 main_cst_0
  let main_v6 : IVec S3072x1024 1 := cmpf .olt main_v4 main_v5
  let main_c_1 : IVec S_ 1 := constantI S_ 1 1#1
  let main_v7 : IVec S_ 1 := (fun x v => Host.reduce IntOp.andi x v reducesTo_S3072x1024_S_d0_1 h_S_) main_v6 main_c_1
  let main_v8 : IVec S_ 1 := andi main_v3 main_v7
  let main_v9 : FVec F S3072 .f32 := Host.absf main_arg2
  let main_cst_2 : FVec F S_ .f32 := constant S_ .f32 0x7F800000#32
  let main_v10 : FVec F S3072 .f32 := broadcastInDim S3072 ![] bcast_S_S3072 main_cst_2
  let main_v11 : IVec S3072 1 := cmpf .olt main_v9 main_v10
  let main_c_3 : IVec S_ 1 := constantI S_ 1 1#1
  let main_v12 : IVec S_ 1 := (fun x v => Host.reduce IntOp.andi x v reducesTo_S3072_S_d0 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_v13 main_v16
-- ==== Kernel.lean ====
abbrev S4x2048x1024 : Shape := ⟨3, ![4, 2048, 1024]⟩
abbrev S3072x1024 : Shape := ⟨2, ![3072, 1024]⟩
abbrev S3072 : Shape := ⟨1, ![3072]⟩
abbrev S1024x1024 : Shape := ⟨2, ![1024, 1024]⟩
abbrev S1024 : Shape := ⟨1, ![1024]⟩
abbrev S8192x1024 : Shape := ⟨2, ![8192, 1024]⟩
abbrev S1x3072 : Shape := ⟨2, ![1, 3072]⟩
abbrev S8192x3072 : Shape := ⟨2, ![8192, 3072]⟩
abbrev S512x1024 : Shape := ⟨2, ![512, 1024]⟩
abbrev S512x3072 : Shape := ⟨2, ![512, 3072]⟩
abbrev S512x16 : Shape := ⟨2, ![512, 16]⟩
abbrev S512x64 : Shape := ⟨2, ![512, 64]⟩
abbrev S512x512 : Shape := ⟨2, ![512, 512]⟩
abbrev S512x1 : Shape := ⟨2, ![512, 1]⟩
abbrev S512 : Shape := ⟨1, ![512]⟩
abbrev S1x1024 : Shape := ⟨2, ![1, 1024]⟩

abbrev nBuf : Space → Nat
  | .hbm => 14
  | .vmem => 23
  | .smem => 0
  | _ => 0

abbrev bufTy : (tb : Table) → Fin (tcTables nBuf tb) → BufTy
  | .hbm, ⟨0, _⟩ => ⟨S4x2048x1024, .f32⟩
  | .hbm, ⟨1, _⟩ => ⟨S3072x1024, .f32⟩
  | .hbm, ⟨2, _⟩ => ⟨S3072, .f32⟩
  | .hbm, ⟨3, _⟩ => ⟨S1024x1024, .f32⟩
  | .hbm, ⟨4, _⟩ => ⟨S1024, .f32⟩
  | .hbm, ⟨5, _⟩ => ⟨S8192x1024, .f32⟩
  | .hbm, ⟨6, _⟩ => ⟨S3072x1024, .bf16⟩
  | .hbm, ⟨7, _⟩ => ⟨S1024x1024, .bf16⟩
  | .hbm, ⟨8, _⟩ => ⟨S1x3072, .f32⟩
  | .hbm, ⟨9, _⟩ => ⟨S8192x3072, .bf16⟩
  | .hbm, ⟨10, _⟩ => ⟨S8192x1024, .bf16⟩
  | .hbm, ⟨11, _⟩ => ⟨S1x1024, .f32⟩
  | .hbm, ⟨12, _⟩ => ⟨S8192x1024, .f32⟩
  | .hbm, ⟨13, _⟩ => ⟨S4x2048x1024, .f32⟩
  | .local _ .vmem, ⟨0, _⟩ => ⟨S512x1024, .f32⟩
  | .local _ .vmem, ⟨1, _⟩ => ⟨S512x1024, .f32⟩
  | .local _ .vmem, ⟨2, _⟩ => ⟨S3072x1024, .bf16⟩
  | .local _ .vmem, ⟨3, _⟩ => ⟨S1x3072, .f32⟩
  | .local _ .vmem, ⟨4, _⟩ => ⟨S512x3072, .bf16⟩
  | .local _ .vmem, ⟨5, _⟩ => ⟨S512x3072, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x16, .f32⟩
  | .local _ .vmem, ⟨15, _⟩ => ⟨S512x16, .f32⟩
  | .local _ .vmem, ⟨16, _⟩ => ⟨S512x1024, .f32⟩
  | .local _ .vmem, ⟨17, _⟩ => ⟨S512x1024, .bf16⟩
  | .local _ .vmem, ⟨18, _⟩ => ⟨S512x1024, .bf16⟩
  | .local _ .vmem, ⟨19, _⟩ => ⟨S1024x1024, .bf16⟩
  | .local _ .vmem, ⟨20, _⟩ => ⟨S1x1024, .f32⟩
  | .local _ .vmem, ⟨21, _⟩ => ⟨S512x1024, .f32⟩
  | .local _ .vmem, ⟨22, _⟩ => ⟨S512x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_scratch0 : Ref sig .tc := ⟨.vmem, 14, rfl⟩
abbrev cc1_scratch1 : Ref sig .tc := ⟨.vmem, 15, rfl⟩
abbrev cc1_scratch2 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg3_1 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem3_0 : DmaSem sig := 18
abbrev cc2_sem3_1 : DmaSem sig := 19

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3072x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x3072 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨3, ![4, 4, 4], ![false, false, false]⟩

def k1_cond4 (i : grid1.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_3 : BitVec 32 := 0#32
  let v11 : BitVec 1 := Scalar.cmpi .ne v10 c0_i32_3
  v11

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.minsi arg2 arg1
  let v2 : BitVec 32 := Scalar.addi v0 v1
  let c1_i32 : BitVec 32 := 1#32
  let c0_i32 : BitVec 32 := 0#32
  ![v2.toNat, c1_i32.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.minsi arg2 arg1
  let v2 : BitVec 32 := Scalar.addi v0 v1
  let c2_i32 : BitVec 32 := 2#32
  let c0_i32 : BitVec 32 := 0#32
  ![v2.toNat, c2_i32.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage1_0 : Fin 2 → Memref sig .tc .vmem S512x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, false]

abbrev stage1_1 : Fin 2 → Memref sig .tc .vmem S512x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true, true]

abbrev stage1_2 : Fin 2 → Memref sig .tc .vmem S512x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, true]

abbrev stage1_3 : Fin 2 → Memref sig .tc .vmem S512x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

abbrev grid2 : Pipeline.Grid := ⟨1, ![16], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1024x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S512x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  shapeCasts_S4x2048x1024_S8192x1024 : S4x2048x1024.ShapeCasts S8192x1024
  bitsLt_bf16_f32 : FTy.bits .bf16 < FTy.bits .f32
  shapeCasts_S3072_S1x3072 : S3072.ShapeCasts S1x3072
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S3072x1024_S3072x1024_0_0 : ∀ a, (![0, 0] : Fin 2 → Nat) a + S3072x1024.size a ≤ S3072x1024.size a
  h_S3072x1024 : 0 < S3072x1024.numel
  shapeCasts_S3072x1024_S3072x1024 : S3072x1024.ShapeCasts S3072x1024
  inb_S1x3072_S1x3072_0_0 : ∀ a, (![0, 0] : Fin 2 → Nat) a + S1x3072.size a ≤ S1x3072.size a
  h_S1x3072 : 0 < S1x3072.numel
  shapeCasts_S1x3072_S1x3072 : S1x3072.ShapeCasts S1x3072
  broadcasts_S1x3072_S512x3072 : S1x3072.Broadcasts S512x3072
  inb_S512x3072_S512x3072_0_0 : ∀ a, (![0, 0] : Fin 2 → Nat) a + S512x3072.size a ≤ S512x3072.size a
  h_S512x3072 : 0 < S512x3072.numel
  packedbf16_S512x3072_S512x3072_0_0 : (Rect.unit (s := S512x3072) ![0, 0] S512x3072.size inb_S512x3072_S512x3072_0_0).PackedRows (EltTy.packing .bf16)
  inb_S512x16_S512x16_0_0 : ∀ a, (![0, 0] : Fin 2 → Nat) a + S512x16.size a ≤ S512x16.size a
  h_S512x16 : 0 < S512x16.numel
  shapeCasts_S512x16_S512x16 : S512x16.ShapeCasts S512x16
  inb_S512x1024_S512x64_0_0 : ∀ a, (![0, 0] : Fin 2 → Nat) a + S512x64.size a ≤ S512x1024.size a
  h_S512x64 : 0 < S512x64.numel
  shapeCasts_S512x64_S512x64 : S512x64.ShapeCasts S512x64
  inb_S512x16_S512x1_0_0 : ∀ a, (![0, 0] : Fin 2 → Nat) a + S512x1.size a ≤ S512x16.size a
  h_S512x1 : 0 < S512x1.numel
  reduces_S512x512_S512 : S512x512.Reduces [1] S512
  shapeCasts_S512_S512x1 : S512.ShapeCasts S512x1
  broadcasts_S512x1_S512x512 : S512x1.Broadcasts S512x512
  shapeCasts_S512x1_S512x1 : S512x1.ShapeCasts S512x1
  broadcasts_S512x1_S512x64 : S512x1.Broadcasts S512x64
  inb_S512x1024_S512x64_0_64 : ∀ a, (![0, 64] : Fin 2 → Nat) a + S512x64.size a ≤ S512x1024.size a
  inb_S512x16_S512x1_0_1 : ∀ a, (![0, 1] : Fin 2 → Nat) a + S512x1.size a ≤ S512x16.size a
  inb_S512x1024_S512x64_0_128 : ∀ a, (![0, 128] : Fin 2 → Nat) a + S512x64.size a ≤ S512x1024.size a
  inb_S512x16_S512x1_0_2 : ∀ a, (![0, 2] : Fin 2 → Nat) a + S512x1.size a ≤ S512x16.size a
  inb_S512x1024_S512x64_0_192 : ∀ a, (![0, 192] : Fin 2 → Nat) a + S512x64.size a ≤ S512x1024.size a
  inb_S512x16_S512x1_0_3 : ∀ a, (![0, 3] : Fin 2 → Nat) a + S512x1.size a ≤ S512x16.size a
  inb_S512x1024_S512x64_0_256 : ∀ a, (![0, 256] : Fin 2 → Nat) a + S512x64.size a ≤ S512x1024.size a
  inb_S512x16_S512x1_0_4 : ∀ a, (![0, 4] : Fin 2 → Nat) a + S512x1.size a ≤ S512x16.size a
  inb_S512x1024_S512x64_0_320 : ∀ a, (![0, 320] : Fin 2 → Nat) a + S512x64.size a ≤ S512x1024.size a
  inb_S512x16_S512x1_0_5 : ∀ a, (![0, 5] : Fin 2 → Nat) a + S512x1.size a ≤ S512x16.size a
  inb_S512x1024_S512x64_0_384 : ∀ a, (![0, 384] : Fin 2 → Nat) a + S512x64.size a ≤ S512x1024.size a
  inb_S512x16_S512x1_0_6 : ∀ a, (![0, 6] : Fin 2 → Nat) a + S512x1.size a ≤ S512x16.size a
  inb_S512x1024_S512x64_0_448 : ∀ a, (![0, 448] : Fin 2 → Nat) a + S512x64.size a ≤ S512x1024.size a
  inb_S512x16_S512x1_0_7 : ∀ a, (![0, 7] : Fin 2 → Nat) a + S512x1.size a ≤ S512x16.size a
  inb_S512x1024_S512x64_0_512 : ∀ a, (![0, 512] : Fin 2 → Nat) a + S512x64.size a ≤ S512x1024.size a
  inb_S512x16_S512x1_0_8 : ∀ a, (![0, 8] : Fin 2 → Nat) a + S512x1.size a ≤ S512x16.size a
  inb_S512x1024_S512x64_0_576 : ∀ a, (![0, 576] : Fin 2 → Nat) a + S512x64.size a ≤ S512x1024.size a
  inb_S512x16_S512x1_0_9 : ∀ a, (![0, 9] : Fin 2 → Nat) a + S512x1.size a ≤ S512x16.size a
  inb_S512x1024_S512x64_0_640 : ∀ a, (![0, 640] : Fin 2 → Nat) a + S512x64.size a ≤ S512x1024.size a
  inb_S512x16_S512x1_0_10 : ∀ a, (![0, 10] : Fin 2 → Nat) a + S512x1.size a ≤ S512x16.size a
  inb_S512x1024_S512x64_0_704 : ∀ a, (![0, 704] : Fin 2 → Nat) a + S512x64.size a ≤ S512x1024.size a
  inb_S512x16_S512x1_0_11 : ∀ a, (![0, 11] : Fin 2 → Nat) a + S512x1.size a ≤ S512x16.size a
  inb_S512x1024_S512x64_0_768 : ∀ a, (![0, 768] : Fin 2 → Nat) a + S512x64.size a ≤ S512x1024.size a
  inb_S512x16_S512x1_0_12 : ∀ a, (![0, 12] : Fin 2 → Nat) a + S512x1.size a ≤ S512x16.size a
  inb_S512x1024_S512x64_0_832 : ∀ a, (![0, 832] : Fin 2 → Nat) a + S512x64.size a ≤ S512x1024.size a
  inb_S512x16_S512x1_0_13 : ∀ a, (![0, 13] : Fin 2 → Nat) a + S512x1.size a ≤ S512x16.size a
  inb_S512x1024_S512x64_0_896 : ∀ a, (![0, 896] : Fin 2 → Nat) a + S512x64.size a ≤ S512x1024.size a
  inb_S512x16_S512x1_0_14 : ∀ a, (![0, 14] : Fin 2 → Nat) a + S512x1.size a ≤ S512x16.size a
  inb_S512x1024_S512x64_0_960 : ∀ a, (![0, 960] : Fin 2 → Nat) a + S512x64.size a ≤ S512x1024.size a
  inb_S512x16_S512x1_0_15 : ∀ a, (![0, 15] : Fin 2 → Nat) a + S512x1.size a ≤ S512x16.size a
  iota_S512x512_d0_w32 : S512x512.Iotas .tc 32 [0]
  iota_S512x512_d1_w32 : S512x512.Iotas .tc 32 [1]
  packedbf16_S512x1024_S512x64_0_0 : (Rect.unit (s := S512x1024) ![0, 0] S512x64.size inb_S512x1024_S512x64_0_0).PackedRows (EltTy.packing .bf16)
  packedbf16_S512x1024_S512x64_0_64 : (Rect.unit (s := S512x1024) ![0, 64] S512x64.size inb_S512x1024_S512x64_0_64).PackedRows (EltTy.packing .bf16)
  packedbf16_S512x1024_S512x64_0_128 : (Rect.unit (s := S512x1024) ![0, 128] S512x64.size inb_S512x1024_S512x64_0_128).PackedRows (EltTy.packing .bf16)
  packedbf16_S512x1024_S512x64_0_192 : (Rect.unit (s := S512x1024) ![0, 192] S512x64.size inb_S512x1024_S512x64_0_192).PackedRows (EltTy.packing .bf16)
  packedbf16_S512x1024_S512x64_0_256 : (Rect.unit (s := S512x1024) ![0, 256] S512x64.size inb_S512x1024_S512x64_0_256).PackedRows (EltTy.packing .bf16)
  packedbf16_S512x1024_S512x64_0_320 : (Rect.unit (s := S512x1024) ![0, 320] S512x64.size inb_S512x1024_S512x64_0_320).PackedRows (EltTy.packing .bf16)
  packedbf16_S512x1024_S512x64_0_384 : (Rect.unit (s := S512x1024) ![0, 384] S512x64.size inb_S512x1024_S512x64_0_384).PackedRows (EltTy.packing .bf16)
  packedbf16_S512x1024_S512x64_0_448 : (Rect.unit (s := S512x1024) ![0, 448] S512x64.size inb_S512x1024_S512x64_0_448).PackedRows (EltTy.packing .bf16)
  packedbf16_S512x1024_S512x64_0_512 : (Rect.unit (s := S512x1024) ![0, 512] S512x64.size inb_S512x1024_S512x64_0_512).PackedRows (EltTy.packing .bf16)
  packedbf16_S512x1024_S512x64_0_576 : (Rect.unit (s := S512x1024) ![0, 576] S512x64.size inb_S512x1024_S512x64_0_576).PackedRows (EltTy.packing .bf16)
  packedbf16_S512x1024_S512x64_0_640 : (Rect.unit (s := S512x1024) ![0, 640] S512x64.size inb_S512x1024_S512x64_0_640).PackedRows (EltTy.packing .bf16)
  packedbf16_S512x1024_S512x64_0_704 : (Rect.unit (s := S512x1024) ![0, 704] S512x64.size inb_S512x1024_S512x64_0_704).PackedRows (EltTy.packing .bf16)
  packedbf16_S512x1024_S512x64_0_768 : (Rect.unit (s := S512x1024) ![0, 768] S512x64.size inb_S512x1024_S512x64_0_768).PackedRows (EltTy.packing .bf16)
  packedbf16_S512x1024_S512x64_0_832 : (Rect.unit (s := S512x1024) ![0, 832] S512x64.size inb_S512x1024_S512x64_0_832).PackedRows (EltTy.packing .bf16)
  packedbf16_S512x1024_S512x64_0_896 : (Rect.unit (s := S512x1024) ![0, 896] S512x64.size inb_S512x1024_S512x64_0_896).PackedRows (EltTy.packing .bf16)
  packedbf16_S512x1024_S512x64_0_960 : (Rect.unit (s := S512x1024) ![0, 960] S512x64.size inb_S512x1024_S512x64_0_960).PackedRows (EltTy.packing .bf16)
  shapeCasts_S1024_S1x1024 : S1024.ShapeCasts S1x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  shapeCasts_S8192x1024_S4x2048x1024 : S8192x1024.ShapeCasts S4x2048x1024
  dot_S512x1024_S3072x1024_S512x3072_1_1_0_0_n_n_wf : DotDims.WF S512x1024 S3072x1024 S512x3072 [1] [1] [0] [0] [] []
  dot_S512x64_S512x64_S512x512_1_1_0_0_n_n_wf : DotDims.WF S512x64 S512x64 S512x512 [1] [1] [0] [0] [] []
  dot_S512x512_S512x64_S512x64_1_0_0_1_n_n_wf : DotDims.WF S512x512 S512x64 S512x64 [1] [0] [0] [1] [] []
  dot_S512x1024_S1024x1024_S512x1024_1_1_0_0_n_n_wf : DotDims.WF S512x1024 S1024x1024 S512x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S8192x1024.size a
  hwx0_0 : ∀ i : grid0.Coords, EltTy.bits .f32 = 32 ∨ (Rect.block (s := S8192x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3072x1024.size a ≤ S3072x1024.size a
  hwx0_1 : ∀ i : grid0.Coords, EltTy.bits .bf16 = 32 ∨ (Rect.block (s := S3072x1024) S3072x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x3072.size a ≤ S1x3072.size a
  hwx0_2 : ∀ i : grid0.Coords, EltTy.bits .f32 = 32 ∨ (Rect.block (s := S1x3072) S1x3072.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x3072.size a ≤ S8192x3072.size a
  hwx0_3 : ∀ i : grid0.Coords, EltTy.bits .bf16 = 32 ∨ (Rect.block (s := S8192x3072) S512x3072.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x1024.size a ≤ S8192x3072.size a
  hwx1_0 : ∀ i : grid1.Coords, EltTy.bits .bf16 = 32 ∨ (Rect.block (s := S8192x3072) S512x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x1024.size a ≤ S8192x3072.size a
  hwx1_1 : ∀ i : grid1.Coords, EltTy.bits .bf16 = 32 ∨ (Rect.block (s := S8192x3072) S512x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x1024.size a ≤ S8192x3072.size a
  hwx1_2 : ∀ i : grid1.Coords, EltTy.bits .bf16 = 32 ∨ (Rect.block (s := S8192x3072) S512x1024.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x1024.size a ≤ S8192x1024.size a
  hwx1_3 : ∀ i : grid1.Coords, EltTy.bits .bf16 = 32 ∨ (Rect.block (s := S8192x1024) S512x1024.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x1024.size a ≤ S8192x1024.size a
  hwx2_0 : ∀ i : grid2.Coords, EltTy.bits .bf16 = 32 ∨ (Rect.block (s := S8192x1024) S512x1024.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S1024x1024.size a
  hwx2_1 : ∀ i : grid2.Coords, EltTy.bits .bf16 = 32 ∨ (Rect.block (s := S1024x1024) S1024x1024.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x1024.size a ≤ S1x1024.size a
  hwx2_2 : ∀ i : grid2.Coords, EltTy.bits .f32 = 32 ∨ (Rect.block (s := S1x1024) S1x1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S512x1024.size a ≤ S8192x1024.size a
  hwx2_3 : ∀ i : grid2.Coords, EltTy.bits .f32 = 32 ∨ (Rect.block (s := S8192x1024) S512x1024.size (cc2_transform_3 i) (hinb2_3 i)).WholeWords (EltTy.packing .f32)

variable [Facts₀]

def dot_S512x1024_S3072x1024_S512x3072_1_1_0_0_n_n : DotDims S512x1024 S3072x1024 S512x3072 where
  lhsContracting := [1]
  rhsContracting := [1]
  lhsNonContracting := [0]
  rhsNonContracting := [0]
  lhsBatch := []
  rhsBatch := []
  wf := dot_S512x1024_S3072x1024_S512x3072_1_1_0_0_n_n_wf
def dot_S512x64_S512x64_S512x512_1_1_0_0_n_n : DotDims S512x64 S512x64 S512x512 where
  lhsContracting := [1]
  rhsContracting := [1]
  lhsNonContracting := [0]
  rhsNonContracting := [0]
  lhsBatch := []
  rhsBatch := []
  wf := dot_S512x64_S512x64_S512x512_1_1_0_0_n_n_wf
def dot_S512x512_S512x64_S512x64_1_0_0_1_n_n : DotDims S512x512 S512x64 S512x64 where
  lhsContracting := [1]
  rhsContracting := [0]
  lhsNonContracting := [0]
  rhsNonContracting := [1]
  lhsBatch := []
  rhsBatch := []
  wf := dot_S512x512_S512x64_S512x64_1_0_0_1_n_n_wf
def dot_S512x1024_S1024x1024_S512x1024_1_1_0_0_n_n : DotDims S512x1024 S1024x1024 S512x1024 where
  lhsContracting := [1]
  rhsContracting := [1]
  lhsNonContracting := [0]
  rhsNonContracting := [0]
  lhsBatch := []
  rhsBatch := []
  wf := dot_S512x1024_S1024x1024_S512x1024_1_1_0_0_n_n_wf

abbrev win0_0 : Pipeline.Window sig grid0 :=
  Pipeline.Window.ofSpec (Memref.whole main_v0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S3072x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x3072.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S512x3072.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v4) S512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4) S512x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v4) S512x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v5) S512x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond4 i == 1#1) | ⟨_ + 4, h⟩ => absurd h (Nat.not_lt.2 (Nat.le_add_left _ _))

abbrev win2_0 : Pipeline.Window sig grid2 :=
  Pipeline.Window.ofSpec (Memref.whole main_v5) S512x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v2) S1024x1024.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v6) S1x1024.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v7) S512x1024.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S4x2048x1024 : Shape := ⟨3, ![4, 2048, 1024]⟩
abbrev S3072x1024 : Shape := ⟨2, ![3072, 1024]⟩
abbrev S3072 : Shape := ⟨1, ![3072]⟩
abbrev S1024x1024 : Shape := ⟨2, ![1024, 1024]⟩
abbrev S1024 : Shape := ⟨1, ![1024]⟩
abbrev S4x2048x3072 : Shape := ⟨3, ![4, 2048, 3072]⟩
abbrev S1x1x3072 : Shape := ⟨3, ![1, 1, 3072]⟩
abbrev S4x2048x16x64 : Shape := ⟨4, ![4, 2048, 16, 64]⟩
abbrev S4x16x2048x64 : Shape := ⟨4, ![4, 16, 2048, 64]⟩
abbrev S_ : Shape := ⟨0, ![]⟩
abbrev S4x16x2048x2048 : Shape := ⟨4, ![4, 16, 2048, 2048]⟩
abbrev S2048x2048 : Shape := ⟨2, ![2048, 2048]⟩
abbrev S1x1x2048x2048 : Shape := ⟨4, ![1, 1, 2048, 2048]⟩
abbrev S4x16x2048 : Shape := ⟨3, ![4, 16, 2048]⟩
abbrev S4x16x2048x1 : Shape := ⟨4, ![4, 16, 2048, 1]⟩
abbrev S1x1x1024 : Shape := ⟨3, ![1, 1, 1024]⟩

abbrev nBuf : Space → Nat
  | .hbm => 63
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S3072x1024, .f32⟩
  | .hbm, ⟨2, _⟩ => ⟨S3072, .f32⟩
  | .hbm, ⟨3, _⟩ => ⟨S1024x1024, .f32⟩
  | .hbm, ⟨4, _⟩ => ⟨S1024, .f32⟩
  | .hbm, ⟨5, _⟩ => ⟨S4x2048x3072, .f32⟩
  | .hbm, ⟨6, _⟩ => ⟨S1x1x3072, .f32⟩
  | .hbm, ⟨7, _⟩ => ⟨S4x2048x3072, .f32⟩
  | .hbm, ⟨8, _⟩ => ⟨S4x2048x3072, .f32⟩
  | .hbm, ⟨9, _⟩ => ⟨S4x2048x1024, .f32⟩
  | .hbm, ⟨10, _⟩ => ⟨S4x2048x1024, .f32⟩
  | .hbm, ⟨11, _⟩ => ⟨S4x2048x1024, .f32⟩
  | .hbm, ⟨12, _⟩ => ⟨S4x2048x16x64, .f32⟩
  | .hbm, ⟨13, _⟩ => ⟨S4x16x2048x64, .f32⟩
  | .hbm, ⟨14, _⟩ => ⟨S4x2048x16x64, .f32⟩
  | .hbm, ⟨15, _⟩ => ⟨S4x16x2048x64, .f32⟩
  | .hbm, ⟨16, _⟩ => ⟨S4x2048x16x64, .f32⟩
  | .hbm, ⟨17, _⟩ => ⟨S4x16x2048x64, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S4x16x2048x2048, .f32⟩
  | .hbm, ⟨23, _⟩ => ⟨S4x16x2048x2048, .f32⟩
  | .hbm, ⟨24, _⟩ => ⟨S4x16x2048x2048, .f32⟩
  | .hbm, ⟨25, _⟩ => ⟨S_, .i1⟩
  | .hbm, ⟨26, _⟩ => ⟨S2048x2048, .i1⟩
  | .hbm, ⟨27, _⟩ => ⟨S2048x2048, .i32⟩
  | .hbm, ⟨28, _⟩ => ⟨S_, .i32⟩
  | .hbm, ⟨29, _⟩ => ⟨S2048x2048, .i32⟩
  | .hbm, ⟨30, _⟩ => ⟨S2048x2048, .i32⟩
  | .hbm, ⟨31, _⟩ => ⟨S2048x2048, .i32⟩
  | .hbm, ⟨32, _⟩ => ⟨S2048x2048, .i1⟩
  | .hbm, ⟨33, _⟩ => ⟨S_, .i1⟩
  | .hbm, ⟨34, _⟩ => ⟨S2048x2048, .i1⟩
  | .hbm, ⟨35, _⟩ => ⟨S2048x2048, .i1⟩
  | .hbm, ⟨36, _⟩ => ⟨S1x1x2048x2048, .i1⟩
  | .hbm, ⟨37, _⟩ => ⟨S_, .f32⟩
  | .hbm, ⟨38, _⟩ => ⟨S_, .f32⟩
  | .hbm, ⟨39, _⟩ => ⟨S4x16x2048x2048, .i1⟩
  | .hbm, ⟨40, _⟩ => ⟨S4x16x2048x2048, .f32⟩
  | .hbm, ⟨41, _⟩ => ⟨S4x16x2048x2048, .f32⟩
  | .hbm, ⟨42, _⟩ => ⟨S_, .f32⟩
  | .hbm, ⟨43, _⟩ => ⟨S4x16x2048, .f32⟩
  | .hbm, ⟨44, _⟩ => ⟨S_, .f32⟩
  | .hbm, ⟨45, _⟩ => ⟨S4x16x2048, .f32⟩
  | .hbm, ⟨46, _⟩ => ⟨S4x16x2048, .f32⟩
  | .hbm, ⟨47, _⟩ => ⟨S4x16x2048x1, .f32⟩
  | .hbm, ⟨48, _⟩ => ⟨S4x16x2048x2048, .f32⟩
  | .hbm, ⟨49, _⟩ => ⟨S4x16x2048x2048, .f32⟩
  | .hbm, ⟨50, _⟩ => ⟨S4x16x2048x2048, .f32⟩
  | .hbm, ⟨51, _⟩ => ⟨S_, .f32⟩
  | .hbm, ⟨52, _⟩ => ⟨S4x16x2048, .f32⟩
  | .hbm, ⟨53, _⟩ => ⟨S4x16x2048x1, .f32⟩
  | .hbm, ⟨54, _⟩ => ⟨S4x16x2048x2048, .f32⟩
  | .hbm, ⟨55, _⟩ => ⟨S4x16x2048x2048, .f32⟩
  | .hbm, ⟨56, _⟩ => ⟨S4x16x2048x64, .f32⟩
  | .hbm, ⟨57, _⟩ => ⟨S4x2048x16x64, .f32⟩
  | .hbm, ⟨58, _⟩ => ⟨S4x2048x1024, .f32⟩
  | .hbm, ⟨59, _⟩ => ⟨S4x2048x1024, .f32⟩
  | .hbm, ⟨60, _⟩ => ⟨S1x1x1024, .f32⟩
  | .hbm, ⟨61, _⟩ => ⟨S4x2048x1024, .f32⟩
  | .hbm, ⟨62, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst : Ref sig .tc := ⟨.hbm, 18, rfl⟩
abbrev main_v13 : Ref sig .tc := ⟨.hbm, 19, rfl⟩
abbrev main_cst_0 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_c : Ref sig .tc := ⟨.hbm, 25, rfl⟩
abbrev main_v18 : Ref sig .tc := ⟨.hbm, 26, rfl⟩
abbrev main_call0_v0 : Ref sig .tc := ⟨.hbm, 27, rfl⟩
abbrev main_call0_c : Ref sig .tc := ⟨.hbm, 28, rfl⟩
abbrev main_call0_v1 : Ref sig .tc := ⟨.hbm, 29, rfl⟩
abbrev main_call0_v2 : Ref sig .tc := ⟨.hbm, 30, rfl⟩
abbrev main_call0_v3 : Ref sig .tc := ⟨.hbm, 31, rfl⟩
abbrev main_call0_v4 : Ref sig .tc := ⟨.hbm, 32, rfl⟩
abbrev main_call0_c_0 : Ref sig .tc := ⟨.hbm, 33, rfl⟩
abbrev main_call0_v5 : Ref sig .tc := ⟨.hbm, 34, rfl⟩
abbrev main_v19 : Ref sig .tc := ⟨.hbm, 35, rfl⟩
abbrev main_v20 : Ref sig .tc := ⟨.hbm, 36, rfl⟩
abbrev main_cst_1 : Ref sig .tc := ⟨.hbm, 37, rfl⟩
abbrev main_call1_v0 : Ref sig .tc := ⟨.hbm, 38, rfl⟩
abbrev main_call1_v1 : Ref sig .tc := ⟨.hbm, 39, rfl⟩
abbrev main_call1_v2 : Ref sig .tc := ⟨.hbm, 40, rfl⟩
abbrev main_v21 : Ref sig .tc := ⟨.hbm, 41, rfl⟩
abbrev main_cst_2 : Ref sig .tc := ⟨.hbm, 42, rfl⟩
abbrev main_v22 : Ref sig .tc := ⟨.hbm, 43, rfl⟩
abbrev main_cst_3 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_cst_4 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩

abbrev nD : Nat := 1
abbrev τ : Topo := Topo.v7x

variable {F : FTy → Type} [FloatOps F]

class Facts₀ : Prop where
  bcast_S3072_S1x1x3072_2 : S3072.BroadcastsInDim S1x1x3072 (![2] : Fin 1 → Fin S1x1x3072.rank)
  bcast_S1x1x3072_S4x2048x3072_0_1_2 : S1x1x3072.BroadcastsInDim S4x2048x3072 (![0, 1, 2] : Fin 3 → Fin S4x2048x3072.rank)
  slices_S4x2048x3072_S4x2048x1024_0_0_0 : S4x2048x3072.Slices ![0, 0, 0] S4x2048x1024
  slices_S4x2048x3072_S4x2048x1024_0_0_1024 : S4x2048x3072.Slices ![0, 0, 1024] S4x2048x1024
  slices_S4x2048x3072_S4x2048x1024_0_0_2048 : S4x2048x3072.Slices ![0, 0, 2048] S4x2048x1024
  shapeCasts_S4x2048x1024_S4x2048x16x64 : S4x2048x1024.ShapeCasts S4x2048x16x64
  transposes_S4x2048x16x64_S4x16x2048x64_0_2_1_3 : S4x2048x16x64.Transposes [0, 2, 1, 3] S4x16x2048x64
  bcast_S_S4x16x2048x2048 : S_.BroadcastsInDim S4x16x2048x2048 (![] : Fin 0 → Fin S4x16x2048x2048.rank)
  bcast_S_S2048x2048 : S_.BroadcastsInDim S2048x2048 (![] : Fin 0 → Fin S2048x2048.rank)
  bcast_S2048x2048_S1x1x2048x2048_2_3 : S2048x2048.BroadcastsInDim S1x1x2048x2048 (![2, 3] : Fin 2 → Fin S1x1x2048x2048.rank)
  bcast_S1x1x2048x2048_S4x16x2048x2048_0_1_2_3 : S1x1x2048x2048.BroadcastsInDim S4x16x2048x2048 (![0, 1, 2, 3] : Fin 4 → Fin S4x16x2048x2048.rank)
  reducesTo_S4x16x2048x2048_S4x16x2048_d3 : S4x16x2048x2048.ReducesTo [3] S4x16x2048
  h_S_ : 0 < S_.numel
  bcast_S_S4x16x2048 : S_.BroadcastsInDim S4x16x2048 (![] : Fin 0 → Fin S4x16x2048.rank)
  bcast_S4x16x2048_S4x16x2048x1_0_1_2 : S4x16x2048.BroadcastsInDim S4x16x2048x1 (![0, 1, 2] : Fin 3 → Fin S4x16x2048x1.rank)
  bcast_S4x16x2048x1_S4x16x2048x2048_0_1_2_3 : S4x16x2048x1.BroadcastsInDim S4x16x2048x2048 (![0, 1, 2, 3] : Fin 4 → Fin S4x16x2048x2048.rank)
  transposes_S4x16x2048x64_S4x2048x16x64_0_2_1_3 : S4x16x2048x64.Transposes [0, 2, 1, 3] S4x2048x16x64
  shapeCasts_S4x2048x16x64_S4x2048x1024 : S4x2048x16x64.ShapeCasts S4x2048x1024
  bcast_S1024_S1x1x1024_2 : S1024.BroadcastsInDim S1x1x1024 (![2] : Fin 1 → Fin S1x1x1024.rank)
  bcast_S1x1x1024_S4x2048x1024_0_1_2 : S1x1x1024.BroadcastsInDim S4x2048x1024 (![0, 1, 2] : Fin 3 → Fin S4x2048x1024.rank)
  dot_S4x2048x1024_S3072x1024_S4x2048x3072_2_1_01_0_n_n_wf : DotDims.WF S4x2048x1024 S3072x1024 S4x2048x3072 [2] [1] [0, 1] [0] [] []
  dot_S4x16x2048x64_S4x16x2048x64_S4x16x2048x2048_3_3_2_2_01_01_wf : DotDims.WF S4x16x2048x64 S4x16x2048x64 S4x16x2048x2048 [3] [3] [2] [2] [0, 1] [0, 1]
  dot_S4x16x2048x2048_S4x16x2048x64_S4x16x2048x64_3_2_2_3_01_01_wf : DotDims.WF S4x16x2048x2048 S4x16x2048x64 S4x16x2048x64 [3] [2] [2] [3] [0, 1] [0, 1]
  dot_S4x2048x1024_S1024x1024_S4x2048x1024_2_1_01_0_n_n_wf : DotDims.WF S4x2048x1024 S1024x1024 S4x2048x1024 [2] [1] [0, 1] [0] [] []

variable [Facts₀]

def dot_S4x2048x1024_S3072x1024_S4x2048x3072_2_1_01_0_n_n : DotDims S4x2048x1024 S3072x1024 S4x2048x3072 where
  lhsContracting := [2]
  rhsContracting := [1]
  lhsNonContracting := [0, 1]
  rhsNonContracting := [0]
  lhsBatch := []
  rhsBatch := []
  wf := dot_S4x2048x1024_S3072x1024_S4x2048x3072_2_1_01_0_n_n_wf
def dot_S4x16x2048x64_S4x16x2048x64_S4x16x2048x2048_3_3_2_2_01_01 : DotDims S4x16x2048x64 S4x16x2048x64 S4x16x2048x2048 where
  lhsContracting := [3]
  rhsContracting := [3]
  lhsNonContracting := [2]
  rhsNonContracting := [2]
  lhsBatch := [0, 1]
  rhsBatch := [0, 1]
  wf := dot_S4x16x2048x64_S4x16x2048x64_S4x16x2048x2048_3_3_2_2_01_01_wf
def dot_S4x16x2048x2048_S4x16x2048x64_S4x16x2048x64_3_2_2_3_01_01 : DotDims S4x16x2048x2048 S4x16x2048x64 S4x16x2048x64 where
  lhsContracting := [3]
  rhsContracting := [2]
  lhsNonContracting := [2]
  rhsNonContracting := [3]
  lhsBatch := [0, 1]
  rhsBatch := [0, 1]
  wf := dot_S4x16x2048x2048_S4x16x2048x64_S4x16x2048x64_3_2_2_3_01_01_wf
def dot_S4x2048x1024_S1024x1024_S4x2048x1024_2_1_01_0_n_n : DotDims S4x2048x1024 S1024x1024 S4x2048x1024 where
  lhsContracting := [2]
  rhsContracting := [1]
  lhsNonContracting := [0, 1]
  rhsNonContracting := [0]
  lhsBatch := []
  rhsBatch := []
  wf := dot_S4x2048x1024_S1024x1024_S4x2048x1024_2_1_01_0_n_n_wf

class Facts : Prop extends Facts₀ where

variable [Facts]
-- ==== Proof.K.Lin0.lean ====
import proofs.«414918_j3358664426109_3_alg».proof.Proof.Gen.Kernel.Launch
import proofs.«414918_j3358664426109_3_alg».proof.Proof.Gen.Kernel.Skeleton
import proofs.«414918_j3358664426109_3_alg».proof.Proof.Gen.Kernel.Points
import Idealize.ShloMosaic.Lib.Pipeline.FrameBody
import Idealize.ShloMosaic.Lib.Ring
import Idealize.ShloMosaic.Lib.Tactic

noncomputable section

namespace Cert.Kernel.Lin0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

abbrev r0_0 : Rect S512x1024 := Rect.unit (s := S512x1024) ![0, 0] S512x1024.size inb_S512x1024_S512x1024_0_0
abbrev r0_1 : Rect S3072x1024 := Rect.unit (s := S3072x1024) ![0, 0] S3072x1024.size inb_S3072x1024_S3072x1024_0_0
abbrev r0_2 : Rect S1x3072 := Rect.unit (s := S1x3072) ![0, 0] S1x3072.size inb_S1x3072_S1x3072_0_0
abbrev r0_3 : Rect S512x3072 := Rect.unit (s := S512x3072) ![0, 0] S512x3072.size inb_S512x3072_S512x3072_0_0

def out0_3 (x0 : Vec F S512x1024 .f32) (x1 : Vec F S3072x1024 .bf16) (x2 : Vec F S1x3072 .f32) : Vec F S512x3072 .bf16 :=
  View.canon [⟨r0_3, k0_pay1 (View.ld x0 r0_0) (View.ld x1 r0_1) (View.ld x2 r0_2)⟩]

theorem cover0_3 (p0 : Vec F S512x3072 .bf16) (y : S512x3072.Idx) :
    ∃ pc ∈ ([⟨r0_3, p0⟩] : List (View.Piece (Elt F) S512x3072 .bf16)), y ∈ pc.1.set :=
  View.cover_of_tiled [⟨r0_3, p0⟩] S512x3072.size (by rfl) y

set_option maxHeartbeats 1000000 in

theorem sound_kernel0 (c : Dev nD) (E : Set ℕ) (i : grid0.Coords)
    (arg1 : Memref sig .tc .vmem S512x1024 .f32) (harg1 : arg1.IsWhole)
    (arg2 : Memref sig .tc .vmem S3072x1024 .bf16) (harg2 : arg2.IsWhole)
    (arg3 : Memref sig .tc .vmem S1x3072 .f32) (harg3 : arg3.IsWhole)
    (arg4 : Memref sig .tc .vmem S512x3072 .bf16) (harg4 : arg4.IsWhole)
    (x0 : Vec F S512x1024 .f32) (x1 : Vec F S3072x1024 .bf16) (x2 : Vec F S1x3072 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__linear_kernel i arg1 harg1 arg2 harg2 arg3 harg3 arg4 harg4) K := by
  simp only [cc0__linear_kernel_eq_skeleton]; unfold cc0__linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation0 (c : Dev nD) : BodyObligation (dat0 (F := F) V c) (defs₀ (F := F)) Variants.none () Set.univ := fun t => by
  rw [bigSep_W0, bigSep_W0]
  exact sound_body0 V c t

end Cert.Kernel.Lin0

end
-- ==== Proof.K.Lin2.lean ====
import proofs.«414918_j3358664426109_3_alg».proof.Proof.Gen.Kernel.Launch
import proofs.«414918_j3358664426109_3_alg».proof.Proof.Gen.Kernel.Skeleton
import proofs.«414918_j3358664426109_3_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Lin2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: everything below is stated at this parameter
variable (V : (c : Dev nD) → (b : Ref sig .tc) → Buf (Elt F) ((c : Thread nD τ).loc b))

/-! # The second linear layer (region 2): x · Wᵀ + b on a grid of 16 row blocks -/

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0 (the row block of x) holds its block at every point, for any proof data whose array is `V`'s and
    whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1 (the whole weight) holds its block at every point although it is fetched at the first point
    only: unfetched, its block index has not moved. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2 (the bias row), likewise fetched at the first point only, holds its block at every point. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each buffer whole -/

abbrev r2_0 : Rect S512x1024 := Rect.unit (s := S512x1024) ![0, 0] S512x1024.size inb_S512x1024_S512x1024_0_0
abbrev r2_1 : Rect S1024x1024 := Rect.unit (s := S1024x1024) ![0, 0] S1024x1024.size inb_S1024x1024_S1024x1024_0_0
abbrev r2_2 : Rect S1x1024 := Rect.unit (s := S1x1024) ![0, 0] S1x1024.size inb_S1x1024_S1x1024_0_0
abbrev r2_3 : Rect S512x1024 := Rect.unit (s := S512x1024) ![0, 0] S512x1024.size inb_S512x1024_S512x1024_0_0

/-! ## What the body leaves in the output window's buffer -/

/-- Window 3's staging buffer after the body, from the three input blocks: its one store, whole, of the payload
    (the product of the x block with the transposed weight, plus the bias row, rounded to the output type). -/
def out2_3 (x0 : Vec F S512x1024 .bf16) (x1 : Vec F S1024x1024 .bf16) (x2 : Vec F S1x1024 .f32) : Vec F S512x1024 .f32 :=
  View.canon [⟨r2_3, k2_pay1 (View.ld x0 r2_0) (View.ld x1 r2_1) (View.ld x2 r2_2)⟩]

/-- The one store is the whole buffer, so it covers it. -/
theorem cover2_3 (p0 : Vec F S512x1024 .f32) (y : S512x1024.Idx) :
    ∃ pc ∈ ([⟨r2_3, p0⟩] : List (View.Piece (Elt F) S512x1024 .f32)), y ∈ pc.1.set :=
  View.cover_of_tiled [⟨r2_3, p0⟩] S512x1024.size (by rfl) y

/-! ## The body's triple -/

set_option maxHeartbeats 1000000 in
/-- The body on whole staging memrefs, the three inputs' at read contents `x0 x1 x2` and the output's at anything,
    runs to the continuation holding the inputs' as they were and the output's at `out2_3 x0 x1 x2`. The body also
    loads the output buffer before storing it whole; what it loads is not used. -/
theorem sound_kernel2 (c : Dev nD) (E : Set ℕ) (i : grid2.Coords)
    (arg1 : Memref sig .tc .vmem S512x1024 .bf16) (harg1 : arg1.IsWhole)
    (arg2 : Memref sig .tc .vmem S1024x1024 .bf16) (harg2 : arg2.IsWhole)
    (arg3 : Memref sig .tc .vmem S1x1024 .f32) (harg3 : arg3.IsWhole)
    (arg4 : Memref sig .tc .vmem S512x1024 .f32) (harg4 : arg4.IsWhole)
    (x0 : Vec F S512x1024 .bf16) (x1 : Vec F S1024x1024 .bf16) (x2 : Vec F S1x1024 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out2_3 x0 x1 x2)) -∗ K ⟨⟩))
      ⊢ wp frame (wpE (defs₀ (F := F)) Variants.none c none) E (cc2__linear_kernel i arg1 harg1 arg2 harg2 arg3 harg3 arg4 harg4) K := by
  simp only [cc2__linear_kernel_eq_skeleton]; unfold cc2__linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-! ## The pipeline's proof data -/

/-- The proof data of pipeline 2 on core `c`: the arrays as the region finds them (`V`); after the body at point
    `t` each input's buffer at its block and the output's at `out2_3` of the input blocks; the invariant is the scoped
    rest and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = out2_3 (iblk2 V c 0 t) (iblk2 V c 1 t) (iblk2 V c 2 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' memrefs hold their blocks, so the body's triple applies; the invariant and
    the core's debts pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Lin2

end
-- ==== Proof.K.AttnConds.lean ====
import proofs.«414918_j3358664426109_3_alg».proof.Proof.Gen.Kernel.Launch
import proofs.«414918_j3358664426109_3_alg».proof.Proof.Gen.Kernel.Skeleton
import proofs.«414918_j3358664426109_3_alg».proof.Proof.Gen.Kernel.Points
import Idealize.ShloMosaic.Lib.Pipeline.FrameBody
import Idealize.ShloMosaic.Lib.Ring
import Idealize.ShloMosaic.Lib.Tactic

noncomputable section

namespace Cert.Kernel.Attn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev cond1_0 (i : grid1.Coords) : Prop := (Scalar.cmpi .ne (Scalar.extui (Scalar.cmpi .eq (BitVec.ofNat 32 (i 2).val) 0#32)) 0#32) = 1#1
abbrev cond1_1 (i : grid1.Coords) : Prop := (Scalar.cmpi .ne (Scalar.extui (Scalar.cmpi .slt (BitVec.ofNat 32 (i 2).val) (BitVec.ofNat 32 (i 1).val))) 0#32) = 1#1
abbrev cond1_2 (i : grid1.Coords) : Prop := (Scalar.cmpi .ne (Scalar.extui (Scalar.cmpi .eq (BitVec.ofNat 32 (i 2).val) (BitVec.ofNat 32 (i 1).val))) 0#32) = 1#1
abbrev cond1_3 (i : grid1.Coords) : Prop := k1_cond4 i = 1#1

theorem hcond1_0 : ∀ t : Fin cfg1.N, cond1_0 (grid1.coords t) ↔ t.val % 4 = 0 :=
  (by decide +kernel : ∀ t : Fin grid1.N, cond1_0 (grid1.coords t) ↔ t.val % 4 = 0)

theorem hcond1_1 : ∀ t : Fin cfg1.N, cond1_1 (grid1.coords t) ↔ t.val % 4 < t.val / 4 % 4 :=
  (by decide +kernel : ∀ t : Fin grid1.N, cond1_1 (grid1.coords t) ↔ t.val % 4 < t.val / 4 % 4)

theorem hcond1_2 : ∀ t : Fin cfg1.N, cond1_2 (grid1.coords t) ↔ t.val % 4 = t.val / 4 % 4 :=
  (by decide +kernel : ∀ t : Fin grid1.N, cond1_2 (grid1.coords t) ↔ t.val % 4 = t.val / 4 % 4)

theorem hcond1_3 : ∀ t : Fin cfg1.N, cond1_3 (grid1.coords t) ↔ t.val % 4 = 3 :=
  (by decide +kernel : ∀ t : Fin grid1.N, cond1_3 (grid1.coords t) ↔ t.val % 4 = 3)

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel

theorem idleAt1_3 : ∀ t : Fin cfg1.N, ¬cond1_3 (grid1.coords t) → cfg1.idle 3 (grid1.coords t) = true := by decide +kernel

theorem noFlush1_3 : ∀ t : Fin cfg1.N, ¬cond1_3 (grid1.coords t) → (cfg1.win 3).flush t = false := by decide +kernel

theorem liveAt1_3 : ∀ t : Fin cfg1.N, cond1_3 (grid1.coords t) → cfg1.idle 3 (grid1.coords t) = false := by decide +kernel

abbrev VO1_3 : View sig .tc .vmem S512x1024 .bf16 := (Memref.whole cc1_stg3_0 : Memref sig .tc .vmem S512x1024 .bf16).view

abbrev ms1_0 (t : Fin cfg1.N) : Memref sig .tc .vmem S512x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S512x1024 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S512x1024 .bf16 := win1_3.stage (cfg1.slots t 3)
abbrev hs1_3 (t : Fin cfg1.N) : (ms1_3 t).IsWhole := hstage1_3 ((cfg1.slots t 3).cast nbuf1_3)

abbrev scM1_0 : Memref sig .tc .vmem S512x16 .f32 := Memref.whole cc1_scratch0
abbrev scM1_1 : Memref sig .tc .vmem S512x16 .f32 := Memref.whole cc1_scratch1
abbrev scM1_2 : Memref sig .tc .vmem S512x1024 .f32 := Memref.whole cc1_scratch2
abbrev VS1_0 : View sig .tc .vmem S512x16 .f32 := scM1_0.view
abbrev VS1_1 : View sig .tc .vmem S512x16 .f32 := scM1_1.view
abbrev VS1_2 : View sig .tc .vmem S512x1024 .f32 := scM1_2.view

end Cert.Kernel.Attn

end
-- ==== Proof.K.AttnRunA.lean ====
import proofs.«414918_j3358664426109_3_alg».proof.Proof.K.AttnConds

set_option maxRecDepth 16384

noncomputable section

namespace Cert.Kernel.Attn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 40000000 in
/-- The body where the key tile is the first and lies before the query tile (ki = 0 < qi): the scratch is reset, then every head takes an unmasked step. What the stores leave in the three scratch buffers, as pieces (last first), with the proof that the body runs to the continuation holding the inputs and the idle output block as they were and the scratch with those pieces written. -/
noncomputable def kernelRun1_A (c : Dev nD) (i : grid1.Coords) (arg3 : Memref sig .tc .vmem S512x1024 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S512x16 .f32) (harg7 : arg7.IsWhole) (arg8 : Memref sig .tc .vmem S512x16 .f32) (harg8 : arg8.IsWhole) (arg9 : Memref sig .tc .vmem S512x1024 .f32) (harg9 : arg9.IsWhole) (hc0 : cond1_0 i) (hc1 : cond1_1 i) (hc2 : ¬cond1_2 i) (hc3 : ¬cond1_3 i)
    (x0 x1 x2 : Vec F S512x1024 .bf16) :
    Σ' (LS0 : List (View.Piece (Elt F) S512x16 .f32)), Σ' (LS1 : List (View.Piece (Elt F) S512x16 .f32)), { LS2 : List (View.Piece (Elt F) S512x1024 .f32) //
      ∀ (xi3 : Vec F S512x1024 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3
            ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg3 fullShare x0 ∗ owns (c : Thread nD τ) arg4 fullShare x1 ∗ owns (c : Thread nD τ) arg5 fullShare x2
                ∗ owns (c : Thread nD τ) arg6 fullShare xi3
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1_kernel i arg3 harg3 arg4 harg4 arg5 harg5 arg6 harg6 arg7 harg7 arg8 harg8 arg9 harg9) K } := by
  refine ⟨?_, ?_, ?_, fun xi3 E K => ?run⟩
  case run =>
    simp only [cc1_kernel_eq_skeleton]; unfold cc1_kernel_skel
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, ⟨%ds2, %fs2, -, HS2⟩, Hk⟩
    obtain rfl := harg3.eq_unread hf0; obtain rfl := harg4.eq_unread hf1; obtain rfl := harg5.eq_unread hf2; obtain rfl := harg6.eq_unread hf3
    sl_exec (disch := first | exact hc0 | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]; · iexists _; iexact HS0
    isplitl [HS1]; · iexists _; iexact HS1
    iexists _; iexact HS2

end Cert.Kernel.Attn

end
-- ==== Proof.K.AttnRunB.lean ====
import proofs.«414918_j3358664426109_3_alg».proof.Proof.K.AttnConds

set_option maxRecDepth 16384

noncomputable section

namespace Cert.Kernel.Attn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 40000000 in
/-- The body where the key tile is the first and is the query tile (ki = 0 = qi): the scratch is reset, then every head takes a step under the causal mask. -/
noncomputable def kernelRun1_B (c : Dev nD) (i : grid1.Coords) (arg3 : Memref sig .tc .vmem S512x1024 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S512x16 .f32) (harg7 : arg7.IsWhole) (arg8 : Memref sig .tc .vmem S512x16 .f32) (harg8 : arg8.IsWhole) (arg9 : Memref sig .tc .vmem S512x1024 .f32) (harg9 : arg9.IsWhole) (hc0 : cond1_0 i) (hc1 : ¬cond1_1 i) (hc2 : cond1_2 i) (hc3 : ¬cond1_3 i)
    (x0 x1 x2 : Vec F S512x1024 .bf16) :
    Σ' (LS0 : List (View.Piece (Elt F) S512x16 .f32)), Σ' (LS1 : List (View.Piece (Elt F) S512x16 .f32)), { LS2 : List (View.Piece (Elt F) S512x1024 .f32) //
      ∀ (xi3 : Vec F S512x1024 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3
            ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg3 fullShare x0 ∗ owns (c : Thread nD τ) arg4 fullShare x1 ∗ owns (c : Thread nD τ) arg5 fullShare x2
                ∗ owns (c : Thread nD τ) arg6 fullShare xi3
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1_kernel i arg3 harg3 arg4 harg4 arg5 harg5 arg6 harg6 arg7 harg7 arg8 harg8 arg9 harg9) K } := by
  refine ⟨?_, ?_, ?_, fun xi3 E K => ?run⟩
  case run =>
    simp only [cc1_kernel_eq_skeleton]; unfold cc1_kernel_skel
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, ⟨%ds2, %fs2, -, HS2⟩, Hk⟩
    obtain rfl := harg3.eq_unread hf0; obtain rfl := harg4.eq_unread hf1; obtain rfl := harg5.eq_unread hf2; obtain rfl := harg6.eq_unread hf3
    sl_exec (disch := first | exact hc0 | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]; · iexists _; iexact HS0
    isplitl [HS1]; · iexists _; iexact HS1
    iexists _; iexact HS2

end Cert.Kernel.Attn

end
-- ==== Proof.K.AttnRunC.lean ====
import proofs.«414918_j3358664426109_3_alg».proof.Proof.K.AttnConds

set_option maxRecDepth 16384

noncomputable section

namespace Cert.Kernel.Attn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 40000000 in
/-- The body at an interior key tile (0 < ki < qi): every head takes an unmasked step from what the point before left in the scratch. -/
noncomputable def kernelRun1_C (c : Dev nD) (i : grid1.Coords) (arg3 : Memref sig .tc .vmem S512x1024 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S512x16 .f32) (harg7 : arg7.IsWhole) (arg8 : Memref sig .tc .vmem S512x16 .f32) (harg8 : arg8.IsWhole) (arg9 : Memref sig .tc .vmem S512x1024 .f32) (harg9 : arg9.IsWhole) (hc0 : ¬cond1_0 i) (hc1 : cond1_1 i) (hc2 : ¬cond1_2 i) (hc3 : ¬cond1_3 i)
    (x0 x1 x2 : Vec F S512x1024 .bf16) (xs0 xs1 : Vec F S512x16 .f32) (xs2 : Vec F S512x1024 .f32) :
    Σ' (LS0 : List (View.Piece (Elt F) S512x16 .f32)), Σ' (LS1 : List (View.Piece (Elt F) S512x16 .f32)), { LS2 : List (View.Piece (Elt F) S512x1024 .f32) //
      ∀ (xi3 : Vec F S512x1024 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3
            ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2
                ∗ owns (c : Thread nD τ) arg6 fullShare xi3
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1_kernel i arg3 harg3 arg4 harg4 arg5 harg5 arg6 harg6 arg7 harg7 arg8 harg8 arg9 harg9) K } := by
  refine ⟨?_, ?_, ?_, fun xi3 E K => ?run⟩
  case run =>
    simp only [cc1_kernel_eq_skeleton]; unfold cc1_kernel_skel
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg6.eq_unread hf3
    obtain rfl := harg7.eq_unread hfs0; obtain rfl := harg8.eq_unread hfs1; obtain rfl := harg9.eq_unread hfs2
    sl_exec (disch := first | exact hc0 | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]; · iexists _; iexact HS0
    isplitl [HS1]; · iexists _; iexact HS1
    iexists _; iexact HS2

end Cert.Kernel.Attn

end
-- ==== Proof.K.AttnRunD.lean ====
import proofs.«414918_j3358664426109_3_alg».proof.Proof.K.AttnConds

set_option maxRecDepth 16384

noncomputable section

namespace Cert.Kernel.Attn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 40000000 in
/-- The body at the diagonal tile that is not the last (0 < ki = qi < 3): every head takes a step under the causal mask. -/
noncomputable def kernelRun1_D (c : Dev nD) (i : grid1.Coords) (arg3 : Memref sig .tc .vmem S512x1024 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S512x16 .f32) (harg7 : arg7.IsWhole) (arg8 : Memref sig .tc .vmem S512x16 .f32) (harg8 : arg8.IsWhole) (arg9 : Memref sig .tc .vmem S512x1024 .f32) (harg9 : arg9.IsWhole) (hc0 : ¬cond1_0 i) (hc1 : ¬cond1_1 i) (hc2 : cond1_2 i) (hc3 : ¬cond1_3 i)
    (x0 x1 x2 : Vec F S512x1024 .bf16) (xs0 xs1 : Vec F S512x16 .f32) (xs2 : Vec F S512x1024 .f32) :
    Σ' (LS0 : List (View.Piece (Elt F) S512x16 .f32)), Σ' (LS1 : List (View.Piece (Elt F) S512x16 .f32)), { LS2 : List (View.Piece (Elt F) S512x1024 .f32) //
      ∀ (xi3 : Vec F S512x1024 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3
            ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2
                ∗ owns (c : Thread nD τ) arg6 fullShare xi3
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1_kernel i arg3 harg3 arg4 harg4 arg5 harg5 arg6 harg6 arg7 harg7 arg8 harg8 arg9 harg9) K } := by
  refine ⟨?_, ?_, ?_, fun xi3 E K => ?run⟩
  case run =>
    simp only [cc1_kernel_eq_skeleton]; unfold cc1_kernel_skel
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg6.eq_unread hf3
    obtain rfl := harg7.eq_unread hfs0; obtain rfl := harg8.eq_unread hfs1; obtain rfl := harg9.eq_unread hfs2
    sl_exec (disch := first | exact hc0 | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]; · iexists _; iexact HS0
    isplitl [HS1]; · iexists _; iexact HS1
    iexists _; iexact HS2

end Cert.Kernel.Attn

end
-- ==== Proof.K.AttnRunE.lean ====
import proofs.«414918_j3358664426109_3_alg».proof.Proof.K.AttnConds

set_option maxRecDepth 16384

noncomputable section

namespace Cert.Kernel.Attn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 40000000 in
/-- The body at the last diagonal tile (ki = qi = 3): every head takes a masked step, then the accumulator over the running sum is stored into the output block, head by head. -/
noncomputable def kernelRun1_E (c : Dev nD) (i : grid1.Coords) (arg3 : Memref sig .tc .vmem S512x1024 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S512x16 .f32) (harg7 : arg7.IsWhole) (arg8 : Memref sig .tc .vmem S512x16 .f32) (harg8 : arg8.IsWhole) (arg9 : Memref sig .tc .vmem S512x1024 .f32) (harg9 : arg9.IsWhole) (hc0 : ¬cond1_0 i) (hc1 : ¬cond1_1 i) (hc2 : cond1_2 i) (hc3 : cond1_3 i)
    (x0 x1 x2 : Vec F S512x1024 .bf16) (xs0 xs1 : Vec F S512x16 .f32) (xs2 : Vec F S512x1024 .f32) :
    Σ' (L3 : List (View.Piece (Elt F) S512x1024 .bf16)), Σ' (LS0 : List (View.Piece (Elt F) S512x16 .f32)), Σ' (LS1 : List (View.Piece (Elt F) S512x16 .f32)), { LS2 : List (View.Piece (Elt F) S512x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d)
            ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2
                ∗ (∃ f, arg6.view.loc (c : Thread nD τ) ↦[arg6.view.set]{fullShare} arg6.view.writes (Elt F) f L3)
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1_kernel i arg3 harg3 arg4 harg4 arg5 harg5 arg6 harg6 arg7 harg7 arg8 harg8 arg9 harg9) K } := by
  refine ⟨?_, ?_, ?_, ?_, fun E K => ?run⟩
  case run =>
    simp only [cc1_kernel_eq_skeleton]; unfold cc1_kernel_skel
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2;
    obtain rfl := harg7.eq_unread hfs0; obtain rfl := harg8.eq_unread hfs1; obtain rfl := harg9.eq_unread hfs2
    sl_exec (disch := first | exact hc0 | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [HS0]; · iexists _; iexact HS0
    isplitl [HS1]; · iexists _; iexact HS1
    iexists _; iexact HS2

end Cert.Kernel.Attn

end
-- ==== Proof.K.AttnRunF.lean ====
import proofs.«414918_j3358664426109_3_alg».proof.Proof.K.AttnConds

set_option maxRecDepth 16384

noncomputable section

namespace Cert.Kernel.Attn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 40000000 in
/-- The body at a key tile past the query tile that is not the last (qi < ki < 3): nothing is loaded or stored. -/
theorem kernelRun1_F (c : Dev nD) (i : grid1.Coords) (arg3 : Memref sig .tc .vmem S512x1024 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S512x16 .f32) (harg7 : arg7.IsWhole) (arg8 : Memref sig .tc .vmem S512x16 .f32) (harg8 : arg8.IsWhole) (arg9 : Memref sig .tc .vmem S512x1024 .f32) (harg9 : arg9.IsWhole) (hc0 : ¬cond1_0 i) (hc1 : ¬cond1_1 i) (hc2 : ¬cond1_2 i) (hc3 : ¬cond1_3 i)
    (x0 x1 x2 : Vec F S512x1024 .bf16) (xs0 xs1 : Vec F S512x16 .f32) (xs2 : Vec F S512x1024 .f32) :
    ∀ (xi3 : Vec F S512x1024 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3
            ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2
                ∗ owns (c : Thread nD τ) arg6 fullShare xi3
                ∗ owns (c : Thread nD τ) arg7 fullShare xs0 ∗ owns (c : Thread nD τ) arg8 fullShare xs1 ∗ owns (c : Thread nD τ) arg9 fullShare xs2) -∗ K ⟨⟩))
          ⊢ wp frame (wpE (defs₀ (F := F)) Variants.none c none) E (cc1_kernel i arg3 harg3 arg4 harg4 arg5 harg5 arg6 harg6 arg7 harg7 arg8 harg8 arg9 harg9) K := by
  intro xi3 E K
  simp only [cc1_kernel_eq_skeleton]; unfold cc1_kernel_skel
  unfold owns
  iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, Hk⟩
  obtain rfl := harg3.eq_unread hf0; obtain rfl := harg4.eq_unread hf1; obtain rfl := harg5.eq_unread hf2; obtain rfl := harg6.eq_unread hf3
  obtain rfl := harg7.eq_unread hfs0; obtain rfl := harg8.eq_unread hfs1; obtain rfl := harg9.eq_unread hfs2
  sl_exec (disch := first | exact hc0 | exact hc1 | exact hc2 | exact hc3)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [HS0]
  · iexists _; isplitr; · ipureintro; exact harg7.read_unread _
    iexact HS0
  isplitl [HS1]
  · iexists _; isplitr; · ipureintro; exact harg8.read_unread _
    iexact HS1
  iexists _; isplitr; · ipureintro; exact harg9.read_unread _
  iexact HS2

end Cert.Kernel.Attn

end
-- ==== Proof.K.AttnRunG.lean ====
import proofs.«414918_j3358664426109_3_alg».proof.Proof.K.AttnConds

set_option maxRecDepth 16384

noncomputable section

namespace Cert.Kernel.Attn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 40000000 in
/-- The body at the last key tile past the query tile (qi < ki = 3): the scratch is only read; the accumulator over the running sum is stored into the output block, head by head. -/
noncomputable def kernelRun1_G (c : Dev nD) (i : grid1.Coords) (arg3 : Memref sig .tc .vmem S512x1024 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S512x16 .f32) (harg7 : arg7.IsWhole) (arg8 : Memref sig .tc .vmem S512x16 .f32) (harg8 : arg8.IsWhole) (arg9 : Memref sig .tc .vmem S512x1024 .f32) (harg9 : arg9.IsWhole) (hc0 : ¬cond1_0 i) (hc1 : ¬cond1_1 i) (hc2 : ¬cond1_2 i) (hc3 : cond1_3 i)
    (x0 x1 x2 : Vec F S512x1024 .bf16) (xs0 xs1 : Vec F S512x16 .f32) (xs2 : Vec F S512x1024 .f32) :
    { L3 : List (View.Piece (Elt F) S512x1024 .bf16) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d)
            ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2
                ∗ (∃ f, arg6.view.loc (c : Thread nD τ) ↦[arg6.view.set]{fullShare} arg6.view.writes (Elt F) f L3)
                ∗ owns (c : Thread nD τ) arg7 fullShare xs0 ∗ owns (c : Thread nD τ) arg8 fullShare xs1 ∗ owns (c : Thread nD τ) arg9 fullShare xs2) -∗ K ⟨⟩))
          ⊢ wp frame (wpE (defs₀ (F := F)) Variants.none c none) E (cc1_kernel i arg3 harg3 arg4 harg4 arg5 harg5 arg6 harg6 arg7 harg7 arg8 harg8 arg9 harg9) K } := by
  refine ⟨?_, fun E K => ?run⟩
  case run =>
    simp only [cc1_kernel_eq_skeleton]; unfold cc1_kernel_skel
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2;
    obtain rfl := harg7.eq_unread hfs0; obtain rfl := harg8.eq_unread hfs1; obtain rfl := harg9.eq_unread hfs2
    sl_exec (disch := first | exact hc0 | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [HS0]
    · iexists _; isplitr; · ipureintro; exact harg7.read_unread _
      iexact HS0
    isplitl [HS1]
    · iexists _; isplitr; · ipureintro; exact harg8.read_unread _
      iexact HS1
    iexists _; isplitr; · ipureintro; exact harg9.read_unread _
    iexact HS2

end Cert.Kernel.Attn

end
-- ==== Proof.K.AttnOuts.lean ====
import proofs.«414918_j3358664426109_3_alg».proof.Proof.K.AttnConds
import proofs.«414918_j3358664426109_3_alg».proof.Proof.K.AttnRunA
import proofs.«414918_j3358664426109_3_alg».proof.Proof.K.AttnRunB
import proofs.«414918_j3358664426109_3_alg».proof.Proof.K.AttnRunC
import proofs.«414918_j3358664426109_3_alg».proof.Proof.K.AttnRunD
import proofs.«414918_j3358664426109_3_alg».proof.Proof.K.AttnRunE
import proofs.«414918_j3358664426109_3_alg».proof.Proof.K.AttnRunF
import proofs.«414918_j3358664426109_3_alg».proof.Proof.K.AttnRunG

noncomputable section

namespace Cert.Kernel.Attn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

section Cases
variable (c : Dev nD) (i : grid1.Coords) (arg3 : Memref sig .tc .vmem S512x1024 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S512x16 .f32) (harg7 : arg7.IsWhole) (arg8 : Memref sig .tc .vmem S512x16 .f32) (harg8 : arg8.IsWhole) (arg9 : Memref sig .tc .vmem S512x1024 .f32) (harg9 : arg9.IsWhole)

section A
variable (hc0 : cond1_0 i) (hc1 : cond1_1 i) (hc2 : ¬cond1_2 i) (hc3 : ¬cond1_3 i) (x0 x1 x2 : Vec F S512x1024 .bf16)

theorem scover1_A_0 (y : S512x16.Idx) : ∃ pc ∈ (kernelRun1_A c i arg3 harg3 arg4 harg4 arg5 harg5 arg6 harg6 arg7 harg7 arg8 harg8 arg9 harg9 hc0 hc1 hc2 hc3 x0 x1 x2).1, y ∈ pc.1.set :=
  View.cover_of_wholeMem _ (by sl_whole_mem) y
def sout1_A_0 : Vec F S512x16 .f32 :=
  VS1_0.read (Elt F) (VS1_0.writes (Elt F) VS1_0.junk (kernelRun1_A c i arg3 harg3 arg4 harg4 arg5 harg5 arg6 harg6 arg7 harg7 arg8 harg8 arg9 harg9 hc0 hc1 hc2 hc3 x0 x1 x2).1)
theorem scover1_A_1 (y : S512x16.Idx) : ∃ pc ∈ (kernelRun1_A c i arg3 harg3 arg4 harg4 arg5 harg5 arg6 harg6 arg7 harg7 arg8 harg8 arg9 harg9 hc0 hc1 hc2 hc3 x0 x1 x2).2.1, y ∈ pc.1.set :=
  View.cover_of_wholeMem _ (by sl_whole_mem) y
def sout1_A_1 : Vec F S512x16 .f32 :=
  VS1_1.read (Elt F) (VS1_1.writes (Elt F) VS1_1.junk (kernelRun1_A c i arg3 harg3 arg4 harg4 arg5 harg5 arg6 harg6 arg7 harg7 arg8 harg8 arg9 harg9 hc0 hc1 hc2 hc3 x0 x1 x2).2.1)
theorem scover1_A_2 (y : S512x1024.Idx) : ∃ pc ∈ (kernelRun1_A c i arg3 harg3 arg4 harg4 arg5 harg5 arg6 harg6 arg7 harg7 arg8 harg8 arg9 harg9 hc0 hc1 hc2 hc3 x0 x1 x2).2.2.1, y ∈ pc.1.set :=
  View.cover_of_wholeMem _ (by sl_whole_mem) y
def sout1_A_2 : Vec F S512x1024 .f32 :=
  VS1_2.read (Elt F) (VS1_2.writes (Elt F) VS1_2.junk (kernelRun1_A c i arg3 harg3 arg4 harg4 arg5 harg5 arg6 harg6 arg7 harg7 arg8 harg8 arg9 harg9 hc0 hc1 hc2 hc3 x0 x1 x2).2.2.1)

end A

section B
variable (hc0 : cond1_0 i) (hc1 : ¬cond1_1 i) (hc2 : cond1_2 i) (hc3 : ¬cond1_3 i) (x0 x1 x2 : Vec F S512x1024 .bf16)

theorem scover1_B_0 (y : S512x16.Idx) : ∃ pc ∈ (kernelRun1_B c i arg3 harg3 arg4 harg4 arg5 harg5 arg6 harg6 arg7 harg7 arg8 harg8 arg9 harg9 hc0 hc1 hc2 hc3 x0 x1 x2).1, y ∈ pc.1.set :=
  View.cover_of_wholeMem _ (by sl_whole_mem) y
def sout1_B_0 : Vec F S512x16 .f32 :=
  VS1_0.read (Elt F) (VS1_0.writes (Elt F) VS1_0.junk (kernelRun1_B c i arg3 harg3 arg4 harg4 arg5 harg5 arg6 harg6 arg7 harg7 arg8 harg8 arg9 harg9 hc0 hc1 hc2 hc3 x0 x1 x2).1)
theorem scover1_B_1 (y : S512x16.Idx) : ∃ pc ∈ (kernelRun1_B c i arg3 harg3 arg4 harg4 arg5 harg5 arg6 harg6 arg7 harg7 arg8 harg8 arg9 harg9 hc0 hc1 hc2 hc3 x0 x1 x2).2.1, y ∈ pc.1.set :=
  View.cover_of_wholeMem _ (by sl_whole_mem) y
def sout1_B_1 : Vec F S512x16 .f32 :=
  VS1_1.read (Elt F) (VS1_1.writes (Elt F) VS1_1.junk (kernelRun1_B c i arg3 harg3 arg4 harg4 arg5 harg5 arg6 harg6 arg7 harg7 arg8 harg8 arg9 harg9 hc0 hc1 hc2 hc3 x0 x1 x2).2.1)
theorem scover1_B_2 (y : S512x1024.Idx) : ∃ pc ∈ (kernelRun1_B c i arg3 harg3 arg4 harg4 arg5 harg5 arg6 harg6 arg7 harg7 arg8 harg8 arg9 harg9 hc0 hc1 hc2 hc3 x0 x1 x2).2.2.1, y ∈ pc.1.set :=
  View.cover_of_wholeMem _ (by sl_whole_mem) y
def sout1_B_2 : Vec F S512x1024 .f32 :=
  VS1_2.read (Elt F) (VS1_2.writes (Elt F) VS1_2.junk (kernelRun1_B c i arg3 harg3 arg4 harg4 arg5 harg5 arg6 harg6 arg7 harg7 arg8 harg8 arg9 harg9 hc0 hc1 hc2 hc3 x0 x1 x2).2.2.1)

end B

section C
variable (hc0 : ¬cond1_0 i) (hc1 : cond1_1 i) (hc2 : ¬cond1_2 i) (hc3 : ¬cond1_3 i) (x0 x1 x2 : Vec F S512x1024 .bf16) (xs0 xs1 : Vec F S512x16 .f32) (xs2 : Vec F S512x1024 .f32)

theorem scover1_C_0 (y : S512x16.Idx) : ∃ pc ∈ (kernelRun1_C c i arg3 harg3 arg4 harg4 arg5 harg5 arg6 harg6 arg7 harg7 arg8 harg8 arg9 harg9 hc0 hc1 hc2 hc3 x0 x1 x2 xs0 xs1 xs2).1, y ∈ pc.1.set :=
  View.cover_of_tiledL (kernelRun1_C c i arg3 harg3 arg4 harg4 arg5 harg5 arg6 harg6 arg7 harg7 arg8 harg8 arg9 harg9 hc0 hc1 hc2 hc3 x0 x1 x2 xs0 xs1 xs2).1 S512x1.size (by sl_kernel_rfl) y
def sout1_C_0 : Vec F S512x16 .f32 :=
  VS1_0.read (Elt F) (VS1_0.writes (Elt F) VS1_0.junk (kernelRun1_C c i arg3 harg3 arg4 harg4 arg5 harg5 arg6 harg6 arg7 harg7 arg8 harg8 arg9 harg9 hc0 hc1 hc2 hc3 x0 x1 x2 xs0 xs1 xs2).1)
theorem scover1_C_1 (y : S512x16.Idx) : ∃ pc ∈ (kernelRun1_C c i arg3 harg3 arg4 harg4 arg5 harg5 arg6 harg6 arg7 harg7 arg8 harg8 arg9 harg9 hc0 hc1 hc2 hc3 x0 x1 x2 xs0 xs1 xs2).2.1, y ∈ pc.1.set :=
  View.cover_of_tiledL (kernelRun1_C c i arg3 harg3 arg4 harg4 arg5 harg5 arg6 harg6 arg7 harg7 arg8 harg8 arg9 harg9 hc0 hc1 hc2 hc3 x0 x1 x2 xs0 xs1 xs2).2.1 S512x1.size (by sl_kernel_rfl) y
def sout1_C_1 : Vec F S512x16 .f32 :=
  VS1_1.read (Elt F) (VS1_1.writes (Elt F) VS1_1.junk (kernelRun1_C c i arg3 harg3 arg4 harg4 arg5 harg5 arg6 harg6 arg7 harg7 arg8 harg8 arg9 harg9 hc0 hc1 hc2 hc3 x0 x1 x2 xs0 xs1 xs2).2.1)
theorem scover1_C_2 (y : S512x1024.Idx) : ∃ pc ∈ (kernelRun1_C c i arg3 harg3 arg4 harg4 arg5 harg5 arg6 harg6 arg7 harg7 arg8 harg8 arg9 harg9 hc0 hc1 hc2 hc3 x0 x1 x2 xs0 xs1 xs2).2.2.1, y ∈ pc.1.set :=
  View.cover_of_tiledL (kernelRun1_C c i arg3 harg3 arg4 harg4 arg5 harg5 arg6 harg6 arg7 harg7 arg8 harg8 arg9 harg9 hc0 hc1 hc2 hc3 x0 x1 x2 xs0 xs1 xs2).2.2.1 S512x64.size (by sl_kernel_rfl) y
def sout1_C_2 : Vec F S512x1024 .f32 :=
  VS1_2.read (Elt F) (VS1_2.writes (Elt F) VS1_2.junk (kernelRun1_C c i arg3 harg3 arg4 harg4 arg5 harg5 arg6 harg6 arg7 harg7 arg8 harg8 arg9 harg9 hc0 hc1 hc2 hc3 x0 x1 x2 xs0 xs1 xs2).2.2.1)

end C

section D
variable (hc0 : ¬cond1_0 i) (hc1 : ¬cond1_1 i) (hc2 : cond1_2 i) (hc3 : ¬cond1_3 i) (x0 x1 x2 : Vec F S512x1024 .bf16) (xs0 xs1 : Vec F S512x16 .f32) (xs2 : Vec F S512x1024 .f32)

theorem scover1_D_0 (y : S512x16.Idx) : ∃ pc ∈ (kernelRun1_D c i arg3 harg3 arg4 harg4 arg5 harg5 arg6 harg6 arg7 harg7 arg8 harg8 arg9 harg9 hc0 hc1 hc2 hc3 x0 x1 x2 xs0 xs1 xs2).1, y ∈ pc.1.set :=
  View.cover_of_tiledL (kernelRun1_D c i arg3 harg3 arg4 harg4 arg5 harg5 arg6 harg6 arg7 harg7 arg8 harg8 arg9 harg9 hc0 hc1 hc2 hc3 x0 x1 x2 xs0 xs1 xs2).1 S512x1.size (by sl_kernel_rfl) y
def sout1_D_0 : Vec F S512x16 .f32 :=
  VS1_0.read (Elt F) (VS1_0.writes (Elt F) VS1_0.junk (kernelRun1_D c i arg3 harg3 arg4 harg4 arg5 harg5 arg6 harg6 arg7 harg7 arg8 harg8 arg9 harg9 hc0 hc1 hc2 hc3 x0 x1 x2 xs0 xs1 xs2).1)
theorem scover1_D_1 (y : S512x16.Idx) : ∃ pc ∈ (kernelRun1_D c i arg3 harg3 arg4 harg4 arg5 harg5 arg6 harg6 arg7 harg7 arg8 harg8 arg9 harg9 hc0 hc1 hc2 hc3 x0 x1 x2 xs0 xs1 xs2).2.1, y ∈ pc.1.set :=
  View.cover_of_tiledL (kernelRun1_D c i arg3 harg3 arg4 harg4 arg5 harg5 arg6 harg6 arg7 harg7 arg8 harg8 arg9 harg9 hc0 hc1 hc2 hc3 x0 x1 x2 xs0 xs1 xs2).2.1 S512x1.size (by sl_kernel_rfl) y
def sout1_D_1 : Vec F S512x16 .f32 :=
  VS1_1.read (Elt F) (VS1_1.writes (Elt F) VS1_1.junk (kernelRun1_D c i arg3 harg3 arg4 harg4 arg5 harg5 arg6 harg6 arg7 harg7 arg8 harg8 arg9 harg9 hc0 hc1 hc2 hc3 x0 x1 x2 xs0 xs1 xs2).2.1)
theorem scover1_D_2 (y : S512x1024.Idx) : ∃ pc ∈ (kernelRun1_D c i arg3 harg3 arg4 harg4 arg5 harg5 arg6 harg6 arg7 harg7 arg8 harg8 arg9 harg9 hc0 hc1 hc2 hc3 x0 x1 x2 xs0 xs1 xs2).2.2.1, y ∈ pc.1.set :=
  View.cover_of_tiledL (kernelRun1_D c i arg3 harg3 arg4 harg4 arg5 harg5 arg6 harg6 arg7 harg7 arg8 harg8 arg9 harg9 hc0 hc1 hc2 hc3 x0 x1 x2 xs0 xs1 xs2).2.2.1 S512x64.size (by sl_kernel_rfl) y
def sout1_D_2 : Vec F S512x1024 .f32 :=
  VS1_2.read (Elt F) (VS1_2.writes (Elt F) VS1_2.junk (kernelRun1_D c i arg3 harg3 arg4 harg4 arg5 harg5 arg6 harg6 arg7 harg7 arg8 harg8 arg9 harg9 hc0 hc1 hc2 hc3 x0 x1 x2 xs0 xs1 xs2).2.2.1)

end D

section E
variable (hc0 : ¬cond1_0 i) (hc1 : ¬cond1_1 i) (hc2 : cond1_2 i) (hc3 : cond1_3 i) (x0 x1 x2 : Vec F S512x1024 .bf16) (xs0 xs1 : Vec F S512x16 .f32) (xs2 : Vec F S512x1024 .f32)

theorem scover1_E_0 (y : S512x16.Idx) : ∃ pc ∈ (kernelRun1_E c i arg3 harg3 arg4 harg4 arg5 harg5 arg6 harg6 arg7 harg7 arg8 harg8 arg9 harg9 hc0 hc1 hc2 hc3 x0 x1 x2 xs0 xs1 xs2).2.1, y ∈ pc.1.set :=
  View.cover_of_tiledL (kernelRun1_E c i arg3 harg3 arg4 harg4 arg5 harg5 arg6 harg6 arg7 harg7 arg8 harg8 arg9 harg9 hc0 hc1 hc2 hc3 x0 x1 x2 xs0 xs1 xs2).2.1 S512x1.size (by sl_kernel_rfl) y
def sout1_E_0 : Vec F S512x16 .f32 :=
  VS1_0.read (Elt F) (VS1_0.writes (Elt F) VS1_0.junk (kernelRun1_E c i arg3 harg3 arg4 harg4 arg5 harg5 arg6 harg6 arg7 harg7 arg8 harg8 arg9 harg9 hc0 hc1 hc2 hc3 x0 x1 x2 xs0 xs1 xs2).2.1)
theorem scover1_E_1 (y : S512x16.Idx) : ∃ pc ∈ (kernelRun1_E c i arg3 harg3 arg4 harg4 arg5 harg5 arg6 harg6 arg7 harg7 arg8 harg8 arg9 harg9 hc0 hc1 hc2 hc3 x0 x1 x2 xs0 xs1 xs2).2.2.1, y ∈ pc.1.set :=
  View.cover_of_tiledL (kernelRun1_E c i arg3 harg3 arg4 harg4 arg5 harg5 arg6 harg6 arg7 harg7 arg8 harg8 arg9 harg9 hc0 hc1 hc2 hc3 x0 x1 x2 xs0 xs1 xs2).2.2.1 S512x1.size (by sl_kernel_rfl) y
def sout1_E_1 : Vec F S512x16 .f32 :=
  VS1_1.read (Elt F) (VS1_1.writes (Elt F) VS1_1.junk (kernelRun1_E c i arg3 harg3 arg4 harg4 arg5 harg5 arg6 harg6 arg7 harg7 arg8 harg8 arg9 harg9 hc0 hc1 hc2 hc3 x0 x1 x2 xs0 xs1 xs2).2.2.1)
theorem scover1_E_2 (y : S512x1024.Idx) : ∃ pc ∈ (kernelRun1_E c i arg3 harg3 arg4 harg4 arg5 harg5 arg6 harg6 arg7 harg7 arg8 harg8 arg9 harg9 hc0 hc1 hc2 hc3 x0 x1 x2 xs0 xs1 xs2).2.2.2.1, y ∈ pc.1.set :=
  View.cover_of_tiledL (kernelRun1_E c i arg3 harg3 arg4 harg4 arg5 harg5 arg6 harg6 arg7 harg7 arg8 harg8 arg9 harg9 hc0 hc1 hc2 hc3 x0 x1 x2 xs0 xs1 xs2).2.2.2.1 S512x64.size (by sl_kernel_rfl) y
def sout1_E_2 : Vec F S512x1024 .f32 :=
  VS1_2.read (Elt F) (VS1_2.writes (Elt F) VS1_2.junk (kernelRun1_E c i arg3 harg3 arg4 harg4 arg5 harg5 arg6 harg6 arg7 harg7 arg8 harg8 arg9 harg9 hc0 hc1 hc2 hc3 x0 x1 x2 xs0 xs1 xs2).2.2.2.1)
theorem cover1_E_3 (y : S512x1024.Idx) : ∃ pc ∈ (kernelRun1_E c i arg3 harg3 arg4 harg4 arg5 harg5 arg6 harg6 arg7 harg7 arg8 harg8 arg9 harg9 hc0 hc1 hc2 hc3 x0 x1 x2 xs0 xs1 xs2).1, y ∈ pc.1.set :=
  View.cover_of_tiledL (kernelRun1_E c i arg3 harg3 arg4 harg4 arg5 harg5 arg6 harg6 arg7 harg7 arg8 harg8 arg9 harg9 hc0 hc1 hc2 hc3 x0 x1 x2 xs0 xs1 xs2).1 S512x64.size (by sl_kernel_rfl) y
def out1_E_3 : Vec F S512x1024 .bf16 :=
  VO1_3.read (Elt F) (VO1_3.writes (Elt F) VO1_3.junk (kernelRun1_E c i arg3 harg3 arg4 harg4 arg5 harg5 arg6 harg6 arg7 harg7 arg8 harg8 arg9 harg9 hc0 hc1 hc2 hc3 x0 x1 x2 xs0 xs1 xs2).1)

end E

section G
variable (hc0 : ¬cond1_0 i) (hc1 : ¬cond1_1 i) (hc2 : ¬cond1_2 i) (hc3 : cond1_3 i) (x0 x1 x2 : Vec F S512x1024 .bf16) (xs0 xs1 : Vec F S512x16 .f32) (xs2 : Vec F S512x1024 .f32)

theorem cover1_G_3 (y : S512x1024.Idx) : ∃ pc ∈ (kernelRun1_G c i arg3 harg3 arg4 harg4 arg5 harg5 arg6 harg6 arg7 harg7 arg8 harg8 arg9 harg9 hc0 hc1 hc2 hc3 x0 x1 x2 xs0 xs1 xs2).1, y ∈ pc.1.set :=
  View.cover_of_tiledL (kernelRun1_G c i arg3 harg3 arg4 harg4 arg5 harg5 arg6 harg6 arg7 harg7 arg8 harg8 arg9 harg9 hc0 hc1 hc2 hc3 x0 x1 x2 xs0 xs1 xs2).1 S512x64.size (by sl_kernel_rfl) y
def out1_G_3 : Vec F S512x1024 .bf16 :=
  VO1_3.read (Elt F) (VO1_3.writes (Elt F) VO1_3.junk (kernelRun1_G c i arg3 harg3 arg4 harg4 arg5 harg5 arg6 harg6 arg7 harg7 arg8 harg8 arg9 harg9 hc0 hc1 hc2 hc3 x0 x1 x2 xs0 xs1 xs2).1)

end G

end Cases

/-- What the output block and the three running arrays are after point t in each of the seven cases of (key tile, query tile), from what the point before left (p0, p1, p2). -/
def caseA (c : Dev nD) (t : Fin cfg1.N) (h0 : t.val % 4 = 0) (h1 : t.val % 4 < t.val / 4 % 4) (h2 : ¬t.val % 4 = t.val / 4 % 4) (h3 : ¬t.val % 4 = 3) :
    Vec F S512x1024 .bf16 × Vec F S512x16 .f32 × Vec F S512x16 .f32 × Vec F S512x1024 .f32 :=
  ((VO1_3.read (Elt F) (VO1_3.writes (Elt F) VO1_3.junk [])), sout1_A_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) ((hcond1_1 t).mpr h1) (fun h => h2 ((hcond1_2 t).mp h)) (fun h => h3 ((hcond1_3 t).mp h)) (iblk1 V c 0 t) (iblk1 V c 1 t) (iblk1 V c 2 t), sout1_A_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) ((hcond1_1 t).mpr h1) (fun h => h2 ((hcond1_2 t).mp h)) (fun h => h3 ((hcond1_3 t).mp h)) (iblk1 V c 0 t) (iblk1 V c 1 t) (iblk1 V c 2 t), sout1_A_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) ((hcond1_1 t).mpr h1) (fun h => h2 ((hcond1_2 t).mp h)) (fun h => h3 ((hcond1_3 t).mp h)) (iblk1 V c 0 t) (iblk1 V c 1 t) (iblk1 V c 2 t))

def caseB (c : Dev nD) (t : Fin cfg1.N) (h0 : t.val % 4 = 0) (h1 : ¬t.val % 4 < t.val / 4 % 4) (h2 : t.val % 4 = t.val / 4 % 4) (h3 : ¬t.val % 4 = 3) :
    Vec F S512x1024 .bf16 × Vec F S512x16 .f32 × Vec F S512x16 .f32 × Vec F S512x1024 .f32 :=
  ((VO1_3.read (Elt F) (VO1_3.writes (Elt F) VO1_3.junk [])), sout1_B_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) ((hcond1_2 t).mpr h2) (fun h => h3 ((hcond1_3 t).mp h)) (iblk1 V c 0 t) (iblk1 V c 1 t) (iblk1 V c 2 t), sout1_B_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) ((hcond1_2 t).mpr h2) (fun h => h3 ((hcond1_3 t).mp h)) (iblk1 V c 0 t) (iblk1 V c 1 t) (iblk1 V c 2 t), sout1_B_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) ((hcond1_2 t).mpr h2) (fun h => h3 ((hcond1_3 t).mp h)) (iblk1 V c 0 t) (iblk1 V c 1 t) (iblk1 V c 2 t))

def caseC (c : Dev nD) (t : Fin cfg1.N) (h0 : ¬t.val % 4 = 0) (h1 : t.val % 4 < t.val / 4 % 4) (h2 : ¬t.val % 4 = t.val / 4 % 4) (h3 : ¬t.val % 4 = 3) (p0 p1 : Vec F S512x16 .f32) (p2 : Vec F S512x1024 .f32) :
    Vec F S512x1024 .bf16 × Vec F S512x16 .f32 × Vec F S512x16 .f32 × Vec F S512x1024 .f32 :=
  ((VO1_3.read (Elt F) (VO1_3.writes (Elt F) VO1_3.junk [])), sout1_C_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (fun h => h2 ((hcond1_2 t).mp h)) (fun h => h3 ((hcond1_3 t).mp h)) (iblk1 V c 0 t) (iblk1 V c 1 t) (iblk1 V c 2 t) p0 p1 p2, sout1_C_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (fun h => h2 ((hcond1_2 t).mp h)) (fun h => h3 ((hcond1_3 t).mp h)) (iblk1 V c 0 t) (iblk1 V c 1 t) (iblk1 V c 2 t) p0 p1 p2, sout1_C_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (fun h => h2 ((hcond1_2 t).mp h)) (fun h => h3 ((hcond1_3 t).mp h)) (iblk1 V c 0 t) (iblk1 V c 1 t) (iblk1 V c 2 t) p0 p1 p2)

def caseD (c : Dev nD) (t : Fin cfg1.N) (h0 : ¬t.val % 4 = 0) (h1 : ¬t.val % 4 < t.val / 4 % 4) (h2 : t.val % 4 = t.val / 4 % 4) (h3 : ¬t.val % 4 = 3) (p0 p1 : Vec F S512x16 .f32) (p2 : Vec F S512x1024 .f32) :
    Vec F S512x1024 .bf16 × Vec F S512x16 .f32 × Vec F S512x16 .f32 × Vec F S512x1024 .f32 :=
  ((VO1_3.read (Elt F) (VO1_3.writes (Elt F) VO1_3.junk [])), sout1_D_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) ((hcond1_2 t).mpr h2) (fun h => h3 ((hcond1_3 t).mp h)) (iblk1 V c 0 t) (iblk1 V c 1 t) (iblk1 V c 2 t) p0 p1 p2, sout1_D_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) ((hcond1_2 t).mpr h2) (fun h => h3 ((hcond1_3 t).mp h)) (iblk1 V c 0 t) (iblk1 V c 1 t) (iblk1 V c 2 t) p0 p1 p2, sout1_D_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) ((hcond1_2 t).mpr h2) (fun h => h3 ((hcond1_3 t).mp h)) (iblk1 V c 0 t) (iblk1 V c 1 t) (iblk1 V c 2 t) p0 p1 p2)

def caseE (c : Dev nD) (t : Fin cfg1.N) (h0 : ¬t.val % 4 = 0) (h1 : ¬t.val % 4 < t.val / 4 % 4) (h2 : t.val % 4 = t.val / 4 % 4) (h3 : t.val % 4 = 3) (p0 p1 : Vec F S512x16 .f32) (p2 : Vec F S512x1024 .f32) :
    Vec F S512x1024 .bf16 × Vec F S512x16 .f32 × Vec F S512x16 .f32 × Vec F S512x1024 .f32 :=
  (out1_E_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) ((hcond1_2 t).mpr h2) ((hcond1_3 t).mpr h3) (iblk1 V c 0 t) (iblk1 V c 1 t) (iblk1 V c 2 t) p0 p1 p2, sout1_E_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) ((hcond1_2 t).mpr h2) ((hcond1_3 t).mpr h3) (iblk1 V c 0 t) (iblk1 V c 1 t) (iblk1 V c 2 t) p0 p1 p2, sout1_E_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) ((hcond1_2 t).mpr h2) ((hcond1_3 t).mpr h3) (iblk1 V c 0 t) (iblk1 V c 1 t) (iblk1 V c 2 t) p0 p1 p2, sout1_E_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) ((hcond1_2 t).mpr h2) ((hcond1_3 t).mpr h3) (iblk1 V c 0 t) (iblk1 V c 1 t) (iblk1 V c 2 t) p0 p1 p2)

def caseG (c : Dev nD) (t : Fin cfg1.N) (h0 : ¬t.val % 4 = 0) (h1 : ¬t.val % 4 < t.val / 4 % 4) (h2 : ¬t.val % 4 = t.val / 4 % 4) (h3 : t.val % 4 = 3) (p0 p1 : Vec F S512x16 .f32) (p2 : Vec F S512x1024 .f32) :
    Vec F S512x1024 .bf16 × Vec F S512x16 .f32 × Vec F S512x16 .f32 × Vec F S512x1024 .f32 :=
  (out1_G_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (fun h => h2 ((hcond1_2 t).mp h)) ((hcond1_3 t).mpr h3) (iblk1 V c 0 t) (iblk1 V c 1 t) (iblk1 V c 2 t) p0 p1 p2, p0, p1, p2)

/-- The contents after point n, by recursion on n; n mod 4 is the key tile and n / 4 mod 4 the query tile. -/
def outsAt1 (c : Dev nD) : (n : ℕ) → n < cfg1.N → Vec F S512x1024 .bf16 × Vec F S512x16 .f32 × Vec F S512x16 .f32 × Vec F S512x1024 .f32
  | 0, hn => caseB V c ⟨0, hn⟩ (Nat.zero_mod _) (by show ¬0 % 4 < 0 / 4 % 4; decide) (show (0 : ℕ) % 4 = 0 / 4 % 4 from rfl) (by show ¬0 % 4 = 3; decide)
  | n + 1, hn =>
    if h0 : (n + 1) % 4 = 0 then
      if h1 : (n + 1) % 4 < (n + 1) / 4 % 4 then
        if h2 : (n + 1) % 4 = (n + 1) / 4 % 4 then False.elim (by have hN : n + 1 < 64 := lt_of_lt_of_eq hn (show cfg1.N = 64 from N_1); omega)
        else if h3 : (n + 1) % 4 = 3 then False.elim (by have hN : n + 1 < 64 := lt_of_lt_of_eq hn (show cfg1.N = 64 from N_1); omega)
        else caseA V c ⟨n + 1, hn⟩ h0 h1 h2 h3
      else if h2 : (n + 1) % 4 = (n + 1) / 4 % 4 then
        if h3 : (n + 1) % 4 = 3 then False.elim (by have hN : n + 1 < 64 := lt_of_lt_of_eq hn (show cfg1.N = 64 from N_1); omega)
        else caseB V c ⟨n + 1, hn⟩ h0 h1 h2 h3
      else False.elim (by have hN : n + 1 < 64 := lt_of_lt_of_eq hn (show cfg1.N = 64 from N_1); omega)
    else if h1 : (n + 1) % 4 < (n + 1) / 4 % 4 then
      if h2 : (n + 1) % 4 = (n + 1) / 4 % 4 then False.elim (by have hN : n + 1 < 64 := lt_of_lt_of_eq hn (show cfg1.N = 64 from N_1); omega)
      else if h3 : (n + 1) % 4 = 3 then False.elim (by have hN : n + 1 < 64 := lt_of_lt_of_eq hn (show cfg1.N = 64 from N_1); omega)
      else caseC V c ⟨n + 1, hn⟩ h0 h1 h2 h3 (outsAt1 c n (Nat.lt_of_succ_lt hn)).2.1 (outsAt1 c n (Nat.lt_of_succ_lt hn)).2.2.1 (outsAt1 c n (Nat.lt_of_succ_lt hn)).2.2.2
    else if h2 : (n + 1) % 4 = (n + 1) / 4 % 4 then
      if h3 : (n + 1) % 4 = 3 then caseE V c ⟨n + 1, hn⟩ h0 h1 h2 h3 (outsAt1 c n (Nat.lt_of_succ_lt hn)).2.1 (outsAt1 c n (Nat.lt_of_succ_lt hn)).2.2.1 (outsAt1 c n (Nat.lt_of_succ_lt hn)).2.2.2
      else caseD V c ⟨n + 1, hn⟩ h0 h1 h2 h3 (outsAt1 c n (Nat.lt_of_succ_lt hn)).2.1 (outsAt1 c n (Nat.lt_of_succ_lt hn)).2.2.1 (outsAt1 c n (Nat.lt_of_succ_lt hn)).2.2.2
    else if h3 : (n + 1) % 4 = 3 then caseG V c ⟨n + 1, hn⟩ h0 h1 h2 h3 (outsAt1 c n (Nat.lt_of_succ_lt hn)).2.1 (outsAt1 c n (Nat.lt_of_succ_lt hn)).2.2.1 (outsAt1 c n (Nat.lt_of_succ_lt hn)).2.2.2
    else ((VO1_3.read (Elt F) (VO1_3.writes (Elt F) VO1_3.junk [])), (outsAt1 c n (Nat.lt_of_succ_lt hn)).2.1, (outsAt1 c n (Nat.lt_of_succ_lt hn)).2.2.1, (outsAt1 c n (Nat.lt_of_succ_lt hn)).2.2.2)

theorem outsAt1_A (c : Dev nD) (t : Fin cfg1.N) (h0 : t.val % 4 = 0) (h1 : t.val % 4 < t.val / 4 % 4) (h2 : ¬t.val % 4 = t.val / 4 % 4) (h3 : ¬t.val % 4 = 3) :
    outsAt1 V c t.val t.isLt = caseA V c t h0 h1 h2 h3 := by
  obtain ⟨n, hn⟩ := t
  cases n with
  | zero => exact (by exfalso; (try dsimp only at h1); omega)
  | succ n => exact (dif_pos h0).trans ((dif_pos h1).trans ((dif_neg h2).trans ((dif_neg h3).trans rfl)))

theorem outsAt1_B (c : Dev nD) (t : Fin cfg1.N) (h0 : t.val % 4 = 0) (h1 : ¬t.val % 4 < t.val / 4 % 4) (h2 : t.val % 4 = t.val / 4 % 4) (h3 : ¬t.val % 4 = 3) :
    outsAt1 V c t.val t.isLt = caseB V c t h0 h1 h2 h3 := by
  obtain ⟨n, hn⟩ := t
  cases n with
  | zero => exact rfl
  | succ n => exact (dif_pos h0).trans ((dif_neg h1).trans ((dif_pos h2).trans ((dif_neg h3).trans rfl)))

theorem outsAt1_C (c : Dev nD) (t : Fin cfg1.N) (h0 : ¬t.val % 4 = 0) (h1 : t.val % 4 < t.val / 4 % 4) (h2 : ¬t.val % 4 = t.val / 4 % 4) (h3 : ¬t.val % 4 = 3) :
    outsAt1 V c t.val t.isLt = caseC V c t h0 h1 h2 h3 (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2 := by
  obtain ⟨n, hn⟩ := t
  cases n with
  | zero => exact (by exfalso; (try dsimp only at h0); exact absurd (Nat.zero_mod _) h0)
  | succ n => exact (dif_neg h0).trans ((dif_pos h1).trans ((dif_neg h2).trans ((dif_neg h3).trans rfl)))

theorem outsAt1_D (c : Dev nD) (t : Fin cfg1.N) (h0 : ¬t.val % 4 = 0) (h1 : ¬t.val % 4 < t.val / 4 % 4) (h2 : t.val % 4 = t.val / 4 % 4) (h3 : ¬t.val % 4 = 3) :
    outsAt1 V c t.val t.isLt = caseD V c t h0 h1 h2 h3 (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2 := by
  obtain ⟨n, hn⟩ := t
  cases n with
  | zero => exact (by exfalso; (try dsimp only at h0); exact absurd (Nat.zero_mod _) h0)
  | succ n => exact (dif_neg h0).trans ((dif_neg h1).trans ((dif_pos h2).trans ((dif_neg h3).trans rfl)))

theorem outsAt1_E (c : Dev nD) (t : Fin cfg1.N) (h0 : ¬t.val % 4 = 0) (h1 : ¬t.val % 4 < t.val / 4 % 4) (h2 : t.val % 4 = t.val / 4 % 4) (h3 : t.val % 4 = 3) :
    outsAt1 V c t.val t.isLt = caseE V c t h0 h1 h2 h3 (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2 := by
  obtain ⟨n, hn⟩ := t
  cases n with
  | zero => exact (by exfalso; (try dsimp only at h0); exact absurd (Nat.zero_mod _) h0)
  | succ n => exact (dif_neg h0).trans ((dif_neg h1).trans ((dif_pos h2).trans ((dif_pos h3).trans rfl)))

theorem outsAt1_F (c : Dev nD) (t : Fin cfg1.N) (h0 : ¬t.val % 4 = 0) (h1 : ¬t.val % 4 < t.val / 4 % 4) (h2 : ¬t.val % 4 = t.val / 4 % 4) (h3 : ¬t.val % 4 = 3) :
    outsAt1 V c t.val t.isLt = ((VO1_3.read (Elt F) (VO1_3.writes (Elt F) VO1_3.junk [])), (outsAt1 V c (t.val - 1) (Nat.lt_of_le_of_lt (Nat.sub_le _ _) t.isLt)).2.1, (outsAt1 V c (t.val - 1) (Nat.lt_of_le_of_lt (Nat.sub_le _ _) t.isLt)).2.2.1, (outsAt1 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans ((dif_neg h2).trans ((dif_neg h3).trans rfl)))

theorem outsAt1_G (c : Dev nD) (t : Fin cfg1.N) (h0 : ¬t.val % 4 = 0) (h1 : ¬t.val % 4 < t.val / 4 % 4) (h2 : ¬t.val % 4 = t.val / 4 % 4) (h3 : t.val % 4 = 3) :
    outsAt1 V c t.val t.isLt = caseG V c t h0 h1 h2 h3 (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2 := by
  obtain ⟨n, hn⟩ := t
  cases n with
  | zero => exact (by exfalso; (try dsimp only at h0); exact absurd (Nat.zero_mod _) h0)
  | succ n => exact (dif_neg h0).trans ((dif_neg h1).trans ((dif_neg h2).trans ((dif_pos h3).trans rfl)))

end Cert.Kernel.Attn

end
-- ==== Proof.K.AttnFrame.lean ====
import proofs.«414918_j3358664426109_3_alg».proof.Proof.K.AttnOuts

noncomputable section

namespace Cert.Kernel.Attn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

def rest1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg3_1), ((c : Thread nD τ).loc cc2_stg3_1) ↦{fullShare} f))

theorem PhiA1_eq (c : Dev nD) :
    (Pipeline.ΦA spec1 c : sProp 𝕄)
      = iprop((∃ d, owns (c : Thread nD τ) scM1_0 fullShare d) ∗ (∃ d, owns (c : Thread nD τ) scM1_1 fullShare d) ∗ (∃ d, owns (c : Thread nD τ) scM1_2 fullShare d) ∗ rest1 (F := F) c ∗ (∃ r, prngReg c r)) := by
  unfold Pipeline.ΦA; rw [scopedRest1_eq]; simp only [scM1_0, scM1_1, scM1_2, owns_whole]; unfold rest1
  refine BI.Entails.antisymm ?_ ?_
  · show BIBase.Entails (PROP := sProp 𝕄) _ _
    iintro ⟨⟨H0, H1, H2, H3, H4, H5, H6, H7, H8, H9, H10, H11, H12, H13, H14⟩, Hg⟩
    isplitl [H6]; · iexact H6
    isplitl [H7]; · iexact H7
    isplitl [H8]; · iexact H8
    isplitr [Hg]
    swap; · iexact Hg
    isplitl [H0]; · iexact H0
    isplitl [H1]; · iexact H1
    isplitl [H2]; · iexact H2
    isplitl [H3]; · iexact H3
    isplitl [H4]; · iexact H4
    isplitl [H5]; · iexact H5
    isplitl [H9]; · iexact H9
    isplitl [H10]; · iexact H10
    isplitl [H11]; · iexact H11
    isplitl [H12]; · iexact H12
    isplitl [H13]; · iexact H13
    iexact H14
  · show BIBase.Entails (PROP := sProp 𝕄) _ _
    iintro ⟨H6, H7, H8, ⟨H0, H1, H2, H3, H4, H5, H9, H10, H11, H12, H13, H14⟩, Hg⟩
    isplitr [Hg]
    swap; · iexact Hg
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iexact H14

def PhiS (c : Dev nD) : (n : ℕ) → n ≤ cfg1.N → sProp 𝕄
  | 0, _ => Pipeline.ΦA spec1 c
  | n + 1, hn => iprop(owns (c : Thread nD τ) scM1_0 fullShare (outsAt1 V c n hn).2.1 ∗ owns (c : Thread nD τ) scM1_1 fullShare (outsAt1 V c n hn).2.2.1 ∗ owns (c : Thread nD τ) scM1_2 fullShare (outsAt1 V c n hn).2.2.2 ∗ rest1 (F := F) c ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(owns (c : Thread nD τ) scM1_0 fullShare (outsAt1 V c n hn).2.1 ∗ owns (c : Thread nD τ) scM1_1 fullShare (outsAt1 V c n hn).2.2.1 ∗ owns (c : Thread nD τ) scM1_2 fullShare (outsAt1 V c n hn).2.2.2 ∗ rest1 (F := F) c ∗ (∃ r, prngReg c r)) := rfl

theorem PhiS_pos (c : Dev nD) (n : ℕ) (h : n ≤ cfg1.N) (hz : n ≠ 0) :
    PhiS V c n h = iprop(owns (c : Thread nD τ) scM1_0 fullShare (outsAt1 V c (n - 1) (by omega)).2.1 ∗ owns (c : Thread nD τ) scM1_1 fullShare (outsAt1 V c (n - 1) (by omega)).2.2.1 ∗ owns (c : Thread nD τ) scM1_2 fullShare (outsAt1 V c (n - 1) (by omega)).2.2.2 ∗ rest1 (F := F) c ∗ (∃ r, prngReg c r)) := by
  cases n with
  | zero => exact absurd rfl hz
  | succ n => rfl

def dat1 (q1 : Fin 4 → PosShare TreeShare) (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS V c t.val (Nat.le_of_lt_succ t.isLt)
  q := q1
  owed _ := 0

theorem A_eq1 (q1 : Fin 4 → PosShare TreeShare) (c : Dev nD) (w : Fin cfg1.W) : (dat1 V q1 c).A w = V c (Pipeline.arrRef spec1 w) := by
  dsimp only [dat1]

theorem PhiS_castSucc (q1 : Fin 4 → PosShare TreeShare) (c : Dev nD) (t : Fin cfg1.N) :
    (dat1 V q1 c).Φ t.castSucc = PhiS V c t.val (Nat.le_of_lt t.isLt) := by
  dsimp only [dat1]; simp only [Fin.coe_castSucc]

theorem after1_0 (q1 : Fin 4 → PosShare TreeShare) (c : Dev nD) (t : Fin cfg1.N) : (dat1 V q1 c).after 0 t = iblk1 V c 0 t := by dsimp only [dat1]
theorem after1_1 (q1 : Fin 4 → PosShare TreeShare) (c : Dev nD) (t : Fin cfg1.N) : (dat1 V q1 c).after 1 t = iblk1 V c 1 t := by dsimp only [dat1]
theorem after1_2 (q1 : Fin 4 → PosShare TreeShare) (c : Dev nD) (t : Fin cfg1.N) : (dat1 V q1 c).after 2 t = iblk1 V c 2 t := by dsimp only [dat1]
theorem after1_3 (q1 : Fin 4 → PosShare TreeShare) (c : Dev nD) (t : Fin cfg1.N) : (dat1 V q1 c).after 3 t = (outsAt1 V c t.val t.isLt).1 := by dsimp only [dat1]

theorem before1_0 (q1 : Fin 4 → PosShare TreeShare) (c : Dev nD) (t : Fin cfg1.N) (d) : (dat1 V q1 c).before 0 t d = iblk1 V c 0 t :=
  before1_0_of V (dat1 V q1 c) (A_eq1 V q1 c 0) (after1_0 V q1 c) t d
theorem before1_1 (q1 : Fin 4 → PosShare TreeShare) (c : Dev nD) (t : Fin cfg1.N) (d) : (dat1 V q1 c).before 1 t d = iblk1 V c 1 t :=
  before1_1_of V (dat1 V q1 c) (A_eq1 V q1 c 1) (after1_1 V q1 c) t d
theorem before1_2 (q1 : Fin 4 → PosShare TreeShare) (c : Dev nD) (t : Fin cfg1.N) (d) : (dat1 V q1 c).before 2 t d = iblk1 V c 2 t :=
  before1_2_of V (dat1 V q1 c) (A_eq1 V q1 c 2) (after1_2 V q1 c) t d

def bodyPre1 (q1 : Fin 4 → PosShare TreeShare) (c : Dev nD) (t : Fin cfg1.N) : sProp 𝕄 :=
  iprop((dat1 V q1 c).Φ t.castSucc ∗ (dat1 V q1 c).owesAt () t.castSucc
    ∗ (∃ d, owns (c : Thread nD τ) (ms1_0 t) fullShare ((dat1 V q1 c).before 0 t d))
    ∗ (∃ d, owns (c : Thread nD τ) (ms1_1 t) fullShare ((dat1 V q1 c).before 1 t d))
    ∗ (∃ d, owns (c : Thread nD τ) (ms1_2 t) fullShare ((dat1 V q1 c).before 2 t d))
    ∗ (∃ d, owns (c : Thread nD τ) (ms1_3 t) fullShare ((dat1 V q1 c).before 3 t d)))

def bodyPost1 (q1 : Fin 4 → PosShare TreeShare) (c : Dev nD) (t : Fin cfg1.N) : sProp 𝕄 :=
  iprop((dat1 V q1 c).Φ t.succ ∗ (dat1 V q1 c).owesAt () t.succ
    ∗ (dat1 V q1 c).leavesExact 0 t
    ∗ (dat1 V q1 c).leavesExact 1 t
    ∗ (dat1 V q1 c).leavesExact 2 t
    ∗ (dat1 V q1 c).leavesExact 3 t)

set_option maxHeartbeats 4800000 in

/-- One run of the body carries the invariant from point t to t + 1: it is given the point's blocks and the previous contents and returns this point's. -/
theorem sound_body1 (q1 : Fin 4 → PosShare TreeShare) (c : Dev nD) (t : Fin cfg1.N) :
    bodyPre1 V q1 c t ⊢ wp frame (wpE (defs₀ (F := F)) Variants.none c none) Set.univ (bodyAt1 t) (fun _ => bodyPost1 V q1 c t) := by
  unfold bodyPre1 bodyPost1 bodyAt1
  simp only [before1_0, before1_1, before1_2]
  rw [show (dat1 V q1 c).owesAt () t.succ = (dat1 V q1 c).owesAt () t.castSucc from rfl]
  rw [show (dat1 V q1 c).Φ t.succ = PhiS V c (t.val + 1) t.isLt from rfl, PhiS_succ]
  have hN : t.val < 64 := lt_of_lt_of_eq t.isLt (show cfg1.N = 64 from N_1)
  rw [show (dat1 V q1 c).leavesExact 0 t = owns (c : Thread nD τ) (ms1_0 t) fullShare ((dat1 V q1 c).after 0 t) from by
    unfold Dat.leavesExact; rw [liveAt1_0 t], after1_0]
  rw [show (dat1 V q1 c).leavesExact 1 t = owns (c : Thread nD τ) (ms1_1 t) fullShare ((dat1 V q1 c).after 1 t) from by
    unfold Dat.leavesExact; rw [liveAt1_1 t], after1_1]
  rw [show (dat1 V q1 c).leavesExact 2 t = owns (c : Thread nD τ) (ms1_2 t) fullShare ((dat1 V q1 c).after 2 t) from by
    unfold Dat.leavesExact; rw [liveAt1_2 t], after1_2]
  by_cases h0 : t.val % 4 = 0
  · by_cases h1 : t.val % 4 < t.val / 4 % 4
    · by_cases h2 : t.val % 4 = t.val / 4 % 4
      · exfalso; omega
      · by_cases h3 : t.val % 4 = 3
        · exfalso; omega
        ·
          have hz : t.val ≠ 0 := by omega
          rw [Dat.leavesExact_idle (dat1 V q1 c) 3 t (idleAt1_3 t (fun h => h3 ((hcond1_3 t).mp h))) (noFlush1_3 t (fun h => h3 ((hcond1_3 t).mp h)))]
          rw [outsAt1_A V c t h0 h1 h2 h3]
          unfold caseA sout1_A_0 sout1_A_1 sout1_A_2; (try dsimp only)
          rw [PhiS_castSucc V q1 c t, PhiS_pos V c _ _ hz]
          iintro ⟨⟨HS0, HS1, HS2, Hr, Hg⟩, Ho, ⟨%d0, H0⟩, ⟨%d1, H1⟩, ⟨%d2, H2⟩, ⟨%d3, H3⟩⟩
          iapply ((kernelRun1_A c (grid1.coords t) _ _ _ _ _ _ _ _ _ _ _ _ _ _ ((hcond1_0 t).mpr h0) ((hcond1_1 t).mpr h1) (fun h => h2 ((hcond1_2 t).mp h)) (fun h => h3 ((hcond1_3 t).mp h)) (iblk1 V c 0 t) (iblk1 V c 1 t) (iblk1 V c 2 t)).2.2.2 _ Set.univ _)
          isplitl [H0]; · iexact H0
          isplitl [H1]; · iexact H1
          isplitl [H2]; · iexact H2
          isplitl [H3]; · iexact H3
          isplitl [HS0]; · iexists _; iexact HS0
          isplitl [HS1]; · iexists _; iexact HS1
          isplitl [HS2]; · iexists _; iexact HS2
          iintro ⟨H0, H1, H2, H3, ⟨%es0, HS0⟩, ⟨%es1, HS1⟩, ⟨%es2, HS2⟩⟩
          isplitl [HS0 HS1 HS2 Hr Hg]
          · isplitl [HS0]
            · unfold owns; iexists _; isplitr
              swap; · iexact HS0
              ipureintro; exact View.read_writes_of_cover _ _ _ _ _ (scover1_A_0 c _ _ _ _ _ _ _ _ _ _ _ _ _ _ _ _ _ _ _ _ _ _)
            isplitl [HS1]
            · unfold owns; iexists _; isplitr
              swap; · iexact HS1
              ipureintro; exact View.read_writes_of_cover _ _ _ _ _ (scover1_A_1 c _ _ _ _ _ _ _ _ _ _ _ _ _ _ _ _ _ _ _ _ _ _)
            isplitl [HS2]
            · unfold owns; iexists _; isplitr
              swap; · iexact HS2
              ipureintro; exact View.read_writes_of_cover _ _ _ _ _ (scover1_A_2 c _ _ _ _ _ _ _ _ _ _ _ _ _ _ _ _ _ _ _ _ _ _)
            isplitl [Hr]; · iexact Hr
            iexact Hg
          isplitl [Ho]; · iexact Ho
          isplitl [H0]; · iexact H0
          isplitl [H1]; · iexact H1
          isplitl [H2]; · iexact H2
          iexists _; iexact H3
    · by_cases h2 : t.val % 4 = t.val / 4 % 4
      · by_cases h3 : t.val % 4 = 3
        · exfalso; omega
        ·
          by_cases hz : t.val = 0
          ·
            rw [Dat.leavesExact_idle (dat1 V q1 c) 3 t (idleAt1_3 t (fun h => h3 ((hcond1_3 t).mp h))) (noFlush1_3 t (fun h => h3 ((hcond1_3 t).mp h)))]
            rw [outsAt1_B V c t h0 h1 h2 h3]
            unfold caseB sout1_B_0 sout1_B_1 sout1_B_2; (try dsimp only)
            rw [PhiS_castSucc V q1 c t, PhiS_zero V c _ _ hz, PhiA1_eq]
            iintro ⟨⟨HS0, HS1, HS2, Hr, Hg⟩, Ho, ⟨%d0, H0⟩, ⟨%d1, H1⟩, ⟨%d2, H2⟩, ⟨%d3, H3⟩⟩
            iapply ((kernelRun1_B c (grid1.coords t) _ _ _ _ _ _ _ _ _ _ _ _ _ _ ((hcond1_0 t).mpr h0) (fun h => h1 ((hcond1_1 t).mp h)) ((hcond1_2 t).mpr h2) (fun h => h3 ((hcond1_3 t).mp h)) (iblk1 V c 0 t) (iblk1 V c 1 t) (iblk1 V c 2 t)).2.2.2 _ Set.univ _)
            isplitl [H0]; · iexact H0
            isplitl [H1]; · iexact H1
            isplitl [H2]; · iexact H2
            isplitl [H3]; · iexact H3
            isplitl [HS0]; · iexact HS0
            isplitl [HS1]; · iexact HS1
            isplitl [HS2]; · iexact HS2
            iintro ⟨H0, H1, H2, H3, ⟨%es0, HS0⟩, ⟨%es1, HS1⟩, ⟨%es2, HS2⟩⟩
            isplitl [HS0 HS1 HS2 Hr Hg]
            · isplitl [HS0]
              · unfold owns; iexists _; isplitr
                swap; · iexact HS0
                ipureintro; exact View.read_writes_of_cover _ _ _ _ _ (scover1_B_0 c _ _ _ _ _ _ _ _ _ _ _ _ _ _ _ _ _ _ _ _ _ _)
              isplitl [HS1]
              · unfold owns; iexists _; isplitr
                swap; · iexact HS1
                ipureintro; exact View.read_writes_of_cover _ _ _ _ _ (scover1_B_1 c _ _ _ _ _ _ _ _ _ _ _ _ _ _ _ _ _ _ _ _ _ _)
              isplitl [HS2]
              · unfold owns; iexists _; isplitr
                swap; · iexact HS2
                ipureintro; exact View.read_writes_of_cover _ _ _ _ _ (scover1_B_2 c _ _ _ _ _ _ _ _ _ _ _ _ _ _ _ _ _ _ _ _ _ _)
              isplitl [Hr]; · iexact Hr
              iexact Hg
            isplitl [Ho]; · iexact Ho
            isplitl [H0]; · iexact H0
            isplitl [H1]; · iexact H1
            isplitl [H2]; · iexact H2
            iexists _; iexact H3
          ·
            rw [Dat.leavesExact_idle (dat1 V q1 c) 3 t (idleAt1_3 t (fun h => h3 ((hcond1_3 t).mp h))) (noFlush1_3 t (fun h => h3 ((hcond1_3 t).mp h)))]
            rw [outsAt1_B V c t h0 h1 h2 h3]
            unfold caseB sout1_B_0 sout1_B_1 sout1_B_2; (try dsimp only)
            rw [PhiS_castSucc V q1 c t, PhiS_pos V c _ _ hz]
            iintro ⟨⟨HS0, HS1, HS2, Hr, Hg⟩, Ho, ⟨%d0, H0⟩, ⟨%d1, H1⟩, ⟨%d2, H2⟩, ⟨%d3, H3⟩⟩
            iapply ((kernelRun1_B c (grid1.coords t) _ _ _ _ _ _ _ _ _ _ _ _ _ _ ((hcond1_0 t).mpr h0) (fun h => h1 ((hcond1_1 t).mp h)) ((hcond1_2 t).mpr h2) (fun h => h3 ((hcond1_3 t).mp h)) (iblk1 V c 0 t) (iblk1 V c 1 t) (iblk1 V c 2 t)).2.2.2 _ Set.univ _)
            isplitl [H0]; · iexact H0
            isplitl [H1]; · iexact H1
            isplitl [H2]; · iexact H2
            isplitl [H3]; · iexact H3
            isplitl [HS0]; · iexists _; iexact HS0
            isplitl [HS1]; · iexists _; iexact HS1
            isplitl [HS2]; · iexists _; iexact HS2
            iintro ⟨H0, H1, H2, H3, ⟨%es0, HS0⟩, ⟨%es1, HS1⟩, ⟨%es2, HS2⟩⟩
            isplitl [HS0 HS1 HS2 Hr Hg]
            · isplitl [HS0]
              · unfold owns; iexists _; isplitr
                swap; · iexact HS0
                ipureintro; exact View.read_writes_of_cover _ _ _ _ _ (scover1_B_0 c _ _ _ _ _ _ _ _ _ _ _ _ _ _ _ _ _ _ _ _ _ _)
              isplitl [HS1]
              · unfold owns; iexists _; isplitr
                swap; · iexact HS1
                ipureintro; exact View.read_writes_of_cover _ _ _ _ _ (scover1_B_1 c _ _ _ _ _ _ _ _ _ _ _ _ _ _ _ _ _ _ _ _ _ _)
              isplitl [HS2]
              · unfold owns; iexists _; isplitr
                swap; · iexact HS2
                ipureintro; exact View.read_writes_of_cover _ _ _ _ _ (scover1_B_2 c _ _ _ _ _ _ _ _ _ _ _ _ _ _ _ _ _ _ _ _ _ _)
              isplitl [Hr]; · iexact Hr
              iexact Hg
            isplitl [Ho]; · iexact Ho
            isplitl [H0]; · iexact H0
            isplitl [H1]; · iexact H1
            isplitl [H2]; · iexact H2
            iexists _; iexact H3
      · exfalso; omega
  · by_cases h1 : t.val % 4 < t.val / 4 % 4
    · by_cases h2 : t.val % 4 = t.val / 4 % 4
      · exfalso; omega
      · by_cases h3 : t.val % 4 = 3
        · exfalso; omega
        ·
          have hz : t.val ≠ 0 := by omega
          rw [Dat.leavesExact_idle (dat1 V q1 c) 3 t (idleAt1_3 t (fun h => h3 ((hcond1_3 t).mp h))) (noFlush1_3 t (fun h => h3 ((hcond1_3 t).mp h)))]
          rw [outsAt1_C V c t h0 h1 h2 h3]
          unfold caseC sout1_C_0 sout1_C_1 sout1_C_2; (try dsimp only)
          rw [PhiS_castSucc V q1 c t, PhiS_pos V c _ _ hz]
          iintro ⟨⟨HS0, HS1, HS2, Hr, Hg⟩, Ho, ⟨%d0, H0⟩, ⟨%d1, H1⟩, ⟨%d2, H2⟩, ⟨%d3, H3⟩⟩
          iapply ((kernelRun1_C c (grid1.coords t) _ _ _ _ _ _ _ _ _ _ _ _ _ _ (fun h => h0 ((hcond1_0 t).mp h)) ((hcond1_1 t).mpr h1) (fun h => h2 ((hcond1_2 t).mp h)) (fun h => h3 ((hcond1_3 t).mp h)) (iblk1 V c 0 t) (iblk1 V c 1 t) (iblk1 V c 2 t) _ _ _).2.2.2 _ Set.univ _)
          isplitl [H0]; · iexact H0
          isplitl [H1]; · iexact H1
          isplitl [H2]; · iexact H2
          isplitl [H3]; · iexact H3
          isplitl [HS0]; · iexact HS0
          isplitl [HS1]; · iexact HS1
          isplitl [HS2]; · iexact HS2
          iintro ⟨H0, H1, H2, H3, ⟨%es0, HS0⟩, ⟨%es1, HS1⟩, ⟨%es2, HS2⟩⟩
          isplitl [HS0 HS1 HS2 Hr Hg]
          · isplitl [HS0]
            · unfold owns; iexists _; isplitr
              swap; · iexact HS0
              ipureintro; exact View.read_writes_of_cover _ _ _ _ _ (scover1_C_0 c _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover1_C_1 c _ _ _ _ _ _ _ _ _ _ _ _ _ _ _ _ _ _ _ _ _ _ _ _ _)
            isplitl [HS2]
            · unfold owns; iexists _; isplitr
              swap; · iexact HS2
              ipureintro; exact View.read_writes_of_cover _ _ _ _ _ (scover1_C_2 c _ _ _ _ _ _ _ _ _ _ _ _ _ _ _ _ _ _ _ _ _ _ _ _ _)
            isplitl [Hr]; · iexact Hr
            iexact Hg
          isplitl [Ho]; · iexact Ho
          isplitl [H0]; · iexact H0
          isplitl [H1]; · iexact H1
          isplitl [H2]; · iexact H2
          iexists _; iexact H3
    · by_cases h2 : t.val % 4 = t.val / 4 % 4
      · by_cases h3 : t.val % 4 = 3
        ·
          have hz : t.val ≠ 0 := by omega
          rw [show (dat1 V q1 c).leavesExact 3 t = owns (c : Thread nD τ) (ms1_3 t) fullShare ((dat1 V q1 c).after 3 t) from by
            unfold Dat.leavesExact; rw [liveAt1_3 t ((hcond1_3 t).mpr h3)], after1_3]
          rw [outsAt1_E V c t h0 h1 h2 h3]
          unfold caseE out1_E_3 sout1_E_0 sout1_E_1 sout1_E_2; (try dsimp only)
          rw [PhiS_castSucc V q1 c t, PhiS_pos V c _ _ hz]
          iintro ⟨⟨HS0, HS1, HS2, Hr, Hg⟩, Ho, ⟨%d0, H0⟩, ⟨%d1, H1⟩, ⟨%d2, H2⟩, ⟨%d3, H3⟩⟩
          iapply ((kernelRun1_E c (grid1.coords t) _ _ _ _ _ _ _ _ _ _ _ _ _ _ (fun h => h0 ((hcond1_0 t).mp h)) (fun h => h1 ((hcond1_1 t).mp h)) ((hcond1_2 t).mpr h2) ((hcond1_3 t).mpr h3) (iblk1 V c 0 t) (iblk1 V c 1 t) (iblk1 V c 2 t) _ _ _).2.2.2.2 Set.univ _)
          isplitl [H0]; · iexact H0
          isplitl [H1]; · iexact H1
          isplitl [H2]; · iexact H2
          isplitl [H3]; · iexists _; iexact H3
          isplitl [HS0]; · iexact HS0
          isplitl [HS1]; · iexact HS1
          isplitl [HS2]; · iexact HS2
          iintro ⟨H0, H1, H2, ⟨%e3, H3⟩, ⟨%es0, HS0⟩, ⟨%es1, HS1⟩, ⟨%es2, HS2⟩⟩
          isplitl [HS0 HS1 HS2 Hr Hg]
          · isplitl [HS0]
            · unfold owns; iexists _; isplitr
              swap; · iexact HS0
              ipureintro; exact View.read_writes_of_cover _ _ _ _ _ (scover1_E_0 c _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover1_E_1 c _ _ _ _ _ _ _ _ _ _ _ _ _ _ _ _ _ _ _ _ _ _ _ _ _)
            isplitl [HS2]
            · unfold owns; iexists _; isplitr
              swap; · iexact HS2
              ipureintro; exact View.read_writes_of_cover _ _ _ _ _ (scover1_E_2 c _ _ _ _ _ _ _ _ _ _ _ _ _ _ _ _ _ _ _ _ _ _ _ _ _)
            isplitl [Hr]; · iexact Hr
            iexact Hg
          isplitl [Ho]; · iexact Ho
          isplitl [H0]; · iexact H0
          isplitl [H1]; · iexact H1
          isplitl [H2]; · iexact H2
          unfold owns; iexists _; isplitr
          swap; · iexact H3
          ipureintro; exact View.read_writes_of_cover _ _ _ _ _ (cover1_E_3 c _ _ _ _ _ _ _ _ _ _ _ _ _ _ _ _ _ _ _ _ _ _ _ _ _)
        ·
          have hz : t.val ≠ 0 := by omega
          rw [Dat.leavesExact_idle (dat1 V q1 c) 3 t (idleAt1_3 t (fun h => h3 ((hcond1_3 t).mp h))) (noFlush1_3 t (fun h => h3 ((hcond1_3 t).mp h)))]
          rw [outsAt1_D V c t h0 h1 h2 h3]
          unfold caseD sout1_D_0 sout1_D_1 sout1_D_2; (try dsimp only)
          rw [PhiS_castSucc V q1 c t, PhiS_pos V c _ _ hz]
          iintro ⟨⟨HS0, HS1, HS2, Hr, Hg⟩, Ho, ⟨%d0, H0⟩, ⟨%d1, H1⟩, ⟨%d2, H2⟩, ⟨%d3, H3⟩⟩
          iapply ((kernelRun1_D c (grid1.coords t) _ _ _ _ _ _ _ _ _ _ _ _ _ _ (fun h => h0 ((hcond1_0 t).mp h)) (fun h => h1 ((hcond1_1 t).mp h)) ((hcond1_2 t).mpr h2) (fun h => h3 ((hcond1_3 t).mp h)) (iblk1 V c 0 t) (iblk1 V c 1 t) (iblk1 V c 2 t) _ _ _).2.2.2 _ Set.univ _)
          isplitl [H0]; · iexact H0
          isplitl [H1]; · iexact H1
          isplitl [H2]; · iexact H2
          isplitl [H3]; · iexact H3
          isplitl [HS0]; · iexact HS0
          isplitl [HS1]; · iexact HS1
          isplitl [HS2]; · iexact HS2
          iintro ⟨H0, H1, H2, H3, ⟨%es0, HS0⟩, ⟨%es1, HS1⟩, ⟨%es2, HS2⟩⟩
          isplitl [HS0 HS1 HS2 Hr Hg]
          · isplitl [HS0]
            · unfold owns; iexists _; isplitr
              swap; · iexact HS0
              ipureintro; exact View.read_writes_of_cover _ _ _ _ _ (scover1_D_0 c _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover1_D_1 c _ _ _ _ _ _ _ _ _ _ _ _ _ _ _ _ _ _ _ _ _ _ _ _ _)
            isplitl [HS2]
            · unfold owns; iexists _; isplitr
              swap; · iexact HS2
              ipureintro; exact View.read_writes_of_cover _ _ _ _ _ (scover1_D_2 c _ _ _ _ _ _ _ _ _ _ _ _ _ _ _ _ _ _ _ _ _ _ _ _ _)
            isplitl [Hr]; · iexact Hr
            iexact Hg
          isplitl [Ho]; · iexact Ho
          isplitl [H0]; · iexact H0
          isplitl [H1]; · iexact H1
          isplitl [H2]; · iexact H2
          iexists _; iexact H3
      · by_cases h3 : t.val % 4 = 3
        ·
          have hz : t.val ≠ 0 := by omega
          rw [show (dat1 V q1 c).leavesExact 3 t = owns (c : Thread nD τ) (ms1_3 t) fullShare ((dat1 V q1 c).after 3 t) from by
            unfold Dat.leavesExact; rw [liveAt1_3 t ((hcond1_3 t).mpr h3)], after1_3]
          rw [outsAt1_G V c t h0 h1 h2 h3]
          unfold caseG out1_G_3; (try dsimp only)
          rw [PhiS_castSucc V q1 c t, PhiS_pos V c _ _ hz]
          iintro ⟨⟨HS0, HS1, HS2, Hr, Hg⟩, Ho, ⟨%d0, H0⟩, ⟨%d1, H1⟩, ⟨%d2, H2⟩, ⟨%d3, H3⟩⟩
          iapply ((kernelRun1_G c (grid1.coords t) _ _ _ _ _ _ _ _ _ _ _ _ _ _ (fun h => h0 ((hcond1_0 t).mp h)) (fun h => h1 ((hcond1_1 t).mp h)) (fun h => h2 ((hcond1_2 t).mp h)) ((hcond1_3 t).mpr h3) (iblk1 V c 0 t) (iblk1 V c 1 t) (iblk1 V c 2 t) _ _ _).2 Set.univ _)
          isplitl [H0]; · iexact H0
          isplitl [H1]; · iexact H1
          isplitl [H2]; · iexact H2
          isplitl [H3]; · iexists _; iexact H3
          isplitl [HS0]; · iexact HS0
          isplitl [HS1]; · iexact HS1
          isplitl [HS2]; · iexact HS2
          iintro ⟨H0, H1, H2, ⟨%e3, H3⟩, HS0, HS1, HS2⟩
          isplitl [HS0 HS1 HS2 Hr Hg]
          · isplitl [HS0]; · iexact HS0
            isplitl [HS1]; · iexact HS1
            isplitl [HS2]; · iexact HS2
            isplitl [Hr]; · iexact Hr
            iexact Hg
          isplitl [Ho]; · iexact Ho
          isplitl [H0]; · iexact H0
          isplitl [H1]; · iexact H1
          isplitl [H2]; · iexact H2
          unfold owns; iexists _; isplitr
          swap; · iexact H3
          ipureintro; exact View.read_writes_of_cover _ _ _ _ _ (cover1_G_3 c _ _ _ _ _ _ _ _ _ _ _ _ _ _ _ _ _ _ _ _ _ _ _ _ _)
        ·
          have hz : t.val ≠ 0 := by omega
          rw [Dat.leavesExact_idle (dat1 V q1 c) 3 t (idleAt1_3 t (fun h => h3 ((hcond1_3 t).mp h))) (noFlush1_3 t (fun h => h3 ((hcond1_3 t).mp h)))]
          rw [outsAt1_F V c t h0 h1 h2 h3]
          (try dsimp only)
          rw [PhiS_castSucc V q1 c t, PhiS_pos V c _ _ hz]
          iintro ⟨⟨HS0, HS1, HS2, Hr, Hg⟩, Ho, ⟨%d0, H0⟩, ⟨%d1, H1⟩, ⟨%d2, H2⟩, ⟨%d3, H3⟩⟩
          iapply (kernelRun1_F c (grid1.coords t) _ _ _ _ _ _ _ _ _ _ _ _ _ _ (fun h => h0 ((hcond1_0 t).mp h)) (fun h => h1 ((hcond1_1 t).mp h)) (fun h => h2 ((hcond1_2 t).mp h)) (fun h => h3 ((hcond1_3 t).mp h)) (iblk1 V c 0 t) (iblk1 V c 1 t) (iblk1 V c 2 t) _ _ _ _ Set.univ _)
          isplitl [H0]; · iexact H0
          isplitl [H1]; · iexact H1
          isplitl [H2]; · iexact H2
          isplitl [H3]; · iexact H3
          isplitl [HS0]; · iexact HS0
          isplitl [HS1]; · iexact HS1
          isplitl [HS2]; · iexact HS2
          iintro ⟨H0, H1, H2, H3, HS0, HS1, HS2⟩
          isplitl [HS0 HS1 HS2 Hr Hg]
          · isplitl [HS0]; · iexact HS0
            isplitl [HS1]; · iexact HS1
            isplitl [HS2]; · iexact HS2
            isplitl [Hr]; · iexact Hr
            iexact Hg
          isplitl [Ho]; · iexact Ho
          isplitl [H0]; · iexact H0
          isplitl [H1]; · iexact H1
          isplitl [H2]; · iexact H2
          iexists _; iexact H3

theorem body_obligation1 (q1 : Fin 4 → PosShare TreeShare) (c : Dev nD) : BodyObligation (dat1 (F := F) V q1 c) (defs₀ (F := F)) Variants.none () Set.univ := fun t => by
  rw [bigSep_W1, bigSep_W1]
  exact sound_body1 V q1 c t

theorem hin1 (q1 : Fin 4 → PosShare TreeShare) (c : Dev nD) : Pipeline.ΦA spec1 c ⊢ (dat1 V q1 c).Φ 0 := by
  rw [show (dat1 V q1 c).Φ 0 = PhiS V c 0 (Nat.zero_le _) from rfl, PhiS_zero V c 0 _ rfl]
  try exact Idealize.SL.BI.Entails.refl _

theorem Phi_out1 (q1 : Fin 4 → PosShare TreeShare) (c : Dev nD) (t : Fin (cfg1.N + 1)) (ht : t.val ≠ 0) : (dat1 V q1 c).Φ t ⊢ Pipeline.ΦA spec1 c := by
  rw [show (dat1 V q1 c).Φ t = PhiS V c t.val (Nat.le_of_lt_succ t.isLt) from rfl, PhiS_pos V c _ _ ht, PhiA1_eq]
  iintro ⟨HS0, HS1, HS2, Hr, Hg⟩
  isplitl [HS0]; · iexists _; iexact HS0
  isplitl [HS1]; · iexists _; iexact HS1
  isplitl [HS2]; · iexists _; iexact HS2
  isplitl [Hr]; · iexact Hr
  iexact Hg

theorem hout1 (q1 : Fin 4 → PosShare TreeShare) (c : Dev nD) : (dat1 V q1 c).Φ (Fin.last cfg1.N) ⊢ Pipeline.ΦA spec1 c :=
  Phi_out1 V q1 c _ (by rw [Fin.val_last]; have : cfg1.N = 64 := N_1; omega)

end Cert.Kernel.Attn

end
-- ==== Proof.K.Shares1.lean ====
import proofs.«414918_j3358664426109_3_alg».proof.Proof.Gen.Kernel.Launch
import Idealize.ShloMosaic.Lib.Pipeline.Regions
import Idealize.ShloMosaic.Lib.Pipeline.RegionsLoop
import Idealize.ShloMosaic.Lib.Pipeline.FrameSuffix

noncomputable section

namespace Cert.Kernel.Shares1

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat)

variable {F : FTy → Type} [FloatOps F]

local notation "𝕄" => MT nD τ sig Unit (Elt F) ℕ (UR sig nD τ) ℕ

def q1 : Fin 4 → PosShare TreeShare := fun
  | ⟨0, _⟩ => fullShare.left
  | ⟨1, _⟩ => fullShare.right.left
  | ⟨2, _⟩ => fullShare.right.right
  | _ => fullShare

theorem image_arrRef1 : Finset.univ.image (Pipeline.arrRef spec1) = {main_v4, main_v5} := by decide

theorem arrBufs_eq1 (c : Dev nD) (V : (b : Ref sig .tc) → Buf (Elt F) ((c : Thread nD τ).loc b)) :
    (Pipeline.arrBufs (Ix := Unit) (Name := ℕ) (U := UR sig nD τ) (Lvl := ℕ) spec1 c V : sProp 𝕄)
      = iprop((((c : Thread nD τ).loc main_v4) ↦{fullShare} V main_v4) ∗ (((c : Thread nD τ).loc main_v5) ↦{fullShare} V main_v5)) := by
  unfold Pipeline.arrBufs
  rw [image_arrRef1, bigSep_insert (by decide), bigSep_singleton]
  rfl

theorem pointsTo_thirds {ℓ : Loc nD τ sig} {I : Finset (Idx ℓ)} (f : Buf (Elt F) ℓ) :
    (ℓ ↦[I]{fullShare} f : sProp 𝕄)
      = iprop((ℓ ↦[I]{fullShare.left} f) ∗ (ℓ ↦[I]{fullShare.right.left} f) ∗ ℓ ↦[I]{fullShare.right.right} f) := by
  have h₁ : (ℓ ↦[I]{fullShare} f : sProp 𝕄) ⊣⊢ iprop((ℓ ↦[I]{fullShare.left} f) ∗ ℓ ↦[I]{fullShare.right} f) :=
    pointsTo_share (PosShare.mem_left_op_right fullShare)
  have h₂ : (ℓ ↦[I]{fullShare.right} f : sProp 𝕄) ⊣⊢ iprop((ℓ ↦[I]{fullShare.right.left} f) ∗ ℓ ↦[I]{fullShare.right.right} f) :=
    pointsTo_share (PosShare.mem_left_op_right fullShare.right)
  rw [BI.equiv_iff.mp ⟨h₁.1, h₁.2⟩, BI.equiv_iff.mp ⟨h₂.1, h₂.2⟩]

theorem arrays_eq1 (c : Dev nD) (dat : Dat τ (Elt F) Unit ℕ (UR sig nD τ) ℕ cfg1 c) (hq : dat.q = q1)
    (G : (w : Fin cfg1.W) → Buf (Elt F) ((cfg1.win w).arr.view.loc (c : Thread nD τ))) :
    (dat.arrays G : sProp 𝕄)
      = iprop((((c : Thread nD τ).loc main_v4) ↦{fullShare.left} G 0) ∗ (((c : Thread nD τ).loc main_v4) ↦{fullShare.right.left} G 1)
          ∗ (((c : Thread nD τ).loc main_v4) ↦{fullShare.right.right} G 2) ∗ (((c : Thread nD τ).loc main_v5) ↦{fullShare} G 3)) := by
  have hs0 : dat.share 0 = fullShare.left := by unfold Dat.share; rw [hq]; rfl
  have hs1 : dat.share 1 = fullShare.right.left := by unfold Dat.share; rw [hq]; rfl
  have hs2 : dat.share 2 = fullShare.right.right := by unfold Dat.share; rw [hq]; rfl
  have hs3 : dat.share 3 = fullShare := by unfold Dat.share; rfl
  calc (dat.arrays G : sProp 𝕄)
      = bigSep Finset.univ fun w : Fin 4 => ((cfg1.win w).arr.view.loc (c : Thread nD τ) ↦{dat.share w} G w : sProp 𝕄) := by
        unfold Dat.arrays; exact bigSep_congr fun w _ => by rw [(arr_whole1 w).set_eq_univ]
    _ = _ := by rw [bigSep_W1, hs0, hs1, hs2, hs3]

theorem arrays_of_unscopedBufs1 (c : Dev nD) (dat : Dat τ (Elt F) Unit ℕ (UR sig nD τ) ℕ cfg1 c) (hq : dat.q = q1)
    (V : (b : Ref sig .tc) → Buf (Elt F) ((c : Thread nD τ).loc b))
    (hA : ∀ w, dat.A w = V (Pipeline.arrRef spec1 w)) :
    (unscopedBufs c V : sProp 𝕄)
      ⊢ iprop(dat.arrays dat.A ∗ Pipeline.unscopedRest (Ix := Unit) (Name := ℕ) (U := UR sig nD τ) (Lvl := ℕ) spec1 c V) := by
  have hsplit : (unscopedBufs c V : sProp 𝕄) = iprop(Pipeline.arrBufs spec1 c V ∗ Pipeline.unscopedRest spec1 c V) :=
    Pipeline.unscopedBufs_split₀ (Ix := Unit) (Name := ℕ) (U := UR sig nD τ) (Lvl := ℕ) cfgs 1 winFacts₀1.arr_unscoped c V
  rw [hsplit]
  refine sep_mono ?_ .rfl
  rw [arrBufs_eq1, arrays_eq1 c dat hq, hA 0, hA 1, hA 2, hA 3,
    pointsTo_thirds (ℓ := (c : Thread nD τ).loc main_v4) (V main_v4)]
  iintro ⟨⟨Hq, Hk, Hv⟩, Ho⟩
  isplitl [Hq]; · iexact Hq
  isplitl [Hk]; · iexact Hk
  isplitl [Hv]; · iexact Hv
  iexact Ho

theorem unscopedBufs_of_arrays1 (c : Dev nD) (dat : Dat τ (Elt F) Unit ℕ (UR sig nD τ) ℕ cfg1 c) (hq : dat.q = q1)
    (V V' : (b : Ref sig .tc) → Buf (Elt F) ((c : Thread nD τ).loc b))
    (G : (w : Fin cfg1.W) → Buf (Elt F) ((cfg1.win w).arr.view.loc (c : Thread nD τ)))
    (hG : ∀ w, G w = V' (Pipeline.arrRef spec1 w))
    (hrest : ∀ b, b ∉ Finset.univ.image (Pipeline.arrRef spec1) → V' b = V b) :
    iprop(dat.arrays G ∗ Pipeline.unscopedRest (Ix := Unit) (Name := ℕ) (U := UR sig nD τ) (Lvl := ℕ) spec1 c V)
      ⊢ (unscopedBufs c V' : sProp 𝕄) := by
  have hsplit : (unscopedBufs c V' : sProp 𝕄) = iprop(Pipeline.arrBufs spec1 c V' ∗ Pipeline.unscopedRest spec1 c V') :=
    Pipeline.unscopedBufs_split₀ (Ix := Unit) (Name := ℕ) (U := UR sig nD τ) (Lvl := ℕ) cfgs 1 winFacts₀1.arr_unscoped c V'
  rw [hsplit]
  refine sep_mono ?_ (Entails.of_eq ?_)
  · rw [arrBufs_eq1, arrays_eq1 c dat hq, hG 0, hG 1, hG 2, hG 3,
      pointsTo_thirds (ℓ := (c : Thread nD τ).loc main_v4) (V' main_v4)]
    iintro ⟨Hq, Hk, Hv, Ho⟩
    isplitr [Ho]
    · isplitl [Hq]; · iexact Hq
      isplitl [Hk]; · iexact Hk
      iexact Hv
    · iexact Ho
  · unfold Pipeline.unscopedRest
    exact bigSep_congr fun b hb => by rw [hrest b (Finset.mem_sdiff.mp hb).2]

end Cert.Kernel.Shares1
-- ==== Proof.K.Fold.lean ====
import proofs.«414918_j3358664426109_3_alg».proof.Proof.K.Lin0
import proofs.«414918_j3358664426109_3_alg».proof.Proof.K.Lin2
import proofs.«414918_j3358664426109_3_alg».proof.Proof.K.AttnFrame
import proofs.«414918_j3358664426109_3_alg».proof.Proof.K.Shares1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Fold

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

abbrev W0 : Dev nD → Valuation τ sig (Elt F) := fun c b => m ((c : Dev nD), b)

abbrev W1 : Dev nD → Valuation τ sig (Elt F) := fun c => StableHlo.after hostOps0 (W0 m c)
abbrev V1 : (c : Dev nD) → (b : Ref sig .tc) → Buf (Elt F) ((c : Thread nD τ).loc b) := fun c b => W1 m c b

def W2 (c : Dev nD) : Valuation τ sig (Elt F) :=
  Pipeline.withArrays spec0 c (W1 m c) fun w => (Lin0.dat0 (V1 m) c).arrAt w cfg0.N
theorem W2_arr (c : Dev nD) (w : Fin cfg0.W) :
    W2 m c (Proc.devRef .tc (Pipeline.arrRef spec0 w)) = (Lin0.dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (Lin0.dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

abbrev dat1 (c : Dev nD) : Dat τ (Elt F) Unit ℕ (UR sig nD τ) ℕ cfg1 c := Attn.dat1 (V2 m) Shares1.q1 c

def W3 (c : Dev nD) : Valuation τ sig (Elt F) :=
  Function.update (W2 m c) (Proc.devRef .tc main_v5) ((dat1 m c).arrAt 3 cfg1.N)
abbrev V3 : (c : Dev nD) → (b : Ref sig .tc) → Buf (Elt F) ((c : Thread nD τ).loc b) := fun c b => W3 m c b
theorem W3_v5 (c : Dev nD) : W3 m c (Proc.devRef .tc main_v5) = (dat1 m c).arrAt 3 cfg1.N := by
  unfold W3; exact Function.update_self ..
theorem W3_of_ne (c : Dev nD) (b : Ref sig .tc) (hb : b ≠ main_v5) :
    W3 m c (Proc.devRef .tc b) = W2 m c (Proc.devRef .tc b) := by
  unfold W3; exact Function.update_of_ne (StableHlo.devRef_ne_of_ne hb) ..

abbrev W4 : Dev nD → Valuation τ sig (Elt F) := fun c => StableHlo.after hostOps2 (W3 m c)
abbrev V4 : (c : Dev nD) → (b : Ref sig .tc) → Buf (Elt F) ((c : Thread nD τ).loc b) := fun c b => W4 m c b

def W5 (c : Dev nD) : Valuation τ sig (Elt F) :=
  Pipeline.withArrays spec2 c (W4 m c) fun w => (Lin2.dat2 (V4 m) c).arrAt w cfg2.N
theorem W5_arr (c : Dev nD) (w : Fin cfg2.W) :
    W5 m c (Proc.devRef .tc (Pipeline.arrRef spec2 w)) = (Lin2.dat2 (V4 m) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m c (Proc.devRef .tc b) = W4 m c (Proc.devRef .tc b) := by
  unfold W5; exact Pipeline.withArrays_of_ne spec2 c _ _ b hb
abbrev V5 : (c : Dev nD) → (b : Ref sig .tc) → Buf (Elt F) ((c : Thread nD τ).loc b) := fun c b => W5 m c b
theorem hF2 (c : Dev nD) (w : Fin cfg2.W) : (Lin2.dat2 (V4 m) c).arrAt w cfg2.N = V5 m c (Pipeline.arrRef spec2 w) :=
  (W5_arr m c w).symm
theorem hrest2 (c : Dev nD) : ∀ b, b ∉ Finset.univ.image (Pipeline.arrRef spec2) → V5 m c b = V4 m c b :=
  fun b hb => W5_of_ne m c b fun w e => hb (Finset.mem_image.mpr ⟨w, Finset.mem_univ _, e⟩)

abbrev W6 : Dev nD → Valuation τ sig (Elt F) := fun c => StableHlo.after hostOps3 (W5 m c)

end Cert.Kernel.Fold

end
-- ==== Proof.K.Run.lean ====
import proofs.«414918_j3358664426109_3_alg».proof.Proof.K.Fold
import proofs.«414918_j3358664426109_3_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Run

open Cert.Kernel Cert.Kernel.Gen Cert.Kernel.Fold
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev adm : (p : Fin 3) → (pcfgs (F := F) p).Adm := fun p => (cfgs p).toPCfg_adm

def pdats : (p : Fin 3) → (c : Dev nD) → Dat τ (Elt F) Unit ℕ (UR sig nD τ) ℕ (Pipeline.pin (pcfgs (F := F)) adm p) c
  | ⟨0, _⟩ => fun c => Lin0.dat0 (V1 m) c
  | ⟨1, _⟩ => fun c => dat1 m c
  | ⟨2, _⟩ => fun c => Lin2.dat2 (V4 m) c
abbrev 𝒱₀ : Variants := Variants.none
abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W6 m c) ∗ ∃ r, prngReg c r)

set_option backward.isDefEq.respectTransparency.types false in

def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Lin0.body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

theorem hG1 (c : Dev nD) (w : Fin cfg1.W) : (dat1 m c).arrAt w cfg1.N = V3 m c (Pipeline.arrRef spec1 w) := by
  match w with
  | ⟨0, _⟩ => exact ((dat1 m c).arrAt_in 0 rfl _).trans (((Attn.A_eq1 (V2 m) Shares1.q1 c 0)).trans (W3_of_ne m c main_v4 (by decide)).symm)
  | ⟨1, _⟩ => exact ((dat1 m c).arrAt_in 1 rfl _).trans (((Attn.A_eq1 (V2 m) Shares1.q1 c 1)).trans (W3_of_ne m c main_v4 (by decide)).symm)
  | ⟨2, _⟩ => exact ((dat1 m c).arrAt_in 2 rfl _).trans (((Attn.A_eq1 (V2 m) Shares1.q1 c 2)).trans (W3_of_ne m c main_v4 (by decide)).symm)
  | ⟨3, _⟩ => exact (W3_v5 m c).symm
theorem hrest1 (c : Dev nD) : ∀ b, b ∉ Finset.univ.image (Pipeline.arrRef spec1) → V3 m c b = V2 m c b :=
  fun b hb => W3_of_ne m c b fun e => hb (Finset.mem_image.mpr ⟨3, Finset.mem_univ _, e.symm⟩)

set_option backward.isDefEq.respectTransparency.types false in

def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (Attn.body_obligation1 (V2 m) Shares1.q1 c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Shares1.arrays_of_unscopedBufs1 c (pdats m 1 c) rfl (V2 m c) (fun w => Attn.A_eq1 (V2 m) Shares1.q1 c w)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = (Attn.dat1 (V2 m) Shares1.q1 c).Φ 0 from rfl]
    iintro ⟨Hp, -, Hr⟩
    iapply (Attn.hin1 (V2 m) Shares1.q1 c)
    unfold Pipeline.ΦA
    isplitl [Hr]; · iexact Hr
    iexact Hp
  hout c := by
    rw [Pipeline.ownSems0_none, show (pdats m 1 c).Φ (Fin.last _) = (Attn.dat1 (V2 m) Shares1.q1 c).Φ (Fin.last cfg1.N) from rfl]
    iintro HΦ
    ihave H := (Attn.hout1 (V2 m) Shares1.q1 c) $$ HΦ
    unfold Pipeline.ΦA
    icases H with ⟨Hr, Hp⟩
    isplitl [Hp]; · iexact Hp
    isplitr; · iempintro
    iexact Hr
  hexit c := by
    have hjoin := Shares1.unscopedBufs_of_arrays1 c (pdats m 1 c) rfl (V2 m c) (V3 m c) ((pdats m 1 c).arrAt · cfg1.N) (hG1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in

def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (Lin2.body_obligation2 (V4 m) c).loose
  hwaits := Pipeline.hwaits_of_owed_zero _ _ _ _ L lv 2 fun _ _ => rfl
  pre c := iprop(StableHlo.held (c : Thread nD τ) (Pipeline.ucRefs τ sig) (W4 m c) ∗ R c)
  post c := iprop(StableHlo.held (c : Thread nD τ) (Pipeline.ucRefs τ sig) (W5 m c) ∗ R c)
  X c := iprop(∃ r, prngReg c r)
  Y c := iprop(∃ r, prngReg c r)
  Z c := Pipeline.unscopedRest (Ix := Unit) (Name := ℕ) (U := UR sig nD τ) (Lvl := ℕ) spec2 c (V4 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V4 m c) (V5 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

abbrev segs : List (Pipeline.Seg (pcfgs (F := F)) adm (pdats m) () defs₀ 𝒱₀ L lv) :=
  [ .host (hseg hostOps0 hostOps0_sub hostOps0_fresh (W0 m)),
    .region (reg0 m),
    .region (reg1 m),
    .host (hseg hostOps2 hostOps2_sub hostOps2_fresh (W3 m)),
    .region (reg2 m),
    .host (hseg hostOps3 hostOps3_sub hostOps3_fresh (W5 m)) ]

theorem main_run (c : Dev nD) : main (F := F) c = Pipeline.Seg.run (segs m) := (main_chain c).trans (by chain_rfl)

set_option backward.isDefEq.respectTransparency.types false in

theorem run_main : θ_run defs (onTc (τ := τ) (main (F := F))) ⟨m, fun _ => 0, ρ⟩ (fun r => ∀ c : Dev nD,
      ∀ b ∈ Pipeline.ucRefs τ sig, r.2.mem (((c : Thread nD τ)).1, b) = W6 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun c => by
      show (iprop(StableHlo.held (c : Thread nD τ) (Pipeline.ucRefs τ sig) (W6 m c) ∗ R c) : sProp 𝕄)
        ⊢ iprop(Tₙ m c ∗ ∃ W, owes (c : Thread nD τ) (0 : CellTallies nD τ sig Unit) W)
      iintro ⟨Hh, Hp, HO⟩
      isplitl [Hh Hp]
      · isplitl [Hh] <;> iassumption
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m c b)
    (hfin := fun c s' => by
      iintro ⟨⟨Hh, -⟩, HSI⟩
      unfold StableHlo.held
      imodintro
      iapply (pointsTo_read_all (Pipeline.ucRefs τ sig) (fun b => (((c : Thread nD τ)).1, b)) (W6 m c) s')
      isplitl [Hh] <;> iassumption)
    (hQ := fun s h c => h c)

end Cert.Kernel.Run

end
-- ==== Proof.K.FoldArgs.lean ====
import proofs.«414918_j3358664426109_3_alg».proof.Proof.K.Fold

noncomputable section

namespace Cert.Kernel.FoldArgs

open Cert.Kernel Cert.Kernel.Gen
open Idealize.ShloMosaic Idealize.ShloMosaic.TcCoe
open Idealize.SL Idealize.SL.Sem

variable {F : FTy → Type} [FloatOps F]

variable (m : (ℓ : Loc nD τ sig) → Buf (Elt F) ℓ)

theorem W1_of (c : Dev nD) (r : Ref sig .tc) (h0 : r ≠ main_v0) (h1 : r ≠ main_v1) (h2 : r ≠ main_v2)
    (h3 : r ≠ main_v3) : Fold.W1 m c (Proc.devRef .tc r) = Fold.W0 m c (Proc.devRef .tc r) :=
  StableHlo.after_of_forall_not_mem (b := Proc.devRef .tc r) _ _ (List.forall_iff_forall_mem.mp (by
    simp only [hostOps0, List.Forall, StableHlo.unary_writes, StableHlo.reshape_writes, Finset.mem_singleton]
    exact ⟨StableHlo.devRef_ne_of_ne h0, StableHlo.devRef_ne_of_ne h1, StableHlo.devRef_ne_of_ne h2,
      StableHlo.devRef_ne_of_ne h3⟩))

theorem W4_of (c : Dev nD) (r : Ref sig .tc) (h : r ≠ main_v6) :
    Fold.W4 m c (Proc.devRef .tc r) = Fold.W3 m c (Proc.devRef .tc r) :=
  StableHlo.after_of_forall_not_mem (b := Proc.devRef .tc r) _ _ (List.forall_iff_forall_mem.mp (by
    simp only [hostOps2, List.Forall, StableHlo.reshape_writes, Finset.mem_singleton]
    exact StableHlo.devRef_ne_of_ne h))

theorem W6_of (c : Dev nD) (r : Ref sig .tc) (h : r ≠ main_v8) :
    Fold.W6 m c (Proc.devRef .tc r) = Fold.W5 m c (Proc.devRef .tc r) :=
  StableHlo.after_of_forall_not_mem (b := Proc.devRef .tc r) _ _ (List.forall_iff_forall_mem.mp (by
    simp only [hostOps3, List.Forall, StableHlo.reshape_writes, Finset.mem_singleton]
    exact StableHlo.devRef_ne_of_ne h))

theorem W6_of_untouched (c : Dev nD) (r : Ref sig .tc) (h0 : r ≠ main_v0) (h1 : r ≠ main_v1) (h2 : r ≠ main_v2)
    (h3 : r ≠ main_v3) (hr0 : ∀ w, Pipeline.arrRef spec0 w ≠ r) (h5 : r ≠ main_v5) (h6 : r ≠ main_v6)
    (hr2 : ∀ w, Pipeline.arrRef spec2 w ≠ r) (h8 : r ≠ main_v8) :
    Fold.W6 m c (Proc.devRef .tc r) = m ((c.tc : Thread nD τ).loc r) :=
  calc Fold.W6 m c (Proc.devRef .tc r)
    _ = Fold.W5 m c (Proc.devRef .tc r) := W6_of m c r h8
    _ = Fold.W4 m c (Proc.devRef .tc r) := Fold.W5_of_ne m c r hr2
    _ = Fold.W3 m c (Proc.devRef .tc r) := W4_of m c r h6
    _ = Fold.W2 m c (Proc.devRef .tc r) := Fold.W3_of_ne m c r h5
    _ = Fold.W1 m c (Proc.devRef .tc r) := Fold.W2_of_ne m c r hr0
    _ = Fold.W0 m c (Proc.devRef .tc r) := W1_of m c r h0 h1 h2 h3
    _ = m ((c.tc : Thread nD τ).loc r) := rfl

theorem arg0 (c : Dev nD) : Fold.W6 m c (Proc.devRef .tc main_arg0) = m ((c.tc : Thread nD τ).loc main_arg0) :=
  W6_of_untouched m c main_arg0 (by decide) (by decide) (by decide) (by decide) (by decide) (by decide) (by decide)
    (by decide) (by decide)

theorem arg1 (c : Dev nD) : Fold.W6 m c (Proc.devRef .tc main_arg1) = m ((c.tc : Thread nD τ).loc main_arg1) :=
  W6_of_untouched m c main_arg1 (by decide) (by decide) (by decide) (by decide) (by decide) (by decide) (by decide)
    (by decide) (by decide)

theorem arg2 (c : Dev nD) : Fold.W6 m c (Proc.devRef .tc main_arg2) = m ((c.tc : Thread nD τ).loc main_arg2) :=
  W6_of_untouched m c main_arg2 (by decide) (by decide) (by decide) (by decide) (by decide) (by decide) (by decide)
    (by decide) (by decide)

theorem arg3 (c : Dev nD) : Fold.W6 m c (Proc.devRef .tc main_arg3) = m ((c.tc : Thread nD τ).loc main_arg3) :=
  W6_of_untouched m c main_arg3 (by decide) (by decide) (by decide) (by decide) (by decide) (by decide) (by decide)
    (by decide) (by decide)

theorem arg4 (c : Dev nD) : Fold.W6 m c (Proc.devRef .tc main_arg4) = m ((c.tc : Thread nD τ).loc main_arg4) :=
  W6_of_untouched m c main_arg4 (by decide) (by decide) (by decide) (by decide) (by decide) (by decide) (by decide)
    (by decide) (by decide)

end Cert.Kernel.FoldArgs

end
-- ==== Proof.KI.Lin0.lean ====
import proofs.«414918_j3358664426109_3_alg».proof.Proof.Gen.KernelIdeal.Launch
import proofs.«414918_j3358664426109_3_alg».proof.Proof.Gen.KernelIdeal.Skeleton
import proofs.«414918_j3358664426109_3_alg».proof.Proof.Gen.KernelIdeal.Points
import Idealize.ShloMosaic.Lib.Pipeline.FrameBody
import Idealize.ShloMosaic.Lib.Ring
import Idealize.ShloMosaic.Lib.Tactic

noncomputable section

namespace Cert.KernelIdeal.Lin0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

abbrev r0_0 : Rect S512x1024 := Rect.unit (s := S512x1024) ![0, 0] S512x1024.size inb_S512x1024_S512x1024_0_0
abbrev r0_1 : Rect S3072x1024 := Rect.unit (s := S3072x1024) ![0, 0] S3072x1024.size inb_S3072x1024_S3072x1024_0_0
abbrev r0_2 : Rect S1x3072 := Rect.unit (s := S1x3072) ![0, 0] S1x3072.size inb_S1x3072_S1x3072_0_0
abbrev r0_3 : Rect S512x3072 := Rect.unit (s := S512x3072) ![0, 0] S512x3072.size inb_S512x3072_S512x3072_0_0

def out0_3 (x0 : Vec F S512x1024 .f32) (x1 : Vec F S3072x1024 .bf16) (x2 : Vec F S1x3072 .f32) : Vec F S512x3072 .bf16 :=
  View.canon [⟨r0_3, k0_pay1 (View.ld x0 r0_0) (View.ld x1 r0_1) (View.ld x2 r0_2)⟩]

theorem cover0_3 (p0 : Vec F S512x3072 .bf16) (y : S512x3072.Idx) :
    ∃ pc ∈ ([⟨r0_3, p0⟩] : List (View.Piece (Elt F) S512x3072 .bf16)), y ∈ pc.1.set :=
  View.cover_of_tiled [⟨r0_3, p0⟩] S512x3072.size (by rfl) y

set_option maxHeartbeats 1000000 in

theorem sound_kernel0 (c : Dev nD) (E : Set ℕ) (i : grid0.Coords)
    (arg1 : Memref sig .tc .vmem S512x1024 .f32) (harg1 : arg1.IsWhole)
    (arg2 : Memref sig .tc .vmem S3072x1024 .bf16) (harg2 : arg2.IsWhole)
    (arg3 : Memref sig .tc .vmem S1x3072 .f32) (harg3 : arg3.IsWhole)
    (arg4 : Memref sig .tc .vmem S512x3072 .bf16) (harg4 : arg4.IsWhole)
    (x0 : Vec F S512x1024 .f32) (x1 : Vec F S3072x1024 .bf16) (x2 : Vec F S1x3072 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__linear_kernel i arg1 harg1 arg2 harg2 arg3 harg3 arg4 harg4) K := by
  simp only [cc0__linear_kernel_eq_skeleton]; unfold cc0__linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation0 (c : Dev nD) : BodyObligation (dat0 (F := F) V c) (defs₀ (F := F)) Variants.none () Set.univ := fun t => by
  rw [bigSep_W0, bigSep_W0]
  exact sound_body0 V c t

end Cert.KernelIdeal.Lin0

end
-- ==== Proof.KI.Lin2.lean ====
import proofs.«414918_j3358664426109_3_alg».proof.Proof.Gen.KernelIdeal.Launch
import proofs.«414918_j3358664426109_3_alg».proof.Proof.Gen.KernelIdeal.Skeleton
import proofs.«414918_j3358664426109_3_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Lin2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the TensorCore's buffer contents when the region is entered: everything below is stated at this parameter
variable (V : (c : Dev nD) → (b : Ref sig .tc) → Buf (Elt F) ((c : Thread nD τ).loc b))

/-! # The second linear layer (region 2): x · Wᵀ + b on a grid of 16 row blocks -/

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0 (the row block of x) holds its block at every point, for any proof data whose array is `V`'s and
    whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1 (the whole weight) holds its block at every point although it is fetched at the first point
    only: unfetched, its block index has not moved. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2 (the bias row), likewise fetched at the first point only, holds its block at every point. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each buffer whole -/

abbrev r2_0 : Rect S512x1024 := Rect.unit (s := S512x1024) ![0, 0] S512x1024.size inb_S512x1024_S512x1024_0_0
abbrev r2_1 : Rect S1024x1024 := Rect.unit (s := S1024x1024) ![0, 0] S1024x1024.size inb_S1024x1024_S1024x1024_0_0
abbrev r2_2 : Rect S1x1024 := Rect.unit (s := S1x1024) ![0, 0] S1x1024.size inb_S1x1024_S1x1024_0_0
abbrev r2_3 : Rect S512x1024 := Rect.unit (s := S512x1024) ![0, 0] S512x1024.size inb_S512x1024_S512x1024_0_0

/-! ## What the body leaves in the output window's buffer -/

/-- Window 3's staging buffer after the body, from the three input blocks: its one store, whole, of the payload
    (the product of the x block with the transposed weight, plus the bias row, rounded to the output type). -/
def out2_3 (x0 : Vec F S512x1024 .bf16) (x1 : Vec F S1024x1024 .bf16) (x2 : Vec F S1x1024 .f32) : Vec F S512x1024 .f32 :=
  View.canon [⟨r2_3, k2_pay1 (View.ld x0 r2_0) (View.ld x1 r2_1) (View.ld x2 r2_2)⟩]

/-- The one store is the whole buffer, so it covers it. -/
theorem cover2_3 (p0 : Vec F S512x1024 .f32) (y : S512x1024.Idx) :
    ∃ pc ∈ ([⟨r2_3, p0⟩] : List (View.Piece (Elt F) S512x1024 .f32)), y ∈ pc.1.set :=
  View.cover_of_tiled [⟨r2_3, p0⟩] S512x1024.size (by rfl) y

/-! ## The body's triple -/

set_option maxHeartbeats 1000000 in
/-- The body on whole staging memrefs, the three inputs' at read contents `x0 x1 x2` and the output's at anything,
    runs to the continuation holding the inputs' as they were and the output's at `out2_3 x0 x1 x2`. The body also
    loads the output buffer before storing it whole; what it loads is not used. -/
theorem sound_kernel2 (c : Dev nD) (E : Set ℕ) (i : grid2.Coords)
    (arg1 : Memref sig .tc .vmem S512x1024 .bf16) (harg1 : arg1.IsWhole)
    (arg2 : Memref sig .tc .vmem S1024x1024 .bf16) (harg2 : arg2.IsWhole)
    (arg3 : Memref sig .tc .vmem S1x1024 .f32) (harg3 : arg3.IsWhole)
    (arg4 : Memref sig .tc .vmem S512x1024 .f32) (harg4 : arg4.IsWhole)
    (x0 : Vec F S512x1024 .bf16) (x1 : Vec F S1024x1024 .bf16) (x2 : Vec F S1x1024 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out2_3 x0 x1 x2)) -∗ K ⟨⟩))
      ⊢ wp frame (wpE (defs₀ (F := F)) Variants.none c none) E (cc2__linear_kernel i arg1 harg1 arg2 harg2 arg3 harg3 arg4 harg4) K := by
  simp only [cc2__linear_kernel_eq_skeleton]; unfold cc2__linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-! ## The pipeline's proof data -/

/-- The proof data of pipeline 2 on core `c`: the arrays as the region finds them (`V`); after the body at point
    `t` each input's buffer at its block and the output's at `out2_3` of the input blocks; the invariant is the scoped
    rest and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = out2_3 (iblk2 V c 0 t) (iblk2 V c 1 t) (iblk2 V c 2 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' memrefs hold their blocks, so the body's triple applies; the invariant and
    the core's debts pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Lin2

end
-- ==== Proof.KI.AttnConds.lean ====
import proofs.«414918_j3358664426109_3_alg».proof.Proof.Gen.KernelIdeal.Launch
import proofs.«414918_j3358664426109_3_alg».proof.Proof.Gen.KernelIdeal.Skeleton
import proofs.«414918_j3358664426109_3_alg».proof.Proof.Gen.KernelIdeal.Points
import Idealize.ShloMosaic.Lib.Pipeline.FrameBody
import Idealize.ShloMosaic.Lib.Ring
import Idealize.ShloMosaic.Lib.Tactic

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

abbrev cond1_0 (i : grid1.Coords) : Prop := (Scalar.cmpi .ne (Scalar.extui (Scalar.cmpi .eq (BitVec.ofNat 32 (i 2).val) 0#32)) 0#32) = 1#1
abbrev cond1_1 (i : grid1.Coords) : Prop := (Scalar.cmpi .ne (Scalar.extui (Scalar.cmpi .slt (BitVec.ofNat 32 (i 2).val) (BitVec.ofNat 32 (i 1).val))) 0#32) = 1#1
abbrev cond1_2 (i : grid1.Coords) : Prop := (Scalar.cmpi .ne (Scalar.extui (Scalar.cmpi .eq (BitVec.ofNat 32 (i 2).val) (BitVec.ofNat 32 (i 1).val))) 0#32) = 1#1
abbrev cond1_3 (i : grid1.Coords) : Prop := k1_cond4 i = 1#1

theorem hcond1_0 : ∀ t : Fin cfg1.N, cond1_0 (grid1.coords t) ↔ t.val % 4 = 0 :=
  (by decide +kernel : ∀ t : Fin grid1.N, cond1_0 (grid1.coords t) ↔ t.val % 4 = 0)

theorem hcond1_1 : ∀ t : Fin cfg1.N, cond1_1 (grid1.coords t) ↔ t.val % 4 < t.val / 4 % 4 :=
  (by decide +kernel : ∀ t : Fin grid1.N, cond1_1 (grid1.coords t) ↔ t.val % 4 < t.val / 4 % 4)

theorem hcond1_2 : ∀ t : Fin cfg1.N, cond1_2 (grid1.coords t) ↔ t.val % 4 = t.val / 4 % 4 :=
  (by decide +kernel : ∀ t : Fin grid1.N, cond1_2 (grid1.coords t) ↔ t.val % 4 = t.val / 4 % 4)

theorem hcond1_3 : ∀ t : Fin cfg1.N, cond1_3 (grid1.coords t) ↔ t.val % 4 = 3 :=
  (by decide +kernel : ∀ t : Fin grid1.N, cond1_3 (grid1.coords t) ↔ t.val % 4 = 3)

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel

theorem idleAt1_3 : ∀ t : Fin cfg1.N, ¬cond1_3 (grid1.coords t) → cfg1.idle 3 (grid1.coords t) = true := by decide +kernel

theorem noFlush1_3 : ∀ t : Fin cfg1.N, ¬cond1_3 (grid1.coords t) → (cfg1.win 3).flush t = false := by decide +kernel

theorem liveAt1_3 : ∀ t : Fin cfg1.N, cond1_3 (grid1.coords t) → cfg1.idle 3 (grid1.coords t) = false := by decide +kernel

abbrev VO1_3 : View sig .tc .vmem S512x1024 .bf16 := (Memref.whole cc1_stg3_0 : Memref sig .tc .vmem S512x1024 .bf16).view

abbrev ms1_0 (t : Fin cfg1.N) : Memref sig .tc .vmem S512x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S512x1024 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S512x1024 .bf16 := win1_3.stage (cfg1.slots t 3)
abbrev hs1_3 (t : Fin cfg1.N) : (ms1_3 t).IsWhole := hstage1_3 ((cfg1.slots t 3).cast nbuf1_3)

abbrev scM1_0 : Memref sig .tc .vmem S512x16 .f32 := Memref.whole cc1_scratch0
abbrev scM1_1 : Memref sig .tc .vmem S512x16 .f32 := Memref.whole cc1_scratch1
abbrev scM1_2 : Memref sig .tc .vmem S512x1024 .f32 := Memref.whole cc1_scratch2
abbrev VS1_0 : View sig .tc .vmem S512x16 .f32 := scM1_0.view
abbrev VS1_1 : View sig .tc .vmem S512x16 .f32 := scM1_1.view
abbrev VS1_2 : View sig .tc .vmem S512x1024 .f32 := scM1_2.view

end Cert.KernelIdeal.Attn

end
-- ==== Proof.KI.AttnRunA.lean ====
import proofs.«414918_j3358664426109_3_alg».proof.Proof.KI.AttnConds

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 40000000 in
/-- The body where the key tile is the first and lies before the query tile (ki = 0 < qi): the scratch is reset, then every head takes an unmasked step. What the stores leave in the three scratch buffers, as pieces (last first), with the proof that the body runs to the continuation holding the inputs and the idle output block as they were and the scratch with those pieces written. -/
noncomputable def kernelRun1_A (c : Dev nD) (i : grid1.Coords) (arg3 : Memref sig .tc .vmem S512x1024 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S512x16 .f32) (harg7 : arg7.IsWhole) (arg8 : Memref sig .tc .vmem S512x16 .f32) (harg8 : arg8.IsWhole) (arg9 : Memref sig .tc .vmem S512x1024 .f32) (harg9 : arg9.IsWhole) (hc0 : cond1_0 i) (hc1 : cond1_1 i) (hc2 : ¬cond1_2 i) (hc3 : ¬cond1_3 i)
    (x0 x1 x2 : Vec F S512x1024 .bf16) :
    Σ' (LS0 : List (View.Piece (Elt F) S512x16 .f32)), Σ' (LS1 : List (View.Piece (Elt F) S512x16 .f32)), { LS2 : List (View.Piece (Elt F) S512x1024 .f32) //
      ∀ (xi3 : Vec F S512x1024 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3
            ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg3 fullShare x0 ∗ owns (c : Thread nD τ) arg4 fullShare x1 ∗ owns (c : Thread nD τ) arg5 fullShare x2
                ∗ owns (c : Thread nD τ) arg6 fullShare xi3
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1_kernel i arg3 harg3 arg4 harg4 arg5 harg5 arg6 harg6 arg7 harg7 arg8 harg8 arg9 harg9) K } := by
  refine ⟨?_, ?_, ?_, fun xi3 E K => ?run⟩
  case run =>
    simp only [cc1_kernel_eq_skeleton]; unfold cc1_kernel_skel
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, ⟨%ds2, %fs2, -, HS2⟩, Hk⟩
    obtain rfl := harg3.eq_unread hf0; obtain rfl := harg4.eq_unread hf1; obtain rfl := harg5.eq_unread hf2; obtain rfl := harg6.eq_unread hf3
    sl_exec (disch := first | exact hc0 | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]; · iexists _; iexact HS0
    isplitl [HS1]; · iexists _; iexact HS1
    iexists _; iexact HS2

end Cert.KernelIdeal.Attn

end
-- ==== Proof.KI.AttnRunB.lean ====
import proofs.«414918_j3358664426109_3_alg».proof.Proof.KI.AttnConds

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 40000000 in
/-- The body where the key tile is the first and is the query tile (ki = 0 = qi): the scratch is reset, then every head takes a step under the causal mask. -/
noncomputable def kernelRun1_B (c : Dev nD) (i : grid1.Coords) (arg3 : Memref sig .tc .vmem S512x1024 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S512x16 .f32) (harg7 : arg7.IsWhole) (arg8 : Memref sig .tc .vmem S512x16 .f32) (harg8 : arg8.IsWhole) (arg9 : Memref sig .tc .vmem S512x1024 .f32) (harg9 : arg9.IsWhole) (hc0 : cond1_0 i) (hc1 : ¬cond1_1 i) (hc2 : cond1_2 i) (hc3 : ¬cond1_3 i)
    (x0 x1 x2 : Vec F S512x1024 .bf16) :
    Σ' (LS0 : List (View.Piece (Elt F) S512x16 .f32)), Σ' (LS1 : List (View.Piece (Elt F) S512x16 .f32)), { LS2 : List (View.Piece (Elt F) S512x1024 .f32) //
      ∀ (xi3 : Vec F S512x1024 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3
            ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg3 fullShare x0 ∗ owns (c : Thread nD τ) arg4 fullShare x1 ∗ owns (c : Thread nD τ) arg5 fullShare x2
                ∗ owns (c : Thread nD τ) arg6 fullShare xi3
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1_kernel i arg3 harg3 arg4 harg4 arg5 harg5 arg6 harg6 arg7 harg7 arg8 harg8 arg9 harg9) K } := by
  refine ⟨?_, ?_, ?_, fun xi3 E K => ?run⟩
  case run =>
    simp only [cc1_kernel_eq_skeleton]; unfold cc1_kernel_skel
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, ⟨%ds2, %fs2, -, HS2⟩, Hk⟩
    obtain rfl := harg3.eq_unread hf0; obtain rfl := harg4.eq_unread hf1; obtain rfl := harg5.eq_unread hf2; obtain rfl := harg6.eq_unread hf3
    sl_exec (disch := first | exact hc0 | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]; · iexists _; iexact HS0
    isplitl [HS1]; · iexists _; iexact HS1
    iexists _; iexact HS2

end Cert.KernelIdeal.Attn

end
-- ==== Proof.KI.AttnRunC.lean ====
import proofs.«414918_j3358664426109_3_alg».proof.Proof.KI.AttnConds

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 40000000 in
/-- The body at an interior key tile (0 < ki < qi): every head takes an unmasked step from what the point before left in the scratch. -/
noncomputable def kernelRun1_C (c : Dev nD) (i : grid1.Coords) (arg3 : Memref sig .tc .vmem S512x1024 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S512x16 .f32) (harg7 : arg7.IsWhole) (arg8 : Memref sig .tc .vmem S512x16 .f32) (harg8 : arg8.IsWhole) (arg9 : Memref sig .tc .vmem S512x1024 .f32) (harg9 : arg9.IsWhole) (hc0 : ¬cond1_0 i) (hc1 : cond1_1 i) (hc2 : ¬cond1_2 i) (hc3 : ¬cond1_3 i)
    (x0 x1 x2 : Vec F S512x1024 .bf16) (xs0 xs1 : Vec F S512x16 .f32) (xs2 : Vec F S512x1024 .f32) :
    Σ' (LS0 : List (View.Piece (Elt F) S512x16 .f32)), Σ' (LS1 : List (View.Piece (Elt F) S512x16 .f32)), { LS2 : List (View.Piece (Elt F) S512x1024 .f32) //
      ∀ (xi3 : Vec F S512x1024 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3
            ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2
                ∗ owns (c : Thread nD τ) arg6 fullShare xi3
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1_kernel i arg3 harg3 arg4 harg4 arg5 harg5 arg6 harg6 arg7 harg7 arg8 harg8 arg9 harg9) K } := by
  refine ⟨?_, ?_, ?_, fun xi3 E K => ?run⟩
  case run =>
    simp only [cc1_kernel_eq_skeleton]; unfold cc1_kernel_skel
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg6.eq_unread hf3
    obtain rfl := harg7.eq_unread hfs0; obtain rfl := harg8.eq_unread hfs1; obtain rfl := harg9.eq_unread hfs2
    sl_exec (disch := first | exact hc0 | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]; · iexists _; iexact HS0
    isplitl [HS1]; · iexists _; iexact HS1
    iexists _; iexact HS2

end Cert.KernelIdeal.Attn

end
-- ==== Proof.KI.AttnRunD.lean ====
import proofs.«414918_j3358664426109_3_alg».proof.Proof.KI.AttnConds

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 40000000 in
/-- The body at the diagonal tile that is not the last (0 < ki = qi < 3): every head takes a step under the causal mask. -/
noncomputable def kernelRun1_D (c : Dev nD) (i : grid1.Coords) (arg3 : Memref sig .tc .vmem S512x1024 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S512x16 .f32) (harg7 : arg7.IsWhole) (arg8 : Memref sig .tc .vmem S512x16 .f32) (harg8 : arg8.IsWhole) (arg9 : Memref sig .tc .vmem S512x1024 .f32) (harg9 : arg9.IsWhole) (hc0 : ¬cond1_0 i) (hc1 : ¬cond1_1 i) (hc2 : cond1_2 i) (hc3 : ¬cond1_3 i)
    (x0 x1 x2 : Vec F S512x1024 .bf16) (xs0 xs1 : Vec F S512x16 .f32) (xs2 : Vec F S512x1024 .f32) :
    Σ' (LS0 : List (View.Piece (Elt F) S512x16 .f32)), Σ' (LS1 : List (View.Piece (Elt F) S512x16 .f32)), { LS2 : List (View.Piece (Elt F) S512x1024 .f32) //
      ∀ (xi3 : Vec F S512x1024 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3
            ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2
                ∗ owns (c : Thread nD τ) arg6 fullShare xi3
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1_kernel i arg3 harg3 arg4 harg4 arg5 harg5 arg6 harg6 arg7 harg7 arg8 harg8 arg9 harg9) K } := by
  refine ⟨?_, ?_, ?_, fun xi3 E K => ?run⟩
  case run =>
    simp only [cc1_kernel_eq_skeleton]; unfold cc1_kernel_skel
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg6.eq_unread hf3
    obtain rfl := harg7.eq_unread hfs0; obtain rfl := harg8.eq_unread hfs1; obtain rfl := harg9.eq_unread hfs2
    sl_exec (disch := first | exact hc0 | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]; · iexists _; iexact HS0
    isplitl [HS1]; · iexists _; iexact HS1
    iexists _; iexact HS2

end Cert.KernelIdeal.Attn

end
-- ==== Proof.KI.AttnRunE.lean ====
import proofs.«414918_j3358664426109_3_alg».proof.Proof.KI.AttnConds

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 40000000 in
/-- The body at the last diagonal tile (ki = qi = 3): every head takes a masked step, then the accumulator over the running sum is stored into the output block, head by head. -/
noncomputable def kernelRun1_E (c : Dev nD) (i : grid1.Coords) (arg3 : Memref sig .tc .vmem S512x1024 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S512x16 .f32) (harg7 : arg7.IsWhole) (arg8 : Memref sig .tc .vmem S512x16 .f32) (harg8 : arg8.IsWhole) (arg9 : Memref sig .tc .vmem S512x1024 .f32) (harg9 : arg9.IsWhole) (hc0 : ¬cond1_0 i) (hc1 : ¬cond1_1 i) (hc2 : cond1_2 i) (hc3 : cond1_3 i)
    (x0 x1 x2 : Vec F S512x1024 .bf16) (xs0 xs1 : Vec F S512x16 .f32) (xs2 : Vec F S512x1024 .f32) :
    Σ' (L3 : List (View.Piece (Elt F) S512x1024 .bf16)), Σ' (LS0 : List (View.Piece (Elt F) S512x16 .f32)), Σ' (LS1 : List (View.Piece (Elt F) S512x16 .f32)), { LS2 : List (View.Piece (Elt F) S512x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d)
            ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2
                ∗ (∃ f, arg6.view.loc (c : Thread nD τ) ↦[arg6.view.set]{fullShare} arg6.view.writes (Elt F) f L3)
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1_kernel i arg3 harg3 arg4 harg4 arg5 harg5 arg6 harg6 arg7 harg7 arg8 harg8 arg9 harg9) K } := by
  refine ⟨?_, ?_, ?_, ?_, fun E K => ?run⟩
  case run =>
    simp only [cc1_kernel_eq_skeleton]; unfold cc1_kernel_skel
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2;
    obtain rfl := harg7.eq_unread hfs0; obtain rfl := harg8.eq_unread hfs1; obtain rfl := harg9.eq_unread hfs2
    sl_exec (disch := first | exact hc0 | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [HS0]; · iexists _; iexact HS0
    isplitl [HS1]; · iexists _; iexact HS1
    iexists _; iexact HS2

end Cert.KernelIdeal.Attn

end
-- ==== Proof.KI.AttnRunF.lean ====
import proofs.«414918_j3358664426109_3_alg».proof.Proof.KI.AttnConds

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 40000000 in
/-- The body at a key tile past the query tile that is not the last (qi < ki < 3): nothing is loaded or stored. -/
theorem kernelRun1_F (c : Dev nD) (i : grid1.Coords) (arg3 : Memref sig .tc .vmem S512x1024 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S512x16 .f32) (harg7 : arg7.IsWhole) (arg8 : Memref sig .tc .vmem S512x16 .f32) (harg8 : arg8.IsWhole) (arg9 : Memref sig .tc .vmem S512x1024 .f32) (harg9 : arg9.IsWhole) (hc0 : ¬cond1_0 i) (hc1 : ¬cond1_1 i) (hc2 : ¬cond1_2 i) (hc3 : ¬cond1_3 i)
    (x0 x1 x2 : Vec F S512x1024 .bf16) (xs0 xs1 : Vec F S512x16 .f32) (xs2 : Vec F S512x1024 .f32) :
    ∀ (xi3 : Vec F S512x1024 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3
            ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2
                ∗ owns (c : Thread nD τ) arg6 fullShare xi3
                ∗ owns (c : Thread nD τ) arg7 fullShare xs0 ∗ owns (c : Thread nD τ) arg8 fullShare xs1 ∗ owns (c : Thread nD τ) arg9 fullShare xs2) -∗ K ⟨⟩))
          ⊢ wp frame (wpE (defs₀ (F := F)) Variants.none c none) E (cc1_kernel i arg3 harg3 arg4 harg4 arg5 harg5 arg6 harg6 arg7 harg7 arg8 harg8 arg9 harg9) K := by
  intro xi3 E K
  simp only [cc1_kernel_eq_skeleton]; unfold cc1_kernel_skel
  unfold owns
  iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, Hk⟩
  obtain rfl := harg3.eq_unread hf0; obtain rfl := harg4.eq_unread hf1; obtain rfl := harg5.eq_unread hf2; obtain rfl := harg6.eq_unread hf3
  obtain rfl := harg7.eq_unread hfs0; obtain rfl := harg8.eq_unread hfs1; obtain rfl := harg9.eq_unread hfs2
  sl_exec (disch := first | exact hc0 | exact hc1 | exact hc2 | exact hc3)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [HS0]
  · iexists _; isplitr; · ipureintro; exact harg7.read_unread _
    iexact HS0
  isplitl [HS1]
  · iexists _; isplitr; · ipureintro; exact harg8.read_unread _
    iexact HS1
  iexists _; isplitr; · ipureintro; exact harg9.read_unread _
  iexact HS2

end Cert.KernelIdeal.Attn

end
-- ==== Proof.KI.AttnRunG.lean ====
import proofs.«414918_j3358664426109_3_alg».proof.Proof.KI.AttnConds

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 40000000 in
/-- The body at the last key tile past the query tile (qi < ki = 3): the scratch is only read; the accumulator over the running sum is stored into the output block, head by head. -/
noncomputable def kernelRun1_G (c : Dev nD) (i : grid1.Coords) (arg3 : Memref sig .tc .vmem S512x1024 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S512x16 .f32) (harg7 : arg7.IsWhole) (arg8 : Memref sig .tc .vmem S512x16 .f32) (harg8 : arg8.IsWhole) (arg9 : Memref sig .tc .vmem S512x1024 .f32) (harg9 : arg9.IsWhole) (hc0 : ¬cond1_0 i) (hc1 : ¬cond1_1 i) (hc2 : ¬cond1_2 i) (hc3 : cond1_3 i)
    (x0 x1 x2 : Vec F S512x1024 .bf16) (xs0 xs1 : Vec F S512x16 .f32) (xs2 : Vec F S512x1024 .f32) :
    { L3 : List (View.Piece (Elt F) S512x1024 .bf16) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d)
            ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2
                ∗ (∃ f, arg6.view.loc (c : Thread nD τ) ↦[arg6.view.set]{fullShare} arg6.view.writes (Elt F) f L3)
                ∗ owns (c : Thread nD τ) arg7 fullShare xs0 ∗ owns (c : Thread nD τ) arg8 fullShare xs1 ∗ owns (c : Thread nD τ) arg9 fullShare xs2) -∗ K ⟨⟩))
          ⊢ wp frame (wpE (defs₀ (F := F)) Variants.none c none) E (cc1_kernel i arg3 harg3 arg4 harg4 arg5 harg5 arg6 harg6 arg7 harg7 arg8 harg8 arg9 harg9) K } := by
  refine ⟨?_, fun E K => ?run⟩
  case run =>
    simp only [cc1_kernel_eq_skeleton]; unfold cc1_kernel_skel
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2;
    obtain rfl := harg7.eq_unread hfs0; obtain rfl := harg8.eq_unread hfs1; obtain rfl := harg9.eq_unread hfs2
    sl_exec (disch := first | exact hc0 | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [HS0]
    · iexists _; isplitr; · ipureintro; exact harg7.read_unread _
      iexact HS0
    isplitl [HS1]
    · iexists _; isplitr; · ipureintro; exact harg8.read_unread _
      iexact HS1
    iexists _; isplitr; · ipureintro; exact harg9.read_unread _
    iexact HS2

end Cert.KernelIdeal.Attn

end
-- ==== Proof.KI.AttnOuts.lean ====
import proofs.«414918_j3358664426109_3_alg».proof.Proof.KI.AttnConds
import proofs.«414918_j3358664426109_3_alg».proof.Proof.KI.AttnRunA
import proofs.«414918_j3358664426109_3_alg».proof.Proof.KI.AttnRunB
import proofs.«414918_j3358664426109_3_alg».proof.Proof.KI.AttnRunC
import proofs.«414918_j3358664426109_3_alg».proof.Proof.KI.AttnRunD
import proofs.«414918_j3358664426109_3_alg».proof.Proof.KI.AttnRunE
import proofs.«414918_j3358664426109_3_alg».proof.Proof.KI.AttnRunF
import proofs.«414918_j3358664426109_3_alg».proof.Proof.KI.AttnRunG

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

section Cases
variable (c : Dev nD) (i : grid1.Coords) (arg3 : Memref sig .tc .vmem S512x1024 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S512x16 .f32) (harg7 : arg7.IsWhole) (arg8 : Memref sig .tc .vmem S512x16 .f32) (harg8 : arg8.IsWhole) (arg9 : Memref sig .tc .vmem S512x1024 .f32) (harg9 : arg9.IsWhole)

section A
variable (hc0 : cond1_0 i) (hc1 : cond1_1 i) (hc2 : ¬cond1_2 i) (hc3 : ¬cond1_3 i) (x0 x1 x2 : Vec F S512x1024 .bf16)

theorem scover1_A_0 (y : S512x16.Idx) : ∃ pc ∈ (kernelRun1_A c i arg3 harg3 arg4 harg4 arg5 harg5 arg6 harg6 arg7 harg7 arg8 harg8 arg9 harg9 hc0 hc1 hc2 hc3 x0 x1 x2).1, y ∈ pc.1.set :=
  View.cover_of_wholeMem _ (by sl_whole_mem) y
def sout1_A_0 : Vec F S512x16 .f32 :=
  VS1_0.read (Elt F) (VS1_0.writes (Elt F) VS1_0.junk (kernelRun1_A c i arg3 harg3 arg4 harg4 arg5 harg5 arg6 harg6 arg7 harg7 arg8 harg8 arg9 harg9 hc0 hc1 hc2 hc3 x0 x1 x2).1)
theorem scover1_A_1 (y : S512x16.Idx) : ∃ pc ∈ (kernelRun1_A c i arg3 harg3 arg4 harg4 arg5 harg5 arg6 harg6 arg7 harg7 arg8 harg8 arg9 harg9 hc0 hc1 hc2 hc3 x0 x1 x2).2.1, y ∈ pc.1.set :=
  View.cover_of_wholeMem _ (by sl_whole_mem) y
def sout1_A_1 : Vec F S512x16 .f32 :=
  VS1_1.read (Elt F) (VS1_1.writes (Elt F) VS1_1.junk (kernelRun1_A c i arg3 harg3 arg4 harg4 arg5 harg5 arg6 harg6 arg7 harg7 arg8 harg8 arg9 harg9 hc0 hc1 hc2 hc3 x0 x1 x2).2.1)
theorem scover1_A_2 (y : S512x1024.Idx) : ∃ pc ∈ (kernelRun1_A c i arg3 harg3 arg4 harg4 arg5 harg5 arg6 harg6 arg7 harg7 arg8 harg8 arg9 harg9 hc0 hc1 hc2 hc3 x0 x1 x2).2.2.1, y ∈ pc.1.set :=
  View.cover_of_wholeMem _ (by sl_whole_mem) y
def sout1_A_2 : Vec F S512x1024 .f32 :=
  VS1_2.read (Elt F) (VS1_2.writes (Elt F) VS1_2.junk (kernelRun1_A c i arg3 harg3 arg4 harg4 arg5 harg5 arg6 harg6 arg7 harg7 arg8 harg8 arg9 harg9 hc0 hc1 hc2 hc3 x0 x1 x2).2.2.1)

end A

section B
variable (hc0 : cond1_0 i) (hc1 : ¬cond1_1 i) (hc2 : cond1_2 i) (hc3 : ¬cond1_3 i) (x0 x1 x2 : Vec F S512x1024 .bf16)

theorem scover1_B_0 (y : S512x16.Idx) : ∃ pc ∈ (kernelRun1_B c i arg3 harg3 arg4 harg4 arg5 harg5 arg6 harg6 arg7 harg7 arg8 harg8 arg9 harg9 hc0 hc1 hc2 hc3 x0 x1 x2).1, y ∈ pc.1.set :=
  View.cover_of_wholeMem _ (by sl_whole_mem) y
def sout1_B_0 : Vec F S512x16 .f32 :=
  VS1_0.read (Elt F) (VS1_0.writes (Elt F) VS1_0.junk (kernelRun1_B c i arg3 harg3 arg4 harg4 arg5 harg5 arg6 harg6 arg7 harg7 arg8 harg8 arg9 harg9 hc0 hc1 hc2 hc3 x0 x1 x2).1)
theorem scover1_B_1 (y : S512x16.Idx) : ∃ pc ∈ (kernelRun1_B c i arg3 harg3 arg4 harg4 arg5 harg5 arg6 harg6 arg7 harg7 arg8 harg8 arg9 harg9 hc0 hc1 hc2 hc3 x0 x1 x2).2.1, y ∈ pc.1.set :=
  View.cover_of_wholeMem _ (by sl_whole_mem) y
def sout1_B_1 : Vec F S512x16 .f32 :=
  VS1_1.read (Elt F) (VS1_1.writes (Elt F) VS1_1.junk (kernelRun1_B c i arg3 harg3 arg4 harg4 arg5 harg5 arg6 harg6 arg7 harg7 arg8 harg8 arg9 harg9 hc0 hc1 hc2 hc3 x0 x1 x2).2.1)
theorem scover1_B_2 (y : S512x1024.Idx) : ∃ pc ∈ (kernelRun1_B c i arg3 harg3 arg4 harg4 arg5 harg5 arg6 harg6 arg7 harg7 arg8 harg8 arg9 harg9 hc0 hc1 hc2 hc3 x0 x1 x2).2.2.1, y ∈ pc.1.set :=
  View.cover_of_wholeMem _ (by sl_whole_mem) y
def sout1_B_2 : Vec F S512x1024 .f32 :=
  VS1_2.read (Elt F) (VS1_2.writes (Elt F) VS1_2.junk (kernelRun1_B c i arg3 harg3 arg4 harg4 arg5 harg5 arg6 harg6 arg7 harg7 arg8 harg8 arg9 harg9 hc0 hc1 hc2 hc3 x0 x1 x2).2.2.1)

end B

section C
variable (hc0 : ¬cond1_0 i) (hc1 : cond1_1 i) (hc2 : ¬cond1_2 i) (hc3 : ¬cond1_3 i) (x0 x1 x2 : Vec F S512x1024 .bf16) (xs0 xs1 : Vec F S512x16 .f32) (xs2 : Vec F S512x1024 .f32)

theorem scover1_C_0 (y : S512x16.Idx) : ∃ pc ∈ (kernelRun1_C c i arg3 harg3 arg4 harg4 arg5 harg5 arg6 harg6 arg7 harg7 arg8 harg8 arg9 harg9 hc0 hc1 hc2 hc3 x0 x1 x2 xs0 xs1 xs2).1, y ∈ pc.1.set :=
  View.cover_of_tiledL (kernelRun1_C c i arg3 harg3 arg4 harg4 arg5 harg5 arg6 harg6 arg7 harg7 arg8 harg8 arg9 harg9 hc0 hc1 hc2 hc3 x0 x1 x2 xs0 xs1 xs2).1 S512x1.size (by sl_kernel_rfl) y
def sout1_C_0 : Vec F S512x16 .f32 :=
  VS1_0.read (Elt F) (VS1_0.writes (Elt F) VS1_0.junk (kernelRun1_C c i arg3 harg3 arg4 harg4 arg5 harg5 arg6 harg6 arg7 harg7 arg8 harg8 arg9 harg9 hc0 hc1 hc2 hc3 x0 x1 x2 xs0 xs1 xs2).1)
theorem scover1_C_1 (y : S512x16.Idx) : ∃ pc ∈ (kernelRun1_C c i arg3 harg3 arg4 harg4 arg5 harg5 arg6 harg6 arg7 harg7 arg8 harg8 arg9 harg9 hc0 hc1 hc2 hc3 x0 x1 x2 xs0 xs1 xs2).2.1, y ∈ pc.1.set :=
  View.cover_of_tiledL (kernelRun1_C c i arg3 harg3 arg4 harg4 arg5 harg5 arg6 harg6 arg7 harg7 arg8 harg8 arg9 harg9 hc0 hc1 hc2 hc3 x0 x1 x2 xs0 xs1 xs2).2.1 S512x1.size (by sl_kernel_rfl) y
def sout1_C_1 : Vec F S512x16 .f32 :=
  VS1_1.read (Elt F) (VS1_1.writes (Elt F) VS1_1.junk (kernelRun1_C c i arg3 harg3 arg4 harg4 arg5 harg5 arg6 harg6 arg7 harg7 arg8 harg8 arg9 harg9 hc0 hc1 hc2 hc3 x0 x1 x2 xs0 xs1 xs2).2.1)
theorem scover1_C_2 (y : S512x1024.Idx) : ∃ pc ∈ (kernelRun1_C c i arg3 harg3 arg4 harg4 arg5 harg5 arg6 harg6 arg7 harg7 arg8 harg8 arg9 harg9 hc0 hc1 hc2 hc3 x0 x1 x2 xs0 xs1 xs2).2.2.1, y ∈ pc.1.set :=
  View.cover_of_tiledL (kernelRun1_C c i arg3 harg3 arg4 harg4 arg5 harg5 arg6 harg6 arg7 harg7 arg8 harg8 arg9 harg9 hc0 hc1 hc2 hc3 x0 x1 x2 xs0 xs1 xs2).2.2.1 S512x64.size (by sl_kernel_rfl) y
def sout1_C_2 : Vec F S512x1024 .f32 :=
  VS1_2.read (Elt F) (VS1_2.writes (Elt F) VS1_2.junk (kernelRun1_C c i arg3 harg3 arg4 harg4 arg5 harg5 arg6 harg6 arg7 harg7 arg8 harg8 arg9 harg9 hc0 hc1 hc2 hc3 x0 x1 x2 xs0 xs1 xs2).2.2.1)

end C

section D
variable (hc0 : ¬cond1_0 i) (hc1 : ¬cond1_1 i) (hc2 : cond1_2 i) (hc3 : ¬cond1_3 i) (x0 x1 x2 : Vec F S512x1024 .bf16) (xs0 xs1 : Vec F S512x16 .f32) (xs2 : Vec F S512x1024 .f32)

theorem scover1_D_0 (y : S512x16.Idx) : ∃ pc ∈ (kernelRun1_D c i arg3 harg3 arg4 harg4 arg5 harg5 arg6 harg6 arg7 harg7 arg8 harg8 arg9 harg9 hc0 hc1 hc2 hc3 x0 x1 x2 xs0 xs1 xs2).1, y ∈ pc.1.set :=
  View.cover_of_tiledL (kernelRun1_D c i arg3 harg3 arg4 harg4 arg5 harg5 arg6 harg6 arg7 harg7 arg8 harg8 arg9 harg9 hc0 hc1 hc2 hc3 x0 x1 x2 xs0 xs1 xs2).1 S512x1.size (by sl_kernel_rfl) y
def sout1_D_0 : Vec F S512x16 .f32 :=
  VS1_0.read (Elt F) (VS1_0.writes (Elt F) VS1_0.junk (kernelRun1_D c i arg3 harg3 arg4 harg4 arg5 harg5 arg6 harg6 arg7 harg7 arg8 harg8 arg9 harg9 hc0 hc1 hc2 hc3 x0 x1 x2 xs0 xs1 xs2).1)
theorem scover1_D_1 (y : S512x16.Idx) : ∃ pc ∈ (kernelRun1_D c i arg3 harg3 arg4 harg4 arg5 harg5 arg6 harg6 arg7 harg7 arg8 harg8 arg9 harg9 hc0 hc1 hc2 hc3 x0 x1 x2 xs0 xs1 xs2).2.1, y ∈ pc.1.set :=
  View.cover_of_tiledL (kernelRun1_D c i arg3 harg3 arg4 harg4 arg5 harg5 arg6 harg6 arg7 harg7 arg8 harg8 arg9 harg9 hc0 hc1 hc2 hc3 x0 x1 x2 xs0 xs1 xs2).2.1 S512x1.size (by sl_kernel_rfl) y
def sout1_D_1 : Vec F S512x16 .f32 :=
  VS1_1.read (Elt F) (VS1_1.writes (Elt F) VS1_1.junk (kernelRun1_D c i arg3 harg3 arg4 harg4 arg5 harg5 arg6 harg6 arg7 harg7 arg8 harg8 arg9 harg9 hc0 hc1 hc2 hc3 x0 x1 x2 xs0 xs1 xs2).2.1)
theorem scover1_D_2 (y : S512x1024.Idx) : ∃ pc ∈ (kernelRun1_D c i arg3 harg3 arg4 harg4 arg5 harg5 arg6 harg6 arg7 harg7 arg8 harg8 arg9 harg9 hc0 hc1 hc2 hc3 x0 x1 x2 xs0 xs1 xs2).2.2.1, y ∈ pc.1.set :=
  View.cover_of_tiledL (kernelRun1_D c i arg3 harg3 arg4 harg4 arg5 harg5 arg6 harg6 arg7 harg7 arg8 harg8 arg9 harg9 hc0 hc1 hc2 hc3 x0 x1 x2 xs0 xs1 xs2).2.2.1 S512x64.size (by sl_kernel_rfl) y
def sout1_D_2 : Vec F S512x1024 .f32 :=
  VS1_2.read (Elt F) (VS1_2.writes (Elt F) VS1_2.junk (kernelRun1_D c i arg3 harg3 arg4 harg4 arg5 harg5 arg6 harg6 arg7 harg7 arg8 harg8 arg9 harg9 hc0 hc1 hc2 hc3 x0 x1 x2 xs0 xs1 xs2).2.2.1)

end D

section E
variable (hc0 : ¬cond1_0 i) (hc1 : ¬cond1_1 i) (hc2 : cond1_2 i) (hc3 : cond1_3 i) (x0 x1 x2 : Vec F S512x1024 .bf16) (xs0 xs1 : Vec F S512x16 .f32) (xs2 : Vec F S512x1024 .f32)

theorem scover1_E_0 (y : S512x16.Idx) : ∃ pc ∈ (kernelRun1_E c i arg3 harg3 arg4 harg4 arg5 harg5 arg6 harg6 arg7 harg7 arg8 harg8 arg9 harg9 hc0 hc1 hc2 hc3 x0 x1 x2 xs0 xs1 xs2).2.1, y ∈ pc.1.set :=
  View.cover_of_tiledL (kernelRun1_E c i arg3 harg3 arg4 harg4 arg5 harg5 arg6 harg6 arg7 harg7 arg8 harg8 arg9 harg9 hc0 hc1 hc2 hc3 x0 x1 x2 xs0 xs1 xs2).2.1 S512x1.size (by sl_kernel_rfl) y
def sout1_E_0 : Vec F S512x16 .f32 :=
  VS1_0.read (Elt F) (VS1_0.writes (Elt F) VS1_0.junk (kernelRun1_E c i arg3 harg3 arg4 harg4 arg5 harg5 arg6 harg6 arg7 harg7 arg8 harg8 arg9 harg9 hc0 hc1 hc2 hc3 x0 x1 x2 xs0 xs1 xs2).2.1)
theorem scover1_E_1 (y : S512x16.Idx) : ∃ pc ∈ (kernelRun1_E c i arg3 harg3 arg4 harg4 arg5 harg5 arg6 harg6 arg7 harg7 arg8 harg8 arg9 harg9 hc0 hc1 hc2 hc3 x0 x1 x2 xs0 xs1 xs2).2.2.1, y ∈ pc.1.set :=
  View.cover_of_tiledL (kernelRun1_E c i arg3 harg3 arg4 harg4 arg5 harg5 arg6 harg6 arg7 harg7 arg8 harg8 arg9 harg9 hc0 hc1 hc2 hc3 x0 x1 x2 xs0 xs1 xs2).2.2.1 S512x1.size (by sl_kernel_rfl) y
def sout1_E_1 : Vec F S512x16 .f32 :=
  VS1_1.read (Elt F) (VS1_1.writes (Elt F) VS1_1.junk (kernelRun1_E c i arg3 harg3 arg4 harg4 arg5 harg5 arg6 harg6 arg7 harg7 arg8 harg8 arg9 harg9 hc0 hc1 hc2 hc3 x0 x1 x2 xs0 xs1 xs2).2.2.1)
theorem scover1_E_2 (y : S512x1024.Idx) : ∃ pc ∈ (kernelRun1_E c i arg3 harg3 arg4 harg4 arg5 harg5 arg6 harg6 arg7 harg7 arg8 harg8 arg9 harg9 hc0 hc1 hc2 hc3 x0 x1 x2 xs0 xs1 xs2).2.2.2.1, y ∈ pc.1.set :=
  View.cover_of_tiledL (kernelRun1_E c i arg3 harg3 arg4 harg4 arg5 harg5 arg6 harg6 arg7 harg7 arg8 harg8 arg9 harg9 hc0 hc1 hc2 hc3 x0 x1 x2 xs0 xs1 xs2).2.2.2.1 S512x64.size (by sl_kernel_rfl) y
def sout1_E_2 : Vec F S512x1024 .f32 :=
  VS1_2.read (Elt F) (VS1_2.writes (Elt F) VS1_2.junk (kernelRun1_E c i arg3 harg3 arg4 harg4 arg5 harg5 arg6 harg6 arg7 harg7 arg8 harg8 arg9 harg9 hc0 hc1 hc2 hc3 x0 x1 x2 xs0 xs1 xs2).2.2.2.1)
theorem cover1_E_3 (y : S512x1024.Idx) : ∃ pc ∈ (kernelRun1_E c i arg3 harg3 arg4 harg4 arg5 harg5 arg6 harg6 arg7 harg7 arg8 harg8 arg9 harg9 hc0 hc1 hc2 hc3 x0 x1 x2 xs0 xs1 xs2).1, y ∈ pc.1.set :=
  View.cover_of_tiledL (kernelRun1_E c i arg3 harg3 arg4 harg4 arg5 harg5 arg6 harg6 arg7 harg7 arg8 harg8 arg9 harg9 hc0 hc1 hc2 hc3 x0 x1 x2 xs0 xs1 xs2).1 S512x64.size (by sl_kernel_rfl) y
def out1_E_3 : Vec F S512x1024 .bf16 :=
  VO1_3.read (Elt F) (VO1_3.writes (Elt F) VO1_3.junk (kernelRun1_E c i arg3 harg3 arg4 harg4 arg5 harg5 arg6 harg6 arg7 harg7 arg8 harg8 arg9 harg9 hc0 hc1 hc2 hc3 x0 x1 x2 xs0 xs1 xs2).1)

end E

section G
variable (hc0 : ¬cond1_0 i) (hc1 : ¬cond1_1 i) (hc2 : ¬cond1_2 i) (hc3 : cond1_3 i) (x0 x1 x2 : Vec F S512x1024 .bf16) (xs0 xs1 : Vec F S512x16 .f32) (xs2 : Vec F S512x1024 .f32)

theorem cover1_G_3 (y : S512x1024.Idx) : ∃ pc ∈ (kernelRun1_G c i arg3 harg3 arg4 harg4 arg5 harg5 arg6 harg6 arg7 harg7 arg8 harg8 arg9 harg9 hc0 hc1 hc2 hc3 x0 x1 x2 xs0 xs1 xs2).1, y ∈ pc.1.set :=
  View.cover_of_tiledL (kernelRun1_G c i arg3 harg3 arg4 harg4 arg5 harg5 arg6 harg6 arg7 harg7 arg8 harg8 arg9 harg9 hc0 hc1 hc2 hc3 x0 x1 x2 xs0 xs1 xs2).1 S512x64.size (by sl_kernel_rfl) y
def out1_G_3 : Vec F S512x1024 .bf16 :=
  VO1_3.read (Elt F) (VO1_3.writes (Elt F) VO1_3.junk (kernelRun1_G c i arg3 harg3 arg4 harg4 arg5 harg5 arg6 harg6 arg7 harg7 arg8 harg8 arg9 harg9 hc0 hc1 hc2 hc3 x0 x1 x2 xs0 xs1 xs2).1)

end G

end Cases

/-- What the output block and the three running arrays are after point t in each of the seven cases of (key tile, query tile), from what the point before left (p0, p1, p2). -/
def caseA (c : Dev nD) (t : Fin cfg1.N) (h0 : t.val % 4 = 0) (h1 : t.val % 4 < t.val / 4 % 4) (h2 : ¬t.val % 4 = t.val / 4 % 4) (h3 : ¬t.val % 4 = 3) :
    Vec F S512x1024 .bf16 × Vec F S512x16 .f32 × Vec F S512x16 .f32 × Vec F S512x1024 .f32 :=
  ((VO1_3.read (Elt F) (VO1_3.writes (Elt F) VO1_3.junk [])), sout1_A_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) ((hcond1_1 t).mpr h1) (fun h => h2 ((hcond1_2 t).mp h)) (fun h => h3 ((hcond1_3 t).mp h)) (iblk1 V c 0 t) (iblk1 V c 1 t) (iblk1 V c 2 t), sout1_A_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) ((hcond1_1 t).mpr h1) (fun h => h2 ((hcond1_2 t).mp h)) (fun h => h3 ((hcond1_3 t).mp h)) (iblk1 V c 0 t) (iblk1 V c 1 t) (iblk1 V c 2 t), sout1_A_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) ((hcond1_1 t).mpr h1) (fun h => h2 ((hcond1_2 t).mp h)) (fun h => h3 ((hcond1_3 t).mp h)) (iblk1 V c 0 t) (iblk1 V c 1 t) (iblk1 V c 2 t))

def caseB (c : Dev nD) (t : Fin cfg1.N) (h0 : t.val % 4 = 0) (h1 : ¬t.val % 4 < t.val / 4 % 4) (h2 : t.val % 4 = t.val / 4 % 4) (h3 : ¬t.val % 4 = 3) :
    Vec F S512x1024 .bf16 × Vec F S512x16 .f32 × Vec F S512x16 .f32 × Vec F S512x1024 .f32 :=
  ((VO1_3.read (Elt F) (VO1_3.writes (Elt F) VO1_3.junk [])), sout1_B_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) ((hcond1_2 t).mpr h2) (fun h => h3 ((hcond1_3 t).mp h)) (iblk1 V c 0 t) (iblk1 V c 1 t) (iblk1 V c 2 t), sout1_B_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) ((hcond1_2 t).mpr h2) (fun h => h3 ((hcond1_3 t).mp h)) (iblk1 V c 0 t) (iblk1 V c 1 t) (iblk1 V c 2 t), sout1_B_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) ((hcond1_2 t).mpr h2) (fun h => h3 ((hcond1_3 t).mp h)) (iblk1 V c 0 t) (iblk1 V c 1 t) (iblk1 V c 2 t))

def caseC (c : Dev nD) (t : Fin cfg1.N) (h0 : ¬t.val % 4 = 0) (h1 : t.val % 4 < t.val / 4 % 4) (h2 : ¬t.val % 4 = t.val / 4 % 4) (h3 : ¬t.val % 4 = 3) (p0 p1 : Vec F S512x16 .f32) (p2 : Vec F S512x1024 .f32) :
    Vec F S512x1024 .bf16 × Vec F S512x16 .f32 × Vec F S512x16 .f32 × Vec F S512x1024 .f32 :=
  ((VO1_3.read (Elt F) (VO1_3.writes (Elt F) VO1_3.junk [])), sout1_C_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (fun h => h2 ((hcond1_2 t).mp h)) (fun h => h3 ((hcond1_3 t).mp h)) (iblk1 V c 0 t) (iblk1 V c 1 t) (iblk1 V c 2 t) p0 p1 p2, sout1_C_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (fun h => h2 ((hcond1_2 t).mp h)) (fun h => h3 ((hcond1_3 t).mp h)) (iblk1 V c 0 t) (iblk1 V c 1 t) (iblk1 V c 2 t) p0 p1 p2, sout1_C_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (fun h => h2 ((hcond1_2 t).mp h)) (fun h => h3 ((hcond1_3 t).mp h)) (iblk1 V c 0 t) (iblk1 V c 1 t) (iblk1 V c 2 t) p0 p1 p2)

def caseD (c : Dev nD) (t : Fin cfg1.N) (h0 : ¬t.val % 4 = 0) (h1 : ¬t.val % 4 < t.val / 4 % 4) (h2 : t.val % 4 = t.val / 4 % 4) (h3 : ¬t.val % 4 = 3) (p0 p1 : Vec F S512x16 .f32) (p2 : Vec F S512x1024 .f32) :
    Vec F S512x1024 .bf16 × Vec F S512x16 .f32 × Vec F S512x16 .f32 × Vec F S512x1024 .f32 :=
  ((VO1_3.read (Elt F) (VO1_3.writes (Elt F) VO1_3.junk [])), sout1_D_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) ((hcond1_2 t).mpr h2) (fun h => h3 ((hcond1_3 t).mp h)) (iblk1 V c 0 t) (iblk1 V c 1 t) (iblk1 V c 2 t) p0 p1 p2, sout1_D_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) ((hcond1_2 t).mpr h2) (fun h => h3 ((hcond1_3 t).mp h)) (iblk1 V c 0 t) (iblk1 V c 1 t) (iblk1 V c 2 t) p0 p1 p2, sout1_D_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) ((hcond1_2 t).mpr h2) (fun h => h3 ((hcond1_3 t).mp h)) (iblk1 V c 0 t) (iblk1 V c 1 t) (iblk1 V c 2 t) p0 p1 p2)

def caseE (c : Dev nD) (t : Fin cfg1.N) (h0 : ¬t.val % 4 = 0) (h1 : ¬t.val % 4 < t.val / 4 % 4) (h2 : t.val % 4 = t.val / 4 % 4) (h3 : t.val % 4 = 3) (p0 p1 : Vec F S512x16 .f32) (p2 : Vec F S512x1024 .f32) :
    Vec F S512x1024 .bf16 × Vec F S512x16 .f32 × Vec F S512x16 .f32 × Vec F S512x1024 .f32 :=
  (out1_E_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) ((hcond1_2 t).mpr h2) ((hcond1_3 t).mpr h3) (iblk1 V c 0 t) (iblk1 V c 1 t) (iblk1 V c 2 t) p0 p1 p2, sout1_E_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) ((hcond1_2 t).mpr h2) ((hcond1_3 t).mpr h3) (iblk1 V c 0 t) (iblk1 V c 1 t) (iblk1 V c 2 t) p0 p1 p2, sout1_E_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) ((hcond1_2 t).mpr h2) ((hcond1_3 t).mpr h3) (iblk1 V c 0 t) (iblk1 V c 1 t) (iblk1 V c 2 t) p0 p1 p2, sout1_E_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) ((hcond1_2 t).mpr h2) ((hcond1_3 t).mpr h3) (iblk1 V c 0 t) (iblk1 V c 1 t) (iblk1 V c 2 t) p0 p1 p2)

def caseG (c : Dev nD) (t : Fin cfg1.N) (h0 : ¬t.val % 4 = 0) (h1 : ¬t.val % 4 < t.val / 4 % 4) (h2 : ¬t.val % 4 = t.val / 4 % 4) (h3 : t.val % 4 = 3) (p0 p1 : Vec F S512x16 .f32) (p2 : Vec F S512x1024 .f32) :
    Vec F S512x1024 .bf16 × Vec F S512x16 .f32 × Vec F S512x16 .f32 × Vec F S512x1024 .f32 :=
  (out1_G_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (fun h => h2 ((hcond1_2 t).mp h)) ((hcond1_3 t).mpr h3) (iblk1 V c 0 t) (iblk1 V c 1 t) (iblk1 V c 2 t) p0 p1 p2, p0, p1, p2)

/-- The contents after point n, by recursion on n; n mod 4 is the key tile and n / 4 mod 4 the query tile. -/
def outsAt1 (c : Dev nD) : (n : ℕ) → n < cfg1.N → Vec F S512x1024 .bf16 × Vec F S512x16 .f32 × Vec F S512x16 .f32 × Vec F S512x1024 .f32
  | 0, hn => caseB V c ⟨0, hn⟩ (Nat.zero_mod _) (by show ¬0 % 4 < 0 / 4 % 4; decide) (show (0 : ℕ) % 4 = 0 / 4 % 4 from rfl) (by show ¬0 % 4 = 3; decide)
  | n + 1, hn =>
    if h0 : (n + 1) % 4 = 0 then
      if h1 : (n + 1) % 4 < (n + 1) / 4 % 4 then
        if h2 : (n + 1) % 4 = (n + 1) / 4 % 4 then False.elim (by have hN : n + 1 < 64 := lt_of_lt_of_eq hn (show cfg1.N = 64 from N_1); omega)
        else if h3 : (n + 1) % 4 = 3 then False.elim (by have hN : n + 1 < 64 := lt_of_lt_of_eq hn (show cfg1.N = 64 from N_1); omega)
        else caseA V c ⟨n + 1, hn⟩ h0 h1 h2 h3
      else if h2 : (n + 1) % 4 = (n + 1) / 4 % 4 then
        if h3 : (n + 1) % 4 = 3 then False.elim (by have hN : n + 1 < 64 := lt_of_lt_of_eq hn (show cfg1.N = 64 from N_1); omega)
        else caseB V c ⟨n + 1, hn⟩ h0 h1 h2 h3
      else False.elim (by have hN : n + 1 < 64 := lt_of_lt_of_eq hn (show cfg1.N = 64 from N_1); omega)
    else if h1 : (n + 1) % 4 < (n + 1) / 4 % 4 then
      if h2 : (n + 1) % 4 = (n + 1) / 4 % 4 then False.elim (by have hN : n + 1 < 64 := lt_of_lt_of_eq hn (show cfg1.N = 64 from N_1); omega)
      else if h3 : (n + 1) % 4 = 3 then False.elim (by have hN : n + 1 < 64 := lt_of_lt_of_eq hn (show cfg1.N = 64 from N_1); omega)
      else caseC V c ⟨n + 1, hn⟩ h0 h1 h2 h3 (outsAt1 c n (Nat.lt_of_succ_lt hn)).2.1 (outsAt1 c n (Nat.lt_of_succ_lt hn)).2.2.1 (outsAt1 c n (Nat.lt_of_succ_lt hn)).2.2.2
    else if h2 : (n + 1) % 4 = (n + 1) / 4 % 4 then
      if h3 : (n + 1) % 4 = 3 then caseE V c ⟨n + 1, hn⟩ h0 h1 h2 h3 (outsAt1 c n (Nat.lt_of_succ_lt hn)).2.1 (outsAt1 c n (Nat.lt_of_succ_lt hn)).2.2.1 (outsAt1 c n (Nat.lt_of_succ_lt hn)).2.2.2
      else caseD V c ⟨n + 1, hn⟩ h0 h1 h2 h3 (outsAt1 c n (Nat.lt_of_succ_lt hn)).2.1 (outsAt1 c n (Nat.lt_of_succ_lt hn)).2.2.1 (outsAt1 c n (Nat.lt_of_succ_lt hn)).2.2.2
    else if h3 : (n + 1) % 4 = 3 then caseG V c ⟨n + 1, hn⟩ h0 h1 h2 h3 (outsAt1 c n (Nat.lt_of_succ_lt hn)).2.1 (outsAt1 c n (Nat.lt_of_succ_lt hn)).2.2.1 (outsAt1 c n (Nat.lt_of_succ_lt hn)).2.2.2
    else ((VO1_3.read (Elt F) (VO1_3.writes (Elt F) VO1_3.junk [])), (outsAt1 c n (Nat.lt_of_succ_lt hn)).2.1, (outsAt1 c n (Nat.lt_of_succ_lt hn)).2.2.1, (outsAt1 c n (Nat.lt_of_succ_lt hn)).2.2.2)

theorem outsAt1_A (c : Dev nD) (t : Fin cfg1.N) (h0 : t.val % 4 = 0) (h1 : t.val % 4 < t.val / 4 % 4) (h2 : ¬t.val % 4 = t.val / 4 % 4) (h3 : ¬t.val % 4 = 3) :
    outsAt1 V c t.val t.isLt = caseA V c t h0 h1 h2 h3 := by
  obtain ⟨n, hn⟩ := t
  cases n with
  | zero => exact (by exfalso; (try dsimp only at h1); omega)
  | succ n => exact (dif_pos h0).trans ((dif_pos h1).trans ((dif_neg h2).trans ((dif_neg h3).trans rfl)))

theorem outsAt1_B (c : Dev nD) (t : Fin cfg1.N) (h0 : t.val % 4 = 0) (h1 : ¬t.val % 4 < t.val / 4 % 4) (h2 : t.val % 4 = t.val / 4 % 4) (h3 : ¬t.val % 4 = 3) :
    outsAt1 V c t.val t.isLt = caseB V c t h0 h1 h2 h3 := by
  obtain ⟨n, hn⟩ := t
  cases n with
  | zero => exact rfl
  | succ n => exact (dif_pos h0).trans ((dif_neg h1).trans ((dif_pos h2).trans ((dif_neg h3).trans rfl)))

theorem outsAt1_C (c : Dev nD) (t : Fin cfg1.N) (h0 : ¬t.val % 4 = 0) (h1 : t.val % 4 < t.val / 4 % 4) (h2 : ¬t.val % 4 = t.val / 4 % 4) (h3 : ¬t.val % 4 = 3) :
    outsAt1 V c t.val t.isLt = caseC V c t h0 h1 h2 h3 (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2 := by
  obtain ⟨n, hn⟩ := t
  cases n with
  | zero => exact (by exfalso; (try dsimp only at h0); exact absurd (Nat.zero_mod _) h0)
  | succ n => exact (dif_neg h0).trans ((dif_pos h1).trans ((dif_neg h2).trans ((dif_neg h3).trans rfl)))

theorem outsAt1_D (c : Dev nD) (t : Fin cfg1.N) (h0 : ¬t.val % 4 = 0) (h1 : ¬t.val % 4 < t.val / 4 % 4) (h2 : t.val % 4 = t.val / 4 % 4) (h3 : ¬t.val % 4 = 3) :
    outsAt1 V c t.val t.isLt = caseD V c t h0 h1 h2 h3 (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2 := by
  obtain ⟨n, hn⟩ := t
  cases n with
  | zero => exact (by exfalso; (try dsimp only at h0); exact absurd (Nat.zero_mod _) h0)
  | succ n => exact (dif_neg h0).trans ((dif_neg h1).trans ((dif_pos h2).trans ((dif_neg h3).trans rfl)))

theorem outsAt1_E (c : Dev nD) (t : Fin cfg1.N) (h0 : ¬t.val % 4 = 0) (h1 : ¬t.val % 4 < t.val / 4 % 4) (h2 : t.val % 4 = t.val / 4 % 4) (h3 : t.val % 4 = 3) :
    outsAt1 V c t.val t.isLt = caseE V c t h0 h1 h2 h3 (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2 := by
  obtain ⟨n, hn⟩ := t
  cases n with
  | zero => exact (by exfalso; (try dsimp only at h0); exact absurd (Nat.zero_mod _) h0)
  | succ n => exact (dif_neg h0).trans ((dif_neg h1).trans ((dif_pos h2).trans ((dif_pos h3).trans rfl)))

theorem outsAt1_F (c : Dev nD) (t : Fin cfg1.N) (h0 : ¬t.val % 4 = 0) (h1 : ¬t.val % 4 < t.val / 4 % 4) (h2 : ¬t.val % 4 = t.val / 4 % 4) (h3 : ¬t.val % 4 = 3) :
    outsAt1 V c t.val t.isLt = ((VO1_3.read (Elt F) (VO1_3.writes (Elt F) VO1_3.junk [])), (outsAt1 V c (t.val - 1) (Nat.lt_of_le_of_lt (Nat.sub_le _ _) t.isLt)).2.1, (outsAt1 V c (t.val - 1) (Nat.lt_of_le_of_lt (Nat.sub_le _ _) t.isLt)).2.2.1, (outsAt1 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans ((dif_neg h2).trans ((dif_neg h3).trans rfl)))

theorem outsAt1_G (c : Dev nD) (t : Fin cfg1.N) (h0 : ¬t.val % 4 = 0) (h1 : ¬t.val % 4 < t.val / 4 % 4) (h2 : ¬t.val % 4 = t.val / 4 % 4) (h3 : t.val % 4 = 3) :
    outsAt1 V c t.val t.isLt = caseG V c t h0 h1 h2 h3 (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2 := by
  obtain ⟨n, hn⟩ := t
  cases n with
  | zero => exact (by exfalso; (try dsimp only at h0); exact absurd (Nat.zero_mod _) h0)
  | succ n => exact (dif_neg h0).trans ((dif_neg h1).trans ((dif_neg h2).trans ((dif_pos h3).trans rfl)))

end Cert.KernelIdeal.Attn

end
-- ==== Proof.KI.AttnFrame.lean ====
import proofs.«414918_j3358664426109_3_alg».proof.Proof.KI.AttnOuts

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

def rest1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg3_1), ((c : Thread nD τ).loc cc2_stg3_1) ↦{fullShare} f))

theorem PhiA1_eq (c : Dev nD) :
    (Pipeline.ΦA spec1 c : sProp 𝕄)
      = iprop((∃ d, owns (c : Thread nD τ) scM1_0 fullShare d) ∗ (∃ d, owns (c : Thread nD τ) scM1_1 fullShare d) ∗ (∃ d, owns (c : Thread nD τ) scM1_2 fullShare d) ∗ rest1 (F := F) c ∗ (∃ r, prngReg c r)) := by
  unfold Pipeline.ΦA; rw [scopedRest1_eq]; simp only [scM1_0, scM1_1, scM1_2, owns_whole]; unfold rest1
  refine BI.Entails.antisymm ?_ ?_
  · show BIBase.Entails (PROP := sProp 𝕄) _ _
    iintro ⟨⟨H0, H1, H2, H3, H4, H5, H6, H7, H8, H9, H10, H11, H12, H13, H14⟩, Hg⟩
    isplitl [H6]; · iexact H6
    isplitl [H7]; · iexact H7
    isplitl [H8]; · iexact H8
    isplitr [Hg]
    swap; · iexact Hg
    isplitl [H0]; · iexact H0
    isplitl [H1]; · iexact H1
    isplitl [H2]; · iexact H2
    isplitl [H3]; · iexact H3
    isplitl [H4]; · iexact H4
    isplitl [H5]; · iexact H5
    isplitl [H9]; · iexact H9
    isplitl [H10]; · iexact H10
    isplitl [H11]; · iexact H11
    isplitl [H12]; · iexact H12
    isplitl [H13]; · iexact H13
    iexact H14
  · show BIBase.Entails (PROP := sProp 𝕄) _ _
    iintro ⟨H6, H7, H8, ⟨H0, H1, H2, H3, H4, H5, H9, H10, H11, H12, H13, H14⟩, Hg⟩
    isplitr [Hg]
    swap; · iexact Hg
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iexact H14

def PhiS (c : Dev nD) : (n : ℕ) → n ≤ cfg1.N → sProp 𝕄
  | 0, _ => Pipeline.ΦA spec1 c
  | n + 1, hn => iprop(owns (c : Thread nD τ) scM1_0 fullShare (outsAt1 V c n hn).2.1 ∗ owns (c : Thread nD τ) scM1_1 fullShare (outsAt1 V c n hn).2.2.1 ∗ owns (c : Thread nD τ) scM1_2 fullShare (outsAt1 V c n hn).2.2.2 ∗ rest1 (F := F) c ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(owns (c : Thread nD τ) scM1_0 fullShare (outsAt1 V c n hn).2.1 ∗ owns (c : Thread nD τ) scM1_1 fullShare (outsAt1 V c n hn).2.2.1 ∗ owns (c : Thread nD τ) scM1_2 fullShare (outsAt1 V c n hn).2.2.2 ∗ rest1 (F := F) c ∗ (∃ r, prngReg c r)) := rfl

theorem PhiS_pos (c : Dev nD) (n : ℕ) (h : n ≤ cfg1.N) (hz : n ≠ 0) :
    PhiS V c n h = iprop(owns (c : Thread nD τ) scM1_0 fullShare (outsAt1 V c (n - 1) (by omega)).2.1 ∗ owns (c : Thread nD τ) scM1_1 fullShare (outsAt1 V c (n - 1) (by omega)).2.2.1 ∗ owns (c : Thread nD τ) scM1_2 fullShare (outsAt1 V c (n - 1) (by omega)).2.2.2 ∗ rest1 (F := F) c ∗ (∃ r, prngReg c r)) := by
  cases n with
  | zero => exact absurd rfl hz
  | succ n => rfl

def dat1 (q1 : Fin 4 → PosShare TreeShare) (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS V c t.val (Nat.le_of_lt_succ t.isLt)
  q := q1
  owed _ := 0

theorem A_eq1 (q1 : Fin 4 → PosShare TreeShare) (c : Dev nD) (w : Fin cfg1.W) : (dat1 V q1 c).A w = V c (Pipeline.arrRef spec1 w) := by
  dsimp only [dat1]

theorem PhiS_castSucc (q1 : Fin 4 → PosShare TreeShare) (c : Dev nD) (t : Fin cfg1.N) :
    (dat1 V q1 c).Φ t.castSucc = PhiS V c t.val (Nat.le_of_lt t.isLt) := by
  dsimp only [dat1]; simp only [Fin.coe_castSucc]

theorem after1_0 (q1 : Fin 4 → PosShare TreeShare) (c : Dev nD) (t : Fin cfg1.N) : (dat1 V q1 c).after 0 t = iblk1 V c 0 t := by dsimp only [dat1]
theorem after1_1 (q1 : Fin 4 → PosShare TreeShare) (c : Dev nD) (t : Fin cfg1.N) : (dat1 V q1 c).after 1 t = iblk1 V c 1 t := by dsimp only [dat1]
theorem after1_2 (q1 : Fin 4 → PosShare TreeShare) (c : Dev nD) (t : Fin cfg1.N) : (dat1 V q1 c).after 2 t = iblk1 V c 2 t := by dsimp only [dat1]
theorem after1_3 (q1 : Fin 4 → PosShare TreeShare) (c : Dev nD) (t : Fin cfg1.N) : (dat1 V q1 c).after 3 t = (outsAt1 V c t.val t.isLt).1 := by dsimp only [dat1]

theorem before1_0 (q1 : Fin 4 → PosShare TreeShare) (c : Dev nD) (t : Fin cfg1.N) (d) : (dat1 V q1 c).before 0 t d = iblk1 V c 0 t :=
  before1_0_of V (dat1 V q1 c) (A_eq1 V q1 c 0) (after1_0 V q1 c) t d
theorem before1_1 (q1 : Fin 4 → PosShare TreeShare) (c : Dev nD) (t : Fin cfg1.N) (d) : (dat1 V q1 c).before 1 t d = iblk1 V c 1 t :=
  before1_1_of V (dat1 V q1 c) (A_eq1 V q1 c 1) (after1_1 V q1 c) t d
theorem before1_2 (q1 : Fin 4 → PosShare TreeShare) (c : Dev nD) (t : Fin cfg1.N) (d) : (dat1 V q1 c).before 2 t d = iblk1 V c 2 t :=
  before1_2_of V (dat1 V q1 c) (A_eq1 V q1 c 2) (after1_2 V q1 c) t d

def bodyPre1 (q1 : Fin 4 → PosShare TreeShare) (c : Dev nD) (t : Fin cfg1.N) : sProp 𝕄 :=
  iprop((dat1 V q1 c).Φ t.castSucc ∗ (dat1 V q1 c).owesAt () t.castSucc
    ∗ (∃ d, owns (c : Thread nD τ) (ms1_0 t) fullShare ((dat1 V q1 c).before 0 t d))
    ∗ (∃ d, owns (c : Thread nD τ) (ms1_1 t) fullShare ((dat1 V q1 c).before 1 t d))
    ∗ (∃ d, owns (c : Thread nD τ) (ms1_2 t) fullShare ((dat1 V q1 c).before 2 t d))
    ∗ (∃ d, owns (c : Thread nD τ) (ms1_3 t) fullShare ((dat1 V q1 c).before 3 t d)))

def bodyPost1 (q1 : Fin 4 → PosShare TreeShare) (c : Dev nD) (t : Fin cfg1.N) : sProp 𝕄 :=
  iprop((dat1 V q1 c).Φ t.succ ∗ (dat1 V q1 c).owesAt () t.succ
    ∗ (dat1 V q1 c).leavesExact 0 t
    ∗ (dat1 V q1 c).leavesExact 1 t
    ∗ (dat1 V q1 c).leavesExact 2 t
    ∗ (dat1 V q1 c).leavesExact 3 t)

set_option maxHeartbeats 4800000 in

/-- One run of the body carries the invariant from point t to t + 1: it is given the point's blocks and the previous contents and returns this point's. -/
theorem sound_body1 (q1 : Fin 4 → PosShare TreeShare) (c : Dev nD) (t : Fin cfg1.N) :
    bodyPre1 V q1 c t ⊢ wp frame (wpE (defs₀ (F := F)) Variants.none c none) Set.univ (bodyAt1 t) (fun _ => bodyPost1 V q1 c t) := by
  unfold bodyPre1 bodyPost1 bodyAt1
  simp only [before1_0, before1_1, before1_2]
  rw [show (dat1 V q1 c).owesAt () t.succ = (dat1 V q1 c).owesAt () t.castSucc from rfl]
  rw [show (dat1 V q1 c).Φ t.succ = PhiS V c (t.val + 1) t.isLt from rfl, PhiS_succ]
  have hN : t.val < 64 := lt_of_lt_of_eq t.isLt (show cfg1.N = 64 from N_1)
  rw [show (dat1 V q1 c).leavesExact 0 t = owns (c : Thread nD τ) (ms1_0 t) fullShare ((dat1 V q1 c).after 0 t) from by
    unfold Dat.leavesExact; rw [liveAt1_0 t], after1_0]
  rw [show (dat1 V q1 c).leavesExact 1 t = owns (c : Thread nD τ) (ms1_1 t) fullShare ((dat1 V q1 c).after 1 t) from by
    unfold Dat.leavesExact; rw [liveAt1_1 t], after1_1]
  rw [show (dat1 V q1 c).leavesExact 2 t = owns (c : Thread nD τ) (ms1_2 t) fullShare ((dat1 V q1 c).after 2 t) from by
    unfold Dat.leavesExact; rw [liveAt1_2 t], after1_2]
  by_cases h0 : t.val % 4 = 0
  · by_cases h1 : t.val % 4 < t.val / 4 % 4
    · by_cases h2 : t.val % 4 = t.val / 4 % 4
      · exfalso; omega
      · by_cases h3 : t.val % 4 = 3
        · exfalso; omega
        ·
          have hz : t.val ≠ 0 := by omega
          rw [Dat.leavesExact_idle (dat1 V q1 c) 3 t (idleAt1_3 t (fun h => h3 ((hcond1_3 t).mp h))) (noFlush1_3 t (fun h => h3 ((hcond1_3 t).mp h)))]
          rw [outsAt1_A V c t h0 h1 h2 h3]
          unfold caseA sout1_A_0 sout1_A_1 sout1_A_2; (try dsimp only)
          rw [PhiS_castSucc V q1 c t, PhiS_pos V c _ _ hz]
          iintro ⟨⟨HS0, HS1, HS2, Hr, Hg⟩, Ho, ⟨%d0, H0⟩, ⟨%d1, H1⟩, ⟨%d2, H2⟩, ⟨%d3, H3⟩⟩
          iapply ((kernelRun1_A c (grid1.coords t) _ _ _ _ _ _ _ _ _ _ _ _ _ _ ((hcond1_0 t).mpr h0) ((hcond1_1 t).mpr h1) (fun h => h2 ((hcond1_2 t).mp h)) (fun h => h3 ((hcond1_3 t).mp h)) (iblk1 V c 0 t) (iblk1 V c 1 t) (iblk1 V c 2 t)).2.2.2 _ Set.univ _)
          isplitl [H0]; · iexact H0
          isplitl [H1]; · iexact H1
          isplitl [H2]; · iexact H2
          isplitl [H3]; · iexact H3
          isplitl [HS0]; · iexists _; iexact HS0
          isplitl [HS1]; · iexists _; iexact HS1
          isplitl [HS2]; · iexists _; iexact HS2
          iintro ⟨H0, H1, H2, H3, ⟨%es0, HS0⟩, ⟨%es1, HS1⟩, ⟨%es2, HS2⟩⟩
          isplitl [HS0 HS1 HS2 Hr Hg]
          · isplitl [HS0]
            · unfold owns; iexists _; isplitr
              swap; · iexact HS0
              ipureintro; exact View.read_writes_of_cover _ _ _ _ _ (scover1_A_0 c _ _ _ _ _ _ _ _ _ _ _ _ _ _ _ _ _ _ _ _ _ _)
            isplitl [HS1]
            · unfold owns; iexists _; isplitr
              swap; · iexact HS1
              ipureintro; exact View.read_writes_of_cover _ _ _ _ _ (scover1_A_1 c _ _ _ _ _ _ _ _ _ _ _ _ _ _ _ _ _ _ _ _ _ _)
            isplitl [HS2]
            · unfold owns; iexists _; isplitr
              swap; · iexact HS2
              ipureintro; exact View.read_writes_of_cover _ _ _ _ _ (scover1_A_2 c _ _ _ _ _ _ _ _ _ _ _ _ _ _ _ _ _ _ _ _ _ _)
            isplitl [Hr]; · iexact Hr
            iexact Hg
          isplitl [Ho]; · iexact Ho
          isplitl [H0]; · iexact H0
          isplitl [H1]; · iexact H1
          isplitl [H2]; · iexact H2
          iexists _; iexact H3
    · by_cases h2 : t.val % 4 = t.val / 4 % 4
      · by_cases h3 : t.val % 4 = 3
        · exfalso; omega
        ·
          by_cases hz : t.val = 0
          ·
            rw [Dat.leavesExact_idle (dat1 V q1 c) 3 t (idleAt1_3 t (fun h => h3 ((hcond1_3 t).mp h))) (noFlush1_3 t (fun h => h3 ((hcond1_3 t).mp h)))]
            rw [outsAt1_B V c t h0 h1 h2 h3]
            unfold caseB sout1_B_0 sout1_B_1 sout1_B_2; (try dsimp only)
            rw [PhiS_castSucc V q1 c t, PhiS_zero V c _ _ hz, PhiA1_eq]
            iintro ⟨⟨HS0, HS1, HS2, Hr, Hg⟩, Ho, ⟨%d0, H0⟩, ⟨%d1, H1⟩, ⟨%d2, H2⟩, ⟨%d3, H3⟩⟩
            iapply ((kernelRun1_B c (grid1.coords t) _ _ _ _ _ _ _ _ _ _ _ _ _ _ ((hcond1_0 t).mpr h0) (fun h => h1 ((hcond1_1 t).mp h)) ((hcond1_2 t).mpr h2) (fun h => h3 ((hcond1_3 t).mp h)) (iblk1 V c 0 t) (iblk1 V c 1 t) (iblk1 V c 2 t)).2.2.2 _ Set.univ _)
            isplitl [H0]; · iexact H0
            isplitl [H1]; · iexact H1
            isplitl [H2]; · iexact H2
            isplitl [H3]; · iexact H3
            isplitl [HS0]; · iexact HS0
            isplitl [HS1]; · iexact HS1
            isplitl [HS2]; · iexact HS2
            iintro ⟨H0, H1, H2, H3, ⟨%es0, HS0⟩, ⟨%es1, HS1⟩, ⟨%es2, HS2⟩⟩
            isplitl [HS0 HS1 HS2 Hr Hg]
            · isplitl [HS0]
              · unfold owns; iexists _; isplitr
                swap; · iexact HS0
                ipureintro; exact View.read_writes_of_cover _ _ _ _ _ (scover1_B_0 c _ _ _ _ _ _ _ _ _ _ _ _ _ _ _ _ _ _ _ _ _ _)
              isplitl [HS1]
              · unfold owns; iexists _; isplitr
                swap; · iexact HS1
                ipureintro; exact View.read_writes_of_cover _ _ _ _ _ (scover1_B_1 c _ _ _ _ _ _ _ _ _ _ _ _ _ _ _ _ _ _ _ _ _ _)
              isplitl [HS2]
              · unfold owns; iexists _; isplitr
                swap; · iexact HS2
                ipureintro; exact View.read_writes_of_cover _ _ _ _ _ (scover1_B_2 c _ _ _ _ _ _ _ _ _ _ _ _ _ _ _ _ _ _ _ _ _ _)
              isplitl [Hr]; · iexact Hr
              iexact Hg
            isplitl [Ho]; · iexact Ho
            isplitl [H0]; · iexact H0
            isplitl [H1]; · iexact H1
            isplitl [H2]; · iexact H2
            iexists _; iexact H3
          ·
            rw [Dat.leavesExact_idle (dat1 V q1 c) 3 t (idleAt1_3 t (fun h => h3 ((hcond1_3 t).mp h))) (noFlush1_3 t (fun h => h3 ((hcond1_3 t).mp h)))]
            rw [outsAt1_B V c t h0 h1 h2 h3]
            unfold caseB sout1_B_0 sout1_B_1 sout1_B_2; (try dsimp only)
            rw [PhiS_castSucc V q1 c t, PhiS_pos V c _ _ hz]
            iintro ⟨⟨HS0, HS1, HS2, Hr, Hg⟩, Ho, ⟨%d0, H0⟩, ⟨%d1, H1⟩, ⟨%d2, H2⟩, ⟨%d3, H3⟩⟩
            iapply ((kernelRun1_B c (grid1.coords t) _ _ _ _ _ _ _ _ _ _ _ _ _ _ ((hcond1_0 t).mpr h0) (fun h => h1 ((hcond1_1 t).mp h)) ((hcond1_2 t).mpr h2) (fun h => h3 ((hcond1_3 t).mp h)) (iblk1 V c 0 t) (iblk1 V c 1 t) (iblk1 V c 2 t)).2.2.2 _ Set.univ _)
            isplitl [H0]; · iexact H0
            isplitl [H1]; · iexact H1
            isplitl [H2]; · iexact H2
            isplitl [H3]; · iexact H3
            isplitl [HS0]; · iexists _; iexact HS0
            isplitl [HS1]; · iexists _; iexact HS1
            isplitl [HS2]; · iexists _; iexact HS2
            iintro ⟨H0, H1, H2, H3, ⟨%es0, HS0⟩, ⟨%es1, HS1⟩, ⟨%es2, HS2⟩⟩
            isplitl [HS0 HS1 HS2 Hr Hg]
            · isplitl [HS0]
              · unfold owns; iexists _; isplitr
                swap; · iexact HS0
                ipureintro; exact View.read_writes_of_cover _ _ _ _ _ (scover1_B_0 c _ _ _ _ _ _ _ _ _ _ _ _ _ _ _ _ _ _ _ _ _ _)
              isplitl [HS1]
              · unfold owns; iexists _; isplitr
                swap; · iexact HS1
                ipureintro; exact View.read_writes_of_cover _ _ _ _ _ (scover1_B_1 c _ _ _ _ _ _ _ _ _ _ _ _ _ _ _ _ _ _ _ _ _ _)
              isplitl [HS2]
              · unfold owns; iexists _; isplitr
                swap; · iexact HS2
                ipureintro; exact View.read_writes_of_cover _ _ _ _ _ (scover1_B_2 c _ _ _ _ _ _ _ _ _ _ _ _ _ _ _ _ _ _ _ _ _ _)
              isplitl [Hr]; · iexact Hr
              iexact Hg
            isplitl [Ho]; · iexact Ho
            isplitl [H0]; · iexact H0
            isplitl [H1]; · iexact H1
            isplitl [H2]; · iexact H2
            iexists _; iexact H3
      · exfalso; omega
  · by_cases h1 : t.val % 4 < t.val / 4 % 4
    · by_cases h2 : t.val % 4 = t.val / 4 % 4
      · exfalso; omega
      · by_cases h3 : t.val % 4 = 3
        · exfalso; omega
        ·
          have hz : t.val ≠ 0 := by omega
          rw [Dat.leavesExact_idle (dat1 V q1 c) 3 t (idleAt1_3 t (fun h => h3 ((hcond1_3 t).mp h))) (noFlush1_3 t (fun h => h3 ((hcond1_3 t).mp h)))]
          rw [outsAt1_C V c t h0 h1 h2 h3]
          unfold caseC sout1_C_0 sout1_C_1 sout1_C_2; (try dsimp only)
          rw [PhiS_castSucc V q1 c t, PhiS_pos V c _ _ hz]
          iintro ⟨⟨HS0, HS1, HS2, Hr, Hg⟩, Ho, ⟨%d0, H0⟩, ⟨%d1, H1⟩, ⟨%d2, H2⟩, ⟨%d3, H3⟩⟩
          iapply ((kernelRun1_C c (grid1.coords t) _ _ _ _ _ _ _ _ _ _ _ _ _ _ (fun h => h0 ((hcond1_0 t).mp h)) ((hcond1_1 t).mpr h1) (fun h => h2 ((hcond1_2 t).mp h)) (fun h => h3 ((hcond1_3 t).mp h)) (iblk1 V c 0 t) (iblk1 V c 1 t) (iblk1 V c 2 t) _ _ _).2.2.2 _ Set.univ _)
          isplitl [H0]; · iexact H0
          isplitl [H1]; · iexact H1
          isplitl [H2]; · iexact H2
          isplitl [H3]; · iexact H3
          isplitl [HS0]; · iexact HS0
          isplitl [HS1]; · iexact HS1
          isplitl [HS2]; · iexact HS2
          iintro ⟨H0, H1, H2, H3, ⟨%es0, HS0⟩, ⟨%es1, HS1⟩, ⟨%es2, HS2⟩⟩
          isplitl [HS0 HS1 HS2 Hr Hg]
          · isplitl [HS0]
            · unfold owns; iexists _; isplitr
              swap; · iexact HS0
              ipureintro; exact View.read_writes_of_cover _ _ _ _ _ (scover1_C_0 c _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover1_C_1 c _ _ _ _ _ _ _ _ _ _ _ _ _ _ _ _ _ _ _ _ _ _ _ _ _)
            isplitl [HS2]
            · unfold owns; iexists _; isplitr
              swap; · iexact HS2
              ipureintro; exact View.read_writes_of_cover _ _ _ _ _ (scover1_C_2 c _ _ _ _ _ _ _ _ _ _ _ _ _ _ _ _ _ _ _ _ _ _ _ _ _)
            isplitl [Hr]; · iexact Hr
            iexact Hg
          isplitl [Ho]; · iexact Ho
          isplitl [H0]; · iexact H0
          isplitl [H1]; · iexact H1
          isplitl [H2]; · iexact H2
          iexists _; iexact H3
    · by_cases h2 : t.val % 4 = t.val / 4 % 4
      · by_cases h3 : t.val % 4 = 3
        ·
          have hz : t.val ≠ 0 := by omega
          rw [show (dat1 V q1 c).leavesExact 3 t = owns (c : Thread nD τ) (ms1_3 t) fullShare ((dat1 V q1 c).after 3 t) from by
            unfold Dat.leavesExact; rw [liveAt1_3 t ((hcond1_3 t).mpr h3)], after1_3]
          rw [outsAt1_E V c t h0 h1 h2 h3]
          unfold caseE out1_E_3 sout1_E_0 sout1_E_1 sout1_E_2; (try dsimp only)
          rw [PhiS_castSucc V q1 c t, PhiS_pos V c _ _ hz]
          iintro ⟨⟨HS0, HS1, HS2, Hr, Hg⟩, Ho, ⟨%d0, H0⟩, ⟨%d1, H1⟩, ⟨%d2, H2⟩, ⟨%d3, H3⟩⟩
          iapply ((kernelRun1_E c (grid1.coords t) _ _ _ _ _ _ _ _ _ _ _ _ _ _ (fun h => h0 ((hcond1_0 t).mp h)) (fun h => h1 ((hcond1_1 t).mp h)) ((hcond1_2 t).mpr h2) ((hcond1_3 t).mpr h3) (iblk1 V c 0 t) (iblk1 V c 1 t) (iblk1 V c 2 t) _ _ _).2.2.2.2 Set.univ _)
          isplitl [H0]; · iexact H0
          isplitl [H1]; · iexact H1
          isplitl [H2]; · iexact H2
          isplitl [H3]; · iexists _; iexact H3
          isplitl [HS0]; · iexact HS0
          isplitl [HS1]; · iexact HS1
          isplitl [HS2]; · iexact HS2
          iintro ⟨H0, H1, H2, ⟨%e3, H3⟩, ⟨%es0, HS0⟩, ⟨%es1, HS1⟩, ⟨%es2, HS2⟩⟩
          isplitl [HS0 HS1 HS2 Hr Hg]
          · isplitl [HS0]
            · unfold owns; iexists _; isplitr
              swap; · iexact HS0
              ipureintro; exact View.read_writes_of_cover _ _ _ _ _ (scover1_E_0 c _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover1_E_1 c _ _ _ _ _ _ _ _ _ _ _ _ _ _ _ _ _ _ _ _ _ _ _ _ _)
            isplitl [HS2]
            · unfold owns; iexists _; isplitr
              swap; · iexact HS2
              ipureintro; exact View.read_writes_of_cover _ _ _ _ _ (scover1_E_2 c _ _ _ _ _ _ _ _ _ _ _ _ _ _ _ _ _ _ _ _ _ _ _ _ _)
            isplitl [Hr]; · iexact Hr
            iexact Hg
          isplitl [Ho]; · iexact Ho
          isplitl [H0]; · iexact H0
          isplitl [H1]; · iexact H1
          isplitl [H2]; · iexact H2
          unfold owns; iexists _; isplitr
          swap; · iexact H3
          ipureintro; exact View.read_writes_of_cover _ _ _ _ _ (cover1_E_3 c _ _ _ _ _ _ _ _ _ _ _ _ _ _ _ _ _ _ _ _ _ _ _ _ _)
        ·
          have hz : t.val ≠ 0 := by omega
          rw [Dat.leavesExact_idle (dat1 V q1 c) 3 t (idleAt1_3 t (fun h => h3 ((hcond1_3 t).mp h))) (noFlush1_3 t (fun h => h3 ((hcond1_3 t).mp h)))]
          rw [outsAt1_D V c t h0 h1 h2 h3]
          unfold caseD sout1_D_0 sout1_D_1 sout1_D_2; (try dsimp only)
          rw [PhiS_castSucc V q1 c t, PhiS_pos V c _ _ hz]
          iintro ⟨⟨HS0, HS1, HS2, Hr, Hg⟩, Ho, ⟨%d0, H0⟩, ⟨%d1, H1⟩, ⟨%d2, H2⟩, ⟨%d3, H3⟩⟩
          iapply ((kernelRun1_D c (grid1.coords t) _ _ _ _ _ _ _ _ _ _ _ _ _ _ (fun h => h0 ((hcond1_0 t).mp h)) (fun h => h1 ((hcond1_1 t).mp h)) ((hcond1_2 t).mpr h2) (fun h => h3 ((hcond1_3 t).mp h)) (iblk1 V c 0 t) (iblk1 V c 1 t) (iblk1 V c 2 t) _ _ _).2.2.2 _ Set.univ _)
          isplitl [H0]; · iexact H0
          isplitl [H1]; · iexact H1
          isplitl [H2]; · iexact H2
          isplitl [H3]; · iexact H3
          isplitl [HS0]; · iexact HS0
          isplitl [HS1]; · iexact HS1
          isplitl [HS2]; · iexact HS2
          iintro ⟨H0, H1, H2, H3, ⟨%es0, HS0⟩, ⟨%es1, HS1⟩, ⟨%es2, HS2⟩⟩
          isplitl [HS0 HS1 HS2 Hr Hg]
          · isplitl [HS0]
            · unfold owns; iexists _; isplitr
              swap; · iexact HS0
              ipureintro; exact View.read_writes_of_cover _ _ _ _ _ (scover1_D_0 c _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover1_D_1 c _ _ _ _ _ _ _ _ _ _ _ _ _ _ _ _ _ _ _ _ _ _ _ _ _)
            isplitl [HS2]
            · unfold owns; iexists _; isplitr
              swap; · iexact HS2
              ipureintro; exact View.read_writes_of_cover _ _ _ _ _ (scover1_D_2 c _ _ _ _ _ _ _ _ _ _ _ _ _ _ _ _ _ _ _ _ _ _ _ _ _)
            isplitl [Hr]; · iexact Hr
            iexact Hg
          isplitl [Ho]; · iexact Ho
          isplitl [H0]; · iexact H0
          isplitl [H1]; · iexact H1
          isplitl [H2]; · iexact H2
          iexists _; iexact H3
      · by_cases h3 : t.val % 4 = 3
        ·
          have hz : t.val ≠ 0 := by omega
          rw [show (dat1 V q1 c).leavesExact 3 t = owns (c : Thread nD τ) (ms1_3 t) fullShare ((dat1 V q1 c).after 3 t) from by
            unfold Dat.leavesExact; rw [liveAt1_3 t ((hcond1_3 t).mpr h3)], after1_3]
          rw [outsAt1_G V c t h0 h1 h2 h3]
          unfold caseG out1_G_3; (try dsimp only)
          rw [PhiS_castSucc V q1 c t, PhiS_pos V c _ _ hz]
          iintro ⟨⟨HS0, HS1, HS2, Hr, Hg⟩, Ho, ⟨%d0, H0⟩, ⟨%d1, H1⟩, ⟨%d2, H2⟩, ⟨%d3, H3⟩⟩
          iapply ((kernelRun1_G c (grid1.coords t) _ _ _ _ _ _ _ _ _ _ _ _ _ _ (fun h => h0 ((hcond1_0 t).mp h)) (fun h => h1 ((hcond1_1 t).mp h)) (fun h => h2 ((hcond1_2 t).mp h)) ((hcond1_3 t).mpr h3) (iblk1 V c 0 t) (iblk1 V c 1 t) (iblk1 V c 2 t) _ _ _).2 Set.univ _)
          isplitl [H0]; · iexact H0
          isplitl [H1]; · iexact H1
          isplitl [H2]; · iexact H2
          isplitl [H3]; · iexists _; iexact H3
          isplitl [HS0]; · iexact HS0
          isplitl [HS1]; · iexact HS1
          isplitl [HS2]; · iexact HS2
          iintro ⟨H0, H1, H2, ⟨%e3, H3⟩, HS0, HS1, HS2⟩
          isplitl [HS0 HS1 HS2 Hr Hg]
          · isplitl [HS0]; · iexact HS0
            isplitl [HS1]; · iexact HS1
            isplitl [HS2]; · iexact HS2
            isplitl [Hr]; · iexact Hr
            iexact Hg
          isplitl [Ho]; · iexact Ho
          isplitl [H0]; · iexact H0
          isplitl [H1]; · iexact H1
          isplitl [H2]; · iexact H2
          unfold owns; iexists _; isplitr
          swap; · iexact H3
          ipureintro; exact View.read_writes_of_cover _ _ _ _ _ (cover1_G_3 c _ _ _ _ _ _ _ _ _ _ _ _ _ _ _ _ _ _ _ _ _ _ _ _ _)
        ·
          have hz : t.val ≠ 0 := by omega
          rw [Dat.leavesExact_idle (dat1 V q1 c) 3 t (idleAt1_3 t (fun h => h3 ((hcond1_3 t).mp h))) (noFlush1_3 t (fun h => h3 ((hcond1_3 t).mp h)))]
          rw [outsAt1_F V c t h0 h1 h2 h3]
          (try dsimp only)
          rw [PhiS_castSucc V q1 c t, PhiS_pos V c _ _ hz]
          iintro ⟨⟨HS0, HS1, HS2, Hr, Hg⟩, Ho, ⟨%d0, H0⟩, ⟨%d1, H1⟩, ⟨%d2, H2⟩, ⟨%d3, H3⟩⟩
          iapply (kernelRun1_F c (grid1.coords t) _ _ _ _ _ _ _ _ _ _ _ _ _ _ (fun h => h0 ((hcond1_0 t).mp h)) (fun h => h1 ((hcond1_1 t).mp h)) (fun h => h2 ((hcond1_2 t).mp h)) (fun h => h3 ((hcond1_3 t).mp h)) (iblk1 V c 0 t) (iblk1 V c 1 t) (iblk1 V c 2 t) _ _ _ _ Set.univ _)
          isplitl [H0]; · iexact H0
          isplitl [H1]; · iexact H1
          isplitl [H2]; · iexact H2
          isplitl [H3]; · iexact H3
          isplitl [HS0]; · iexact HS0
          isplitl [HS1]; · iexact HS1
          isplitl [HS2]; · iexact HS2
          iintro ⟨H0, H1, H2, H3, HS0, HS1, HS2⟩
          isplitl [HS0 HS1 HS2 Hr Hg]
          · isplitl [HS0]; · iexact HS0
            isplitl [HS1]; · iexact HS1
            isplitl [HS2]; · iexact HS2
            isplitl [Hr]; · iexact Hr
            iexact Hg
          isplitl [Ho]; · iexact Ho
          isplitl [H0]; · iexact H0
          isplitl [H1]; · iexact H1
          isplitl [H2]; · iexact H2
          iexists _; iexact H3

theorem body_obligation1 (q1 : Fin 4 → PosShare TreeShare) (c : Dev nD) : BodyObligation (dat1 (F := F) V q1 c) (defs₀ (F := F)) Variants.none () Set.univ := fun t => by
  rw [bigSep_W1, bigSep_W1]
  exact sound_body1 V q1 c t

theorem hin1 (q1 : Fin 4 → PosShare TreeShare) (c : Dev nD) : Pipeline.ΦA spec1 c ⊢ (dat1 V q1 c).Φ 0 := by
  rw [show (dat1 V q1 c).Φ 0 = PhiS V c 0 (Nat.zero_le _) from rfl, PhiS_zero V c 0 _ rfl]
  try exact Idealize.SL.BI.Entails.refl _

theorem Phi_out1 (q1 : Fin 4 → PosShare TreeShare) (c : Dev nD) (t : Fin (cfg1.N + 1)) (ht : t.val ≠ 0) : (dat1 V q1 c).Φ t ⊢ Pipeline.ΦA spec1 c := by
  rw [show (dat1 V q1 c).Φ t = PhiS V c t.val (Nat.le_of_lt_succ t.isLt) from rfl, PhiS_pos V c _ _ ht, PhiA1_eq]
  iintro ⟨HS0, HS1, HS2, Hr, Hg⟩
  isplitl [HS0]; · iexists _; iexact HS0
  isplitl [HS1]; · iexists _; iexact HS1
  isplitl [HS2]; · iexists _; iexact HS2
  isplitl [Hr]; · iexact Hr
  iexact Hg

theorem hout1 (q1 : Fin 4 → PosShare TreeShare) (c : Dev nD) : (dat1 V q1 c).Φ (Fin.last cfg1.N) ⊢ Pipeline.ΦA spec1 c :=
  Phi_out1 V q1 c _ (by rw [Fin.val_last]; have : cfg1.N = 64 := N_1; omega)

end Cert.KernelIdeal.Attn

end
-- ==== Proof.KI.Shares1.lean ====
import proofs.«414918_j3358664426109_3_alg».proof.Proof.Gen.KernelIdeal.Launch
import Idealize.ShloMosaic.Lib.Pipeline.Regions
import Idealize.ShloMosaic.Lib.Pipeline.RegionsLoop
import Idealize.ShloMosaic.Lib.Pipeline.FrameSuffix

noncomputable section

namespace Cert.KernelIdeal.Shares1

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat)

variable {F : FTy → Type} [FloatOps F] [Named F]

local notation "𝕄" => MT nD τ sig Unit (Elt F) ℕ (UR sig nD τ) ℕ

def q1 : Fin 4 → PosShare TreeShare := fun
  | ⟨0, _⟩ => fullShare.left
  | ⟨1, _⟩ => fullShare.right.left
  | ⟨2, _⟩ => fullShare.right.right
  | _ => fullShare

theorem image_arrRef1 : Finset.univ.image (Pipeline.arrRef spec1) = {main_v4, main_v5} := by decide

theorem arrBufs_eq1 (c : Dev nD) (V : (b : Ref sig .tc) → Buf (Elt F) ((c : Thread nD τ).loc b)) :
    (Pipeline.arrBufs (Ix := Unit) (Name := ℕ) (U := UR sig nD τ) (Lvl := ℕ) spec1 c V : sProp 𝕄)
      = iprop((((c : Thread nD τ).loc main_v4) ↦{fullShare} V main_v4) ∗ (((c : Thread nD τ).loc main_v5) ↦{fullShare} V main_v5)) := by
  unfold Pipeline.arrBufs
  rw [image_arrRef1, bigSep_insert (by decide), bigSep_singleton]
  rfl

theorem pointsTo_thirds {ℓ : Loc nD τ sig} {I : Finset (Idx ℓ)} (f : Buf (Elt F) ℓ) :
    (ℓ ↦[I]{fullShare} f : sProp 𝕄)
      = iprop((ℓ ↦[I]{fullShare.left} f) ∗ (ℓ ↦[I]{fullShare.right.left} f) ∗ ℓ ↦[I]{fullShare.right.right} f) := by
  have h₁ : (ℓ ↦[I]{fullShare} f : sProp 𝕄) ⊣⊢ iprop((ℓ ↦[I]{fullShare.left} f) ∗ ℓ ↦[I]{fullShare.right} f) :=
    pointsTo_share (PosShare.mem_left_op_right fullShare)
  have h₂ : (ℓ ↦[I]{fullShare.right} f : sProp 𝕄) ⊣⊢ iprop((ℓ ↦[I]{fullShare.right.left} f) ∗ ℓ ↦[I]{fullShare.right.right} f) :=
    pointsTo_share (PosShare.mem_left_op_right fullShare.right)
  rw [BI.equiv_iff.mp ⟨h₁.1, h₁.2⟩, BI.equiv_iff.mp ⟨h₂.1, h₂.2⟩]

theorem arrays_eq1 (c : Dev nD) (dat : Dat τ (Elt F) Unit ℕ (UR sig nD τ) ℕ cfg1 c) (hq : dat.q = q1)
    (G : (w : Fin cfg1.W) → Buf (Elt F) ((cfg1.win w).arr.view.loc (c : Thread nD τ))) :
    (dat.arrays G : sProp 𝕄)
      = iprop((((c : Thread nD τ).loc main_v4) ↦{fullShare.left} G 0) ∗ (((c : Thread nD τ).loc main_v4) ↦{fullShare.right.left} G 1)
          ∗ (((c : Thread nD τ).loc main_v4) ↦{fullShare.right.right} G 2) ∗ (((c : Thread nD τ).loc main_v5) ↦{fullShare} G 3)) := by
  have hs0 : dat.share 0 = fullShare.left := by unfold Dat.share; rw [hq]; rfl
  have hs1 : dat.share 1 = fullShare.right.left := by unfold Dat.share; rw [hq]; rfl
  have hs2 : dat.share 2 = fullShare.right.right := by unfold Dat.share; rw [hq]; rfl
  have hs3 : dat.share 3 = fullShare := by unfold Dat.share; rfl
  calc (dat.arrays G : sProp 𝕄)
      = bigSep Finset.univ fun w : Fin 4 => ((cfg1.win w).arr.view.loc (c : Thread nD τ) ↦{dat.share w} G w : sProp 𝕄) := by
        unfold Dat.arrays; exact bigSep_congr fun w _ => by rw [(arr_whole1 w).set_eq_univ]
    _ = _ := by rw [bigSep_W1, hs0, hs1, hs2, hs3]

theorem arrays_of_unscopedBufs1 (c : Dev nD) (dat : Dat τ (Elt F) Unit ℕ (UR sig nD τ) ℕ cfg1 c) (hq : dat.q = q1)
    (V : (b : Ref sig .tc) → Buf (Elt F) ((c : Thread nD τ).loc b))
    (hA : ∀ w, dat.A w = V (Pipeline.arrRef spec1 w)) :
    (unscopedBufs c V : sProp 𝕄)
      ⊢ iprop(dat.arrays dat.A ∗ Pipeline.unscopedRest (Ix := Unit) (Name := ℕ) (U := UR sig nD τ) (Lvl := ℕ) spec1 c V) := by
  have hsplit : (unscopedBufs c V : sProp 𝕄) = iprop(Pipeline.arrBufs spec1 c V ∗ Pipeline.unscopedRest spec1 c V) :=
    Pipeline.unscopedBufs_split₀ (Ix := Unit) (Name := ℕ) (U := UR sig nD τ) (Lvl := ℕ) cfgs 1 winFacts₀1.arr_unscoped c V
  rw [hsplit]
  refine sep_mono ?_ .rfl
  rw [arrBufs_eq1, arrays_eq1 c dat hq, hA 0, hA 1, hA 2, hA 3,
    pointsTo_thirds (ℓ := (c : Thread nD τ).loc main_v4) (V main_v4)]
  iintro ⟨⟨Hq, Hk, Hv⟩, Ho⟩
  isplitl [Hq]; · iexact Hq
  isplitl [Hk]; · iexact Hk
  isplitl [Hv]; · iexact Hv
  iexact Ho

theorem unscopedBufs_of_arrays1 (c : Dev nD) (dat : Dat τ (Elt F) Unit ℕ (UR sig nD τ) ℕ cfg1 c) (hq : dat.q = q1)
    (V V' : (b : Ref sig .tc) → Buf (Elt F) ((c : Thread nD τ).loc b))
    (G : (w : Fin cfg1.W) → Buf (Elt F) ((cfg1.win w).arr.view.loc (c : Thread nD τ)))
    (hG : ∀ w, G w = V' (Pipeline.arrRef spec1 w))
    (hrest : ∀ b, b ∉ Finset.univ.image (Pipeline.arrRef spec1) → V' b = V b) :
    iprop(dat.arrays G ∗ Pipeline.unscopedRest (Ix := Unit) (Name := ℕ) (U := UR sig nD τ) (Lvl := ℕ) spec1 c V)
      ⊢ (unscopedBufs c V' : sProp 𝕄) := by
  have hsplit : (unscopedBufs c V' : sProp 𝕄) = iprop(Pipeline.arrBufs spec1 c V' ∗ Pipeline.unscopedRest spec1 c V') :=
    Pipeline.unscopedBufs_split₀ (Ix := Unit) (Name := ℕ) (U := UR sig nD τ) (Lvl := ℕ) cfgs 1 winFacts₀1.arr_unscoped c V'
  rw [hsplit]
  refine sep_mono ?_ (Entails.of_eq ?_)
  · rw [arrBufs_eq1, arrays_eq1 c dat hq, hG 0, hG 1, hG 2, hG 3,
      pointsTo_thirds (ℓ := (c : Thread nD τ).loc main_v4) (V' main_v4)]
    iintro ⟨Hq, Hk, Hv, Ho⟩
    isplitr [Ho]
    · isplitl [Hq]; · iexact Hq
      isplitl [Hk]; · iexact Hk
      iexact Hv
    · iexact Ho
  · unfold Pipeline.unscopedRest
    exact bigSep_congr fun b hb => by rw [hrest b (Finset.mem_sdiff.mp hb).2]

end Cert.KernelIdeal.Shares1
-- ==== Proof.KI.Fold.lean ====
import proofs.«414918_j3358664426109_3_alg».proof.Proof.KI.Lin0
import proofs.«414918_j3358664426109_3_alg».proof.Proof.KI.Lin2
import proofs.«414918_j3358664426109_3_alg».proof.Proof.KI.AttnFrame
import proofs.«414918_j3358664426109_3_alg».proof.Proof.KI.Shares1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Fold

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

variable (m : (ℓ : Loc nD τ sig) → Buf (Elt F) ℓ) (ρ : Dev nD → PrngReg)

abbrev W0 : Dev nD → Valuation τ sig (Elt F) := fun c b => m ((c : Dev nD), b)

abbrev W1 : Dev nD → Valuation τ sig (Elt F) := fun c => StableHlo.after hostOps0 (W0 m c)
abbrev V1 : (c : Dev nD) → (b : Ref sig .tc) → Buf (Elt F) ((c : Thread nD τ).loc b) := fun c b => W1 m c b

def W2 (c : Dev nD) : Valuation τ sig (Elt F) :=
  Pipeline.withArrays spec0 c (W1 m c) fun w => (Lin0.dat0 (V1 m) c).arrAt w cfg0.N
theorem W2_arr (c : Dev nD) (w : Fin cfg0.W) :
    W2 m c (Proc.devRef .tc (Pipeline.arrRef spec0 w)) = (Lin0.dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (Lin0.dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

abbrev dat1 (c : Dev nD) : Dat τ (Elt F) Unit ℕ (UR sig nD τ) ℕ cfg1 c := Attn.dat1 (V2 m) Shares1.q1 c

def W3 (c : Dev nD) : Valuation τ sig (Elt F) :=
  Function.update (W2 m c) (Proc.devRef .tc main_v5) ((dat1 m c).arrAt 3 cfg1.N)
abbrev V3 : (c : Dev nD) → (b : Ref sig .tc) → Buf (Elt F) ((c : Thread nD τ).loc b) := fun c b => W3 m c b
theorem W3_v5 (c : Dev nD) : W3 m c (Proc.devRef .tc main_v5) = (dat1 m c).arrAt 3 cfg1.N := by
  unfold W3; exact Function.update_self ..
theorem W3_of_ne (c : Dev nD) (b : Ref sig .tc) (hb : b ≠ main_v5) :
    W3 m c (Proc.devRef .tc b) = W2 m c (Proc.devRef .tc b) := by
  unfold W3; exact Function.update_of_ne (StableHlo.devRef_ne_of_ne hb) ..

abbrev W4 : Dev nD → Valuation τ sig (Elt F) := fun c => StableHlo.after hostOps2 (W3 m c)
abbrev V4 : (c : Dev nD) → (b : Ref sig .tc) → Buf (Elt F) ((c : Thread nD τ).loc b) := fun c b => W4 m c b

def W5 (c : Dev nD) : Valuation τ sig (Elt F) :=
  Pipeline.withArrays spec2 c (W4 m c) fun w => (Lin2.dat2 (V4 m) c).arrAt w cfg2.N
theorem W5_arr (c : Dev nD) (w : Fin cfg2.W) :
    W5 m c (Proc.devRef .tc (Pipeline.arrRef spec2 w)) = (Lin2.dat2 (V4 m) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m c (Proc.devRef .tc b) = W4 m c (Proc.devRef .tc b) := by
  unfold W5; exact Pipeline.withArrays_of_ne spec2 c _ _ b hb
abbrev V5 : (c : Dev nD) → (b : Ref sig .tc) → Buf (Elt F) ((c : Thread nD τ).loc b) := fun c b => W5 m c b
theorem hF2 (c : Dev nD) (w : Fin cfg2.W) : (Lin2.dat2 (V4 m) c).arrAt w cfg2.N = V5 m c (Pipeline.arrRef spec2 w) :=
  (W5_arr m c w).symm
theorem hrest2 (c : Dev nD) : ∀ b, b ∉ Finset.univ.image (Pipeline.arrRef spec2) → V5 m c b = V4 m c b :=
  fun b hb => W5_of_ne m c b fun w e => hb (Finset.mem_image.mpr ⟨w, Finset.mem_univ _, e⟩)

abbrev W6 : Dev nD → Valuation τ sig (Elt F) := fun c => StableHlo.after hostOps3 (W5 m c)

end Cert.KernelIdeal.Fold

end
-- ==== Proof.KI.Run.lean ====
import proofs.«414918_j3358664426109_3_alg».proof.Proof.KI.Fold
import proofs.«414918_j3358664426109_3_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Run

open Cert.KernelIdeal Cert.KernelIdeal.Gen Cert.KernelIdeal.Fold
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

abbrev adm : (p : Fin 3) → (pcfgs (F := F) p).Adm := fun p => (cfgs p).toPCfg_adm

def pdats : (p : Fin 3) → (c : Dev nD) → Dat τ (Elt F) Unit ℕ (UR sig nD τ) ℕ (Pipeline.pin (pcfgs (F := F)) adm p) c
  | ⟨0, _⟩ => fun c => Lin0.dat0 (V1 m) c
  | ⟨1, _⟩ => fun c => dat1 m c
  | ⟨2, _⟩ => fun c => Lin2.dat2 (V4 m) c
abbrev 𝒱₀ : Variants := Variants.none
abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W6 m c) ∗ ∃ r, prngReg c r)

set_option backward.isDefEq.respectTransparency.types false in

def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Lin0.body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

theorem hG1 (c : Dev nD) (w : Fin cfg1.W) : (dat1 m c).arrAt w cfg1.N = V3 m c (Pipeline.arrRef spec1 w) := by
  match w with
  | ⟨0, _⟩ => exact ((dat1 m c).arrAt_in 0 rfl _).trans (((Attn.A_eq1 (V2 m) Shares1.q1 c 0)).trans (W3_of_ne m c main_v4 (by decide)).symm)
  | ⟨1, _⟩ => exact ((dat1 m c).arrAt_in 1 rfl _).trans (((Attn.A_eq1 (V2 m) Shares1.q1 c 1)).trans (W3_of_ne m c main_v4 (by decide)).symm)
  | ⟨2, _⟩ => exact ((dat1 m c).arrAt_in 2 rfl _).trans (((Attn.A_eq1 (V2 m) Shares1.q1 c 2)).trans (W3_of_ne m c main_v4 (by decide)).symm)
  | ⟨3, _⟩ => exact (W3_v5 m c).symm
theorem hrest1 (c : Dev nD) : ∀ b, b ∉ Finset.univ.image (Pipeline.arrRef spec1) → V3 m c b = V2 m c b :=
  fun b hb => W3_of_ne m c b fun e => hb (Finset.mem_image.mpr ⟨3, Finset.mem_univ _, e.symm⟩)

set_option backward.isDefEq.respectTransparency.types false in

def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (Attn.body_obligation1 (V2 m) Shares1.q1 c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Shares1.arrays_of_unscopedBufs1 c (pdats m 1 c) rfl (V2 m c) (fun w => Attn.A_eq1 (V2 m) Shares1.q1 c w)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = (Attn.dat1 (V2 m) Shares1.q1 c).Φ 0 from rfl]
    iintro ⟨Hp, -, Hr⟩
    iapply (Attn.hin1 (V2 m) Shares1.q1 c)
    unfold Pipeline.ΦA
    isplitl [Hr]; · iexact Hr
    iexact Hp
  hout c := by
    rw [Pipeline.ownSems0_none, show (pdats m 1 c).Φ (Fin.last _) = (Attn.dat1 (V2 m) Shares1.q1 c).Φ (Fin.last cfg1.N) from rfl]
    iintro HΦ
    ihave H := (Attn.hout1 (V2 m) Shares1.q1 c) $$ HΦ
    unfold Pipeline.ΦA
    icases H with ⟨Hr, Hp⟩
    isplitl [Hp]; · iexact Hp
    isplitr; · iempintro
    iexact Hr
  hexit c := by
    have hjoin := Shares1.unscopedBufs_of_arrays1 c (pdats m 1 c) rfl (V2 m c) (V3 m c) ((pdats m 1 c).arrAt · cfg1.N) (hG1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in

def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (Lin2.body_obligation2 (V4 m) c).loose
  hwaits := Pipeline.hwaits_of_owed_zero _ _ _ _ L lv 2 fun _ _ => rfl
  pre c := iprop(StableHlo.held (c : Thread nD τ) (Pipeline.ucRefs τ sig) (W4 m c) ∗ R c)
  post c := iprop(StableHlo.held (c : Thread nD τ) (Pipeline.ucRefs τ sig) (W5 m c) ∗ R c)
  X c := iprop(∃ r, prngReg c r)
  Y c := iprop(∃ r, prngReg c r)
  Z c := Pipeline.unscopedRest (Ix := Unit) (Name := ℕ) (U := UR sig nD τ) (Lvl := ℕ) spec2 c (V4 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V4 m c) (V5 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

abbrev segs : List (Pipeline.Seg (pcfgs (F := F)) adm (pdats m) () defs₀ 𝒱₀ L lv) :=
  [ .host (hseg hostOps0 hostOps0_sub hostOps0_fresh (W0 m)),
    .region (reg0 m),
    .region (reg1 m),
    .host (hseg hostOps2 hostOps2_sub hostOps2_fresh (W3 m)),
    .region (reg2 m),
    .host (hseg hostOps3 hostOps3_sub hostOps3_fresh (W5 m)) ]

theorem main_run (c : Dev nD) : main (F := F) c = Pipeline.Seg.run (segs m) := (main_chain c).trans (by chain_rfl)

set_option backward.isDefEq.respectTransparency.types false in

theorem run_main : θ_run defs (onTc (τ := τ) (main (F := F))) ⟨m, fun _ => 0, ρ⟩ (fun r => ∀ c : Dev nD,
      ∀ b ∈ Pipeline.ucRefs τ sig, r.2.mem (((c : Thread nD τ)).1, b) = W6 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun c => by
      show (iprop(StableHlo.held (c : Thread nD τ) (Pipeline.ucRefs τ sig) (W6 m c) ∗ R c) : sProp 𝕄)
        ⊢ iprop(Tₙ m c ∗ ∃ W, owes (c : Thread nD τ) (0 : CellTallies nD τ sig Unit) W)
      iintro ⟨Hh, Hp, HO⟩
      isplitl [Hh Hp]
      · isplitl [Hh] <;> iassumption
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m c b)
    (hfin := fun c s' => by
      iintro ⟨⟨Hh, -⟩, HSI⟩
      unfold StableHlo.held
      imodintro
      iapply (pointsTo_read_all (Pipeline.ucRefs τ sig) (fun b => (((c : Thread nD τ)).1, b)) (W6 m c) s')
      isplitl [Hh] <;> iassumption)
    (hQ := fun s h c => h c)

end Cert.KernelIdeal.Run

end
-- ==== Proof.KI.FoldArgs.lean ====
import proofs.«414918_j3358664426109_3_alg».proof.Proof.KI.Fold

noncomputable section

namespace Cert.KernelIdeal.FoldArgs

open Cert.KernelIdeal Cert.KernelIdeal.Gen
open Idealize.ShloMosaic Idealize.ShloMosaic.TcCoe
open Idealize.SL Idealize.SL.Sem

variable {F : FTy → Type} [FloatOps F] [Named F]

variable (m : (ℓ : Loc nD τ sig) → Buf (Elt F) ℓ)

theorem W1_of (c : Dev nD) (r : Ref sig .tc) (h0 : r ≠ main_v0) (h1 : r ≠ main_v1) (h2 : r ≠ main_v2)
    (h3 : r ≠ main_v3) : Fold.W1 m c (Proc.devRef .tc r) = Fold.W0 m c (Proc.devRef .tc r) :=
  StableHlo.after_of_forall_not_mem (b := Proc.devRef .tc r) _ _ (List.forall_iff_forall_mem.mp (by
    simp only [hostOps0, List.Forall, StableHlo.unary_writes, StableHlo.reshape_writes, Finset.mem_singleton]
    exact ⟨StableHlo.devRef_ne_of_ne h0, StableHlo.devRef_ne_of_ne h1, StableHlo.devRef_ne_of_ne h2,
      StableHlo.devRef_ne_of_ne h3⟩))

theorem W4_of (c : Dev nD) (r : Ref sig .tc) (h : r ≠ main_v6) :
    Fold.W4 m c (Proc.devRef .tc r) = Fold.W3 m c (Proc.devRef .tc r) :=
  StableHlo.after_of_forall_not_mem (b := Proc.devRef .tc r) _ _ (List.forall_iff_forall_mem.mp (by
    simp only [hostOps2, List.Forall, StableHlo.reshape_writes, Finset.mem_singleton]
    exact StableHlo.devRef_ne_of_ne h))

theorem W6_of (c : Dev nD) (r : Ref sig .tc) (h : r ≠ main_v8) :
    Fold.W6 m c (Proc.devRef .tc r) = Fold.W5 m c (Proc.devRef .tc r) :=
  StableHlo.after_of_forall_not_mem (b := Proc.devRef .tc r) _ _ (List.forall_iff_forall_mem.mp (by
    simp only [hostOps3, List.Forall, StableHlo.reshape_writes, Finset.mem_singleton]
    exact StableHlo.devRef_ne_of_ne h))

theorem W6_of_untouched (c : Dev nD) (r : Ref sig .tc) (h0 : r ≠ main_v0) (h1 : r ≠ main_v1) (h2 : r ≠ main_v2)
    (h3 : r ≠ main_v3) (hr0 : ∀ w, Pipeline.arrRef spec0 w ≠ r) (h5 : r ≠ main_v5) (h6 : r ≠ main_v6)
    (hr2 : ∀ w, Pipeline.arrRef spec2 w ≠ r) (h8 : r ≠ main_v8) :
    Fold.W6 m c (Proc.devRef .tc r) = m ((c.tc : Thread nD τ).loc r) :=
  calc Fold.W6 m c (Proc.devRef .tc r)
    _ = Fold.W5 m c (Proc.devRef .tc r) := W6_of m c r h8
    _ = Fold.W4 m c (Proc.devRef .tc r) := Fold.W5_of_ne m c r hr2
    _ = Fold.W3 m c (Proc.devRef .tc r) := W4_of m c r h6
    _ = Fold.W2 m c (Proc.devRef .tc r) := Fold.W3_of_ne m c r h5
    _ = Fold.W1 m c (Proc.devRef .tc r) := Fold.W2_of_ne m c r hr0
    _ = Fold.W0 m c (Proc.devRef .tc r) := W1_of m c r h0 h1 h2 h3
    _ = m ((c.tc : Thread nD τ).loc r) := rfl

theorem arg0 (c : Dev nD) : Fold.W6 m c (Proc.devRef .tc main_arg0) = m ((c.tc : Thread nD τ).loc main_arg0) :=
  W6_of_untouched m c main_arg0 (by decide) (by decide) (by decide) (by decide) (by decide) (by decide) (by decide)
    (by decide) (by decide)

theorem arg1 (c : Dev nD) : Fold.W6 m c (Proc.devRef .tc main_arg1) = m ((c.tc : Thread nD τ).loc main_arg1) :=
  W6_of_untouched m c main_arg1 (by decide) (by decide) (by decide) (by decide) (by decide) (by decide) (by decide)
    (by decide) (by decide)

theorem arg2 (c : Dev nD) : Fold.W6 m c (Proc.devRef .tc main_arg2) = m ((c.tc : Thread nD τ).loc main_arg2) :=
  W6_of_untouched m c main_arg2 (by decide) (by decide) (by decide) (by decide) (by decide) (by decide) (by decide)
    (by decide) (by decide)

theorem arg3 (c : Dev nD) : Fold.W6 m c (Proc.devRef .tc main_arg3) = m ((c.tc : Thread nD τ).loc main_arg3) :=
  W6_of_untouched m c main_arg3 (by decide) (by decide) (by decide) (by decide) (by decide) (by decide) (by decide)
    (by decide) (by decide)

theorem arg4 (c : Dev nD) : Fold.W6 m c (Proc.devRef .tc main_arg4) = m ((c.tc : Thread nD τ).loc main_arg4) :=
  W6_of_untouched m c main_arg4 (by decide) (by decide) (by decide) (by decide) (by decide) (by decide) (by decide)
    (by decide) (by decide)

end Cert.KernelIdeal.FoldArgs

end
-- ==== Proof.Spec.lean ====
import Idealize.ShloMosaic.PureOps.Ideal

noncomputable section

namespace Cert.Spec

open Idealize.ShloMosaic

def linear {M N K : ℕ} (x : Fin M → Fin K → EReal) (w : Fin N → Fin K → EReal) (b : Fin N → EReal) :
    Fin M → Fin N → EReal :=
  fun r j => (∑ k : Fin K, x r k * w j k) + b j

def row (b : Fin 4) (t : Fin 2048) : Fin 8192 := ⟨b.val * 2048 + t.val, by omega⟩

def col (p : Fin 3) (h : Fin 16) (d : Fin 64) : Fin 3072 := ⟨p.val * 1024 + h.val * 64 + d.val, by omega⟩

def ocol (h : Fin 16) (d : Fin 64) : Fin 1024 := ⟨h.val * 64 + d.val, by omega⟩

def score (c : EReal) (y : Fin 8192 → Fin 3072 → EReal) (b : Fin 4) (h : Fin 16) (q k : Fin 2048) : EReal :=
  (∑ d : Fin 64, y (row b q) (col 0 h d) * y (row b k) (col 1 h d)) * c

def value (y : Fin 8192 → Fin 3072 → EReal) (b : Fin 4) (h : Fin 16) (k : Fin 2048) (d : Fin 64) : EReal :=
  y (row b k) (col 2 h d)

def vis (q : Fin 2048) : Finset (Fin 2048) := Finset.univ.filter fun k => k ≤ q

def masked (s : Fin 2048 → EReal) (q : Fin 2048) : Fin 2048 → EReal := fun k => if k ≤ q then s k else ⊥

def attnK (s : Fin 2048 → EReal) (v : Fin 2048 → Fin 64 → EReal) (q : Fin 2048) (d : Fin 64) : EReal :=
  Ideal.div (∑ k ∈ vis q, Ideal.exp (s k - (vis q).sup s) * v k d) (∑ k ∈ vis q, Ideal.exp (s k - (vis q).sup s))

def attnR (s : Fin 2048 → EReal) (v : Fin 2048 → Fin 64 → EReal) (q : Fin 2048) (d : Fin 64) : EReal :=
  ∑ k : Fin 2048,
    Ideal.div (Ideal.exp (masked s q k - max ⊥ (Finset.univ.sup (masked s q))))
      (0 + ∑ k' : Fin 2048, Ideal.exp (masked s q k' - max ⊥ (Finset.univ.sup (masked s q)))) * v k d

def tile (n : ℕ) : Finset (Fin 2048) := Finset.univ.filter fun k => k.val / 512 = n

structure St where
  m : EReal
  l : EReal
  acc : Fin 64 → EReal

def St.init : St := ⟨⊥, 0, fun _ => 0⟩

def St.step (s : Fin 2048 → EReal) (v : Fin 2048 → Fin 64 → EReal) (n : ℕ) (st : St) : St :=
  let m' := max st.m ((tile n).sup s)
  let a := Ideal.exp (st.m - m')
  { m := m'
    l := a * st.l + ∑ k ∈ tile n, Ideal.exp (s k - m')
    acc := fun d => a * st.acc d + ∑ k ∈ tile n, Ideal.exp (s k - m') * v k d }

def online (s : Fin 2048 → EReal) (v : Fin 2048 → Fin 64 → EReal) : ℕ → St
  | 0 => St.init
  | n + 1 => St.step s v n (online s v n)

def attnT (s : Fin 2048 → EReal) (v : Fin 2048 → Fin 64 → EReal) (q : Fin 2048) (d : Fin 64) : EReal :=
  Ideal.div ((online (masked s q) v (q.val / 512 + 1)).acc d) (online (masked s q) v (q.val / 512 + 1)).l

def heads (A : (Fin 2048 → EReal) → (Fin 2048 → Fin 64 → EReal) → Fin 2048 → Fin 64 → EReal) (c : EReal)
    (y : Fin 8192 → Fin 3072 → EReal) : Fin 8192 → Fin 1024 → EReal :=
  fun r j =>
    A (score c y ⟨r.val / 2048, by omega⟩ ⟨j.val / 64, by omega⟩ ⟨r.val % 2048, Nat.mod_lt _ (by norm_num)⟩)
      (value y ⟨r.val / 2048, by omega⟩ ⟨j.val / 64, by omega⟩) ⟨r.val % 2048, Nat.mod_lt _ (by norm_num)⟩
      ⟨j.val % 64, Nat.mod_lt _ (by norm_num)⟩

def layer (A : (Fin 2048 → EReal) → (Fin 2048 → Fin 64 → EReal) → Fin 2048 → Fin 64 → EReal) (c : EReal)
    (x : Fin 8192 → Fin 1024 → EReal) (wqkv : Fin 3072 → Fin 1024 → EReal) (bqkv : Fin 3072 → EReal)
    (wo : Fin 1024 → Fin 1024 → EReal) (bo : Fin 1024 → EReal) : Fin 8192 → Fin 1024 → EReal :=
  linear (heads A c (linear x wqkv bqkv)) wo bo

end Cert.Spec

end
-- ==== Proof.Result.lean ====
import proofs.«414918_j3358664426109_3_alg».proof.Proof.Spec
import Idealize.ShloMosaic.Lib.ValueIdx

noncomputable section

namespace Cert.Spec

open Idealize.ShloMosaic Idealize.ShloMosaic.ValueIdx

def xMat (a : (⟨3, ![4, 2048, 1024]⟩ : Shape).Idx → EReal) : Fin 8192 → Fin 1024 → EReal :=
  fun r k => a (ix3 (⟨r.val / 2048, by omega⟩ : Fin 4) (⟨r.val % 2048, Nat.mod_lt _ (by norm_num)⟩ : Fin 2048) k)

def mat {N K : ℕ} (a : (⟨2, ![N, K]⟩ : Shape).Idx → EReal) : Fin N → Fin K → EReal := fun j k => a (ix2 j k)

def vec {N : ℕ} (a : (⟨1, ![N]⟩ : Shape).Idx → EReal) : Fin N → EReal := fun j => a (ix1 j)

def result (A : (Fin 2048 → EReal) → (Fin 2048 → Fin 64 → EReal) → Fin 2048 → Fin 64 → EReal) (c : EReal)
    (a0 : (⟨3, ![4, 2048, 1024]⟩ : Shape).Idx → EReal) (a1 : (⟨2, ![3072, 1024]⟩ : Shape).Idx → EReal)
    (a2 : (⟨1, ![3072]⟩ : Shape).Idx → EReal) (a3 : (⟨2, ![1024, 1024]⟩ : Shape).Idx → EReal)
    (a4 : (⟨1, ![1024]⟩ : Shape).Idx → EReal) : (⟨3, ![4, 2048, 1024]⟩ : Shape).Idx → EReal :=
  fun i => layer A c (xMat a0) (mat a1) (vec a2) (mat a3) (vec a4)
    (row ⟨(i 0).val, (i 0).isLt⟩ ⟨(i 1).val, (i 1).isLt⟩) ⟨(i 2).val, (i 2).isLt⟩

end Cert.Spec

end
-- ==== Proof.KI.LinVal0.lean ====
import proofs.«414918_j3358664426109_3_alg».proof.Proof.KI.Lin0
import proofs.«414918_j3358664426109_3_alg».proof.Proof.Result
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Ring
import Idealize.ShloMosaic.Lib.Tactic

noncomputable section

namespace Cert.KernelIdeal.LinVal0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

abbrev arrX := main_v0
abbrev arrW := main_v1
abbrev arrB := main_v3
abbrev arrY := main_v4

theorem lhs_row (i : S512x3072.Idx) (s : dot_S512x1024_S3072x1024_S512x3072_1_1_0_0_n_n.contr.Idx) :
    (dot_S512x1024_S3072x1024_S512x3072_1_1_0_0_n_n.lhsIdx i s 0).val = (i 0).val := by
  unfold DotDims.lhsIdx
  rw [dif_neg (show ¬(0 : Fin S512x1024.rank) ∈ dot_S512x1024_S3072x1024_S512x3072_1_1_0_0_n_n.lhsBatch by decide), dif_pos (show (0 : Fin S512x1024.rank) ∈ dot_S512x1024_S3072x1024_S512x3072_1_1_0_0_n_n.lhsNonContracting by decide)]
  rfl
theorem lhs_col (i : S512x3072.Idx) (s : dot_S512x1024_S3072x1024_S512x3072_1_1_0_0_n_n.contr.Idx) :
    (dot_S512x1024_S3072x1024_S512x3072_1_1_0_0_n_n.lhsIdx i s 1).val = (s ⟨0, by decide⟩).val :=
  dot_S512x1024_S3072x1024_S512x3072_1_1_0_0_n_n.lhsIdx_val_of_single rfl i s
theorem rhs_row (i : S512x3072.Idx) (s : dot_S512x1024_S3072x1024_S512x3072_1_1_0_0_n_n.contr.Idx) :
    (dot_S512x1024_S3072x1024_S512x3072_1_1_0_0_n_n.rhsIdx i s 0).val = (i 1).val := by
  unfold DotDims.rhsIdx
  rw [dif_neg (show ¬(0 : Fin S3072x1024.rank) ∈ dot_S512x1024_S3072x1024_S512x3072_1_1_0_0_n_n.rhsBatch by decide), dif_pos (show (0 : Fin S3072x1024.rank) ∈ dot_S512x1024_S3072x1024_S512x3072_1_1_0_0_n_n.rhsNonContracting by decide)]
  rfl
theorem rhs_col (i : S512x3072.Idx) (s : dot_S512x1024_S3072x1024_S512x3072_1_1_0_0_n_n.contr.Idx) :
    (dot_S512x1024_S3072x1024_S512x3072_1_1_0_0_n_n.rhsIdx i s 1).val = (s ⟨0, by decide⟩).val :=
  dot_S512x1024_S3072x1024_S512x3072_1_1_0_0_n_n.rhsIdx_val_of_single rfl i s

theorem product_apply (l : FVec Ideal S512x1024 .bf16) (r : FVec Ideal S3072x1024 .bf16) (p : Fin 512) (q : Fin 3072) :
    matmul dot_S512x1024_S3072x1024_S512x3072_1_1_0_0_n_n none l r (constant (F := Ideal) S512x3072 .f32 0x00000000#32) (ix2 p q)
      = ∑ k : Fin 1024, l (ix2 p k) * r (ix2 q k) := by
  show FloatOps.matmul _ _ _ _ _ _ = _
  rw [Ideal.matmul_constant_zero_apply, ← Equiv.sum_comp (ValueIdx.contrEquiv1 dot_S512x1024_S3072x1024_S512x3072_1_1_0_0_n_n 1024 rfl rfl).symm]
  refine Finset.sum_congr rfl fun k _ => ?_
  have hk := ValueIdx.contrEquiv1_symm_val dot_S512x1024_S3072x1024_S512x3072_1_1_0_0_n_n 1024 rfl rfl k
  have el : dot_S512x1024_S3072x1024_S512x3072_1_1_0_0_n_n.lhsIdx (ix2 p q) ((ValueIdx.contrEquiv1 dot_S512x1024_S3072x1024_S512x3072_1_1_0_0_n_n 1024 rfl rfl).symm k) = ix2 p k := funext fun a => Fin.ext (by
    match a with
    | ⟨0, _⟩ => exact lhs_row _ _
    | ⟨1, _⟩ => exact (lhs_col _ _).trans hk)
  have er : dot_S512x1024_S3072x1024_S512x3072_1_1_0_0_n_n.rhsIdx (ix2 p q) ((ValueIdx.contrEquiv1 dot_S512x1024_S3072x1024_S512x3072_1_1_0_0_n_n 1024 rfl rfl).symm k) = ix2 q k := funext fun a => Fin.ext (by
    match a with
    | ⟨0, _⟩ => exact rhs_row _ _
    | ⟨1, _⟩ => exact (rhs_col _ _).trans hk)
  rw [el, er]

theorem bias_apply (b : FVec Ideal S1x3072 .f32) (p : Fin 512) (q : Fin 3072) :
    broadcastTo S512x3072 b broadcasts_S1x3072_S512x3072 (ix2 p q) = b (ix2 (0 : Fin 1) q) :=
  broadcastTo_apply b broadcasts_S1x3072_S512x3072 (ix2 p q) (ix2 (0 : Fin 1) q) (fun a => by
    match a with
    | ⟨0, _⟩ => rfl
    | ⟨1, _⟩ => show q.val = if (3072 : Nat) = 1 then 0 else q.val; rw [if_neg (by decide)])

theorem pay_apply (x0 : Vec Ideal S512x1024 .f32) (x1 : Vec Ideal S3072x1024 .bf16) (x2 : Vec Ideal S1x3072 .f32)
    (p : Fin 512) (q : Fin 3072) :
    (k0_pay1 (F := Ideal) x0 x1 x2 (ix2 p q) : EReal)
      = (∑ k : Fin 1024, (x0 (ix2 p k) : EReal) * (x1 (ix2 q k) : EReal)) + (x2 (ix2 (0 : Fin 1) q) : EReal) := by
  unfold k0_pay1
  simp only [shapeCast_self, truncf_apply, addf_apply, product_apply, bias_apply]

def G (a0 : S8192x1024.Idx → EReal) (a1 : S3072x1024.Idx → EReal) (a2 : S1x3072.Idx → EReal) : S8192x3072.Idx → EReal :=
  fun i => Cert.Spec.linear (Cert.Spec.mat a0) (Cert.Spec.mat a1) (fun j => a2 (ix2 (0 : Fin 1) j))
    ⟨(i 0).val, (i 0).isLt⟩ ⟨(i 1).val, (i 1).isLt⟩

theorem block_apply (a0 : S8192x1024.Idx → EReal) (a1 : S3072x1024.Idx → EReal) (a2 : S1x3072.Idx → EReal)
    (x0 : Vec Ideal S512x1024 .f32) (x1 : Vec Ideal S3072x1024 .bf16) (x2 : Vec Ideal S1x3072 .f32)
    (p : Fin 512) (q : Fin 3072) (i : S8192x3072.Idx)
    (h0 : ∀ k : Fin 1024, (x0 (ix2 p k) : EReal) = a0 (ix2 (⟨(i 0).val, (i 0).isLt⟩ : Fin 8192) k))
    (h1 : ∀ k : Fin 1024, (x1 (ix2 q k) : EReal) = a1 (ix2 (⟨(i 1).val, (i 1).isLt⟩ : Fin 3072) k))
    (h2 : (x2 (ix2 (0 : Fin 1) q) : EReal) = a2 (ix2 (0 : Fin 1) (⟨(i 1).val, (i 1).isLt⟩ : Fin 3072))) :
    (k0_pay1 (F := Ideal) x0 x1 x2 (ix2 p q) : EReal) = G a0 a1 a2 i := by
  rw [pay_apply, h2]
  unfold G Cert.Spec.linear Cert.Spec.mat
  exact congrArg (· + _) (Finset.sum_congr rfl fun k _ => by rw [h0 k, h1 k])

theorem hz : (![0, 0] : Fin 2 → Nat) = fun _ => 0 := funext fun a => by fin_cases a <;> rfl

theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

variable (V : (c : Dev nD) → (b : Ref sig .tc) → Buf (Elt Ideal) ((c : Thread nD τ).loc b))

theorem flushed_eq (c : Dev nD) (t : Fin cfg0.N) :
    (Lin0.dat0 (F := Ideal) V c).flushed 3 t
      = ((cfg0.win 3).blk t).view.read (Elt Ideal) (G (V c arrX) (V c arrW) (V c arrB)) := by
  show (cfg0.win 3).cut (grid0.coords t) ((Lin0.dat0 (F := Ideal) V c).after 3 t) = _
  rw [Lin0.after0_3]
  unfold Lin0.out0_3
  rw [View.canon_unit_zero hz]
  simp only [View.ld_unit_zero (S := S512x1024) hz, View.ld_unit_zero (S := S3072x1024) hz, View.ld_unit_zero (S := S1x3072) hz]
  obtain ⟨e00, e01, e10, e11, e20, e21, e30, e31⟩ := idx_facts t
  funext j
  obtain ⟨p, q, rfl⟩ : ∃ (p : Fin 512) (q : Fin 3072), j = ix2 p q := ⟨j 0, j 1, eq_ix2 j⟩
  show (k0_pay1 (F := Ideal) (Lin0.iblk0 V c 0 t) (Lin0.iblk0 V c 1 t) (Lin0.iblk0 V c 2 t) (ix2 p q) : EReal)
    = G (V c arrX) (V c arrW) (V c arrB) (((cfg0.win 3).blk t).view.emb (ix2 p q))
  refine block_apply _ _ _ _ _ _ p q _ (fun k => ?_) (fun k => ?_) ?_
  · show V c arrX (((cfg0.win 0).blk t).view.emb (ix2 p k)) = V c arrX _
    refine congrArg _ (funext fun a => Fin.ext ?_)
    match a with
    | ⟨0, _⟩ => show win0_0.index t (0 : Fin 2) * 512 + 1 * p.val = win0_3.index t (0 : Fin 2) * 512 + 1 * p.val; omega
    | ⟨1, _⟩ => show win0_0.index t (1 : Fin 2) * 1024 + 1 * k.val = k.val; omega
  · show V c arrW (((cfg0.win 1).blk t).view.emb (ix2 q k)) = V c arrW _
    refine congrArg _ (funext fun a => Fin.ext ?_)
    match a with
    | ⟨0, _⟩ => show win0_1.index t (0 : Fin 2) * 3072 + 1 * q.val = win0_3.index t (1 : Fin 2) * 3072 + 1 * q.val; omega
    | ⟨1, _⟩ => show win0_1.index t (1 : Fin 2) * 1024 + 1 * k.val = k.val; omega
  · show V c arrB (((cfg0.win 2).blk t).view.emb (ix2 (0 : Fin 1) q)) = V c arrB _
    refine congrArg _ (funext fun a => Fin.ext ?_)
    match a with
    | ⟨0, _⟩ => show win0_2.index t (0 : Fin 2) * 1 + 1 * 0 = 0; omega
    | ⟨1, _⟩ => show win0_2.index t (1 : Fin 2) * 3072 + 1 * q.val = win0_3.index t (1 : Fin 2) * 3072 + 1 * q.val; omega

theorem mem_blk (t : Fin cfg0.N) (i : S8192x3072.Idx) :
    i ∈ ((cfg0.win 3).blk t).view.set ↔ ∀ a : Fin 2, win0_3.index t a * S512x3072.size a ≤ (i a).val ∧ (i a).val < win0_3.index t a * S512x3072.size a + S512x3072.size a := by
  show i ∈ ((View.whole arrY).slice (win0_3.rect t)).set ↔ _
  rw [View.set_slice_whole, Rect.mem_set_unit]
  exact Iff.rfl

theorem cover (i : S8192x3072.Idx) :
    ∃ t : Fin cfg0.N, (cfg0.win 3).flush t = true ∧ i ∈ ((cfg0.win 3).blk t).view.set := by
  have hi0 : (i 0).val < 8192 := (i 0).isLt
  have hi1 : (i 1).val < 3072 := (i 1).isLt
  have hN : (i 0).val / 512 < grid0.N := by rw [N_0]; omega
  obtain ⟨-, -, -, -, -, -, e30, e31⟩ := idx_facts ⟨(i 0).val / 512, hN⟩
  have e30' : win0_3.index ⟨(i 0).val / 512, hN⟩ (0 : Fin 2) = (i 0).val / 512 := e30
  refine ⟨⟨(i 0).val / 512, hN⟩, flush0_3 _, ?_⟩
  rw [mem_blk]
  intro a
  match a with
  | ⟨0, _⟩ => show win0_3.index ⟨(i 0).val / 512, hN⟩ (0 : Fin 2) * 512 ≤ (i 0).val ∧ (i 0).val < win0_3.index ⟨(i 0).val / 512, hN⟩ (0 : Fin 2) * 512 + 512; omega
  | ⟨1, _⟩ => show win0_3.index ⟨(i 0).val / 512, hN⟩ (1 : Fin 2) * 3072 ≤ (i 1).val ∧ (i 1).val < win0_3.index ⟨(i 0).val / 512, hN⟩ (1 : Fin 2) * 3072 + 3072; omega

theorem final (c : Dev nD) :
    ((Lin0.dat0 (F := Ideal) V c).arrAt 3 cfg0.N : S8192x3072.Idx → EReal)
      = fun i => Cert.Spec.linear (Cert.Spec.mat (V c arrX)) (Cert.Spec.mat (V c arrW))
          (fun j => V c arrB (ValueIdx.ix2 (0 : Fin 1) j)) ⟨(i 0).val, (i 0).isLt⟩ ⟨(i 1).val, (i 1).isLt⟩ :=
  (Lin0.dat0 (F := Ideal) V c).arrAt_eq_of_cover 3 (G (V c arrX) (V c arrW) (V c arrB))
    (fun t _ => flushed_eq V c t) cover

end Cert.KernelIdeal.LinVal0

end
-- ==== Proof.KI.LinVal2.lean ====
import proofs.«414918_j3358664426109_3_alg».proof.Proof.KI.Lin2
import proofs.«414918_j3358664426109_3_alg».proof.Proof.Result
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Ring
import Idealize.ShloMosaic.Lib.Tactic

set_option maxRecDepth 16384

noncomputable section

namespace Cert.KernelIdeal.LinVal2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

/-! # The value of the second linear layer: the array it leaves is x · Wᵀ + b

The three arrays the region reads — the activations (8192 rows of 1024), the weight (1024 rows of 1024) and the bias
(one row of 1024) — and the array it writes (8192 rows of 1024). -/

abbrev arrX := main_v5
abbrev arrW := main_v2
abbrev arrB := main_v6
abbrev arrY := main_v7

/-! ## The contraction's operand indices, axis by axis

The product contracts the second axis of both operands: the left operand is read at (the output's row, the
position in the sum), the right one at (the output's column, the position in the sum). -/

theorem lhs_row (i : S512x1024.Idx) (s : dot_S512x1024_S1024x1024_S512x1024_1_1_0_0_n_n.contr.Idx) :
    (dot_S512x1024_S1024x1024_S512x1024_1_1_0_0_n_n.lhsIdx i s 0).val = (i 0).val := by
  unfold DotDims.lhsIdx
  rw [dif_neg (show ¬(0 : Fin S512x1024.rank) ∈ dot_S512x1024_S1024x1024_S512x1024_1_1_0_0_n_n.lhsBatch by decide), dif_pos (show (0 : Fin S512x1024.rank) ∈ dot_S512x1024_S1024x1024_S512x1024_1_1_0_0_n_n.lhsNonContracting by decide)]
  rfl
theorem lhs_col (i : S512x1024.Idx) (s : dot_S512x1024_S1024x1024_S512x1024_1_1_0_0_n_n.contr.Idx) :
    (dot_S512x1024_S1024x1024_S512x1024_1_1_0_0_n_n.lhsIdx i s 1).val = (s ⟨0, by decide⟩).val :=
  dot_S512x1024_S1024x1024_S512x1024_1_1_0_0_n_n.lhsIdx_val_of_single rfl i s
theorem rhs_row (i : S512x1024.Idx) (s : dot_S512x1024_S1024x1024_S512x1024_1_1_0_0_n_n.contr.Idx) :
    (dot_S512x1024_S1024x1024_S512x1024_1_1_0_0_n_n.rhsIdx i s 0).val = (i 1).val := by
  unfold DotDims.rhsIdx
  rw [dif_neg (show ¬(0 : Fin S1024x1024.rank) ∈ dot_S512x1024_S1024x1024_S512x1024_1_1_0_0_n_n.rhsBatch by decide), dif_pos (show (0 : Fin S1024x1024.rank) ∈ dot_S512x1024_S1024x1024_S512x1024_1_1_0_0_n_n.rhsNonContracting by decide)]
  rfl
theorem rhs_col (i : S512x1024.Idx) (s : dot_S512x1024_S1024x1024_S512x1024_1_1_0_0_n_n.contr.Idx) :
    (dot_S512x1024_S1024x1024_S512x1024_1_1_0_0_n_n.rhsIdx i s 1).val = (s ⟨0, by decide⟩).val :=
  dot_S512x1024_S1024x1024_S512x1024_1_1_0_0_n_n.rhsIdx_val_of_single rfl i s

/-! ## The payload at an index -/

/-- The product into the zero accumulator at entry `(p, q)`: row `p` of the left operand against row `q` of the
    right one, summed over the 1024 shared columns. -/
theorem product_apply (l : FVec Ideal S512x1024 .bf16) (r : FVec Ideal S1024x1024 .bf16) (p : Fin 512) (q : Fin 1024) :
    matmul dot_S512x1024_S1024x1024_S512x1024_1_1_0_0_n_n none l r (constant (F := Ideal) S512x1024 .f32 0x00000000#32) (ix2 p q)
      = ∑ k : Fin 1024, l (ix2 p k) * r (ix2 q k) := by
  show FloatOps.matmul _ _ _ _ _ _ = _
  rw [Ideal.matmul_constant_zero_apply, ← Equiv.sum_comp (ValueIdx.contrEquiv1 dot_S512x1024_S1024x1024_S512x1024_1_1_0_0_n_n 1024 rfl rfl).symm]
  refine Finset.sum_congr rfl fun k _ => ?_
  have hk := ValueIdx.contrEquiv1_symm_val dot_S512x1024_S1024x1024_S512x1024_1_1_0_0_n_n 1024 rfl rfl k
  have el : dot_S512x1024_S1024x1024_S512x1024_1_1_0_0_n_n.lhsIdx (ix2 p q) ((ValueIdx.contrEquiv1 dot_S512x1024_S1024x1024_S512x1024_1_1_0_0_n_n 1024 rfl rfl).symm k) = ix2 p k := funext fun a => Fin.ext (by
    match a with
    | ⟨0, _⟩ => exact lhs_row _ _
    | ⟨1, _⟩ => exact (lhs_col _ _).trans hk)
  have er : dot_S512x1024_S1024x1024_S512x1024_1_1_0_0_n_n.rhsIdx (ix2 p q) ((ValueIdx.contrEquiv1 dot_S512x1024_S1024x1024_S512x1024_1_1_0_0_n_n 1024 rfl rfl).symm k) = ix2 q k := funext fun a => Fin.ext (by
    match a with
    | ⟨0, _⟩ => exact rhs_row _ _
    | ⟨1, _⟩ => exact (rhs_col _ _).trans hk)
  rw [el, er]

/-- The bias row spread over the 512 rows, at an index: the bias at the index's column. -/
theorem bias_apply (b : FVec Ideal S1x1024 .f32) (p : Fin 512) (q : Fin 1024) :
    broadcastTo S512x1024 b broadcasts_S1x1024_S512x1024 (ix2 p q) = b (ix2 (0 : Fin 1) q) :=
  broadcastTo_apply b broadcasts_S1x1024_S512x1024 (ix2 p q) (ix2 (0 : Fin 1) q) (fun a => by
    match a with
    | ⟨0, _⟩ => rfl
    | ⟨1, _⟩ => show q.val = if (1024 : Nat) = 1 then 0 else q.val; rw [if_neg (by decide)])

/-- The body's payload at an index: the x block's row against the weight's row, plus the bias; the changes of
    float format are the identity on the extended reals, and the casts are to the same shape. -/
theorem pay_apply (x0 : Vec Ideal S512x1024 .bf16) (x1 : Vec Ideal S1024x1024 .bf16) (x2 : Vec Ideal S1x1024 .f32)
    (p : Fin 512) (q : Fin 1024) :
    (k2_pay1 (F := Ideal) x0 x1 x2 (ix2 p q) : EReal)
      = (∑ k : Fin 1024, (x0 (ix2 p k) : EReal) * (x1 (ix2 q k) : EReal)) + (x2 (ix2 (0 : Fin 1) q) : EReal) := by
  unfold k2_pay1
  simp only [shapeCast_self, truncf_apply, addf_apply, product_apply, bias_apply]

/-! ## The array the region leaves, as one function of the three arrays it reads -/

/-- Entry `(r, j)`: row `r` of the activations against row `j` of the weight, plus the bias at `j`. -/
def G (a0 : S8192x1024.Idx → EReal) (a1 : S1024x1024.Idx → EReal) (a2 : S1x1024.Idx → EReal) : S8192x1024.Idx → EReal :=
  fun i => Cert.Spec.linear (Cert.Spec.mat a0) (Cert.Spec.mat a1) (fun j => a2 (ix2 (0 : Fin 1) j))
    ⟨(i 0).val, (i 0).isLt⟩ ⟨(i 1).val, (i 1).isLt⟩

/-- The payload of blocks that are the arrays' rows read where the output entry `i` says is `G` at `i`. -/
theorem block_apply (a0 : S8192x1024.Idx → EReal) (a1 : S1024x1024.Idx → EReal) (a2 : S1x1024.Idx → EReal)
    (x0 : Vec Ideal S512x1024 .bf16) (x1 : Vec Ideal S1024x1024 .bf16) (x2 : Vec Ideal S1x1024 .f32)
    (p : Fin 512) (q : Fin 1024) (i : S8192x1024.Idx)
    (h0 : ∀ k : Fin 1024, (x0 (ix2 p k) : EReal) = a0 (ix2 (⟨(i 0).val, (i 0).isLt⟩ : Fin 8192) k))
    (h1 : ∀ k : Fin 1024, (x1 (ix2 q k) : EReal) = a1 (ix2 (⟨(i 1).val, (i 1).isLt⟩ : Fin 1024) k))
    (h2 : (x2 (ix2 (0 : Fin 1) q) : EReal) = a2 (ix2 (0 : Fin 1) (⟨(i 1).val, (i 1).isLt⟩ : Fin 1024))) :
    (k2_pay1 (F := Ideal) x0 x1 x2 (ix2 p q) : EReal) = G a0 a1 a2 i := by
  rw [pay_apply, h2]
  unfold G Cert.Spec.linear Cert.Spec.mat
  exact congrArg (· + _) (Finset.sum_congr rfl fun k _ => by rw [h0 k, h1 k])

/-! ## From the blocks to the array -/

theorem hz : (![0, 0] : Fin 2 → Nat) = fun _ => 0 := funext fun a => by fin_cases a <;> rfl

/-- The index maps over the grid: the x block and the output block move with the point along the rows; the weight
    and the bias stay. -/
theorem idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

-- the TensorCore's buffer contents when the region is entered
variable (V : (c : Dev nD) → (b : Ref sig .tc) → Buf (Elt Ideal) ((c : Thread nD τ).loc b))

/-- What point `t` writes back is block `t` of `G` of the arrays as the region finds them: each input block is its
    array read where the output's block says (a block's coordinate is its index times its size plus the
    coordinate inside the block). -/
theorem flushed_eq (c : Dev nD) (t : Fin cfg2.N) :
    (Lin2.dat2 (F := Ideal) V c).flushed 3 t
      = ((cfg2.win 3).blk t).view.read (Elt Ideal) (G (V c arrX) (V c arrW) (V c arrB)) := by
  show (cfg2.win 3).cut (grid2.coords t) ((Lin2.dat2 (F := Ideal) V c).after 3 t) = _
  rw [Lin2.after2_3]
  unfold Lin2.out2_3
  rw [View.canon_unit_zero hz]
  simp only [View.ld_unit_zero (S := S512x1024) hz, View.ld_unit_zero (S := S1024x1024) hz, View.ld_unit_zero (S := S1x1024) hz]
  obtain ⟨e00, e01, e10, e11, e20, e21, e30, e31⟩ := idx_facts t
  funext j
  obtain ⟨p, q, rfl⟩ : ∃ (p : Fin 512) (q : Fin 1024), j = ix2 p q := ⟨j 0, j 1, eq_ix2 j⟩
  show (k2_pay1 (F := Ideal) (Lin2.iblk2 V c 0 t) (Lin2.iblk2 V c 1 t) (Lin2.iblk2 V c 2 t) (ix2 p q) : EReal)
    = G (V c arrX) (V c arrW) (V c arrB) (((cfg2.win 3).blk t).view.emb (ix2 p q))
  refine block_apply _ _ _ _ _ _ p q _ (fun k => ?_) (fun k => ?_) ?_
  · show V c arrX (((cfg2.win 0).blk t).view.emb (ix2 p k)) = V c arrX _
    refine congrArg _ (funext fun a => Fin.ext ?_)
    match a with
    | ⟨0, _⟩ => show win2_0.index t (0 : Fin 2) * 512 + 1 * p.val = win2_3.index t (0 : Fin 2) * 512 + 1 * p.val; omega
    | ⟨1, _⟩ => show win2_0.index t (1 : Fin 2) * 1024 + 1 * k.val = k.val; omega
  · show V c arrW (((cfg2.win 1).blk t).view.emb (ix2 q k)) = V c arrW _
    refine congrArg _ (funext fun a => Fin.ext ?_)
    match a with
    | ⟨0, _⟩ => show win2_1.index t (0 : Fin 2) * 1024 + 1 * q.val = win2_3.index t (1 : Fin 2) * 1024 + 1 * q.val; omega
    | ⟨1, _⟩ => show win2_1.index t (1 : Fin 2) * 1024 + 1 * k.val = k.val; omega
  · show V c arrB (((cfg2.win 2).blk t).view.emb (ix2 (0 : Fin 1) q)) = V c arrB _
    refine congrArg _ (funext fun a => Fin.ext ?_)
    match a with
    | ⟨0, _⟩ => show win2_2.index t (0 : Fin 2) * 1 + 1 * 0 = 0; omega
    | ⟨1, _⟩ => show win2_2.index t (1 : Fin 2) * 1024 + 1 * q.val = win2_3.index t (1 : Fin 2) * 1024 + 1 * q.val; omega

/-- An index of the output array is in point `t`'s block iff each coordinate is in the block's range. -/
theorem mem_blk (t : Fin cfg2.N) (i : S8192x1024.Idx) :
    i ∈ ((cfg2.win 3).blk t).view.set ↔ ∀ a : Fin 2, win2_3.index t a * S512x1024.size a ≤ (i a).val ∧ (i a).val < win2_3.index t a * S512x1024.size a + S512x1024.size a := by
  show i ∈ ((View.whole arrY).slice (win2_3.rect t)).set ↔ _
  rw [View.set_slice_whole, Rect.mem_set_unit]
  exact Iff.rfl

/-- Row `r` of the output is written back by point `r / 512`: the 16 row blocks tile the 8192 rows. -/
theorem cover (i : S8192x1024.Idx) :
    ∃ t : Fin cfg2.N, (cfg2.win 3).flush t = true ∧ i ∈ ((cfg2.win 3).blk t).view.set := by
  have hi0 : (i 0).val < 8192 := (i 0).isLt
  have hi1 : (i 1).val < 1024 := (i 1).isLt
  have hN : (i 0).val / 512 < grid2.N := by rw [N_2]; omega
  obtain ⟨-, -, -, -, -, -, e30, e31⟩ := idx_facts ⟨(i 0).val / 512, hN⟩
  have e30' : win2_3.index ⟨(i 0).val / 512, hN⟩ (0 : Fin 2) = (i 0).val / 512 := e30
  refine ⟨⟨(i 0).val / 512, hN⟩, flush2_3 _, ?_⟩
  rw [mem_blk]
  intro a
  match a with
  | ⟨0, _⟩ => show win2_3.index ⟨(i 0).val / 512, hN⟩ (0 : Fin 2) * 512 ≤ (i 0).val ∧ (i 0).val < win2_3.index ⟨(i 0).val / 512, hN⟩ (0 : Fin 2) * 512 + 512; omega
  | ⟨1, _⟩ => show win2_3.index ⟨(i 0).val / 512, hN⟩ (1 : Fin 2) * 1024 ≤ (i 1).val ∧ (i 1).val < win2_3.index ⟨(i 0).val / 512, hN⟩ (1 : Fin 2) * 1024 + 1024; omega

/-- The output array after the region: the linear layer of the arrays the region found. -/
theorem final (c : Dev nD) :
    ((Lin2.dat2 (F := Ideal) V c).arrAt 3 cfg2.N : S8192x1024.Idx → EReal)
      = fun i => Cert.Spec.linear (Cert.Spec.mat (V c main_v5)) (Cert.Spec.mat (V c main_v2))
          (fun j => V c main_v6 (ValueIdx.ix2 (0 : Fin 1) j)) ⟨(i 0).val, (i 0).isLt⟩ ⟨(i 1).val, (i 1).isLt⟩ :=
  (Lin2.dat2 (F := Ideal) V c).arrAt_eq_of_cover 3 (G (V c arrX) (V c arrW) (V c arrB))
    (fun t _ => flushed_eq V c t) cover

end Cert.KernelIdeal.LinVal2

end
-- ==== Proof.TileStep.lean ====
import proofs.«414918_j3358664426109_3_alg».proof.Proof.Spec
import Idealize.ShloMosaic.Lib.ValueIdx

noncomputable section

namespace Cert.Spec

open Idealize.ShloMosaic Idealize.ShloMosaic.ValueIdx

def bcol (h : Fin 16) (d : Fin 64) : Fin 1024 := ⟨h.val * 64 + d.val, by omega⟩

def stOf (ms ls : (⟨2, ![512, 16]⟩ : Shape).Idx → EReal) (accs : (⟨2, ![512, 1024]⟩ : Shape).Idx → EReal)
    (r : Fin 512) (h : Fin 16) : St :=
  ⟨ms (ix2 r h), ls (ix2 r h), fun d => accs (ix2 r (bcol h d))⟩

def tscore (c : EReal) (diag : Bool) (qb kb : (⟨2, ![512, 1024]⟩ : Shape).Idx → EReal) (r : Fin 512) (h : Fin 16)
    (kk : Fin 512) : EReal :=
  if diag = true ∧ r < kk then ⊥ else (∑ d : Fin 64, qb (ix2 r (bcol h d)) * kb (ix2 kk (bcol h d))) * c

def tileStep (c : EReal) (diag : Bool) (qb kb vb : (⟨2, ![512, 1024]⟩ : Shape).Idx → EReal) (r : Fin 512) (h : Fin 16)
    (st : St) : St :=
  let m' := max st.m (Finset.univ.sup (tscore c diag qb kb r h))
  let a := Ideal.exp (st.m - m')
  { m := m'
    l := a * st.l + ∑ kk : Fin 512, Ideal.exp (tscore c diag qb kb r h kk - m')
    acc := fun d => a * st.acc d + ∑ kk : Fin 512, Ideal.exp (tscore c diag qb kb r h kk - m') * vb (ix2 kk (bcol h d)) }

def cK : EReal := Ideal.ofBits .f32 0x3E000000#32

end Cert.Spec

end
-- ==== Proof.KI.HeadStep.lean ====
import proofs.«414918_j3358664426109_3_alg».proof.Proof.Gen.KernelIdeal.Launch
import proofs.«414918_j3358664426109_3_alg».proof.Proof.Gen.KernelIdeal.Skeleton
import proofs.«414918_j3358664426109_3_alg».proof.Proof.Gen.KernelIdeal.Points
import proofs.«414918_j3358664426109_3_alg».proof.Proof.TileStep
import Idealize.ShloMosaic.Lib.Pipeline.FrameBody
import Idealize.ShloMosaic.Lib.Pipeline.Value
import Idealize.ShloMosaic.Lib.ValueLayout
import Idealize.ShloMosaic.Lib.WholeRead
import Idealize.ShloMosaic.PureOps.Ideal.Laws
import Idealize.ShloMosaic.PureOps.IdealRules
import Idealize.ShloMosaic.Lib.Ring
import Idealize.ShloMosaic.Lib.Tactic

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

def scoreV (qb kb : Vec F S512x64 .bf16) : FVec F S512x512 .f32 :=
  mulf (matmul dot_S512x64_S512x64_S512x512_1_1_0_0_n_n none (shapeCast S512x64 qb shapeCasts_S512x64_S512x64)
      (shapeCast S512x64 kb shapeCasts_S512x64_S512x64) (constant S512x512 .f32 0x00000000#32))
    (broadcast S512x512 (Scalar.ofBits .f32 0x3E000000#32))

def maskV (cnd : IVec S512x512 1) (s : FVec F S512x512 .f32) : FVec F S512x512 .f32 :=
  select cnd s (broadcast S512x512 (Named.named κ "neg_big" 0xFF333332#32))

def headM (s : FVec F S512x512 .f32) (mp : Vec F S512x1 .f32) : FVec F S512x1 .f32 :=
  maximumf mp (shapeCast S512x1 (multiReduction .maximumf [1] S512 s 0xFF800000#32 reduces_S512x512_S512 (.inl rfl) rfl)
    shapeCasts_S512_S512x1)

def headA (s : FVec F S512x512 .f32) (mp : Vec F S512x1 .f32) : FVec F S512x1 .f32 :=
  exp (subf mp (headM s mp))

def headP (s : FVec F S512x512 .f32) (mp : Vec F S512x1 .f32) : FVec F S512x512 .f32 :=
  exp (subf s (broadcastTo S512x512 (headM s mp) broadcasts_S512x1_S512x512))

def headL (s : FVec F S512x512 .f32) (mp lp : Vec F S512x1 .f32) : FVec F S512x1 .f32 :=
  addf (mulf (headA s mp) lp)
    (shapeCast S512x1 (multiReduction .add [1] S512 (headP s mp) 0x00000000#32 reduces_S512x512_S512 (.inl rfl) rfl)
      shapeCasts_S512_S512x1)

def headAcc (s : FVec F S512x512 .f32) (vb : Vec F S512x64 .bf16) (mp : Vec F S512x1 .f32) (ap : Vec F S512x64 .f32) :
    FVec F S512x64 .f32 :=
  addf (mulf (broadcastTo S512x64 (headA s mp) broadcasts_S512x1_S512x64) ap)
    (matmul dot_S512x512_S512x64_S512x64_1_0_0_1_n_n none (truncf .bf16 (headP s mp) bitsLt_bf16_f32)
      (shapeCast S512x64 vb shapeCasts_S512x64_S512x64) (constant S512x64 .f32 0x00000000#32))

theorem _root_.Cert.Spec.cK_eq : Cert.Spec.cK = (((1/8 : ℝ)) : EReal) := by
  simp [Cert.Spec.cK, Ideal.ofBits, Ideal.ieee, -EReal.coe_mul]; norm_num

section Read

open Idealize.ShloMosaic.ValueIdx

theorem shapeCast_self_apply {s : Shape} {α : Type} (x : s.Idx → α) (h : s.ShapeCasts s) (j : s.Idx) :
    shapeCast s x h j = x j :=
  shapeCast_apply x h j j rfl

theorem shapeCast_col_apply {α : Type} (x : S512.Idx → α) (h : S512.ShapeCasts S512x1) (r : Fin 512) (u : Fin 1) :
    shapeCast S512x1 x h (ix2 r u) = x (ix1 r) :=
  shapeCast_apply x h _ _ (by
    have hu : u.val = 0 := by omega
    rw [Shape.rowMajor_val_one, Shape.rowMajor_val_two]
    show r.val = r.val * 1 + u.val
    omega)

theorem broadcastTo_col512_apply {α : Type} (x : S512x1.Idx → α) (h : S512x1.Broadcasts S512x512) (r k : Fin 512) :
    broadcastTo S512x512 x h (ix2 r k) = x (ix2 r (0 : Fin 1)) :=
  broadcastTo_apply x h (ix2 r k) (ix2 r (0 : Fin 1)) fun a => match a with
    | ⟨0, _⟩ => rfl
    | ⟨1, _⟩ => rfl

theorem broadcastTo_col64_apply {α : Type} (x : S512x1.Idx → α) (h : S512x1.Broadcasts S512x64) (r : Fin 512) (d : Fin 64) :
    broadcastTo S512x64 x h (ix2 r d) = x (ix2 r (0 : Fin 1)) :=
  broadcastTo_apply x h (ix2 r d) (ix2 r (0 : Fin 1)) fun a => match a with
    | ⟨0, _⟩ => rfl
    | ⟨1, _⟩ => rfl

theorem ofBits_neg_inf : Ideal.ofBits .f32 0xFF800000#32 = ⊥ := by simp [Ideal.ofBits, Ideal.ieee]

theorem rowMax_apply (s : FVec Ideal S512x512 .f32) (h : S512x512.Reduces [1] S512) (hφ) (hacc) (r : Fin 512) :
    multiReduction .maximumf [1] S512 s 0xFF800000#32 h hφ hacc (ix1 r) = Finset.univ.sup fun k : Fin 512 => s (ix2 r k) := by
  refine (Ideal.multiReduction_maximumf_single s _ h hφ hacc (ix1 r)).trans ?_
  have e : (s ∘ h.lift (ix1 r)) = fun k : Fin 512 => s (ix2 r k) := funext fun k => congrArg s (funext fun a => match a with
    | ⟨0, _⟩ => Fin.ext rfl
    | ⟨1, _⟩ => Fin.ext rfl)
  rw [e, show FloatOps.ofBits (F := Ideal) .f32 0xFF800000#32 = (⊥ : EReal) from ofBits_neg_inf]
  rfl

theorem rowSum_apply (s : FVec Ideal S512x512 .f32) (h : S512x512.Reduces [1] S512) (hφ) (hacc) (r : Fin 512) :
    multiReduction .add [1] S512 s 0x00000000#32 h hφ hacc (ix1 r) = ∑ k : Fin 512, s (ix2 r k) := by
  refine (Ideal.multiReduction_add_single s _ h hφ hacc (ix1 r)).trans ?_
  exact Finset.sum_congr rfl fun k _ => congrArg s (funext fun a => match a with
    | ⟨0, _⟩ => Fin.ext rfl
    | ⟨1, _⟩ => Fin.ext rfl)

end Read

theorem qk_lhs_0 (i : S512x512.Idx) (q : dot_S512x64_S512x64_S512x512_1_1_0_0_n_n.contr.Idx) :
    (dot_S512x64_S512x64_S512x512_1_1_0_0_n_n.lhsIdx i q 0).val = (i 0).val := by
  unfold DotDims.lhsIdx
  rw [dif_neg (show ¬(0 : Fin S512x64.rank) ∈ dot_S512x64_S512x64_S512x512_1_1_0_0_n_n.lhsBatch by decide), dif_pos (show (0 : Fin S512x64.rank) ∈ dot_S512x64_S512x64_S512x512_1_1_0_0_n_n.lhsNonContracting by decide)]
  rfl
theorem qk_lhs_1 (i : S512x512.Idx) (q : dot_S512x64_S512x64_S512x512_1_1_0_0_n_n.contr.Idx) :
    (dot_S512x64_S512x64_S512x512_1_1_0_0_n_n.lhsIdx i q 1).val = (q ⟨0, by decide⟩).val :=
  dot_S512x64_S512x64_S512x512_1_1_0_0_n_n.lhsIdx_val_of_single rfl i q
theorem qk_rhs_0 (i : S512x512.Idx) (q : dot_S512x64_S512x64_S512x512_1_1_0_0_n_n.contr.Idx) :
    (dot_S512x64_S512x64_S512x512_1_1_0_0_n_n.rhsIdx i q 0).val = (i 1).val := by
  unfold DotDims.rhsIdx
  rw [dif_neg (show ¬(0 : Fin S512x64.rank) ∈ dot_S512x64_S512x64_S512x512_1_1_0_0_n_n.rhsBatch by decide), dif_pos (show (0 : Fin S512x64.rank) ∈ dot_S512x64_S512x64_S512x512_1_1_0_0_n_n.rhsNonContracting by decide)]
  rfl
theorem qk_rhs_1 (i : S512x512.Idx) (q : dot_S512x64_S512x64_S512x512_1_1_0_0_n_n.contr.Idx) :
    (dot_S512x64_S512x64_S512x512_1_1_0_0_n_n.rhsIdx i q 1).val = (q ⟨0, by decide⟩).val :=
  dot_S512x64_S512x64_S512x512_1_1_0_0_n_n.rhsIdx_val_of_single rfl i q

theorem pv_lhs_0 (i : S512x64.Idx) (q : dot_S512x512_S512x64_S512x64_1_0_0_1_n_n.contr.Idx) :
    (dot_S512x512_S512x64_S512x64_1_0_0_1_n_n.lhsIdx i q 0).val = (i 0).val := by
  unfold DotDims.lhsIdx
  rw [dif_neg (show ¬(0 : Fin S512x512.rank) ∈ dot_S512x512_S512x64_S512x64_1_0_0_1_n_n.lhsBatch by decide), dif_pos (show (0 : Fin S512x512.rank) ∈ dot_S512x512_S512x64_S512x64_1_0_0_1_n_n.lhsNonContracting by decide)]
  rfl
theorem pv_lhs_1 (i : S512x64.Idx) (q : dot_S512x512_S512x64_S512x64_1_0_0_1_n_n.contr.Idx) :
    (dot_S512x512_S512x64_S512x64_1_0_0_1_n_n.lhsIdx i q 1).val = (q ⟨0, by decide⟩).val :=
  dot_S512x512_S512x64_S512x64_1_0_0_1_n_n.lhsIdx_val_of_single rfl i q
theorem pv_rhs_0 (i : S512x64.Idx) (q : dot_S512x512_S512x64_S512x64_1_0_0_1_n_n.contr.Idx) :
    (dot_S512x512_S512x64_S512x64_1_0_0_1_n_n.rhsIdx i q 0).val = (q ⟨0, by decide⟩).val :=
  dot_S512x512_S512x64_S512x64_1_0_0_1_n_n.rhsIdx_val_of_single rfl i q
theorem pv_rhs_1 (i : S512x64.Idx) (q : dot_S512x512_S512x64_S512x64_1_0_0_1_n_n.contr.Idx) :
    (dot_S512x512_S512x64_S512x64_1_0_0_1_n_n.rhsIdx i q 1).val = (i 1).val := by
  unfold DotDims.rhsIdx
  rw [dif_neg (show ¬(1 : Fin S512x64.rank) ∈ dot_S512x512_S512x64_S512x64_1_0_0_1_n_n.rhsBatch by decide), dif_pos (show (1 : Fin S512x64.rank) ∈ dot_S512x512_S512x64_S512x64_1_0_0_1_n_n.rhsNonContracting by decide)]
  rfl

section Read2
open Idealize.ShloMosaic.ValueIdx

theorem qk_apply (a b : FVec Ideal S512x64 .bf16) (r k : Fin 512) :
    matmul dot_S512x64_S512x64_S512x512_1_1_0_0_n_n none a b (constant S512x512 .f32 0x00000000#32) (ix2 r k)
      = ∑ d : Fin 64, a (ix2 r d) * b (ix2 k d) := by
  simp only [matmul]
  rw [Ideal.matmul_constant_zero_apply, ← Equiv.sum_comp (contrEquiv1 dot_S512x64_S512x64_S512x512_1_1_0_0_n_n 64 rfl rfl).symm]
  refine Finset.sum_congr rfl fun d _ => ?_
  have hk := contrEquiv1_symm_val dot_S512x64_S512x64_S512x512_1_1_0_0_n_n 64 rfl rfl d
  have el : dot_S512x64_S512x64_S512x512_1_1_0_0_n_n.lhsIdx (ix2 r k) ((contrEquiv1 dot_S512x64_S512x64_S512x512_1_1_0_0_n_n 64 rfl rfl).symm d) = ix2 r d := funext fun ax => Fin.ext (by
    match ax with
    | ⟨0, _⟩ => exact qk_lhs_0 _ _
    | ⟨1, _⟩ => exact (qk_lhs_1 _ _).trans hk)
  have er : dot_S512x64_S512x64_S512x512_1_1_0_0_n_n.rhsIdx (ix2 r k) ((contrEquiv1 dot_S512x64_S512x64_S512x512_1_1_0_0_n_n 64 rfl rfl).symm d) = ix2 k d := funext fun ax => Fin.ext (by
    match ax with
    | ⟨0, _⟩ => exact qk_rhs_0 _ _
    | ⟨1, _⟩ => exact (qk_rhs_1 _ _).trans hk)
  rw [el, er]

theorem pv_apply (a : FVec Ideal S512x512 .bf16) (b : FVec Ideal S512x64 .bf16) (r : Fin 512) (d : Fin 64) :
    matmul dot_S512x512_S512x64_S512x64_1_0_0_1_n_n none a b (constant S512x64 .f32 0x00000000#32) (ix2 r d)
      = ∑ k : Fin 512, a (ix2 r k) * b (ix2 k d) := by
  simp only [matmul]
  rw [Ideal.matmul_constant_zero_apply, ← Equiv.sum_comp (contrEquiv1 dot_S512x512_S512x64_S512x64_1_0_0_1_n_n 512 rfl rfl).symm]
  refine Finset.sum_congr rfl fun k _ => ?_
  have hk := contrEquiv1_symm_val dot_S512x512_S512x64_S512x64_1_0_0_1_n_n 512 rfl rfl k
  have el : dot_S512x512_S512x64_S512x64_1_0_0_1_n_n.lhsIdx (ix2 r d) ((contrEquiv1 dot_S512x512_S512x64_S512x64_1_0_0_1_n_n 512 rfl rfl).symm k) = ix2 r k := funext fun ax => Fin.ext (by
    match ax with
    | ⟨0, _⟩ => exact pv_lhs_0 _ _
    | ⟨1, _⟩ => exact (pv_lhs_1 _ _).trans hk)
  have er : dot_S512x512_S512x64_S512x64_1_0_0_1_n_n.rhsIdx (ix2 r d) ((contrEquiv1 dot_S512x512_S512x64_S512x64_1_0_0_1_n_n 512 rfl rfl).symm k) = ix2 k d := funext fun ax => Fin.ext (by
    match ax with
    | ⟨0, _⟩ => exact (pv_rhs_0 _ _).trans hk
    | ⟨1, _⟩ => exact pv_rhs_1 _ _)
  rw [el, er]

theorem scoreV_apply (qb kb : Vec Ideal S512x64 .bf16) (r k : Fin 512) :
    scoreV (F := Ideal) qb kb (ix2 r k) = (∑ d : Fin 64, qb (ix2 r d) * kb (ix2 k d)) * Cert.Spec.cK := by
  unfold scoreV
  rw [mulf_apply, qk_apply]
  simp only [shapeCast_self_apply]
  rfl

theorem headM_apply (s : FVec Ideal S512x512 .f32) (mp : Vec Ideal S512x1 .f32) (r : Fin 512) :
    headM s mp (ix2 r (0 : Fin 1)) = max (mp (ix2 r (0 : Fin 1))) (Finset.univ.sup fun k : Fin 512 => s (ix2 r k)) := by
  show max (mp (ix2 r (0 : Fin 1))) (shapeCast S512x1 (multiReduction .maximumf [1] S512 s 0xFF800000#32 reduces_S512x512_S512 (.inl rfl) rfl) shapeCasts_S512_S512x1 (ix2 r (0 : Fin 1))) = _
  exact congrArg (max _) ((shapeCast_col_apply _ _ r 0).trans (rowMax_apply s _ _ _ r))

theorem headA_apply (s : FVec Ideal S512x512 .f32) (mp : Vec Ideal S512x1 .f32) (r : Fin 512) :
    headA s mp (ix2 r (0 : Fin 1)) = Ideal.exp (mp (ix2 r (0 : Fin 1)) - headM s mp (ix2 r (0 : Fin 1))) := rfl

theorem headP_apply (s : FVec Ideal S512x512 .f32) (mp : Vec Ideal S512x1 .f32) (r k : Fin 512) :
    headP s mp (ix2 r k) = Ideal.exp (s (ix2 r k) - headM s mp (ix2 r (0 : Fin 1))) := by
  unfold headP
  show Ideal.exp (s (ix2 r k) - broadcastTo S512x512 (headM s mp) broadcasts_S512x1_S512x512 (ix2 r k)) = _
  rw [broadcastTo_col512_apply]

theorem headL_apply (s : FVec Ideal S512x512 .f32) (mp lp : Vec Ideal S512x1 .f32) (r : Fin 512) :
    headL s mp lp (ix2 r (0 : Fin 1)) = headA s mp (ix2 r (0 : Fin 1)) * lp (ix2 r (0 : Fin 1)) + ∑ k : Fin 512, headP s mp (ix2 r k) := by
  show headA s mp (ix2 r (0 : Fin 1)) * lp (ix2 r (0 : Fin 1)) + shapeCast S512x1 (multiReduction .add [1] S512 (headP s mp) 0x00000000#32 reduces_S512x512_S512 (.inl rfl) rfl) shapeCasts_S512_S512x1 (ix2 r (0 : Fin 1)) = _
  exact congrArg (_ + ·) ((shapeCast_col_apply _ _ r 0).trans (rowSum_apply (headP s mp) _ _ _ r))

theorem headAcc_apply (s : FVec Ideal S512x512 .f32) (vb : Vec Ideal S512x64 .bf16) (mp : Vec Ideal S512x1 .f32)
    (ap : Vec Ideal S512x64 .f32) (r : Fin 512) (d : Fin 64) :
    headAcc s vb mp ap (ix2 r d) = headA s mp (ix2 r (0 : Fin 1)) * ap (ix2 r d) + ∑ k : Fin 512, headP s mp (ix2 r k) * vb (ix2 k d) := by
  unfold headAcc
  rw [addf_apply, mulf_apply, broadcastTo_col64_apply, pv_apply]
  simp only [shapeCast_self_apply, truncf_apply]

end Read2

section Tile
open Idealize.ShloMosaic.ValueIdx Cert.Spec

variable (x0 x1 x2 : Vec Ideal S512x1024 .bf16)

theorem piece_m (diag : Bool) (h : Fin 16) (s : FVec Ideal S512x512 .f32)
    (hs : ∀ r k, s (ix2 r k) = tscore cK diag x0 x1 r h k)
    (MP : Vec Ideal S512x1 .f32) (st : Fin 512 → St) (hMP : ∀ r, MP (ix2 r (0 : Fin 1)) = (st r).m)
    (hc : S512x1.ShapeCasts S512x1) (r : Fin 512) (u : Fin 1) :
    shapeCast S512x1 (headM s MP) hc (ix2 r u) = (tileStep cK diag x0 x1 x2 r h (st r)).m := by
  obtain rfl : u = 0 := Subsingleton.elim _ _
  rw [shapeCast_self_apply, headM_apply, hMP, show (fun k => s (ix2 r k)) = tscore cK diag x0 x1 r h from funext (hs r)]
  rfl

theorem piece_l (diag : Bool) (h : Fin 16) (s : FVec Ideal S512x512 .f32)
    (hs : ∀ r k, s (ix2 r k) = tscore cK diag x0 x1 r h k)
    (MP LP : Vec Ideal S512x1 .f32) (st : Fin 512 → St) (hMP : ∀ r, MP (ix2 r (0 : Fin 1)) = (st r).m)
    (hLP : ∀ r, LP (ix2 r (0 : Fin 1)) = (st r).l)
    (hc : S512x1.ShapeCasts S512x1) (r : Fin 512) (u : Fin 1) :
    shapeCast S512x1 (headL s MP LP) hc (ix2 r u) = (tileStep cK diag x0 x1 x2 r h (st r)).l := by
  obtain rfl : u = 0 := Subsingleton.elim _ _
  rw [shapeCast_self_apply, headL_apply, headA_apply, hLP]
  simp only [headP_apply, hs]
  rw [headM_apply, hMP, show (fun k => s (ix2 r k)) = tscore cK diag x0 x1 r h from funext (hs r)]
  rfl

theorem piece_acc (diag : Bool) (h : Fin 16) (s : FVec Ideal S512x512 .f32)
    (hs : ∀ r k, s (ix2 r k) = tscore cK diag x0 x1 r h k)
    (V : Vec Ideal S512x64 .bf16) (hV : ∀ k d, V (ix2 k d) = x2 (ix2 k (bcol h d)))
    (MP : Vec Ideal S512x1 .f32) (AP : Vec Ideal S512x64 .f32) (st : Fin 512 → St)
    (hMP : ∀ r, MP (ix2 r (0 : Fin 1)) = (st r).m) (hAP : ∀ r d, AP (ix2 r d) = (st r).acc d)
    (hc : S512x64.ShapeCasts S512x64) (r : Fin 512) (d : Fin 64) :
    shapeCast S512x64 (headAcc s V MP AP) hc (ix2 r d) = (tileStep cK diag x0 x1 x2 r h (st r)).acc d := by
  rw [shapeCast_self_apply, headAcc_apply, headA_apply, hAP]
  simp only [headP_apply, hs, hV]
  rw [headM_apply, hMP, show (fun k => s (ix2 r k)) = tscore cK diag x0 x1 r h from funext (hs r)]
  rfl

end Tile

section Slices
open Idealize.ShloMosaic.ValueIdx Cert.Spec

theorem emb_col (h : Fin 16) (om : ℕ) (hom : om = h.val) (inb) (r : Fin 512) (u : Fin 1) :
    (Rect.unit (s := S512x16) ![0, om] ![512, 1] inb).emb (ix2 r u) = ix2 r h := by
  subst hom
  funext a
  match a with
  | ⟨0, _⟩ => exact Fin.ext (by show 0 + 1 * r.val = r.val; omega)
  | ⟨1, _⟩ => exact Fin.ext (by show h.val + 1 * u.val = h.val; omega)

theorem emb_band (h : Fin 16) (oq : ℕ) (hoq : oq = 64 * h.val) (inb) (r : Fin 512) (d : Fin 64) :
    (Rect.unit (s := S512x1024) ![0, oq] ![512, 64] inb).emb (ix2 r d) = ix2 r (bcol h d) := by
  subst hoq
  funext a
  match a with
  | ⟨0, _⟩ => exact Fin.ext (by show 0 + 1 * r.val = r.val; omega)
  | ⟨1, _⟩ => exact Fin.ext (by show 64 * h.val + 1 * d.val = h.val * 64 + d.val; omega)

theorem rd_col {m : Memref sig .tc .vmem S512x16 .f32} (hm : m.IsWhole) (X : Vec Ideal S512x16 .f32) (h : Fin 16) (om : ℕ)
    (hom : om = h.val) (inb) (r : Fin 512) (u : Fin 1) :
    View.readAt (Elt Ideal) m.view (Rect.unit (s := S512x16) ![0, om] S512x1.size inb).toLoadRect (hm.unread X) (ix2 r u)
      = X (ix2 r h) :=
  (hm.readAt_unread X _ _).trans (congrArg X (emb_col h om hom inb r u))

theorem rd_band {e : EltTy} {m : Memref sig .tc .vmem S512x1024 e} (hm : m.IsWhole) (X : Vec Ideal S512x1024 e) (h : Fin 16)
    (oq : ℕ) (hoq : oq = 64 * h.val) (inb) (r : Fin 512) (d : Fin 64) :
    View.readAt (Elt Ideal) m.view (Rect.unit (s := S512x1024) ![0, oq] S512x64.size inb).toLoadRect (hm.unread X) (ix2 r d)
      = X (ix2 r (bcol h d)) :=
  (hm.readAt_unread X _ _).trans (congrArg X (emb_band h oq hoq inb r d))

def maskI (a1 a2 : BitVec 32) : IVec S512x512 1 :=
  cmpi .sle (addi (iota .tc S512x512 32 [1] iota_S512x512_d1_w32) (broadcast S512x512 (Scalar.muli a2 512#32)))
    (addi (iota .tc S512x512 32 [0] iota_S512x512_d0_w32) (broadcast S512x512 (Scalar.muli a1 512#32)))

variable {m3 m4 : Memref sig .tc .vmem S512x1024 .bf16} (h3 : m3.IsWhole) (h4 : m4.IsWhole)
  (x0 x1 : Vec Ideal S512x1024 .bf16)

theorem score_plain (h : Fin 16) (oq : ℕ) (hoq : oq = 64 * h.val) (inb) (r k : Fin 512) :
    scoreV (F := Ideal)
        (View.readAt (Elt Ideal) m3.view (Rect.unit (s := S512x1024) ![0, oq] S512x64.size inb).toLoadRect (h3.unread x0))
        (View.readAt (Elt Ideal) m4.view (Rect.unit (s := S512x1024) ![0, oq] S512x64.size inb).toLoadRect (h4.unread x1))
        (ix2 r k)
      = tscore cK false x0 x1 r h k := by
  rw [scoreV_apply]
  simp only [rd_band h3 x0 h oq hoq inb, rd_band h4 x1 h oq hoq inb]
  unfold tscore
  rw [if_neg (fun hh => Bool.false_ne_true hh.1)]

theorem score_masked (cnd : IVec S512x512 1) (hcnd : ∀ r k : Fin 512, cnd (ix2 r k) = if k ≤ r then 1#1 else 0#1)
    (h : Fin 16) (oq : ℕ) (hoq : oq = 64 * h.val) (inb) (r k : Fin 512) :
    maskV (F := Ideal) cnd (scoreV
        (View.readAt (Elt Ideal) m3.view (Rect.unit (s := S512x1024) ![0, oq] S512x64.size inb).toLoadRect (h3.unread x0))
        (View.readAt (Elt Ideal) m4.view (Rect.unit (s := S512x1024) ![0, oq] S512x64.size inb).toLoadRect (h4.unread x1)))
        (ix2 r k)
      = tscore cK true x0 x1 r h k := by
  unfold maskV
  rw [select_apply, broadcast_apply, hcnd, scoreV_apply]
  simp only [rd_band h3 x0 h oq hoq inb, rd_band h4 x1 h oq hoq inb]
  unfold tscore
  by_cases hk : k ≤ r
  · rw [if_pos hk, if_neg (fun hh => absurd hk (not_le.2 hh.2))]
    exact select_one _ _
  · rw [if_neg hk, if_pos ⟨rfl, not_le.1 hk⟩]
    exact (select_zero _ _).trans (IdealRules.named_const.ideal_named_scalar _ _ _ _ rfl)

end Slices

section Blocks
open Idealize.ShloMosaic.ValueIdx Cert.Spec

variable (x0 x1 x2 : Vec Ideal S512x1024 .bf16)

theorem St_ext {a b : St} (hm : a.m = b.m) (hl : a.l = b.l) (hacc : ∀ d, a.acc d = b.acc d) : a = b := by
  cases a; cases b
  simp only at hm hl hacc
  subst hm; subst hl
  congr 1
  exact funext hacc

def blkM (diag : Bool) (st : Fin 512 → Fin 16 → St) (y : S512x16.Idx) : EReal :=
  (tileStep cK diag x0 x1 x2 (y 0) (y 1) (st (y 0) (y 1))).m

def blkL (diag : Bool) (st : Fin 512 → Fin 16 → St) (y : S512x16.Idx) : EReal :=
  (tileStep cK diag x0 x1 x2 (y 0) (y 1) (st (y 0) (y 1))).l

def blkA (diag : Bool) (st : Fin 512 → Fin 16 → St) (y : S512x1024.Idx) : EReal :=
  (tileStep cK diag x0 x1 x2 (y 0) ⟨(y 1).val / 64, by have := (y 1).isLt; show (y 1).val / 64 < 16; have : (y 1).val < 1024 := this; omega⟩
    (st (y 0) ⟨(y 1).val / 64, by have := (y 1).isLt; show (y 1).val / 64 < 16; have : (y 1).val < 1024 := this; omega⟩)).acc
      ⟨(y 1).val % 64, Nat.mod_lt _ (by norm_num)⟩

theorem blkA_bcol (diag : Bool) (st : Fin 512 → Fin 16 → St) (r : Fin 512) (h : Fin 16) (d : Fin 64) :
    blkA x0 x1 x2 diag st (ix2 r (bcol h d)) = (tileStep cK diag x0 x1 x2 r h (st r h)).acc d := by
  have e1 : ∀ p, (⟨(bcol h d).val / 64, p⟩ : Fin 16) = h := fun p => Fin.ext (by show (h.val * 64 + d.val) / 64 = h.val; omega)
  have e2 : ∀ p, (⟨(bcol h d).val % 64, p⟩ : Fin 64) = d := fun p => Fin.ext (by show (h.val * 64 + d.val) % 64 = d.val; omega)
  show (tileStep cK diag x0 x1 x2 r ⟨(bcol h d).val / 64, _⟩ (st r ⟨(bcol h d).val / 64, _⟩)).acc ⟨(bcol h d).val % 64, _⟩ = _
  rw [e1, e2]

theorem okM (diag : Bool) (h : Fin 16) (om : ℕ) (hom : om = h.val) (inbm) (s : FVec Ideal S512x512 .f32)
    (hs : ∀ r k, s (ix2 r k) = tscore cK diag x0 x1 r h k)
    (MP : Vec Ideal S512x1 .f32) (st : Fin 512 → Fin 16 → St) (hMP : ∀ r, MP (ix2 r (0 : Fin 1)) = (st r h).m)
    (hc : S512x1.ShapeCasts S512x1) (x : S512x1.Idx) :
    shapeCast S512x1 (headM s MP) hc x = blkM x0 x1 x2 diag st ((Rect.unit (s := S512x16) ![0, om] ![512, 1] inbm).emb x) := by
  obtain ⟨r, u, rfl⟩ : ∃ r u, x = ix2 r u := ⟨x 0, x 1, eq_ix2 x⟩
  rw [emb_col h om hom inbm r u]
  exact piece_m x0 x1 x2 diag h s hs MP (fun r => st r h) hMP hc r u

theorem okL (diag : Bool) (h : Fin 16) (om : ℕ) (hom : om = h.val) (inbm) (s : FVec Ideal S512x512 .f32)
    (hs : ∀ r k, s (ix2 r k) = tscore cK diag x0 x1 r h k)
    (MP LP : Vec Ideal S512x1 .f32) (st : Fin 512 → Fin 16 → St) (hMP : ∀ r, MP (ix2 r (0 : Fin 1)) = (st r h).m)
    (hLP : ∀ r, LP (ix2 r (0 : Fin 1)) = (st r h).l)
    (hc : S512x1.ShapeCasts S512x1) (x : S512x1.Idx) :
    shapeCast S512x1 (headL s MP LP) hc x = blkL x0 x1 x2 diag st ((Rect.unit (s := S512x16) ![0, om] ![512, 1] inbm).emb x) := by
  obtain ⟨r, u, rfl⟩ : ∃ r u, x = ix2 r u := ⟨x 0, x 1, eq_ix2 x⟩
  rw [emb_col h om hom inbm r u]
  exact piece_l x0 x1 x2 diag h s hs MP LP (fun r => st r h) hMP hLP hc r u

theorem okA (diag : Bool) (h : Fin 16) (oq : ℕ) (hoq : oq = 64 * h.val) (inbq) (s : FVec Ideal S512x512 .f32)
    (hs : ∀ r k, s (ix2 r k) = tscore cK diag x0 x1 r h k)
    (V : Vec Ideal S512x64 .bf16) (hV : ∀ k d, V (ix2 k d) = x2 (ix2 k (bcol h d)))
    (MP : Vec Ideal S512x1 .f32) (AP : Vec Ideal S512x64 .f32) (st : Fin 512 → Fin 16 → St)
    (hMP : ∀ r, MP (ix2 r (0 : Fin 1)) = (st r h).m) (hAP : ∀ r d, AP (ix2 r d) = (st r h).acc d)
    (hc : S512x64.ShapeCasts S512x64) (x : S512x64.Idx) :
    shapeCast S512x64 (headAcc s V MP AP) hc x = blkA x0 x1 x2 diag st ((Rect.unit (s := S512x1024) ![0, oq] ![512, 64] inbq).emb x) := by
  obtain ⟨r, d, rfl⟩ : ∃ r d, x = ix2 r d := ⟨x 0, x 1, eq_ix2 x⟩
  rw [emb_band h oq hoq inbq r d, blkA_bcol]
  exact piece_acc x0 x1 x2 diag h s hs V hV MP AP (fun r => st r h) hMP hAP hc r d

end Blocks

end Cert.KernelIdeal.Attn

end
-- ==== Proof.KI.MaskWord.lean ====
import proofs.«414918_j3358664426109_3_alg».proof.Proof.KI.AttnConds
import Idealize.ShloMosaic.Lib.ValueIdx

noncomputable section

namespace Cert.KernelIdeal.Attn

open Idealize.ShloMosaic Idealize.ShloMosaic.ValueIdx Cert.KernelIdeal Cert.KernelIdeal.Facts₀

theorem pos_word_toInt (q : ℕ) (hq : q < 4) (k : Fin 512) :
    (BitVec.ofNat 32 k.val + Scalar.muli (BitVec.ofNat 32 q) 512#32).toInt = (k.val : ℤ) + 512 * (q : ℤ) := by
  have hk := k.isLt
  show (BitVec.ofNat 32 k.val + BitVec.ofNat 32 q * 512#32).toInt = _
  rw [BitVec.toInt_eq_toNat_cond]
  simp only [BitVec.toNat_add, BitVec.toNat_mul, BitVec.toNat_ofNat]
  norm_num
  omega

theorem mask_word (q : ℕ) (hq : q < 4) (r k : Fin 512) :
    Scalar.cmpi .sle (BitVec.ofNat 32 k.val + Scalar.muli (BitVec.ofNat 32 q) 512#32)
        (BitVec.ofNat 32 r.val + Scalar.muli (BitVec.ofNat 32 q) 512#32)
      = if k ≤ r then 1#1 else 0#1 := by
  show BitVec.ofBool ((BitVec.ofNat 32 k.val + Scalar.muli (BitVec.ofNat 32 q) 512#32).sle
      (BitVec.ofNat 32 r.val + Scalar.muli (BitVec.ofNat 32 q) 512#32)) = _
  rw [BitVec.sle, pos_word_toInt q hq k, pos_word_toInt q hq r]
  by_cases h : k ≤ r
  · have h' : k.val ≤ r.val := h
    rw [if_pos h, decide_eq_true (by omega)]
    rfl
  · have h' : ¬ k.val ≤ r.val := h
    rw [if_neg h, decide_eq_false (by omega)]
    rfl

theorem mask_apply (q : ℕ) (hq : q < 4) (h0 : S512x512.Iotas .tc 32 [0]) (h1 : S512x512.Iotas .tc 32 [1])
    (r k : Fin 512) :
    cmpi .sle
        (addi (iota .tc S512x512 32 [1] h1) (broadcast S512x512 (Scalar.muli (BitVec.ofNat 32 q) 512#32)))
        (addi (iota .tc S512x512 32 [0] h0) (broadcast S512x512 (Scalar.muli (BitVec.ofNat 32 q) 512#32)))
        (ix2 r k)
      = if k ≤ r then 1#1 else 0#1 := by
  have e0 : iota .tc S512x512 32 [0] h0 (ix2 r k) = BitVec.ofNat 32 r.val := by
    show BitVec.ofNat 32 (0 * 512 + r.val) = _
    rw [Nat.zero_mul, Nat.zero_add]
  have e1 : iota .tc S512x512 32 [1] h1 (ix2 r k) = BitVec.ofNat 32 k.val := by
    show BitVec.ofNat 32 (0 * 512 + k.val) = _
    rw [Nat.zero_mul, Nat.zero_add]
  show Scalar.cmpi .sle
      (iota .tc S512x512 32 [1] h1 (ix2 r k) + Scalar.muli (BitVec.ofNat 32 q) 512#32)
      (iota .tc S512x512 32 [0] h0 (ix2 r k) + Scalar.muli (BitVec.ofNat 32 q) 512#32) = _
  rw [e0, e1]
  exact mask_word q hq r k

theorem diag_words (i : grid1.Coords) (hc2 : cond1_2 i) :
    BitVec.ofNat 32 (i 2).val = BitVec.ofNat 32 (i 1).val := by
  by_contra hne
  have h1 : Scalar.cmpi .eq (BitVec.ofNat 32 (i 2).val) (BitVec.ofNat 32 (i 1).val) = 0#1 := by
    show BitVec.ofBool (BitVec.ofNat 32 (i 2).val == BitVec.ofNat 32 (i 1).val) = 0#1
    rw [beq_eq_false_iff_ne.mpr hne]
    rfl
  have hc : Scalar.cmpi .ne (Scalar.extui (Scalar.cmpi .eq (BitVec.ofNat 32 (i 2).val) (BitVec.ofNat 32 (i 1).val))) 0#32
      = 1#1 := hc2
  rw [h1] at hc
  exact absurd hc (by decide)

theorem mask_apply_diag (i : grid1.Coords) (hc2 : cond1_2 i) (r k : Fin 512) :
    cmpi .sle
        (addi (iota .tc S512x512 32 [1] iota_S512x512_d1_w32)
          (broadcast S512x512 (Scalar.muli (BitVec.ofNat 32 (i 2).val) 512#32)))
        (addi (iota .tc S512x512 32 [0] iota_S512x512_d0_w32)
          (broadcast S512x512 (Scalar.muli (BitVec.ofNat 32 (i 1).val) 512#32)))
        (ix2 r k)
      = if k ≤ r then 1#1 else 0#1 := by
  rw [diag_words i hc2]
  exact mask_apply (i 1).val (i 1).isLt _ _ r k

end Cert.KernelIdeal.Attn

end
-- ==== Proof.KI.HeadStepB.lean ====
import proofs.«414918_j3358664426109_3_alg».proof.Proof.Gen.KernelIdeal.Launch
import proofs.«414918_j3358664426109_3_alg».proof.Proof.Gen.KernelIdeal.Skeleton
import proofs.«414918_j3358664426109_3_alg».proof.Proof.Gen.KernelIdeal.Points
import proofs.«414918_j3358664426109_3_alg».proof.Proof.KI.HeadStep
import proofs.«414918_j3358664426109_3_alg».proof.Proof.KI.AttnOuts
import proofs.«414918_j3358664426109_3_alg».proof.Proof.KI.MaskWord
import Idealize.ShloMosaic.Lib.Pipeline.FrameBody
import Idealize.ShloMosaic.Lib.Pipeline.Value
import Idealize.ShloMosaic.Lib.ValueLayout
import Idealize.ShloMosaic.Lib.WholeRead
import Idealize.ShloMosaic.PureOps.Ideal.Laws
import Idealize.ShloMosaic.PureOps.IdealRules
import Idealize.ShloMosaic.Lib.Ring
import Idealize.ShloMosaic.Lib.Tactic

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

section Reset
open Idealize.ShloMosaic.ValueIdx Cert.Spec

theorem off_zero : (![0, 0] : Fin 2 → ℕ) = fun _ => 0 := funext fun a => by fin_cases a <;> rfl

theorem not_mem_col (r : Fin 512) (h : Fin 16) (n : ℕ) (inb) (hne : h.val ≠ n) :
    ix2 r h ∉ (Rect.unit (s := S512x16) ![0, n] ![512, 1] inb).set := by
  rw [Rect.mem_set_unit]
  intro hall
  have h1 : n ≤ h.val ∧ h.val < n + 1 := hall 1
  omega

theorem not_mem_band (r : Fin 512) (h : Fin 16) (d : Fin 64) (n oq : ℕ) (hoq : oq = 64 * n) (inb) (hne : h.val ≠ n) :
    ix2 r (bcol h d) ∉ (Rect.unit (s := S512x1024) ![0, oq] ![512, 64] inb).set := by
  rw [Rect.mem_set_unit]
  intro hall
  have h1 : oq ≤ h.val * 64 + d.val ∧ h.val * 64 + d.val < oq + 64 := hall 1
  have := d.isLt
  omega

theorem rdcov_col {m : Memref sig .tc .vmem S512x16 .f32} (L : List (View.Piece (Elt Ideal) S512x16 .f32)) (h : Fin 16)
    (om : ℕ) (hom : om = h.val) (inb) (r : Fin 512) (u : Fin 1) :
    m.view.readCov L (Rect.unit (s := S512x16) ![0, om] S512x1.size inb).toLoadRect (ix2 r u) = View.canon L (ix2 r h) :=
  by
  rw [View.readCov_eq_canon']
  show View.canon L ((Rect.unit (s := S512x16) ![0, om] ![512, 1] inb).emb (ix2 r u)) = _
  rw [emb_col h om hom inb r u]

theorem rdcov_band {m : Memref sig .tc .vmem S512x1024 .f32} (L : List (View.Piece (Elt Ideal) S512x1024 .f32)) (h : Fin 16)
    (oq : ℕ) (hoq : oq = 64 * h.val) (inb) (r : Fin 512) (d : Fin 64) :
    m.view.readCov L (Rect.unit (s := S512x1024) ![0, oq] S512x64.size inb).toLoadRect (ix2 r d)
      = View.canon L (ix2 r (bcol h d)) :=
  by
  rw [View.readCov_eq_canon']
  show View.canon L ((Rect.unit (s := S512x1024) ![0, oq] ![512, 64] inb).emb (ix2 r d)) = _
  rw [emb_band h oq hoq inb r d]

/-- The stores after heads 0 … n − 1: whole arrays of −∞, 0, 0, then per head one column of the maximum and of the sum and one band of the weighted sum, each the restriction of Gm, Gl, Ga provided the head read the initial values there. -/
inductive Heads (Gm Gl : S512x16.Idx → EReal) (Ga : S512x1024.Idx → EReal) :
    ℕ → List (View.Piece (Elt Ideal) S512x16 .f32) → List (View.Piece (Elt Ideal) S512x16 .f32)
      → List (View.Piece (Elt Ideal) S512x1024 .f32) → Prop
  | reset (inb0 inb1 inb2) (wm : S512x16.Idx → EReal) (wl : S512x16.Idx → EReal) (wa : S512x1024.Idx → EReal)
      (hm : ∀ y, wm y = ⊥) (hl : ∀ y, wl y = 0) (ha : ∀ y, wa y = 0) :
      Heads Gm Gl Ga 0 [⟨Rect.unit (s := S512x16) ![0, 0] S512x16.size inb0, wm⟩]
        [⟨Rect.unit (s := S512x16) ![0, 0] S512x16.size inb1, wl⟩]
        [⟨Rect.unit (s := S512x1024) ![0, 0] S512x1024.size inb2, wa⟩]
  | head (n : ℕ) (hn : n < 16) (oq : ℕ) (hoq : oq = 64 * n) (inbm inbl inbq)
      (wm : S512x1.Idx → EReal) (wl : S512x1.Idx → EReal) (wa : S512x64.Idx → EReal) (L0 L1 L2)
      (ht : Heads Gm Gl Ga n L0 L1 L2)
      (hw : (∀ r : Fin 512, View.canon L0 (ix2 r (⟨n, hn⟩ : Fin 16)) = ⊥)
          → (∀ r : Fin 512, View.canon L1 (ix2 r (⟨n, hn⟩ : Fin 16)) = 0)
          → (∀ (r : Fin 512) (d : Fin 64), View.canon L2 (ix2 r (bcol (⟨n, hn⟩ : Fin 16) d)) = 0)
          → (∀ x, wm x = Gm ((Rect.unit (s := S512x16) ![0, n] ![512, 1] inbm).emb x))
            ∧ (∀ x, wl x = Gl ((Rect.unit (s := S512x16) ![0, n] ![512, 1] inbl).emb x))
            ∧ (∀ x, wa x = Ga ((Rect.unit (s := S512x1024) ![0, oq] ![512, 64] inbq).emb x))) :
      Heads Gm Gl Ga (n + 1) (⟨Rect.unit (s := S512x16) ![0, n] ![512, 1] inbm, wm⟩ :: L0)
        (⟨Rect.unit (s := S512x16) ![0, n] ![512, 1] inbl, wl⟩ :: L1)
        (⟨Rect.unit (s := S512x1024) ![0, oq] ![512, 64] inbq, wa⟩ :: L2)

set_option maxHeartbeats 1000000 in

/-- Read back, heads below n hold Gm, Gl, Ga and the others the initial values: a head's column and band meet no other head's. -/
theorem Heads.canon {Gm Gl : S512x16.Idx → EReal} {Ga : S512x1024.Idx → EReal} {n : ℕ} {L0 L1 L2}
    (H : Heads Gm Gl Ga n L0 L1 L2) :
    (∀ (r : Fin 512) (h : Fin 16), h.val < n →
        View.canon L0 (ix2 r h) = Gm (ix2 r h) ∧ View.canon L1 (ix2 r h) = Gl (ix2 r h)
          ∧ ∀ d : Fin 64, View.canon L2 (ix2 r (bcol h d)) = Ga (ix2 r (bcol h d)))
    ∧ (∀ (r : Fin 512) (h : Fin 16), n ≤ h.val →
        View.canon L0 (ix2 r h) = ⊥ ∧ View.canon L1 (ix2 r h) = 0 ∧ ∀ d : Fin 64, View.canon L2 (ix2 r (bcol h d)) = 0) := by
  induction H with
  | reset inb0 inb1 inb2 wm wl wa hm hl ha =>
    refine ⟨fun r h hlt => absurd hlt (Nat.not_lt_zero _), fun r h _ => ⟨?_, ?_, fun d => ?_⟩⟩
    · rw [View.canon_unit_zero off_zero]; exact hm _
    · rw [View.canon_unit_zero off_zero]; exact hl _
    · rw [View.canon_unit_zero off_zero]; exact ha _
  | head n hn oq hoq inbm inbl inbq wm wl wa L0 L1 L2 ht hw ih =>
    obtain ⟨ihA, ihB⟩ := ih
    obtain ⟨pm, pl, pa⟩ := hw (fun r => (ihB r ⟨n, hn⟩ (le_refl n)).1) (fun r => (ihB r ⟨n, hn⟩ (le_refl n)).2.1)
      (fun r d => (ihB r ⟨n, hn⟩ (le_refl n)).2.2 d)

    have skm : ∀ (r : Fin 512) (h : Fin 16), h.val ≠ n →
        View.canon ((⟨Rect.unit (s := S512x16) ![0, n] ![512, 1] inbm, wm⟩ : View.Piece (Elt Ideal) S512x16 .f32) :: L0) (ix2 r h)
          = View.canon L0 (ix2 r h) :=
      fun r h he => View.canon_cons_of_not_mem _ L0 (not_mem_col r h n inbm he)
    have skl : ∀ (r : Fin 512) (h : Fin 16), h.val ≠ n →
        View.canon ((⟨Rect.unit (s := S512x16) ![0, n] ![512, 1] inbl, wl⟩ : View.Piece (Elt Ideal) S512x16 .f32) :: L1) (ix2 r h)
          = View.canon L1 (ix2 r h) :=
      fun r h he => View.canon_cons_of_not_mem _ L1 (not_mem_col r h n inbl he)
    have ska : ∀ (r : Fin 512) (h : Fin 16) (d : Fin 64), h.val ≠ n →
        View.canon ((⟨Rect.unit (s := S512x1024) ![0, oq] ![512, 64] inbq, wa⟩ : View.Piece (Elt Ideal) S512x1024 .f32) :: L2)
            (ix2 r (bcol h d))
          = View.canon L2 (ix2 r (bcol h d)) :=
      fun r h d he => View.canon_cons_of_not_mem _ L2 (not_mem_band r h d n oq hoq inbq he)
    refine ⟨fun r h hlt => ?_, fun r h hle => ?_⟩
    · by_cases he : h.val = n
      · obtain rfl : h = ⟨n, hn⟩ := Fin.ext he
        refine ⟨?_, ?_, fun d => ?_⟩
        · have e := emb_col ⟨n, hn⟩ n rfl inbm r 0
          rw [← e]
          exact (View.canon_cons_emb (Rect.unit (s := S512x16) ![0, n] ![512, 1] inbm) wm L0 (ix2 r 0)).trans (pm (ix2 r 0))
        · have e := emb_col ⟨n, hn⟩ n rfl inbl r 0
          rw [← e]
          exact (View.canon_cons_emb (Rect.unit (s := S512x16) ![0, n] ![512, 1] inbl) wl L1 (ix2 r 0)).trans (pl (ix2 r 0))
        · have e := emb_band ⟨n, hn⟩ oq hoq inbq r d
          rw [← e]
          exact (View.canon_cons_emb (Rect.unit (s := S512x1024) ![0, oq] ![512, 64] inbq) wa L2 (ix2 r d)).trans (pa (ix2 r d))
      · obtain ⟨a, b, c⟩ := ihA r h (by omega)
        exact ⟨(skm r h he).trans a, (skl r h he).trans b, fun d => (ska r h d he).trans (c d)⟩
    · have he : h.val ≠ n := by omega
      obtain ⟨a, b, c⟩ := ihB r h (by omega)
      exact ⟨(skm r h he).trans a, (skl r h he).trans b, fun d => (ska r h d he).trans (c d)⟩

end Reset

section Case
open Idealize.ShloMosaic.ValueIdx Cert.Spec

theorem B_m (i : grid1.Coords) (hc2 : cond1_2 i) {arg3 : Memref sig .tc .vmem S512x1024 .bf16} (harg3 : arg3.IsWhole) {arg4 : Memref sig .tc .vmem S512x1024 .bf16} (harg4 : arg4.IsWhole) (arg7 : Memref sig .tc .vmem S512x16 .f32) (x0 x1 x2 : Vec Ideal S512x1024 .bf16) (h : Fin 16) (om oq : ℕ) (hom : om = h.val) (hoq : oq = 64 * h.val) (inbm) (inbq) (hc) (L0 : List (View.Piece (Elt Ideal) S512x16 .f32)) (h0 : ∀ r : Fin 512, View.canon L0 (ix2 r h) = ⊥) (x : S512x1.Idx) :
    shapeCast S512x1 (headM (maskV (maskI (BitVec.ofNat 32 (i 1).val) (BitVec.ofNat 32 (i 2).val)) (scoreV (View.readAt (Elt Ideal) arg3.view (Rect.unit (s := S512x1024) ![0, oq] S512x64.size inbq).toLoadRect (harg3.unread x0)) (View.readAt (Elt Ideal) arg4.view (Rect.unit (s := S512x1024) ![0, oq] S512x64.size inbq).toLoadRect (harg4.unread x1)))) (arg7.view.readCov L0 (Rect.unit (s := S512x16) ![0, om] S512x1.size inbm).toLoadRect)) hc x
      = blkM x0 x1 x2 true (fun _ _ => St.init) ((Rect.unit (s := S512x16) ![0, om] ![512, 1] inbm).emb x) :=
  okM x0 x1 x2 true h om hom inbm _ (score_masked harg3 harg4 x0 x1 _ (fun r k => mask_apply_diag i hc2 r k) h oq hoq inbq) _
    (fun _ _ => St.init) (fun r => (rdcov_col L0 h om hom inbm r 0).trans (h0 r)) hc x

theorem B_l (i : grid1.Coords) (hc2 : cond1_2 i) {arg3 : Memref sig .tc .vmem S512x1024 .bf16} (harg3 : arg3.IsWhole) {arg4 : Memref sig .tc .vmem S512x1024 .bf16} (harg4 : arg4.IsWhole) (arg7 arg8 : Memref sig .tc .vmem S512x16 .f32) (x0 x1 x2 : Vec Ideal S512x1024 .bf16) (h : Fin 16) (om oq : ℕ) (hom : om = h.val) (hoq : oq = 64 * h.val) (inbm) (inbq) (hc) (L0 L1 : List (View.Piece (Elt Ideal) S512x16 .f32)) (h0 : ∀ r : Fin 512, View.canon L0 (ix2 r h) = ⊥) (h1 : ∀ r : Fin 512, View.canon L1 (ix2 r h) = 0) (x : S512x1.Idx) :
    shapeCast S512x1 (headL (maskV (maskI (BitVec.ofNat 32 (i 1).val) (BitVec.ofNat 32 (i 2).val)) (scoreV (View.readAt (Elt Ideal) arg3.view (Rect.unit (s := S512x1024) ![0, oq] S512x64.size inbq).toLoadRect (harg3.unread x0)) (View.readAt (Elt Ideal) arg4.view (Rect.unit (s := S512x1024) ![0, oq] S512x64.size inbq).toLoadRect (harg4.unread x1)))) (arg7.view.readCov L0 (Rect.unit (s := S512x16) ![0, om] S512x1.size inbm).toLoadRect) (arg8.view.readCov L1 (Rect.unit (s := S512x16) ![0, om] S512x1.size inbm).toLoadRect)) hc x
      = blkL x0 x1 x2 true (fun _ _ => St.init) ((Rect.unit (s := S512x16) ![0, om] ![512, 1] inbm).emb x) :=
  okL x0 x1 x2 true h om hom inbm _ (score_masked harg3 harg4 x0 x1 _ (fun r k => mask_apply_diag i hc2 r k) h oq hoq inbq) _ _
    (fun _ _ => St.init) (fun r => (rdcov_col L0 h om hom inbm r 0).trans (h0 r))
    (fun r => (rdcov_col L1 h om hom inbm r 0).trans (h1 r)) hc x

theorem B_a (i : grid1.Coords) (hc2 : cond1_2 i) {arg3 : Memref sig .tc .vmem S512x1024 .bf16} (harg3 : arg3.IsWhole) {arg4 : Memref sig .tc .vmem S512x1024 .bf16} (harg4 : arg4.IsWhole) {arg5 : Memref sig .tc .vmem S512x1024 .bf16} (harg5 : arg5.IsWhole) (arg7 : Memref sig .tc .vmem S512x16 .f32) (arg9 : Memref sig .tc .vmem S512x1024 .f32) (x0 x1 x2 : Vec Ideal S512x1024 .bf16) (h : Fin 16) (om oq : ℕ) (hom : om = h.val) (hoq : oq = 64 * h.val) (inbm) (inbq) (hc) (L0 : List (View.Piece (Elt Ideal) S512x16 .f32)) (L2 : List (View.Piece (Elt Ideal) S512x1024 .f32)) (h0 : ∀ r : Fin 512, View.canon L0 (ix2 r h) = ⊥) (h2 : ∀ (r : Fin 512) (d : Fin 64), View.canon L2 (ix2 r (bcol h d)) = 0) (x : S512x64.Idx) :
    shapeCast S512x64 (headAcc (maskV (maskI (BitVec.ofNat 32 (i 1).val) (BitVec.ofNat 32 (i 2).val)) (scoreV (View.readAt (Elt Ideal) arg3.view (Rect.unit (s := S512x1024) ![0, oq] S512x64.size inbq).toLoadRect (harg3.unread x0)) (View.readAt (Elt Ideal) arg4.view (Rect.unit (s := S512x1024) ![0, oq] S512x64.size inbq).toLoadRect (harg4.unread x1)))) (View.readAt (Elt Ideal) arg5.view (Rect.unit (s := S512x1024) ![0, oq] S512x64.size inbq).toLoadRect (harg5.unread x2)) (arg7.view.readCov L0 (Rect.unit (s := S512x16) ![0, om] S512x1.size inbm).toLoadRect) (arg9.view.readCov L2 (Rect.unit (s := S512x1024) ![0, oq] S512x64.size inbq).toLoadRect)) hc x
      = blkA x0 x1 x2 true (fun _ _ => St.init) ((Rect.unit (s := S512x1024) ![0, oq] ![512, 64] inbq).emb x) :=
  okA x0 x1 x2 true h oq hoq inbq _ (score_masked harg3 harg4 x0 x1 _ (fun r k => mask_apply_diag i hc2 r k) h oq hoq inbq) _
    (fun k d => rd_band harg5 x2 h oq hoq inbq k d) _ _ (fun _ _ => St.init)
    (fun r => (rdcov_col L0 h om hom inbm r 0).trans (h0 r)) (fun r d => (rdcov_band L2 h oq hoq inbq r d).trans (h2 r d)) hc x

set_option maxRecDepth 65536 in
set_option maxHeartbeats 16000000 in

/-- At the first key tile, when it is the query tile, every row and head takes one causally masked step from the initial state. -/
theorem step_B (c : Dev nD) (i : grid1.Coords) (arg3 : Memref sig .tc .vmem S512x1024 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S512x16 .f32) (harg7 : arg7.IsWhole) (arg8 : Memref sig .tc .vmem S512x16 .f32) (harg8 : arg8.IsWhole) (arg9 : Memref sig .tc .vmem S512x1024 .f32) (harg9 : arg9.IsWhole) (hc0 : cond1_0 i) (hc1 : ¬cond1_1 i) (hc2 : cond1_2 i) (hc3 : ¬cond1_3 i) (x0 x1 x2 : Vec Ideal S512x1024 .bf16) (r : Fin 512) (h : Fin 16) :
    stOf (sout1_B_0 (F := Ideal) c i arg3 harg3 arg4 harg4 arg5 harg5 arg6 harg6 arg7 harg7 arg8 harg8 arg9 harg9 hc0 hc1 hc2 hc3 x0 x1 x2) (sout1_B_1 (F := Ideal) c i arg3 harg3 arg4 harg4 arg5 harg5 arg6 harg6 arg7 harg7 arg8 harg8 arg9 harg9 hc0 hc1 hc2 hc3 x0 x1 x2) (sout1_B_2 (F := Ideal) c i arg3 harg3 arg4 harg4 arg5 harg5 arg6 harg6 arg7 harg7 arg8 harg8 arg9 harg9 hc0 hc1 hc2 hc3 x0 x1 x2) r h
      = tileStep cK true x0 x1 x2 r h St.init := by
  unfold sout1_B_0 sout1_B_1 sout1_B_2
  rw [View.read_writes_junk_eq_canon, View.read_writes_junk_eq_canon, View.read_writes_junk_eq_canon]
  have R : Heads (blkM x0 x1 x2 true fun _ _ => St.init) (blkL x0 x1 x2 true fun _ _ => St.init)
      (blkA x0 x1 x2 true fun _ _ => St.init) 16
      (kernelRun1_B (F := Ideal) c i arg3 harg3 arg4 harg4 arg5 harg5 arg6 harg6 arg7 harg7 arg8 harg8 arg9 harg9 hc0 hc1 hc2 hc3 x0 x1 x2).1 (kernelRun1_B (F := Ideal) c i arg3 harg3 arg4 harg4 arg5 harg5 arg6 harg6 arg7 harg7 arg8 harg8 arg9 harg9 hc0 hc1 hc2 hc3 x0 x1 x2).2.1
      (kernelRun1_B (F := Ideal) c i arg3 harg3 arg4 harg4 arg5 harg5 arg6 harg6 arg7 harg7 arg8 harg8 arg9 harg9 hc0 hc1 hc2 hc3 x0 x1 x2).2.2.1 := by
    unfold kernelRun1_B
    dsimp only
    iterate 3
      refine Heads.head _ (by decide) _ rfl _ _ _ _ _ _ _ _ _ ?_ (fun h0 h1 h2 => ⟨
        fun x => B_m i hc2 harg3 harg4 arg7 x0 x1 x2 ⟨_, by decide⟩ _ _ rfl (by rfl) _ _ _ _ h0 x,
        fun x => B_l i hc2 harg3 harg4 arg7 arg8 x0 x1 x2 ⟨_, by decide⟩ _ _ rfl (by rfl) _ _ _ _ _ h0 h1 x,
        fun x => B_a i hc2 harg3 harg4 harg5 arg7 arg9 x0 x1 x2 ⟨_, by decide⟩ _ _ rfl (by rfl) _ _ _ _ _ h0 h2 x⟩)
    refine Heads.head 12 (by decide) 768 rfl inb_S512x16_S512x1_0_12 inb_S512x16_S512x1_0_12 inb_S512x1024_S512x64_0_768 _ _ _ _ _ _ ?_ (fun h0 h1 h2 => ⟨
      fun x => B_m i hc2 harg3 harg4 arg7 x0 x1 x2 ⟨12, by decide⟩ 12 768 rfl rfl inb_S512x16_S512x1_0_12 inb_S512x1024_S512x64_0_768 shapeCasts_S512x1_S512x1 _ h0 x,
      fun x => B_l i hc2 harg3 harg4 arg7 arg8 x0 x1 x2 ⟨12, by decide⟩ 12 768 rfl rfl inb_S512x16_S512x1_0_12 inb_S512x1024_S512x64_0_768 shapeCasts_S512x1_S512x1 _ _ h0 h1 x,
      fun x => B_a i hc2 harg3 harg4 harg5 arg7 arg9 x0 x1 x2 ⟨12, by decide⟩ 12 768 rfl rfl inb_S512x16_S512x1_0_12 inb_S512x1024_S512x64_0_768 shapeCasts_S512x64_S512x64 _ _ h0 h2 x⟩)
    iterate 12
      refine Heads.head _ (by decide) _ rfl _ _ _ _ _ _ _ _ _ ?_ (fun h0 h1 h2 => ⟨
        fun x => B_m i hc2 harg3 harg4 arg7 x0 x1 x2 ⟨_, by decide⟩ _ _ rfl (by rfl) _ _ _ _ h0 x,
        fun x => B_l i hc2 harg3 harg4 arg7 arg8 x0 x1 x2 ⟨_, by decide⟩ _ _ rfl (by rfl) _ _ _ _ _ h0 h1 x,
        fun x => B_a i hc2 harg3 harg4 harg5 arg7 arg9 x0 x1 x2 ⟨_, by decide⟩ _ _ rfl (by rfl) _ _ _ _ _ h0 h2 x⟩)
    refine Heads.reset _ _ _ _ _ _ ?_ ?_ ?_
    · intro y
      show shapeCast S512x16 (broadcast S512x16 (FloatOps.ofBits (F := Ideal) .f32 0xFF800000#32)) shapeCasts_S512x16_S512x16 y = ⊥
      rw [shapeCast_self_apply]; exact ofBits_neg_inf
    · intro y
      show shapeCast S512x16 (broadcast S512x16 (FloatOps.ofBits (F := Ideal) .f32 0x00000000#32)) shapeCasts_S512x16_S512x16 y = 0
      rw [shapeCast_self_apply]; exact Ideal.ofBits_zero_f32
    · intro y
      show shapeCast S512x1024 (broadcast S512x1024 (FloatOps.ofBits (F := Ideal) .f32 0x00000000#32)) shapeCasts_S512x1024_S512x1024 y = 0
      rw [shapeCast_self_apply]; exact Ideal.ofBits_zero_f32
  obtain ⟨hm, hl, ha⟩ := R.canon.1 r h h.isLt
  exact St_ext hm hl fun d => (ha d).trans (blkA_bcol x0 x1 x2 true (fun _ _ => St.init) r h d)

end Case

end Cert.KernelIdeal.Attn

end
-- ==== Proof.KI.HeadStepA.lean ====
import proofs.«414918_j3358664426109_3_alg».proof.Proof.KI.HeadStepB

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx Cert.Spec

theorem A_m {arg3 : Memref sig .tc .vmem S512x1024 .bf16} (harg3 : arg3.IsWhole) {arg4 : Memref sig .tc .vmem S512x1024 .bf16} (harg4 : arg4.IsWhole) (arg7 : Memref sig .tc .vmem S512x16 .f32) (x0 x1 x2 : Vec Ideal S512x1024 .bf16) (h : Fin 16) (om oq : ℕ) (hom : om = h.val) (hoq : oq = 64 * h.val) (inbm) (inbq) (L0 : List (View.Piece (Elt Ideal) S512x16 .f32)) (h0 : ∀ r : Fin 512, View.canon L0 (ix2 r h) = ⊥) (hc) (x : S512x1.Idx) :
    shapeCast S512x1 (headM (scoreV (View.readAt (Elt Ideal) arg3.view (Rect.unit (s := S512x1024) ![0, oq] S512x64.size inbq).toLoadRect (harg3.unread x0)) (View.readAt (Elt Ideal) arg4.view (Rect.unit (s := S512x1024) ![0, oq] S512x64.size inbq).toLoadRect (harg4.unread x1))) (arg7.view.readCov L0 (Rect.unit (s := S512x16) ![0, om] S512x1.size inbm).toLoadRect)) hc x
      = blkM x0 x1 x2 false (fun _ _ => St.init) ((Rect.unit (s := S512x16) ![0, om] ![512, 1] inbm).emb x) :=
  okM x0 x1 x2 false h om hom inbm _ (score_plain harg3 harg4 x0 x1 h oq hoq inbq) _ (fun _ _ => St.init)
    (fun r => (rdcov_col L0 h om hom inbm r 0).trans (h0 r)) hc x

theorem A_l {arg3 : Memref sig .tc .vmem S512x1024 .bf16} (harg3 : arg3.IsWhole) {arg4 : Memref sig .tc .vmem S512x1024 .bf16} (harg4 : arg4.IsWhole) (arg7 arg8 : Memref sig .tc .vmem S512x16 .f32) (x0 x1 x2 : Vec Ideal S512x1024 .bf16) (h : Fin 16) (om oq : ℕ) (hom : om = h.val) (hoq : oq = 64 * h.val) (inbm) (inbq) (L0 : List (View.Piece (Elt Ideal) S512x16 .f32)) (h0 : ∀ r : Fin 512, View.canon L0 (ix2 r h) = ⊥)
    (L1 : List (View.Piece (Elt Ideal) S512x16 .f32)) (h1 : ∀ r : Fin 512, View.canon L1 (ix2 r h) = 0) (hc) (x : S512x1.Idx) :
    shapeCast S512x1 (headL (scoreV (View.readAt (Elt Ideal) arg3.view (Rect.unit (s := S512x1024) ![0, oq] S512x64.size inbq).toLoadRect (harg3.unread x0)) (View.readAt (Elt Ideal) arg4.view (Rect.unit (s := S512x1024) ![0, oq] S512x64.size inbq).toLoadRect (harg4.unread x1))) (arg7.view.readCov L0 (Rect.unit (s := S512x16) ![0, om] S512x1.size inbm).toLoadRect) (arg8.view.readCov L1 (Rect.unit (s := S512x16) ![0, om] S512x1.size inbm).toLoadRect)) hc x
      = blkL x0 x1 x2 false (fun _ _ => St.init) ((Rect.unit (s := S512x16) ![0, om] ![512, 1] inbm).emb x) :=
  okL x0 x1 x2 false h om hom inbm _ (score_plain harg3 harg4 x0 x1 h oq hoq inbq) _ _ (fun _ _ => St.init)
    (fun r => (rdcov_col L0 h om hom inbm r 0).trans (h0 r)) (fun r => (rdcov_col L1 h om hom inbm r 0).trans (h1 r)) hc x

theorem A_a {arg3 : Memref sig .tc .vmem S512x1024 .bf16} (harg3 : arg3.IsWhole) {arg4 : Memref sig .tc .vmem S512x1024 .bf16} (harg4 : arg4.IsWhole) {arg5 : Memref sig .tc .vmem S512x1024 .bf16} (harg5 : arg5.IsWhole) (arg7 : Memref sig .tc .vmem S512x16 .f32) (arg9 : Memref sig .tc .vmem S512x1024 .f32) (x0 x1 x2 : Vec Ideal S512x1024 .bf16) (h : Fin 16) (om oq : ℕ) (hom : om = h.val) (hoq : oq = 64 * h.val) (inbm) (inbq) (L0 : List (View.Piece (Elt Ideal) S512x16 .f32)) (h0 : ∀ r : Fin 512, View.canon L0 (ix2 r h) = ⊥)
    (L2 : List (View.Piece (Elt Ideal) S512x1024 .f32)) (h2 : ∀ (r : Fin 512) (d : Fin 64), View.canon L2 (ix2 r (bcol h d)) = 0) (hc) (x : S512x64.Idx) :
    shapeCast S512x64 (headAcc (scoreV (View.readAt (Elt Ideal) arg3.view (Rect.unit (s := S512x1024) ![0, oq] S512x64.size inbq).toLoadRect (harg3.unread x0)) (View.readAt (Elt Ideal) arg4.view (Rect.unit (s := S512x1024) ![0, oq] S512x64.size inbq).toLoadRect (harg4.unread x1))) (View.readAt (Elt Ideal) arg5.view (Rect.unit (s := S512x1024) ![0, oq] S512x64.size inbq).toLoadRect (harg5.unread x2)) (arg7.view.readCov L0 (Rect.unit (s := S512x16) ![0, om] S512x1.size inbm).toLoadRect) (arg9.view.readCov L2 (Rect.unit (s := S512x1024) ![0, oq] S512x64.size inbq).toLoadRect)) hc x
      = blkA x0 x1 x2 false (fun _ _ => St.init) ((Rect.unit (s := S512x1024) ![0, oq] ![512, 64] inbq).emb x) :=
  okA x0 x1 x2 false h oq hoq inbq _ (score_plain harg3 harg4 x0 x1 h oq hoq inbq) _ (fun k d => rd_band harg5 x2 h oq hoq inbq k d) _ _
    (fun _ _ => St.init) (fun r => (rdcov_col L0 h om hom inbm r 0).trans (h0 r)) (fun r d => (rdcov_band L2 h oq hoq inbq r d).trans (h2 r d)) hc x

set_option maxHeartbeats 8000000 in

/-- At the first key tile, when it lies before the query tile, every row and head takes one unmasked online-softmax step from the initial state. -/
theorem step_A (c : Dev nD) (i : grid1.Coords) (arg3 : Memref sig .tc .vmem S512x1024 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S512x16 .f32) (harg7 : arg7.IsWhole) (arg8 : Memref sig .tc .vmem S512x16 .f32) (harg8 : arg8.IsWhole) (arg9 : Memref sig .tc .vmem S512x1024 .f32) (harg9 : arg9.IsWhole) (hc0 : cond1_0 i) (hc1 : cond1_1 i) (hc2 : ¬cond1_2 i) (hc3 : ¬cond1_3 i) (x0 x1 x2 : Vec Ideal S512x1024 .bf16) (r : Fin 512) (h : Fin 16) :
    stOf (sout1_A_0 (F := Ideal) c i arg3 harg3 arg4 harg4 arg5 harg5 arg6 harg6 arg7 harg7 arg8 harg8 arg9 harg9 hc0 hc1 hc2 hc3 x0 x1 x2) (sout1_A_1 (F := Ideal) c i arg3 harg3 arg4 harg4 arg5 harg5 arg6 harg6 arg7 harg7 arg8 harg8 arg9 harg9 hc0 hc1 hc2 hc3 x0 x1 x2) (sout1_A_2 (F := Ideal) c i arg3 harg3 arg4 harg4 arg5 harg5 arg6 harg6 arg7 harg7 arg8 harg8 arg9 harg9 hc0 hc1 hc2 hc3 x0 x1 x2) r h
      = tileStep cK false x0 x1 x2 r h St.init := by
  unfold sout1_A_0 sout1_A_1 sout1_A_2
  rw [View.read_writes_junk_eq_canon, View.read_writes_junk_eq_canon, View.read_writes_junk_eq_canon]
  have R : Heads (blkM x0 x1 x2 false fun _ _ => St.init) (blkL x0 x1 x2 false fun _ _ => St.init)
      (blkA x0 x1 x2 false fun _ _ => St.init) 16
      (kernelRun1_A (F := Ideal) c i arg3 harg3 arg4 harg4 arg5 harg5 arg6 harg6 arg7 harg7 arg8 harg8 arg9 harg9 hc0 hc1 hc2 hc3 x0 x1 x2).1 (kernelRun1_A (F := Ideal) c i arg3 harg3 arg4 harg4 arg5 harg5 arg6 harg6 arg7 harg7 arg8 harg8 arg9 harg9 hc0 hc1 hc2 hc3 x0 x1 x2).2.1 (kernelRun1_A (F := Ideal) c i arg3 harg3 arg4 harg4 arg5 harg5 arg6 harg6 arg7 harg7 arg8 harg8 arg9 harg9 hc0 hc1 hc2 hc3 x0 x1 x2).2.2.1 := by
    unfold kernelRun1_A
    dsimp only
    iterate 16
      refine Heads.head _ (by decide) _ rfl _ _ _ _ _ _ _ _ _ ?_ (fun h0 h1 h2 => ⟨
        fun x => A_m harg3 harg4 arg7 x0 x1 x2 ⟨_, by decide⟩ _ _ rfl (by rfl) _ _ _ h0 _ x,
        fun x => A_l harg3 harg4 arg7 arg8 x0 x1 x2 ⟨_, by decide⟩ _ _ rfl (by rfl) _ _ _ h0 _ h1 _ x,
        fun x => A_a harg3 harg4 harg5 arg7 arg9 x0 x1 x2 ⟨_, by decide⟩ _ _ rfl (by rfl) _ _ _ h0 _ h2 _ x⟩)
    refine Heads.reset _ _ _ _ _ _ (fun y => ?_) (fun y => ?_) (fun y => ?_)
    · show shapeCast S512x16 (broadcast S512x16 (FloatOps.ofBits (F := Ideal) .f32 0xFF800000#32)) shapeCasts_S512x16_S512x16 y = ⊥
      rw [shapeCast_self_apply]; exact ofBits_neg_inf
    · show shapeCast S512x16 (broadcast S512x16 (FloatOps.ofBits (F := Ideal) .f32 0x00000000#32)) shapeCasts_S512x16_S512x16 y = 0
      rw [shapeCast_self_apply]; exact Ideal.ofBits_zero_f32
    · show shapeCast S512x1024 (broadcast S512x1024 (FloatOps.ofBits (F := Ideal) .f32 0x00000000#32)) shapeCasts_S512x1024_S512x1024 y = 0
      rw [shapeCast_self_apply]; exact Ideal.ofBits_zero_f32
  obtain ⟨hm, hl, ha⟩ := R.canon.1 r h h.isLt
  exact St_ext hm hl fun d => (ha d).trans (blkA_bcol x0 x1 x2 false (fun _ _ => St.init) r h d)

end Cert.KernelIdeal.Attn

end
-- ==== Proof.KI.HeadStepC.lean ====
import proofs.«414918_j3358664426109_3_alg».proof.Proof.Gen.KernelIdeal.Launch
import proofs.«414918_j3358664426109_3_alg».proof.Proof.Gen.KernelIdeal.Skeleton
import proofs.«414918_j3358664426109_3_alg».proof.Proof.Gen.KernelIdeal.Points
import proofs.«414918_j3358664426109_3_alg».proof.Proof.KI.HeadStep
import proofs.«414918_j3358664426109_3_alg».proof.Proof.KI.AttnOuts
import Idealize.ShloMosaic.Lib.Pipeline.FrameBody
import Idealize.ShloMosaic.Lib.Pipeline.Value
import Idealize.ShloMosaic.Lib.ValueLayout
import Idealize.ShloMosaic.Lib.WholeRead
import Idealize.ShloMosaic.PureOps.Ideal.Laws
import Idealize.ShloMosaic.PureOps.IdealRules
import Idealize.ShloMosaic.Lib.Ring
import Idealize.ShloMosaic.Lib.Tactic

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

section Case
open Idealize.ShloMosaic.ValueIdx Cert.Spec

theorem C_m {arg3 : Memref sig .tc .vmem S512x1024 .bf16} (harg3 : arg3.IsWhole) {arg4 : Memref sig .tc .vmem S512x1024 .bf16} (harg4 : arg4.IsWhole) {arg7 : Memref sig .tc .vmem S512x16 .f32} (harg7 : arg7.IsWhole) (x0 x1 x2 : Vec Ideal S512x1024 .bf16) (xs0 xs1 : Vec Ideal S512x16 .f32) (xs2 : Vec Ideal S512x1024 .f32) (h : Fin 16) (om oq : ℕ) (hom : om = h.val) (hoq : oq = 64 * h.val) (inbm) (inbq) (hc) (x : S512x1.Idx) :
    shapeCast S512x1 (headM (scoreV (View.readAt (Elt Ideal) arg3.view (Rect.unit (s := S512x1024) ![0, oq] S512x64.size inbq).toLoadRect (harg3.unread x0)) (View.readAt (Elt Ideal) arg4.view (Rect.unit (s := S512x1024) ![0, oq] S512x64.size inbq).toLoadRect (harg4.unread x1))) (View.readAt (Elt Ideal) arg7.view (Rect.unit (s := S512x16) ![0, om] S512x1.size inbm).toLoadRect (harg7.unread xs0))) hc x
      = blkM x0 x1 x2 false (stOf xs0 xs1 xs2) ((Rect.unit (s := S512x16) ![0, om] ![512, 1] inbm).emb x) :=
  okM x0 x1 x2 false h om hom inbm _ (score_plain harg3 harg4 x0 x1 h oq hoq inbq) _ (stOf xs0 xs1 xs2)
    (fun r => rd_col harg7 xs0 h om hom inbm r 0) hc x

theorem C_l {arg3 : Memref sig .tc .vmem S512x1024 .bf16} (harg3 : arg3.IsWhole) {arg4 : Memref sig .tc .vmem S512x1024 .bf16} (harg4 : arg4.IsWhole) {arg7 : Memref sig .tc .vmem S512x16 .f32} (harg7 : arg7.IsWhole) {arg8 : Memref sig .tc .vmem S512x16 .f32} (harg8 : arg8.IsWhole) (x0 x1 x2 : Vec Ideal S512x1024 .bf16) (xs0 xs1 : Vec Ideal S512x16 .f32) (xs2 : Vec Ideal S512x1024 .f32) (h : Fin 16) (om oq : ℕ) (hom : om = h.val) (hoq : oq = 64 * h.val) (inbm) (inbq) (hc) (x : S512x1.Idx) :
    shapeCast S512x1 (headL (scoreV (View.readAt (Elt Ideal) arg3.view (Rect.unit (s := S512x1024) ![0, oq] S512x64.size inbq).toLoadRect (harg3.unread x0)) (View.readAt (Elt Ideal) arg4.view (Rect.unit (s := S512x1024) ![0, oq] S512x64.size inbq).toLoadRect (harg4.unread x1))) (View.readAt (Elt Ideal) arg7.view (Rect.unit (s := S512x16) ![0, om] S512x1.size inbm).toLoadRect (harg7.unread xs0)) (View.readAt (Elt Ideal) arg8.view (Rect.unit (s := S512x16) ![0, om] S512x1.size inbm).toLoadRect (harg8.unread xs1))) hc x
      = blkL x0 x1 x2 false (stOf xs0 xs1 xs2) ((Rect.unit (s := S512x16) ![0, om] ![512, 1] inbm).emb x) :=
  okL x0 x1 x2 false h om hom inbm _ (score_plain harg3 harg4 x0 x1 h oq hoq inbq) _ _ (stOf xs0 xs1 xs2)
    (fun r => rd_col harg7 xs0 h om hom inbm r 0) (fun r => rd_col harg8 xs1 h om hom inbm r 0) hc x

theorem C_a {arg3 : Memref sig .tc .vmem S512x1024 .bf16} (harg3 : arg3.IsWhole) {arg4 : Memref sig .tc .vmem S512x1024 .bf16} (harg4 : arg4.IsWhole) {arg5 : Memref sig .tc .vmem S512x1024 .bf16} (harg5 : arg5.IsWhole) {arg7 : Memref sig .tc .vmem S512x16 .f32} (harg7 : arg7.IsWhole) {arg9 : Memref sig .tc .vmem S512x1024 .f32} (harg9 : arg9.IsWhole) (x0 x1 x2 : Vec Ideal S512x1024 .bf16) (xs0 xs1 : Vec Ideal S512x16 .f32) (xs2 : Vec Ideal S512x1024 .f32) (h : Fin 16) (om oq : ℕ) (hom : om = h.val) (hoq : oq = 64 * h.val) (inbm) (inbq) (hc) (x : S512x64.Idx) :
    shapeCast S512x64 (headAcc (scoreV (View.readAt (Elt Ideal) arg3.view (Rect.unit (s := S512x1024) ![0, oq] S512x64.size inbq).toLoadRect (harg3.unread x0)) (View.readAt (Elt Ideal) arg4.view (Rect.unit (s := S512x1024) ![0, oq] S512x64.size inbq).toLoadRect (harg4.unread x1))) (View.readAt (Elt Ideal) arg5.view (Rect.unit (s := S512x1024) ![0, oq] S512x64.size inbq).toLoadRect (harg5.unread x2)) (View.readAt (Elt Ideal) arg7.view (Rect.unit (s := S512x16) ![0, om] S512x1.size inbm).toLoadRect (harg7.unread xs0)) (View.readAt (Elt Ideal) arg9.view (Rect.unit (s := S512x1024) ![0, oq] S512x64.size inbq).toLoadRect (harg9.unread xs2))) hc x
      = blkA x0 x1 x2 false (stOf xs0 xs1 xs2) ((Rect.unit (s := S512x1024) ![0, oq] ![512, 64] inbq).emb x) :=
  okA x0 x1 x2 false h oq hoq inbq _ (score_plain harg3 harg4 x0 x1 h oq hoq inbq) _ (fun k d => rd_band harg5 x2 h oq hoq inbq k d) _ _
    (stOf xs0 xs1 xs2) (fun r => rd_col harg7 xs0 h om hom inbm r 0) (fun r d => rd_band harg9 xs2 h oq hoq inbq r d) hc x

set_option maxHeartbeats 4000000 in

/-- At a later key tile before the query tile every row and head takes one unmasked step from the state the previous tile left. -/
theorem step_C (c : Dev nD) (i : grid1.Coords) (arg3 : Memref sig .tc .vmem S512x1024 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S512x16 .f32) (harg7 : arg7.IsWhole) (arg8 : Memref sig .tc .vmem S512x16 .f32) (harg8 : arg8.IsWhole) (arg9 : Memref sig .tc .vmem S512x1024 .f32) (harg9 : arg9.IsWhole) (hc0 : ¬cond1_0 i) (hc1 : cond1_1 i) (hc2 : ¬cond1_2 i) (hc3 : ¬cond1_3 i) (x0 x1 x2 : Vec Ideal S512x1024 .bf16) (xs0 xs1 : Vec Ideal S512x16 .f32) (xs2 : Vec Ideal S512x1024 .f32) (r : Fin 512) (h : Fin 16) :
    stOf (sout1_C_0 (F := Ideal) c i arg3 harg3 arg4 harg4 arg5 harg5 arg6 harg6 arg7 harg7 arg8 harg8 arg9 harg9 hc0 hc1 hc2 hc3 x0 x1 x2 xs0 xs1 xs2) (sout1_C_1 (F := Ideal) c i arg3 harg3 arg4 harg4 arg5 harg5 arg6 harg6 arg7 harg7 arg8 harg8 arg9 harg9 hc0 hc1 hc2 hc3 x0 x1 x2 xs0 xs1 xs2) (sout1_C_2 (F := Ideal) c i arg3 harg3 arg4 harg4 arg5 harg5 arg6 harg6 arg7 harg7 arg8 harg8 arg9 harg9 hc0 hc1 hc2 hc3 x0 x1 x2 xs0 xs1 xs2) r h
      = tileStep cK false x0 x1 x2 r h (stOf xs0 xs1 xs2 r h) := by
  unfold sout1_C_0 sout1_C_1 sout1_C_2
  rw [View.read_writes_junk_eq_canon, View.read_writes_junk_eq_canon, View.read_writes_junk_eq_canon]
  unfold kernelRun1_C
  dsimp only
  refine St_ext ?_ ?_ fun d => ?_
  · refine (View.canon_apply_of_pieces (blkM x0 x1 x2 false (stOf xs0 xs1 xs2)) _ ?_ _ (View.cover_of_tiledL _ ![512, 1] (by sl_kernel_rfl) _)).trans ?_
    · intro p hp
      simp only [List.mem_cons, List.not_mem_nil, or_false] at hp
      rcases hp with rfl | rfl | rfl | rfl | rfl | rfl | rfl | rfl | rfl | rfl | rfl | rfl | rfl | rfl | rfl | rfl
      all_goals exact fun x => C_m harg3 harg4 harg7 x0 x1 x2 xs0 xs1 xs2 ⟨_, by decide⟩ _ _ rfl (by rfl) _ _ shapeCasts_S512x1_S512x1 x
    · rfl
  · refine (View.canon_apply_of_pieces (blkL x0 x1 x2 false (stOf xs0 xs1 xs2)) _ ?_ _ (View.cover_of_tiledL _ ![512, 1] (by sl_kernel_rfl) _)).trans ?_
    · intro p hp
      simp only [List.mem_cons, List.not_mem_nil, or_false] at hp
      rcases hp with rfl | rfl | rfl | rfl | rfl | rfl | rfl | rfl | rfl | rfl | rfl | rfl | rfl | rfl | rfl | rfl
      all_goals exact fun x => C_l harg3 harg4 harg7 harg8 x0 x1 x2 xs0 xs1 xs2 ⟨_, by decide⟩ _ _ rfl (by rfl) _ _ shapeCasts_S512x1_S512x1 x
    · rfl
  · refine (View.canon_apply_of_pieces (blkA x0 x1 x2 false (stOf xs0 xs1 xs2)) _ ?_ _ (View.cover_of_tiledL _ ![512, 64] (by sl_kernel_rfl) _)).trans ?_
    · intro p hp
      simp only [List.mem_cons, List.not_mem_nil, or_false] at hp
      rcases hp with rfl | rfl | rfl | rfl | rfl | rfl | rfl | rfl | rfl | rfl | rfl | rfl | rfl | rfl | rfl | rfl
      all_goals exact fun x => C_a harg3 harg4 harg5 harg7 harg9 x0 x1 x2 xs0 xs1 xs2 ⟨_, by decide⟩ _ _ rfl (by rfl) _ _ shapeCasts_S512x64_S512x64 x
    · exact blkA_bcol x0 x1 x2 false (stOf xs0 xs1 xs2) r h d

end Case

end Cert.KernelIdeal.Attn

end
-- ==== Proof.KI.HeadStepD.lean ====
import proofs.«414918_j3358664426109_3_alg».proof.Proof.Gen.KernelIdeal.Launch
import proofs.«414918_j3358664426109_3_alg».proof.Proof.Gen.KernelIdeal.Skeleton
import proofs.«414918_j3358664426109_3_alg».proof.Proof.Gen.KernelIdeal.Points
import proofs.«414918_j3358664426109_3_alg».proof.Proof.KI.HeadStep
import proofs.«414918_j3358664426109_3_alg».proof.Proof.KI.MaskWord
import proofs.«414918_j3358664426109_3_alg».proof.Proof.KI.AttnOuts
import Idealize.ShloMosaic.Lib.Pipeline.FrameBody
import Idealize.ShloMosaic.Lib.Pipeline.Value
import Idealize.ShloMosaic.Lib.ValueLayout
import Idealize.ShloMosaic.Lib.WholeRead
import Idealize.ShloMosaic.PureOps.Ideal.Laws
import Idealize.ShloMosaic.PureOps.IdealRules
import Idealize.ShloMosaic.Lib.Ring
import Idealize.ShloMosaic.Lib.Tactic

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

section Case
open Idealize.ShloMosaic.ValueIdx Cert.Spec

theorem D_m (i : grid1.Coords) (hc2 : cond1_2 i) {arg3 : Memref sig .tc .vmem S512x1024 .bf16} (harg3 : arg3.IsWhole) {arg4 : Memref sig .tc .vmem S512x1024 .bf16} (harg4 : arg4.IsWhole) {arg7 : Memref sig .tc .vmem S512x16 .f32} (harg7 : arg7.IsWhole) (x0 x1 x2 : Vec Ideal S512x1024 .bf16) (xs0 xs1 : Vec Ideal S512x16 .f32) (xs2 : Vec Ideal S512x1024 .f32) (h : Fin 16) (om oq : ℕ) (hom : om = h.val) (hoq : oq = 64 * h.val) (inbm) (inbq) (hc) (x : S512x1.Idx) :
    shapeCast S512x1 (headM (maskV (maskI (BitVec.ofNat 32 (i 1).val) (BitVec.ofNat 32 (i 2).val)) (scoreV (View.readAt (Elt Ideal) arg3.view (Rect.unit (s := S512x1024) ![0, oq] S512x64.size inbq).toLoadRect (harg3.unread x0)) (View.readAt (Elt Ideal) arg4.view (Rect.unit (s := S512x1024) ![0, oq] S512x64.size inbq).toLoadRect (harg4.unread x1)))) (View.readAt (Elt Ideal) arg7.view (Rect.unit (s := S512x16) ![0, om] S512x1.size inbm).toLoadRect (harg7.unread xs0))) hc x
      = blkM x0 x1 x2 true (stOf xs0 xs1 xs2) ((Rect.unit (s := S512x16) ![0, om] ![512, 1] inbm).emb x) :=
  okM x0 x1 x2 true h om hom inbm _ (score_masked harg3 harg4 x0 x1 _ (fun r k => mask_apply_diag i hc2 r k) h oq hoq inbq) _ (stOf xs0 xs1 xs2)
    (fun r => rd_col harg7 xs0 h om hom inbm r 0) hc x

theorem D_l (i : grid1.Coords) (hc2 : cond1_2 i) {arg3 : Memref sig .tc .vmem S512x1024 .bf16} (harg3 : arg3.IsWhole) {arg4 : Memref sig .tc .vmem S512x1024 .bf16} (harg4 : arg4.IsWhole) {arg7 : Memref sig .tc .vmem S512x16 .f32} (harg7 : arg7.IsWhole) {arg8 : Memref sig .tc .vmem S512x16 .f32} (harg8 : arg8.IsWhole) (x0 x1 x2 : Vec Ideal S512x1024 .bf16) (xs0 xs1 : Vec Ideal S512x16 .f32) (xs2 : Vec Ideal S512x1024 .f32) (h : Fin 16) (om oq : ℕ) (hom : om = h.val) (hoq : oq = 64 * h.val) (inbm) (inbq) (hc) (x : S512x1.Idx) :
    shapeCast S512x1 (headL (maskV (maskI (BitVec.ofNat 32 (i 1).val) (BitVec.ofNat 32 (i 2).val)) (scoreV (View.readAt (Elt Ideal) arg3.view (Rect.unit (s := S512x1024) ![0, oq] S512x64.size inbq).toLoadRect (harg3.unread x0)) (View.readAt (Elt Ideal) arg4.view (Rect.unit (s := S512x1024) ![0, oq] S512x64.size inbq).toLoadRect (harg4.unread x1)))) (View.readAt (Elt Ideal) arg7.view (Rect.unit (s := S512x16) ![0, om] S512x1.size inbm).toLoadRect (harg7.unread xs0)) (View.readAt (Elt Ideal) arg8.view (Rect.unit (s := S512x16) ![0, om] S512x1.size inbm).toLoadRect (harg8.unread xs1))) hc x
      = blkL x0 x1 x2 true (stOf xs0 xs1 xs2) ((Rect.unit (s := S512x16) ![0, om] ![512, 1] inbm).emb x) :=
  okL x0 x1 x2 true h om hom inbm _ (score_masked harg3 harg4 x0 x1 _ (fun r k => mask_apply_diag i hc2 r k) h oq hoq inbq) _ _ (stOf xs0 xs1 xs2)
    (fun r => rd_col harg7 xs0 h om hom inbm r 0) (fun r => rd_col harg8 xs1 h om hom inbm r 0) hc x

theorem D_a (i : grid1.Coords) (hc2 : cond1_2 i) {arg3 : Memref sig .tc .vmem S512x1024 .bf16} (harg3 : arg3.IsWhole) {arg4 : Memref sig .tc .vmem S512x1024 .bf16} (harg4 : arg4.IsWhole) {arg5 : Memref sig .tc .vmem S512x1024 .bf16} (harg5 : arg5.IsWhole) {arg7 : Memref sig .tc .vmem S512x16 .f32} (harg7 : arg7.IsWhole) {arg9 : Memref sig .tc .vmem S512x1024 .f32} (harg9 : arg9.IsWhole) (x0 x1 x2 : Vec Ideal S512x1024 .bf16) (xs0 xs1 : Vec Ideal S512x16 .f32) (xs2 : Vec Ideal S512x1024 .f32) (h : Fin 16) (om oq : ℕ) (hom : om = h.val) (hoq : oq = 64 * h.val) (inbm) (inbq) (hc) (x : S512x64.Idx) :
    shapeCast S512x64 (headAcc (maskV (maskI (BitVec.ofNat 32 (i 1).val) (BitVec.ofNat 32 (i 2).val)) (scoreV (View.readAt (Elt Ideal) arg3.view (Rect.unit (s := S512x1024) ![0, oq] S512x64.size inbq).toLoadRect (harg3.unread x0)) (View.readAt (Elt Ideal) arg4.view (Rect.unit (s := S512x1024) ![0, oq] S512x64.size inbq).toLoadRect (harg4.unread x1)))) (View.readAt (Elt Ideal) arg5.view (Rect.unit (s := S512x1024) ![0, oq] S512x64.size inbq).toLoadRect (harg5.unread x2)) (View.readAt (Elt Ideal) arg7.view (Rect.unit (s := S512x16) ![0, om] S512x1.size inbm).toLoadRect (harg7.unread xs0)) (View.readAt (Elt Ideal) arg9.view (Rect.unit (s := S512x1024) ![0, oq] S512x64.size inbq).toLoadRect (harg9.unread xs2))) hc x
      = blkA x0 x1 x2 true (stOf xs0 xs1 xs2) ((Rect.unit (s := S512x1024) ![0, oq] ![512, 64] inbq).emb x) :=
  okA x0 x1 x2 true h oq hoq inbq _ (score_masked harg3 harg4 x0 x1 _ (fun r k => mask_apply_diag i hc2 r k) h oq hoq inbq) _ (fun k d => rd_band harg5 x2 h oq hoq inbq k d) _ _
    (stOf xs0 xs1 xs2) (fun r => rd_col harg7 xs0 h om hom inbm r 0) (fun r d => rd_band harg9 xs2 h oq hoq inbq r d) hc x

set_option maxHeartbeats 4000000 in

/-- At a later key tile that is the query tile every row and head takes one causally masked step from the state the previous tile left. -/
theorem step_D (c : Dev nD) (i : grid1.Coords) (arg3 : Memref sig .tc .vmem S512x1024 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S512x16 .f32) (harg7 : arg7.IsWhole) (arg8 : Memref sig .tc .vmem S512x16 .f32) (harg8 : arg8.IsWhole) (arg9 : Memref sig .tc .vmem S512x1024 .f32) (harg9 : arg9.IsWhole) (hc0 : ¬cond1_0 i) (hc1 : ¬cond1_1 i) (hc2 : cond1_2 i) (hc3 : ¬cond1_3 i) (x0 x1 x2 : Vec Ideal S512x1024 .bf16) (xs0 xs1 : Vec Ideal S512x16 .f32) (xs2 : Vec Ideal S512x1024 .f32) (r : Fin 512) (h : Fin 16) :
    stOf (sout1_D_0 (F := Ideal) c i arg3 harg3 arg4 harg4 arg5 harg5 arg6 harg6 arg7 harg7 arg8 harg8 arg9 harg9 hc0 hc1 hc2 hc3 x0 x1 x2 xs0 xs1 xs2) (sout1_D_1 (F := Ideal) c i arg3 harg3 arg4 harg4 arg5 harg5 arg6 harg6 arg7 harg7 arg8 harg8 arg9 harg9 hc0 hc1 hc2 hc3 x0 x1 x2 xs0 xs1 xs2) (sout1_D_2 (F := Ideal) c i arg3 harg3 arg4 harg4 arg5 harg5 arg6 harg6 arg7 harg7 arg8 harg8 arg9 harg9 hc0 hc1 hc2 hc3 x0 x1 x2 xs0 xs1 xs2) r h
      = tileStep cK true x0 x1 x2 r h (stOf xs0 xs1 xs2 r h) := by
  unfold sout1_D_0 sout1_D_1 sout1_D_2
  rw [View.read_writes_junk_eq_canon, View.read_writes_junk_eq_canon, View.read_writes_junk_eq_canon]
  unfold kernelRun1_D
  dsimp only
  refine St_ext ?_ ?_ fun d => ?_
  · refine (View.canon_apply_of_pieces (blkM x0 x1 x2 true (stOf xs0 xs1 xs2)) _ ?_ _ (View.cover_of_tiledL _ ![512, 1] (by sl_kernel_rfl) _)).trans ?_
    · intro p hp
      simp only [List.mem_cons, List.not_mem_nil, or_false] at hp
      rcases hp with rfl | rfl | rfl | rfl | rfl | rfl | rfl | rfl | rfl | rfl | rfl | rfl | rfl | rfl | rfl | rfl
      iterate 3 exact fun x => D_m i hc2 harg3 harg4 harg7 x0 x1 x2 xs0 xs1 xs2 ⟨_, by decide⟩ _ _ rfl (by rfl) _ _ shapeCasts_S512x1_S512x1 x
      · exact fun x => D_m i hc2 harg3 harg4 harg7 x0 x1 x2 xs0 xs1 xs2 (12 : Fin 16) 12 768 rfl rfl inb_S512x16_S512x1_0_12 inb_S512x1024_S512x64_0_768 shapeCasts_S512x1_S512x1 x
      all_goals exact fun x => D_m i hc2 harg3 harg4 harg7 x0 x1 x2 xs0 xs1 xs2 ⟨_, by decide⟩ _ _ rfl (by rfl) _ _ shapeCasts_S512x1_S512x1 x
    · rfl
  · refine (View.canon_apply_of_pieces (blkL x0 x1 x2 true (stOf xs0 xs1 xs2)) _ ?_ _ (View.cover_of_tiledL _ ![512, 1] (by sl_kernel_rfl) _)).trans ?_
    · intro p hp
      simp only [List.mem_cons, List.not_mem_nil, or_false] at hp
      rcases hp with rfl | rfl | rfl | rfl | rfl | rfl | rfl | rfl | rfl | rfl | rfl | rfl | rfl | rfl | rfl | rfl
      iterate 3 exact fun x => D_l i hc2 harg3 harg4 harg7 harg8 x0 x1 x2 xs0 xs1 xs2 ⟨_, by decide⟩ _ _ rfl (by rfl) _ _ shapeCasts_S512x1_S512x1 x
      · exact fun x => D_l i hc2 harg3 harg4 harg7 harg8 x0 x1 x2 xs0 xs1 xs2 (12 : Fin 16) 12 768 rfl rfl inb_S512x16_S512x1_0_12 inb_S512x1024_S512x64_0_768 shapeCasts_S512x1_S512x1 x
      all_goals exact fun x => D_l i hc2 harg3 harg4 harg7 harg8 x0 x1 x2 xs0 xs1 xs2 ⟨_, by decide⟩ _ _ rfl (by rfl) _ _ shapeCasts_S512x1_S512x1 x
    · rfl
  · refine (View.canon_apply_of_pieces (blkA x0 x1 x2 true (stOf xs0 xs1 xs2)) _ ?_ _ (View.cover_of_tiledL _ ![512, 64] (by sl_kernel_rfl) _)).trans ?_
    · intro p hp
      simp only [List.mem_cons, List.not_mem_nil, or_false] at hp
      rcases hp with rfl | rfl | rfl | rfl | rfl | rfl | rfl | rfl | rfl | rfl | rfl | rfl | rfl | rfl | rfl | rfl
      iterate 3 exact fun x => D_a i hc2 harg3 harg4 harg5 harg7 harg9 x0 x1 x2 xs0 xs1 xs2 ⟨_, by decide⟩ _ _ rfl (by rfl) _ _ shapeCasts_S512x64_S512x64 x
      · exact fun x => D_a i hc2 harg3 harg4 harg5 harg7 harg9 x0 x1 x2 xs0 xs1 xs2 (12 : Fin 16) 12 768 rfl rfl inb_S512x16_S512x1_0_12 inb_S512x1024_S512x64_0_768 shapeCasts_S512x64_S512x64 x
      all_goals exact fun x => D_a i hc2 harg3 harg4 harg5 harg7 harg9 x0 x1 x2 xs0 xs1 xs2 ⟨_, by decide⟩ _ _ rfl (by rfl) _ _ shapeCasts_S512x64_S512x64 x
    · exact blkA_bcol x0 x1 x2 true (stOf xs0 xs1 xs2) r h d

end Case

end Cert.KernelIdeal.Attn

end
-- ==== Proof.KI.HeadStepE.lean ====
import proofs.«414918_j3358664426109_3_alg».proof.Proof.Gen.KernelIdeal.Launch
import proofs.«414918_j3358664426109_3_alg».proof.Proof.Gen.KernelIdeal.Skeleton
import proofs.«414918_j3358664426109_3_alg».proof.Proof.Gen.KernelIdeal.Points
import proofs.«414918_j3358664426109_3_alg».proof.Proof.KI.HeadStep
import proofs.«414918_j3358664426109_3_alg».proof.Proof.KI.HeadStepD
import proofs.«414918_j3358664426109_3_alg».proof.Proof.KI.AttnOuts
import Idealize.ShloMosaic.Lib.Pipeline.FrameBody
import Idealize.ShloMosaic.Lib.Pipeline.Value
import Idealize.ShloMosaic.Lib.ValueLayout
import Idealize.ShloMosaic.Lib.WholeRead
import Idealize.ShloMosaic.PureOps.Ideal.Laws
import Idealize.ShloMosaic.PureOps.IdealRules
import Idealize.ShloMosaic.Lib.Ring
import Idealize.ShloMosaic.Lib.Tactic

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

section Case
open Idealize.ShloMosaic.ValueIdx Cert.Spec

set_option maxHeartbeats 4000000 in

/-- The same at the last key tile. -/
theorem step_E (c : Dev nD) (i : grid1.Coords) (arg3 : Memref sig .tc .vmem S512x1024 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S512x16 .f32) (harg7 : arg7.IsWhole) (arg8 : Memref sig .tc .vmem S512x16 .f32) (harg8 : arg8.IsWhole) (arg9 : Memref sig .tc .vmem S512x1024 .f32) (harg9 : arg9.IsWhole) (hc0 : ¬cond1_0 i) (hc1 : ¬cond1_1 i) (hc2 : cond1_2 i) (hc3 : cond1_3 i) (x0 x1 x2 : Vec Ideal S512x1024 .bf16) (xs0 xs1 : Vec Ideal S512x16 .f32) (xs2 : Vec Ideal S512x1024 .f32) (r : Fin 512) (h : Fin 16) :
    stOf (sout1_E_0 (F := Ideal) c i arg3 harg3 arg4 harg4 arg5 harg5 arg6 harg6 arg7 harg7 arg8 harg8 arg9 harg9 hc0 hc1 hc2 hc3 x0 x1 x2 xs0 xs1 xs2) (sout1_E_1 (F := Ideal) c i arg3 harg3 arg4 harg4 arg5 harg5 arg6 harg6 arg7 harg7 arg8 harg8 arg9 harg9 hc0 hc1 hc2 hc3 x0 x1 x2 xs0 xs1 xs2) (sout1_E_2 (F := Ideal) c i arg3 harg3 arg4 harg4 arg5 harg5 arg6 harg6 arg7 harg7 arg8 harg8 arg9 harg9 hc0 hc1 hc2 hc3 x0 x1 x2 xs0 xs1 xs2) r h
      = tileStep cK true x0 x1 x2 r h (stOf xs0 xs1 xs2 r h) := by
  unfold sout1_E_0 sout1_E_1 sout1_E_2
  rw [View.read_writes_junk_eq_canon, View.read_writes_junk_eq_canon, View.read_writes_junk_eq_canon]
  unfold kernelRun1_E
  dsimp only
  unfold kernelRun1_E.sl.HS1_16 kernelRun1_E.sl.HS2_16
  refine St_ext ?_ ?_ fun d => ?_
  · refine (View.canon_apply_of_pieces (blkM x0 x1 x2 true (stOf xs0 xs1 xs2)) _ ?_ _ (View.cover_of_tiledL _ ![512, 1] (by sl_kernel_rfl) _)).trans ?_
    · intro p hp
      simp only [List.mem_cons, List.not_mem_nil, or_false] at hp
      rcases hp with rfl | rfl | rfl | rfl | rfl | rfl | rfl | rfl | rfl | rfl | rfl | rfl | rfl | rfl | rfl | rfl
      iterate 3 exact fun x => D_m i hc2 harg3 harg4 harg7 x0 x1 x2 xs0 xs1 xs2 ⟨_, by decide⟩ _ _ rfl (by rfl) _ _ shapeCasts_S512x1_S512x1 x
      · exact fun x => D_m i hc2 harg3 harg4 harg7 x0 x1 x2 xs0 xs1 xs2 (12 : Fin 16) 12 768 rfl rfl inb_S512x16_S512x1_0_12 inb_S512x1024_S512x64_0_768 shapeCasts_S512x1_S512x1 x
      all_goals exact fun x => D_m i hc2 harg3 harg4 harg7 x0 x1 x2 xs0 xs1 xs2 ⟨_, by decide⟩ _ _ rfl (by rfl) _ _ shapeCasts_S512x1_S512x1 x
    · rfl
  · refine (View.canon_apply_of_pieces (blkL x0 x1 x2 true (stOf xs0 xs1 xs2)) _ ?_ _ (View.cover_of_tiledL _ ![512, 1] (by sl_kernel_rfl) _)).trans ?_
    · intro p hp
      simp only [List.mem_cons, List.not_mem_nil, or_false] at hp
      rcases hp with rfl | rfl | rfl | rfl | rfl | rfl | rfl | rfl | rfl | rfl | rfl | rfl | rfl | rfl | rfl | rfl
      iterate 3 exact fun x => D_l i hc2 harg3 harg4 harg7 harg8 x0 x1 x2 xs0 xs1 xs2 ⟨_, by decide⟩ _ _ rfl (by rfl) _ _ shapeCasts_S512x1_S512x1 x
      · exact fun x => D_l i hc2 harg3 harg4 harg7 harg8 x0 x1 x2 xs0 xs1 xs2 (12 : Fin 16) 12 768 rfl rfl inb_S512x16_S512x1_0_12 inb_S512x1024_S512x64_0_768 shapeCasts_S512x1_S512x1 x
      all_goals exact fun x => D_l i hc2 harg3 harg4 harg7 harg8 x0 x1 x2 xs0 xs1 xs2 ⟨_, by decide⟩ _ _ rfl (by rfl) _ _ shapeCasts_S512x1_S512x1 x
    · rfl
  · refine (View.canon_apply_of_pieces (blkA x0 x1 x2 true (stOf xs0 xs1 xs2)) _ ?_ _ (View.cover_of_tiledL _ ![512, 64] (by sl_kernel_rfl) _)).trans ?_
    · intro p hp
      simp only [List.mem_cons, List.not_mem_nil, or_false] at hp
      rcases hp with rfl | rfl | rfl | rfl | rfl | rfl | rfl | rfl | rfl | rfl | rfl | rfl | rfl | rfl | rfl | rfl
      iterate 3 exact fun x => D_a i hc2 harg3 harg4 harg5 harg7 harg9 x0 x1 x2 xs0 xs1 xs2 ⟨_, by decide⟩ _ _ rfl (by rfl) _ _ shapeCasts_S512x64_S512x64 x
      · exact fun x => D_a i hc2 harg3 harg4 harg5 harg7 harg9 x0 x1 x2 xs0 xs1 xs2 (12 : Fin 16) 12 768 rfl rfl inb_S512x16_S512x1_0_12 inb_S512x1024_S512x64_0_768 shapeCasts_S512x64_S512x64 x
      all_goals exact fun x => D_a i hc2 harg3 harg4 harg5 harg7 harg9 x0 x1 x2 xs0 xs1 xs2 ⟨_, by decide⟩ _ _ rfl (by rfl) _ _ shapeCasts_S512x64_S512x64 x
    · exact blkA_bcol x0 x1 x2 true (stOf xs0 xs1 xs2) r h d

end Case

end Cert.KernelIdeal.Attn

end
-- ==== Proof.KI.HeadStepEO.lean ====
import proofs.«414918_j3358664426109_3_alg».proof.Proof.Gen.KernelIdeal.Launch
import proofs.«414918_j3358664426109_3_alg».proof.Proof.Gen.KernelIdeal.Skeleton
import proofs.«414918_j3358664426109_3_alg».proof.Proof.Gen.KernelIdeal.Points
import proofs.«414918_j3358664426109_3_alg».proof.Proof.KI.HeadStep
import proofs.«414918_j3358664426109_3_alg».proof.Proof.KI.HeadStepD
import proofs.«414918_j3358664426109_3_alg».proof.Proof.KI.AttnOuts
import Idealize.ShloMosaic.Lib.Pipeline.FrameBody
import Idealize.ShloMosaic.Lib.Pipeline.Value
import Idealize.ShloMosaic.Lib.ValueLayout
import Idealize.ShloMosaic.Lib.WholeRead
import Idealize.ShloMosaic.PureOps.Ideal.Laws
import Idealize.ShloMosaic.PureOps.IdealRules
import Idealize.ShloMosaic.Lib.Ring
import Idealize.ShloMosaic.Lib.Tactic

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

section Case
open Idealize.ShloMosaic.ValueIdx Cert.Spec

set_option maxHeartbeats 4000000 in

theorem canonL_EO (c : Dev nD) (i : grid1.Coords) (arg3 : Memref sig .tc .vmem S512x1024 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S512x16 .f32) (harg7 : arg7.IsWhole) (arg8 : Memref sig .tc .vmem S512x16 .f32) (harg8 : arg8.IsWhole) (arg9 : Memref sig .tc .vmem S512x1024 .f32) (harg9 : arg9.IsWhole) (hc0 : ¬cond1_0 i) (hc1 : ¬cond1_1 i) (hc2 : cond1_2 i) (hc3 : cond1_3 i) (x0 x1 x2 : Vec Ideal S512x1024 .bf16) (xs0 xs1 : Vec Ideal S512x16 .f32) (xs2 : Vec Ideal S512x1024 .f32) (y : S512x16.Idx) :
    View.canon (kernelRun1_E (F := Ideal) c i arg3 harg3 arg4 harg4 arg5 harg5 arg6 harg6 arg7 harg7 arg8 harg8 arg9 harg9 hc0 hc1 hc2 hc3 x0 x1 x2 xs0 xs1 xs2).2.2.1 y = blkL x0 x1 x2 true (stOf xs0 xs1 xs2) y := by
  unfold kernelRun1_E
  dsimp only
  refine (View.canon_apply_of_pieces (blkL x0 x1 x2 true (stOf xs0 xs1 xs2)) _ ?_ y (View.cover_of_tiledL _ ![512, 1] (by sl_kernel_rfl) y)).trans rfl
  intro p hp
  have hp' : p ∈ List.cons _ _ := hp
  simp only [List.mem_cons, List.not_mem_nil, _root_.or_false] at hp'
  rcases hp' with rfl | rfl | rfl | rfl | rfl | rfl | rfl | rfl | rfl | rfl | rfl | rfl | rfl | rfl | rfl | rfl
  iterate 3 exact fun x => D_l i hc2 harg3 harg4 harg7 harg8 x0 x1 x2 xs0 xs1 xs2 ⟨_, by decide⟩ _ _ rfl (by rfl) _ _ shapeCasts_S512x1_S512x1 x
  · exact fun x => D_l i hc2 harg3 harg4 harg7 harg8 x0 x1 x2 xs0 xs1 xs2  (12 : Fin 16) 12 768 rfl rfl inb_S512x16_S512x1_0_12 inb_S512x1024_S512x64_0_768 shapeCasts_S512x1_S512x1 x
  all_goals exact fun x => D_l i hc2 harg3 harg4 harg7 harg8 x0 x1 x2 xs0 xs1 xs2 ⟨_, by decide⟩ _ _ rfl (by rfl) _ _ shapeCasts_S512x1_S512x1 x

set_option maxHeartbeats 4000000 in

theorem canonA_EO (c : Dev nD) (i : grid1.Coords) (arg3 : Memref sig .tc .vmem S512x1024 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S512x16 .f32) (harg7 : arg7.IsWhole) (arg8 : Memref sig .tc .vmem S512x16 .f32) (harg8 : arg8.IsWhole) (arg9 : Memref sig .tc .vmem S512x1024 .f32) (harg9 : arg9.IsWhole) (hc0 : ¬cond1_0 i) (hc1 : ¬cond1_1 i) (hc2 : cond1_2 i) (hc3 : cond1_3 i) (x0 x1 x2 : Vec Ideal S512x1024 .bf16) (xs0 xs1 : Vec Ideal S512x16 .f32) (xs2 : Vec Ideal S512x1024 .f32) (y : S512x1024.Idx) :
    View.canon (kernelRun1_E (F := Ideal) c i arg3 harg3 arg4 harg4 arg5 harg5 arg6 harg6 arg7 harg7 arg8 harg8 arg9 harg9 hc0 hc1 hc2 hc3 x0 x1 x2 xs0 xs1 xs2).2.2.2.1 y = blkA x0 x1 x2 true (stOf xs0 xs1 xs2) y := by
  unfold kernelRun1_E
  dsimp only
  refine (View.canon_apply_of_pieces (blkA x0 x1 x2 true (stOf xs0 xs1 xs2)) _ ?_ y (View.cover_of_tiledL _ ![512, 64] (by sl_kernel_rfl) y)).trans rfl
  intro p hp
  have hp' : p ∈ List.cons _ _ := hp
  simp only [List.mem_cons, List.not_mem_nil, _root_.or_false] at hp'
  rcases hp' with rfl | rfl | rfl | rfl | rfl | rfl | rfl | rfl | rfl | rfl | rfl | rfl | rfl | rfl | rfl | rfl
  iterate 3 exact fun x => D_a i hc2 harg3 harg4 harg5 harg7 harg9 x0 x1 x2 xs0 xs1 xs2 ⟨_, by decide⟩ _ _ rfl (by rfl) _ _ shapeCasts_S512x64_S512x64 x
  · exact fun x => D_a i hc2 harg3 harg4 harg5 harg7 harg9 x0 x1 x2 xs0 xs1 xs2  (12 : Fin 16) 12 768 rfl rfl inb_S512x16_S512x1_0_12 inb_S512x1024_S512x64_0_768 shapeCasts_S512x64_S512x64 x
  all_goals exact fun x => D_a i hc2 harg3 harg4 harg5 harg7 harg9 x0 x1 x2 xs0 xs1 xs2 ⟨_, by decide⟩ _ _ rfl (by rfl) _ _ shapeCasts_S512x64_S512x64 x

def outOf (fl : S512x16.Idx → EReal) (fa : S512x1024.Idx → EReal) (y : S512x1024.Idx) : EReal :=
  Ideal.div (fa y) (fl (ix2 (⟨(y 0).val, idx2_lt0 y⟩ : Fin 512)
    (⟨(y 1).val / 64, by have := idx2_lt1 y; omega⟩ : Fin 16)))

theorem outOf_bcol (fl : S512x16.Idx → EReal) (fa : S512x1024.Idx → EReal) (r : Fin 512) (h : Fin 16) (d : Fin 64) :
    outOf fl fa (ix2 r (bcol h d)) = Ideal.div (fa (ix2 r (bcol h d))) (fl (ix2 r h)) := by
  have e1 : ∀ p, (⟨(bcol h d).val / 64, p⟩ : Fin 16) = h := fun p => Fin.ext (by show (h.val * 64 + d.val) / 64 = h.val; omega)
  show Ideal.div (fa (ix2 r (bcol h d))) (fl (ix2 (⟨r.val, _⟩ : Fin 512) (⟨(bcol h d).val / 64, _⟩ : Fin 16))) = _
  rw [e1]

theorem EO_o {arg8 : Memref sig .tc .vmem S512x16 .f32} {arg9 : Memref sig .tc .vmem S512x1024 .f32}
    (L1 : List (View.Piece (Elt Ideal) S512x16 .f32)) (L2 : List (View.Piece (Elt Ideal) S512x1024 .f32))
    (fl : S512x16.Idx → EReal) (fa : S512x1024.Idx → EReal)
    (h1 : ∀ y, View.canon L1 y = fl y) (h2 : ∀ y, View.canon L2 y = fa y)
    (h : Fin 16) (om oq : ℕ) (hom : om = h.val) (hoq : oq = 64 * h.val) (inbm) (inbq) (x : S512x64.Idx) :
    (truncf .bf16 (divf (arg9.view.readCov L2 (Rect.unit (s := S512x1024) ![0, oq] S512x64.size inbq).toLoadRect)
        (broadcastTo S512x64 (arg8.view.readCov L1 (Rect.unit (s := S512x16) ![0, om] S512x1.size inbm).toLoadRect)
          broadcasts_S512x1_S512x64)) bitsLt_bf16_f32 : FVec Ideal S512x64 .bf16) x
      = outOf fl fa ((Rect.unit (s := S512x1024) ![0, oq] ![512, 64] inbq).emb x) := by
  obtain ⟨r, d, rfl⟩ : ∃ r d, x = ix2 r d := ⟨x 0, x 1, eq_ix2 x⟩
  rw [emb_band h oq hoq inbq r d, outOf_bcol, ← h1, ← h2, ← emb_band h oq hoq inbq r d, ← emb_col h om hom inbm r (0 : Fin 1)]
  show Ideal.div (arg9.view.readCov L2 (Rect.unit (s := S512x1024) ![0, oq] S512x64.size inbq).toLoadRect (ix2 r d))
      (broadcastTo S512x64 (arg8.view.readCov L1 (Rect.unit (s := S512x16) ![0, om] S512x1.size inbm).toLoadRect)
        broadcasts_S512x1_S512x64 (ix2 r d)) = _
  rw [broadcastTo_col64_apply, View.readCov_eq_canon', View.readCov_eq_canon']
  rfl

set_option maxHeartbeats 4000000 in

theorem out_E_read (c : Dev nD) (i : grid1.Coords) (arg3 : Memref sig .tc .vmem S512x1024 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S512x16 .f32) (harg7 : arg7.IsWhole) (arg8 : Memref sig .tc .vmem S512x16 .f32) (harg8 : arg8.IsWhole) (arg9 : Memref sig .tc .vmem S512x1024 .f32) (harg9 : arg9.IsWhole) (hc0 : ¬cond1_0 i) (hc1 : ¬cond1_1 i) (hc2 : cond1_2 i) (hc3 : cond1_3 i) (x0 x1 x2 : Vec Ideal S512x1024 .bf16) (xs0 xs1 : Vec Ideal S512x16 .f32) (xs2 : Vec Ideal S512x1024 .f32) (r : Fin 512) (h : Fin 16) (d : Fin 64) :
    (VO1_3.read (Elt Ideal) (VO1_3.writes (Elt Ideal) VO1_3.junk (kernelRun1_E (F := Ideal) c i arg3 harg3 arg4 harg4 arg5 harg5 arg6 harg6 arg7 harg7 arg8 harg8 arg9 harg9 hc0 hc1 hc2 hc3 x0 x1 x2 xs0 xs1 xs2).1) : S512x1024.Idx → EReal) (ix2 r (bcol h d))
      = Ideal.div ((tileStep cK true x0 x1 x2 r h (stOf xs0 xs1 xs2 r h)).acc d)
          (tileStep cK true x0 x1 x2 r h (stOf xs0 xs1 xs2 r h)).l := by
  rw [View.read_writes_junk_eq_canon]
  refine (View.canon_apply_of_pieces (outOf (blkL x0 x1 x2 true (stOf xs0 xs1 xs2)) (blkA x0 x1 x2 true (stOf xs0 xs1 xs2))) _ ?_ _ (View.cover_of_tiledL _ ![512, 64] (by sl_kernel_rfl) _)).trans ?_
  · intro p hp
    unfold kernelRun1_E at hp
    dsimp only at hp
    have hp' : p ∈ List.cons _ _ := hp
    simp only [List.mem_cons, List.not_mem_nil, _root_.or_false] at hp'
    rcases hp' with rfl | rfl | rfl | rfl | rfl | rfl | rfl | rfl | rfl | rfl | rfl | rfl | rfl | rfl | rfl | rfl
    iterate 3 exact fun x => EO_o (kernelRun1_E (F := Ideal) c i arg3 harg3 arg4 harg4 arg5 harg5 arg6 harg6 arg7 harg7 arg8 harg8 arg9 harg9 hc0 hc1 hc2 hc3 x0 x1 x2 xs0 xs1 xs2).2.2.1 (kernelRun1_E (F := Ideal) c i arg3 harg3 arg4 harg4 arg5 harg5 arg6 harg6 arg7 harg7 arg8 harg8 arg9 harg9 hc0 hc1 hc2 hc3 x0 x1 x2 xs0 xs1 xs2).2.2.2.1 _ _ (canonL_EO c i arg3 harg3 arg4 harg4 arg5 harg5 arg6 harg6 arg7 harg7 arg8 harg8 arg9 harg9 hc0 hc1 hc2 hc3 x0 x1 x2 xs0 xs1 xs2) (canonA_EO c i arg3 harg3 arg4 harg4 arg5 harg5 arg6 harg6 arg7 harg7 arg8 harg8 arg9 harg9 hc0 hc1 hc2 hc3 x0 x1 x2 xs0 xs1 xs2) ⟨_, by decide⟩ _ _ rfl (by rfl) _ _ x
    · exact fun x => EO_o (kernelRun1_E (F := Ideal) c i arg3 harg3 arg4 harg4 arg5 harg5 arg6 harg6 arg7 harg7 arg8 harg8 arg9 harg9 hc0 hc1 hc2 hc3 x0 x1 x2 xs0 xs1 xs2).2.2.1 (kernelRun1_E (F := Ideal) c i arg3 harg3 arg4 harg4 arg5 harg5 arg6 harg6 arg7 harg7 arg8 harg8 arg9 harg9 hc0 hc1 hc2 hc3 x0 x1 x2 xs0 xs1 xs2).2.2.2.1 _ _ (canonL_EO c i arg3 harg3 arg4 harg4 arg5 harg5 arg6 harg6 arg7 harg7 arg8 harg8 arg9 harg9 hc0 hc1 hc2 hc3 x0 x1 x2 xs0 xs1 xs2) (canonA_EO c i arg3 harg3 arg4 harg4 arg5 harg5 arg6 harg6 arg7 harg7 arg8 harg8 arg9 harg9 hc0 hc1 hc2 hc3 x0 x1 x2 xs0 xs1 xs2)  (12 : Fin 16) 12 768 rfl rfl inb_S512x16_S512x1_0_12 inb_S512x1024_S512x64_0_768 x
    all_goals exact fun x => EO_o (kernelRun1_E (F := Ideal) c i arg3 harg3 arg4 harg4 arg5 harg5 arg6 harg6 arg7 harg7 arg8 harg8 arg9 harg9 hc0 hc1 hc2 hc3 x0 x1 x2 xs0 xs1 xs2).2.2.1 (kernelRun1_E (F := Ideal) c i arg3 harg3 arg4 harg4 arg5 harg5 arg6 harg6 arg7 harg7 arg8 harg8 arg9 harg9 hc0 hc1 hc2 hc3 x0 x1 x2 xs0 xs1 xs2).2.2.2.1 _ _ (canonL_EO c i arg3 harg3 arg4 harg4 arg5 harg5 arg6 harg6 arg7 harg7 arg8 harg8 arg9 harg9 hc0 hc1 hc2 hc3 x0 x1 x2 xs0 xs1 xs2) (canonA_EO c i arg3 harg3 arg4 harg4 arg5 harg5 arg6 harg6 arg7 harg7 arg8 harg8 arg9 harg9 hc0 hc1 hc2 hc3 x0 x1 x2 xs0 xs1 xs2) ⟨_, by decide⟩ _ _ rfl (by rfl) _ _ x
  · rw [outOf_bcol, blkA_bcol]
    rfl

/-- At the last key tile, when it is the query tile, the output is the stepped weighted sum over the stepped sum. -/
theorem out_E (c : Dev nD) (i : grid1.Coords) (arg3 : Memref sig .tc .vmem S512x1024 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S512x16 .f32) (harg7 : arg7.IsWhole) (arg8 : Memref sig .tc .vmem S512x16 .f32) (harg8 : arg8.IsWhole) (arg9 : Memref sig .tc .vmem S512x1024 .f32) (harg9 : arg9.IsWhole) (hc0 : ¬cond1_0 i) (hc1 : ¬cond1_1 i) (hc2 : cond1_2 i) (hc3 : cond1_3 i) (x0 x1 x2 : Vec Ideal S512x1024 .bf16) (xs0 xs1 : Vec Ideal S512x16 .f32) (xs2 : Vec Ideal S512x1024 .f32) (r : Fin 512) (h : Fin 16) (d : Fin 64) :
    (out1_E_3 (F := Ideal) c i arg3 harg3 arg4 harg4 arg5 harg5 arg6 harg6 arg7 harg7 arg8 harg8 arg9 harg9 hc0 hc1 hc2 hc3 x0 x1 x2 xs0 xs1 xs2 : S512x1024.Idx → EReal) (ix2 r (bcol h d))
      = Ideal.div ((tileStep cK true x0 x1 x2 r h (stOf xs0 xs1 xs2 r h)).acc d)
          (tileStep cK true x0 x1 x2 r h (stOf xs0 xs1 xs2 r h)).l := by
  unfold out1_E_3
  exact out_E_read c i arg3 harg3 arg4 harg4 arg5 harg5 arg6 harg6 arg7 harg7 arg8 harg8 arg9 harg9 hc0 hc1 hc2 hc3 x0 x1 x2 xs0 xs1 xs2 r h d

end Case

end Cert.KernelIdeal.Attn

end
-- ==== Proof.KI.HeadStepG.lean ====
import proofs.«414918_j3358664426109_3_alg».proof.Proof.Gen.KernelIdeal.Launch
import proofs.«414918_j3358664426109_3_alg».proof.Proof.Gen.KernelIdeal.Skeleton
import proofs.«414918_j3358664426109_3_alg».proof.Proof.Gen.KernelIdeal.Points
import proofs.«414918_j3358664426109_3_alg».proof.Proof.KI.HeadStep
import proofs.«414918_j3358664426109_3_alg».proof.Proof.KI.AttnOuts
import Idealize.ShloMosaic.Lib.Pipeline.FrameBody
import Idealize.ShloMosaic.Lib.Pipeline.Value
import Idealize.ShloMosaic.Lib.ValueLayout
import Idealize.ShloMosaic.Lib.WholeRead
import Idealize.ShloMosaic.PureOps.Ideal.Laws
import Idealize.ShloMosaic.PureOps.IdealRules
import Idealize.ShloMosaic.Lib.Ring
import Idealize.ShloMosaic.Lib.Tactic

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

section Case
open Idealize.ShloMosaic.ValueIdx Cert.Spec

def headO (acc : Vec F S512x64 .f32) (l : Vec F S512x1 .f32) : FVec F S512x64 .bf16 :=
  truncf .bf16 (divf acc (broadcastTo S512x64 l broadcasts_S512x1_S512x64)) bitsLt_bf16_f32

def blkO (xs1 : Vec Ideal S512x16 .f32) (xs2 : Vec Ideal S512x1024 .f32) (y : S512x1024.Idx) : EReal :=
  Ideal.div (xs2 y) (xs1 (ix2 (⟨(y 0).val, idx2_lt0 y⟩ : Fin 512) (⟨(y 1).val / 64, by have := idx2_lt1 y; omega⟩ : Fin 16)))

theorem blkO_bcol (xs1 : Vec Ideal S512x16 .f32) (xs2 : Vec Ideal S512x1024 .f32) (r : Fin 512) (h : Fin 16) (d : Fin 64) :
    blkO xs1 xs2 (ix2 r (bcol h d)) = Ideal.div (xs2 (ix2 r (bcol h d))) (xs1 (ix2 r h)) := by
  unfold blkO
  have e : (⟨((ix2 r (bcol h d) : S512x1024.Idx) 1).val / 64, by have := idx2_lt1 (ix2 r (bcol h d) : S512x1024.Idx); omega⟩ : Fin 16) = h :=
    Fin.ext (by show (h.val * 64 + d.val) / 64 = h.val; have := d.isLt; omega)
  rw [e]

theorem G_o {arg8 : Memref sig .tc .vmem S512x16 .f32} (harg8 : arg8.IsWhole) {arg9 : Memref sig .tc .vmem S512x1024 .f32} (harg9 : arg9.IsWhole)
    (xs1 : Vec Ideal S512x16 .f32) (xs2 : Vec Ideal S512x1024 .f32) (h : Fin 16) (om oq : ℕ) (hom : om = h.val) (hoq : oq = 64 * h.val)
    (inbm) (inbq) (x : S512x64.Idx) :
    headO (View.readAt (Elt Ideal) arg9.view (Rect.unit (s := S512x1024) ![0, oq] S512x64.size inbq).toLoadRect (harg9.unread xs2))
        (View.readAt (Elt Ideal) arg8.view (Rect.unit (s := S512x16) ![0, om] S512x1.size inbm).toLoadRect (harg8.unread xs1)) x
      = blkO xs1 xs2 ((Rect.unit (s := S512x1024) ![0, oq] ![512, 64] inbq).emb x) := by
  obtain ⟨r, d, rfl⟩ : ∃ (r : Fin 512) (d : Fin 64), x = ix2 r d := ⟨x 0, x 1, eq_ix2 x⟩
  rw [emb_band h oq hoq inbq r d, blkO_bcol]
  show Ideal.div (View.readAt (Elt Ideal) arg9.view (Rect.unit (s := S512x1024) ![0, oq] S512x64.size inbq).toLoadRect (harg9.unread xs2) (ix2 r d))
      (broadcastTo S512x64 (View.readAt (Elt Ideal) arg8.view (Rect.unit (s := S512x16) ![0, om] S512x1.size inbm).toLoadRect (harg8.unread xs1)) broadcasts_S512x1_S512x64 (ix2 r d)) = _
  rw [rd_band harg9 xs2 h oq hoq inbq r d, broadcastTo_col64_apply, rd_col harg8 xs1 h om hom inbm r 0]

set_option maxHeartbeats 4000000 in

/-- Past the query tile the last key tile only normalises: the weighted sum over the sum, as the previous tile left them. -/
theorem out_G (c : Dev nD) (i : grid1.Coords) (arg3 : Memref sig .tc .vmem S512x1024 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S512x16 .f32) (harg7 : arg7.IsWhole) (arg8 : Memref sig .tc .vmem S512x16 .f32) (harg8 : arg8.IsWhole) (arg9 : Memref sig .tc .vmem S512x1024 .f32) (harg9 : arg9.IsWhole) (hc0 : ¬cond1_0 i) (hc1 : ¬cond1_1 i) (hc2 : ¬cond1_2 i) (hc3 : cond1_3 i) (x0 x1 x2 : Vec Ideal S512x1024 .bf16) (xs0 xs1 : Vec Ideal S512x16 .f32) (xs2 : Vec Ideal S512x1024 .f32) (r : Fin 512) (h : Fin 16) (d : Fin 64) :
    (out1_G_3 (F := Ideal) c i arg3 harg3 arg4 harg4 arg5 harg5 arg6 harg6 arg7 harg7 arg8 harg8 arg9 harg9 hc0 hc1 hc2 hc3 x0 x1 x2 xs0 xs1 xs2 : S512x1024.Idx → EReal) (ix2 r (bcol h d))
      = Ideal.div (xs2 (ix2 r (bcol h d))) (xs1 (ix2 r h)) := by
  unfold out1_G_3
  rw [View.read_writes_junk_eq_canon]
  unfold kernelRun1_G
  dsimp only
  refine (View.canon_apply_of_pieces (blkO xs1 xs2) _ ?_ _ (View.cover_of_tiledL _ ![512, 64] (by sl_kernel_rfl) _)).trans ?_
  · intro p hp
    simp only [List.mem_cons, List.not_mem_nil, or_false] at hp
    rcases hp with rfl | rfl | rfl | rfl | rfl | rfl | rfl | rfl | rfl | rfl | rfl | rfl | rfl | rfl | rfl | rfl
    all_goals exact fun x => G_o harg8 harg9 xs1 xs2 ⟨_, by decide⟩ _ _ rfl (by rfl) _ _ x
  · exact blkO_bcol xs1 xs2 r h d

end Case

end Cert.KernelIdeal.Attn

end
-- ==== Proof.KI.HeadStepAll.lean ====
import proofs.«414918_j3358664426109_3_alg».proof.Proof.KI.HeadStep
import proofs.«414918_j3358664426109_3_alg».proof.Proof.KI.HeadStepA
import proofs.«414918_j3358664426109_3_alg».proof.Proof.KI.HeadStepB
import proofs.«414918_j3358664426109_3_alg».proof.Proof.KI.HeadStepC
import proofs.«414918_j3358664426109_3_alg».proof.Proof.KI.HeadStepD
import proofs.«414918_j3358664426109_3_alg».proof.Proof.KI.HeadStepE
import proofs.«414918_j3358664426109_3_alg».proof.Proof.KI.HeadStepEO
import proofs.«414918_j3358664426109_3_alg».proof.Proof.KI.HeadStepG
-- ==== Proof.TileOnline.lean ====
import proofs.«414918_j3358664426109_3_alg».proof.Proof.TileStep

noncomputable section

namespace Cert.Spec

open Idealize.ShloMosaic Idealize.ShloMosaic.ValueIdx

def blk (y : Fin 8192 → Fin 3072 → EReal) (rb : Fin 16) (cb : Fin 3) : (⟨2, ![512, 1024]⟩ : Shape).Idx → EReal :=
  fun i => y ⟨512 * rb.val + (i 0).val, by have := idx2_lt0 i; omega⟩
    ⟨1024 * cb.val + (i 1).val, by have := idx2_lt1 i; omega⟩

def rblk (b qi : Fin 4) : Fin 16 := ⟨4 * b.val + qi.val, by omega⟩

def qpos (qi : Fin 4) (r : Fin 512) : Fin 2048 := ⟨512 * qi.val + r.val, by omega⟩

theorem blk_eq (y : Fin 8192 → Fin 3072 → EReal) (b qi : Fin 4) (p : Fin 3) (r : Fin 512) (h : Fin 16)
    (d : Fin 64) : blk y (rblk b qi) p (ix2 r (bcol h d)) = y (row b (qpos qi r)) (col p h d) := by
  show y ⟨512 * (rblk b qi).val + r.val, _⟩ ⟨1024 * p.val + (bcol h d).val, _⟩ = _
  congr 1 <;> apply Fin.ext <;> simp only [rblk, qpos, row, col, bcol] <;> omega

theorem St.ext' {A B : St} (hm : A.m = B.m) (hl : A.l = B.l) (hacc : A.acc = B.acc) : A = B := by
  cases A
  cases B
  simp only at hm hl hacc
  subst hm hl hacc
  rfl

theorem qpos_injective (j : Fin 4) : Function.Injective (qpos j) := by
  intro a a' haa
  have : (qpos j a).val = (qpos j a').val := congrArg Fin.val haa
  simp only [qpos] at this
  exact Fin.ext (by omega)

theorem tile_eq_map (j : Fin 4) : tile j.val = Finset.univ.map ⟨qpos j, qpos_injective j⟩ := by
  ext k
  simp only [tile, Finset.mem_filter, Finset.mem_univ, true_and, Finset.mem_map, Function.Embedding.coeFn_mk]
  constructor
  · intro hk
    refine ⟨⟨k.val % 512, Nat.mod_lt _ (by norm_num)⟩, Fin.ext ?_⟩
    simp only [qpos]
    omega
  · rintro ⟨kk, rfl⟩
    simp only [qpos]
    have := kk.isLt
    omega

theorem tscore_eq (c : EReal) (y : Fin 8192 → Fin 3072 → EReal) (b qi j : Fin 4) (hj : j ≤ qi) (r : Fin 512)
    (h : Fin 16) (kk : Fin 512) :
    tscore c (decide (j = qi)) (blk y (rblk b qi) 0) (blk y (rblk b j) 1) r h kk
      = masked (score c y b h (qpos qi r)) (qpos qi r) (qpos j kk) := by
  have hj' : j.val ≤ qi.val := hj

  have hcond : (decide (j = qi) = true ∧ r < kk) ↔ ¬ (qpos j kk ≤ qpos qi r) := by
    have h1 : (qpos j kk ≤ qpos qi r) ↔ 512 * j.val + kk.val ≤ 512 * qi.val + r.val := Iff.rfl
    have h2 : r < kk ↔ r.val < kk.val := Iff.rfl
    have h3 : j = qi ↔ j.val = qi.val := Fin.ext_iff
    rw [decide_eq_true_eq, h1, h2, h3]
    have := r.isLt
    have := kk.isLt
    omega
  unfold tscore masked
  by_cases hc : qpos j kk ≤ qpos qi r
  · rw [if_pos hc, if_neg (fun hh => hcond.mp hh hc)]
    unfold score
    congr 1
    refine Finset.sum_congr rfl fun d _ => ?_
    rw [blk_eq, blk_eq]
  · rw [if_neg hc, if_pos (hcond.mpr hc)]

def tiles (c : EReal) (y : Fin 8192 → Fin 3072 → EReal) (b qi : Fin 4) (r : Fin 512) (h : Fin 16) : ℕ → St
  | 0 => St.init
  | j + 1 =>
    tileStep c (decide (j = qi.val)) (blk y (rblk b qi) 0)
      (blk y (rblk b ⟨j % 4, Nat.mod_lt _ (by norm_num)⟩) 1) (blk y (rblk b ⟨j % 4, Nat.mod_lt _ (by norm_num)⟩) 2)
      r h (tiles c y b qi r h j)

theorem tiles_zero (c : EReal) (y : Fin 8192 → Fin 3072 → EReal) (b qi : Fin 4) (r : Fin 512) (h : Fin 16) :
    tiles c y b qi r h 0 = St.init := rfl

theorem tiles_succ (c : EReal) (y : Fin 8192 → Fin 3072 → EReal) (b qi : Fin 4) (r : Fin 512) (h : Fin 16)
    (j : Fin 4) :
    tiles c y b qi r h (j.val + 1)
      = tileStep c (decide (j = qi)) (blk y (rblk b qi) 0) (blk y (rblk b j) 1) (blk y (rblk b j) 2) r h
          (tiles c y b qi r h j.val) := by
  have hmod : (⟨j.val % 4, Nat.mod_lt _ (by norm_num)⟩ : Fin 4) = j := Fin.ext (Nat.mod_eq_of_lt j.isLt)
  have hdec : decide (j.val = qi.val) = decide (j = qi) := decide_eq_decide.mpr Fin.ext_iff.symm
  show tileStep c (decide (j.val = qi.val)) _ (blk y (rblk b ⟨j.val % 4, _⟩) 1) (blk y (rblk b ⟨j.val % 4, _⟩) 2) r h _ = _
  rw [hmod, hdec]

theorem tileStep_eq_step (c : EReal) (y : Fin 8192 → Fin 3072 → EReal) (b qi j : Fin 4) (hj : j ≤ qi)
    (r : Fin 512) (h : Fin 16) (st : St) :
    tileStep c (decide (j = qi)) (blk y (rblk b qi) 0) (blk y (rblk b j) 1) (blk y (rblk b j) 2) r h st
      = St.step (masked (score c y b h (qpos qi r)) (qpos qi r)) (value y b h) j.val st := by
  have hts := tscore_eq c y b qi j hj r h
  have hsup : Finset.univ.sup (tscore c (decide (j = qi)) (blk y (rblk b qi) 0) (blk y (rblk b j) 1) r h)
      = (tile j.val).sup (masked (score c y b h (qpos qi r)) (qpos qi r)) := by
    rw [tile_eq_map, Finset.sup_map]
    exact congrArg _ (funext hts)
  have hl : ∀ m' : EReal,
      ∑ kk : Fin 512, Ideal.exp (tscore c (decide (j = qi)) (blk y (rblk b qi) 0) (blk y (rblk b j) 1) r h kk - m')
        = ∑ k ∈ tile j.val, Ideal.exp (masked (score c y b h (qpos qi r)) (qpos qi r) k - m') := by
    intro m'
    rw [tile_eq_map, Finset.sum_map]
    exact Finset.sum_congr rfl fun kk _ => by rw [hts]; rfl
  have hacc : ∀ (m' : EReal) (d : Fin 64),
      ∑ kk : Fin 512, Ideal.exp (tscore c (decide (j = qi)) (blk y (rblk b qi) 0) (blk y (rblk b j) 1) r h kk - m')
          * blk y (rblk b j) 2 (ix2 kk (bcol h d))
        = ∑ k ∈ tile j.val, Ideal.exp (masked (score c y b h (qpos qi r)) (qpos qi r) k - m') * value y b h k d := by
    intro m' d
    rw [tile_eq_map, Finset.sum_map]
    exact Finset.sum_congr rfl fun kk _ => by rw [hts, blk_eq]; rfl
  refine St.ext' ?_ ?_ ?_
  · show max st.m _ = max st.m _
    rw [hsup]
  · show Ideal.exp (st.m - max st.m _) * st.l + ∑ kk : Fin 512, Ideal.exp (_ - max st.m _)
        = Ideal.exp (st.m - max st.m _) * st.l + ∑ k ∈ tile j.val, Ideal.exp (_ - max st.m _)
    rw [hsup, hl]
  · funext d
    show Ideal.exp (st.m - max st.m _) * st.acc d + ∑ kk : Fin 512, Ideal.exp (_ - max st.m _) * _
        = Ideal.exp (st.m - max st.m _) * st.acc d + ∑ k ∈ tile j.val, Ideal.exp (_ - max st.m _) * _
    rw [hsup, hacc]

theorem online_tiles (c : EReal) (y : Fin 8192 → Fin 3072 → EReal) (b qi : Fin 4) (r : Fin 512) (h : Fin 16)
    (n : ℕ) (hn : n ≤ qi.val + 1) :
    tiles c y b qi r h n = online (masked (score c y b h (qpos qi r)) (qpos qi r)) (value y b h) n := by
  induction n with
  | zero => rfl
  | succ n ih =>
    have hn4 : n < 4 := by have := qi.isLt; omega
    have hle : (⟨n, hn4⟩ : Fin 4) ≤ qi := by show n ≤ qi.val; omega
    have hs := tiles_succ c y b qi r h ⟨n, hn4⟩
    have he := tileStep_eq_step c y b qi ⟨n, hn4⟩ hle r h (tiles c y b qi r h n)
    show tiles c y b qi r h (n + 1) = St.step _ _ n (online _ _ n)
    rw [← ih (by omega)]
    exact hs.trans he

theorem attnT_of_tiles (c : EReal) (y : Fin 8192 → Fin 3072 → EReal) (b qi : Fin 4) (r : Fin 512) (h : Fin 16)
    (d : Fin 64) :
    Ideal.div ((tiles c y b qi r h (qi.val + 1)).acc d) (tiles c y b qi r h (qi.val + 1)).l
      = attnT (score c y b h (qpos qi r)) (value y b h) (qpos qi r) d := by
  have hq : (qpos qi r).val / 512 = qi.val := by
    show (512 * qi.val + r.val) / 512 = qi.val
    have := r.isLt
    omega
  unfold attnT
  rw [hq, online_tiles c y b qi r h (qi.val + 1) le_rfl]

theorem heads_row_ocol (A : (Fin 2048 → EReal) → (Fin 2048 → Fin 64 → EReal) → Fin 2048 → Fin 64 → EReal) (c : EReal)
    (y : Fin 8192 → Fin 3072 → EReal) (b : Fin 4) (q : Fin 2048) (h : Fin 16) (d : Fin 64) :
    heads A c y (row b q) (ocol h d) = A (score c y b h q) (value y b h) q d := by
  have hb : (⟨(row b q).val / 2048, by have := (row b q).isLt; omega⟩ : Fin 4) = b :=
    Fin.ext (by show (b.val * 2048 + q.val) / 2048 = b.val; have := q.isLt; omega)
  have hq : (⟨(row b q).val % 2048, Nat.mod_lt _ (by norm_num)⟩ : Fin 2048) = q :=
    Fin.ext (by show (b.val * 2048 + q.val) % 2048 = q.val; have := q.isLt; omega)
  have hh : (⟨(ocol h d).val / 64, by have := (ocol h d).isLt; omega⟩ : Fin 16) = h :=
    Fin.ext (by show (h.val * 64 + d.val) / 64 = h.val; have := d.isLt; omega)
  have hd : (⟨(ocol h d).val % 64, Nat.mod_lt _ (by norm_num)⟩ : Fin 64) = d :=
    Fin.ext (by show (h.val * 64 + d.val) % 64 = d.val; have := d.isLt; omega)
  show A (score c y ⟨(row b q).val / 2048, _⟩ ⟨(ocol h d).val / 64, _⟩ ⟨(row b q).val % 2048, _⟩)
      (value y ⟨(row b q).val / 2048, _⟩ ⟨(ocol h d).val / 64, _⟩) ⟨(row b q).val % 2048, _⟩
      ⟨(ocol h d).val % 64, _⟩ = _
  rw [hb, hq, hh, hd]

theorem heads_attnT_eq_tiles (c : EReal) (y : Fin 8192 → Fin 3072 → EReal) (b qi : Fin 4) (r : Fin 512)
    (h : Fin 16) (d : Fin 64) :
    heads attnT c y (row b (qpos qi r)) (ocol h d)
      = Ideal.div ((tiles c y b qi r h (qi.val + 1)).acc d) (tiles c y b qi r h (qi.val + 1)).l := by
  rw [heads_row_ocol, attnT_of_tiles]

end Cert.Spec

end
-- ==== Proof.KI.AttnVal.lean ====
import proofs.«414918_j3358664426109_3_alg».proof.Proof.Gen.KernelIdeal.Launch
import proofs.«414918_j3358664426109_3_alg».proof.Proof.Gen.KernelIdeal.Skeleton
import proofs.«414918_j3358664426109_3_alg».proof.Proof.Gen.KernelIdeal.Points
import proofs.«414918_j3358664426109_3_alg».proof.Proof.KI.AttnFrame
import proofs.«414918_j3358664426109_3_alg».proof.Proof.KI.HeadStepAll
import proofs.«414918_j3358664426109_3_alg».proof.Proof.TileOnline
import proofs.«414918_j3358664426109_3_alg».proof.Proof.Result
import Idealize.ShloMosaic.Lib.Pipeline.FrameBody
import Idealize.ShloMosaic.Lib.Pipeline.Value
import Idealize.ShloMosaic.Lib.Ring
import Idealize.ShloMosaic.Lib.Tactic

noncomputable section

namespace Cert.KernelIdeal.AttnVal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F] [Named F]

theorem idx_facts : ∀ t : Fin cfg1.N,
    win1_0.index t (0 : Fin 2) = 4 * (t.val / 16) + t.val / 4 % 4 ∧ win1_0.index t (1 : Fin 2) = 0
    ∧ win1_1.index t (0 : Fin 2) = 4 * (t.val / 16) + min (t.val % 4) (t.val / 4 % 4) ∧ win1_1.index t (1 : Fin 2) = 1
    ∧ win1_2.index t (0 : Fin 2) = 4 * (t.val / 16) + min (t.val % 4) (t.val / 4 % 4) ∧ win1_2.index t (1 : Fin 2) = 2
    ∧ win1_3.index t (0 : Fin 2) = 4 * (t.val / 16) + t.val / 4 % 4 ∧ win1_3.index t (1 : Fin 2) = 0 :=
  (by decide +kernel : ∀ t : Fin grid1.N, _)

section Blocks

variable (V : (c : Dev nD) → (b : Ref sig .tc) → Buf (Elt F) ((c : Thread nD τ).loc b))

theorem iblk1_0_apply (c : Dev nD) (t : Fin cfg1.N) (x : S512x1024.Idx) (k : S8192x3072.Idx)
    (hk0 : (k 0).val = 512 * (4 * (t.val / 16) + t.val / 4 % 4) + (x 0).val) (hk1 : (k 1).val = 1024 * 0 + (x 1).val) :
    (Attn.iblk1 V c 0 t : Vec F S512x1024 .bf16) x = (V c main_v4 : S8192x3072.Idx → Elt F .bf16) k := by
  obtain ⟨e0, e1, -⟩ := idx_facts t
  unfold Attn.iblk1
  rw [View.read_apply]
  show V c main_v4 _ = V c main_v4 _
  congr 1
  funext a
  apply Fin.ext
  match a with
  | ⟨0, _⟩ => show win1_0.index t 0 * 512 + 1 * (x 0).val = (k 0).val; rw [e0, hk0]; omega
  | ⟨1, _⟩ => show win1_0.index t 1 * 1024 + 1 * (x 1).val = (k 1).val; rw [e1, hk1]; omega

theorem iblk1_1_apply (c : Dev nD) (t : Fin cfg1.N) (x : S512x1024.Idx) (k : S8192x3072.Idx)
    (hk0 : (k 0).val = 512 * (4 * (t.val / 16) + min (t.val % 4) (t.val / 4 % 4)) + (x 0).val)
    (hk1 : (k 1).val = 1024 * 1 + (x 1).val) :
    (Attn.iblk1 V c 1 t : Vec F S512x1024 .bf16) x = (V c main_v4 : S8192x3072.Idx → Elt F .bf16) k := by
  obtain ⟨-, -, e0, e1, -⟩ := idx_facts t
  unfold Attn.iblk1
  rw [View.read_apply]
  show V c main_v4 _ = V c main_v4 _
  congr 1
  funext a
  apply Fin.ext
  match a with
  | ⟨0, _⟩ => show win1_1.index t 0 * 512 + 1 * (x 0).val = (k 0).val; rw [e0, hk0]; omega
  | ⟨1, _⟩ => show win1_1.index t 1 * 1024 + 1 * (x 1).val = (k 1).val; rw [e1, hk1]; omega

theorem iblk1_2_apply (c : Dev nD) (t : Fin cfg1.N) (x : S512x1024.Idx) (k : S8192x3072.Idx)
    (hk0 : (k 0).val = 512 * (4 * (t.val / 16) + min (t.val % 4) (t.val / 4 % 4)) + (x 0).val)
    (hk1 : (k 1).val = 1024 * 2 + (x 1).val) :
    (Attn.iblk1 V c 2 t : Vec F S512x1024 .bf16) x = (V c main_v4 : S8192x3072.Idx → Elt F .bf16) k := by
  obtain ⟨-, -, -, -, e0, e1, -⟩ := idx_facts t
  unfold Attn.iblk1
  rw [View.read_apply]
  show V c main_v4 _ = V c main_v4 _
  congr 1
  funext a
  apply Fin.ext
  match a with
  | ⟨0, _⟩ => show win1_2.index t 0 * 512 + 1 * (x 0).val = (k 0).val; rw [e0, hk0]; omega
  | ⟨1, _⟩ => show win1_2.index t 1 * 1024 + 1 * (x 1).val = (k 1).val; rw [e1, hk1]; omega

end Blocks

section AtIdeal

variable (V : (c : Dev nD) → (b : Ref sig .tc) → Buf (Elt Ideal) ((c : Thread nD τ).loc b))

abbrev ymat (c : Dev nD) : Fin 8192 → Fin 3072 → EReal := Spec.mat (V c main_v4)

theorem qblk_eq (c : Dev nD) (t : Fin cfg1.N) (b qi : Fin 4) (hb : b.val = t.val / 16) (hq : qi.val = t.val / 4 % 4) :
    (Attn.iblk1 (F := Ideal) V c 0 t : S512x1024.Idx → EReal) = Spec.blk (ymat V c) (Spec.rblk b qi) 0 := by
  funext x
  have hx0 := idx2_lt0 x
  have hx1 := idx2_lt1 x
  refine (iblk1_0_apply (F := Ideal) V c t x
    (ix2 (⟨512 * (Spec.rblk b qi).val + (x 0).val, by have := (Spec.rblk b qi).isLt; omega⟩ : Fin 8192)
      (⟨1024 * (0 : Fin 3).val + (x 1).val, by show 1024 * 0 + (x 1).val < 3072; omega⟩ : Fin 3072)) ?_ ?_).trans rfl
  · show 512 * (4 * b.val + qi.val) + (x 0).val = _; rw [hb, hq]
  · rfl

theorem kblk_eq (c : Dev nD) (t : Fin cfg1.N) (b mi : Fin 4) (hb : b.val = t.val / 16)
    (hm : mi.val = min (t.val % 4) (t.val / 4 % 4)) :
    (Attn.iblk1 (F := Ideal) V c 1 t : S512x1024.Idx → EReal) = Spec.blk (ymat V c) (Spec.rblk b mi) 1 := by
  funext x
  have hx0 := idx2_lt0 x
  have hx1 := idx2_lt1 x
  refine (iblk1_1_apply (F := Ideal) V c t x
    (ix2 (⟨512 * (Spec.rblk b mi).val + (x 0).val, by have := (Spec.rblk b mi).isLt; omega⟩ : Fin 8192)
      (⟨1024 * (1 : Fin 3).val + (x 1).val, by show 1024 * 1 + (x 1).val < 3072; omega⟩ : Fin 3072)) ?_ ?_).trans rfl
  · show 512 * (4 * b.val + mi.val) + (x 0).val = _; rw [hb, hm]
  · rfl

theorem vblk_eq (c : Dev nD) (t : Fin cfg1.N) (b mi : Fin 4) (hb : b.val = t.val / 16)
    (hm : mi.val = min (t.val % 4) (t.val / 4 % 4)) :
    (Attn.iblk1 (F := Ideal) V c 2 t : S512x1024.Idx → EReal) = Spec.blk (ymat V c) (Spec.rblk b mi) 2 := by
  funext x
  have hx0 := idx2_lt0 x
  have hx1 := idx2_lt1 x
  refine (iblk1_2_apply (F := Ideal) V c t x
    (ix2 (⟨512 * (Spec.rblk b mi).val + (x 0).val, by have := (Spec.rblk b mi).isLt; omega⟩ : Fin 8192)
      (⟨1024 * (2 : Fin 3).val + (x 1).val, by show 1024 * 2 + (x 1).val < 3072; omega⟩ : Fin 3072)) ?_ ?_).trans rfl
  · show 512 * (4 * b.val + mi.val) + (x 0).val = _; rw [hb, hm]
  · rfl

end AtIdeal

section Invariant

variable (V : (c : Dev nD) → (b : Ref sig .tc) → Buf (Elt Ideal) ((c : Thread nD τ).loc b))

theorem tile_adv (c : Dev nD) (t : Fin cfg1.N) (b qi ki : Fin 4) (hb : b.val = t.val / 16) (hq : qi.val = t.val / 4 % 4)
    (hk : ki.val = t.val % 4) (hle : ki.val ≤ qi.val) (diag : Bool) (hd : diag = decide (ki = qi)) (r : Fin 512)
    (h : Fin 16) (st : Spec.St) (hst : st = Spec.tiles Spec.cK (ymat V c) b qi r h ki.val) :
    Spec.tileStep Spec.cK diag (Attn.iblk1 (F := Ideal) V c 0 t) (Attn.iblk1 (F := Ideal) V c 1 t)
        (Attn.iblk1 (F := Ideal) V c 2 t) r h st
      = Spec.tiles Spec.cK (ymat V c) b qi r h (ki.val + 1) := by
  have hm : ki.val = min (t.val % 4) (t.val / 4 % 4) := by omega
  rw [Spec.tiles_succ, ← hd, ← hst, qblk_eq V c t b qi hb hq, kblk_eq V c t b ki hb hm, vblk_eq V c t b ki hb hm]

theorem inv (c : Dev nD) : ∀ (n : ℕ) (t : Fin cfg1.N), t.val = n → ∀ (b qi : Fin 4), b.val = t.val / 16 →
    qi.val = t.val / 4 % 4 → ∀ (r : Fin 512) (h : Fin 16),
    Spec.stOf (Attn.outsAt1 (F := Ideal) V c t.val t.isLt).2.1 (Attn.outsAt1 (F := Ideal) V c t.val t.isLt).2.2.1
        (Attn.outsAt1 (F := Ideal) V c t.val t.isLt).2.2.2 r h
      = Spec.tiles Spec.cK (ymat V c) b qi r h (min (t.val % 4) qi.val + 1) := by
  intro n
  induction n using Nat.strong_induction_on with
  | _ n ih =>
    intro t htn b qi hb hq r h
    have hN : t.val < 64 := lt_of_lt_of_eq t.isLt (show cfg1.N = 64 from N_1)
    have hprev : ∀ (h0 : ¬t.val % 4 = 0),
        Spec.stOf (Attn.outsAt1 V c (t.val - 1) (Nat.lt_of_le_of_lt (Nat.sub_le _ _) t.isLt)).2.1 (Attn.outsAt1 V c (t.val - 1) (Nat.lt_of_le_of_lt (Nat.sub_le _ _) t.isLt)).2.2.1 (Attn.outsAt1 V c (t.val - 1) (Nat.lt_of_le_of_lt (Nat.sub_le _ _) t.isLt)).2.2.2 r h
          = Spec.tiles Spec.cK (ymat V c) b qi r h (min ((t.val - 1) % 4) qi.val + 1) :=
      fun h0 => ih (t.val - 1) (by omega) ⟨t.val - 1, Nat.lt_of_le_of_lt (Nat.sub_le _ _) t.isLt⟩ rfl b qi
        (by show b.val = (t.val - 1) / 16; omega) (by show qi.val = (t.val - 1) / 4 % 4; omega) r h
    by_cases h0 : t.val % 4 = 0
    · by_cases h1 : t.val % 4 < t.val / 4 % 4
      · have h2 : ¬t.val % 4 = t.val / 4 % 4 := by omega
        have h3 : ¬t.val % 4 = 3 := by omega
        rw [Attn.outsAt1_A V c t h0 h1 h2 h3]
        dsimp only [Attn.caseA]
        refine (Attn.step_A c _ _ _ _ _ _ _ _ _ _ _ _ _ _ _ _ _ _ _ _ _ _ r h).trans ?_
        exact (tile_adv V c t b qi (⟨t.val % 4, Nat.mod_lt _ (by norm_num)⟩ : Fin 4) hb hq rfl (by show t.val % 4 ≤ qi.val; omega) false ((decide_eq_false (fun e => h2 ((congrArg Fin.val e).trans hq))).symm) r h _
          ((Spec.tiles_zero Spec.cK (ymat V c) b qi r h).symm.trans (congrArg (Spec.tiles Spec.cK (ymat V c) b qi r h) (by show 0 = t.val % 4; omega)))).trans
          (congrArg (Spec.tiles Spec.cK (ymat V c) b qi r h) (by show t.val % 4 + 1 = min (t.val % 4) qi.val + 1; omega))
      · have h2 : t.val % 4 = t.val / 4 % 4 := by omega
        have h3 : ¬t.val % 4 = 3 := by omega
        rw [Attn.outsAt1_B V c t h0 h1 h2 h3]
        dsimp only [Attn.caseB]
        refine (Attn.step_B c _ _ _ _ _ _ _ _ _ _ _ _ _ _ _ _ _ _ _ _ _ _ r h).trans ?_
        exact (tile_adv V c t b qi (⟨t.val % 4, Nat.mod_lt _ (by norm_num)⟩ : Fin 4) hb hq rfl (by show t.val % 4 ≤ qi.val; omega) true ((decide_eq_true (Fin.ext (h2.trans hq.symm))).symm) r h _
          ((Spec.tiles_zero Spec.cK (ymat V c) b qi r h).symm.trans (congrArg (Spec.tiles Spec.cK (ymat V c) b qi r h) (by show 0 = t.val % 4; omega)))).trans
          (congrArg (Spec.tiles Spec.cK (ymat V c) b qi r h) (by show t.val % 4 + 1 = min (t.val % 4) qi.val + 1; omega))
    · by_cases h1 : t.val % 4 < t.val / 4 % 4
      · have h2 : ¬t.val % 4 = t.val / 4 % 4 := by omega
        have h3 : ¬t.val % 4 = 3 := by omega
        rw [Attn.outsAt1_C V c t h0 h1 h2 h3]
        dsimp only [Attn.caseC]
        refine (Attn.step_C c _ _ _ _ _ _ _ _ _ _ _ _ _ _ _ _ _ _ _ _ _ _ _ _ _ r h).trans ?_
        exact (tile_adv V c t b qi (⟨t.val % 4, Nat.mod_lt _ (by norm_num)⟩ : Fin 4) hb hq rfl (by show t.val % 4 ≤ qi.val; omega) false ((decide_eq_false (fun e => h2 ((congrArg Fin.val e).trans hq))).symm) r h _
          ((hprev h0).trans (congrArg (Spec.tiles Spec.cK (ymat V c) b qi r h) (by show min ((t.val - 1) % 4) qi.val + 1 = t.val % 4; omega)))).trans
          (congrArg (Spec.tiles Spec.cK (ymat V c) b qi r h) (by show t.val % 4 + 1 = min (t.val % 4) qi.val + 1; omega))
      · by_cases h2 : t.val % 4 = t.val / 4 % 4
        · by_cases h3 : t.val % 4 = 3
          ·
            rw [Attn.outsAt1_E V c t h0 h1 h2 h3]
            dsimp only [Attn.caseE]
            refine (Attn.step_E c _ _ _ _ _ _ _ _ _ _ _ _ _ _ _ _ _ _ _ _ _ _ _ _ _ r h).trans ?_
            exact (tile_adv V c t b qi (⟨t.val % 4, Nat.mod_lt _ (by norm_num)⟩ : Fin 4) hb hq rfl (by show t.val % 4 ≤ qi.val; omega) true ((decide_eq_true (Fin.ext (h2.trans hq.symm))).symm) r h _
              ((hprev h0).trans (congrArg (Spec.tiles Spec.cK (ymat V c) b qi r h) (by show min ((t.val - 1) % 4) qi.val + 1 = t.val % 4; omega)))).trans
              (congrArg (Spec.tiles Spec.cK (ymat V c) b qi r h) (by show t.val % 4 + 1 = min (t.val % 4) qi.val + 1; omega))
          ·
            rw [Attn.outsAt1_D V c t h0 h1 h2 h3]
            dsimp only [Attn.caseD]
            refine (Attn.step_D c _ _ _ _ _ _ _ _ _ _ _ _ _ _ _ _ _ _ _ _ _ _ _ _ _ r h).trans ?_
            exact (tile_adv V c t b qi (⟨t.val % 4, Nat.mod_lt _ (by norm_num)⟩ : Fin 4) hb hq rfl (by show t.val % 4 ≤ qi.val; omega) true ((decide_eq_true (Fin.ext (h2.trans hq.symm))).symm) r h _
              ((hprev h0).trans (congrArg (Spec.tiles Spec.cK (ymat V c) b qi r h) (by show min ((t.val - 1) % 4) qi.val + 1 = t.val % 4; omega)))).trans
              (congrArg (Spec.tiles Spec.cK (ymat V c) b qi r h) (by show t.val % 4 + 1 = min (t.val % 4) qi.val + 1; omega))
        · by_cases h3 : t.val % 4 = 3
          · rw [Attn.outsAt1_G V c t h0 h1 h2 h3]
            dsimp only [Attn.caseG]
            exact (hprev h0).trans (congrArg (Spec.tiles Spec.cK (ymat V c) b qi r h) (by omega))
          · rw [Attn.outsAt1_F V c t h0 h1 h2 h3]
            dsimp only
            exact (hprev h0).trans (congrArg (Spec.tiles Spec.cK (ymat V c) b qi r h) (by omega))

theorem out_at (c : Dev nD) (t : Fin cfg1.N) (h3 : t.val % 4 = 3) (b qi : Fin 4) (hb : b.val = t.val / 16)
    (hq : qi.val = t.val / 4 % 4) (r : Fin 512) (h : Fin 16) (d : Fin 64) :
    ((Attn.outsAt1 (F := Ideal) V c t.val t.isLt).1 : S512x1024.Idx → EReal) (ix2 r (Spec.bcol h d))
      = Ideal.div ((Spec.tiles Spec.cK (ymat V c) b qi r h (qi.val + 1)).acc d)
          (Spec.tiles Spec.cK (ymat V c) b qi r h (qi.val + 1)).l := by
  have hN : t.val < 64 := lt_of_lt_of_eq t.isLt (show cfg1.N = 64 from N_1)
  have h0 : ¬t.val % 4 = 0 := by omega
  have h1 : ¬t.val % 4 < t.val / 4 % 4 := by omega
  have hprev : Spec.stOf (Attn.outsAt1 V c (t.val - 1) (Nat.lt_of_le_of_lt (Nat.sub_le _ _) t.isLt)).2.1 (Attn.outsAt1 V c (t.val - 1) (Nat.lt_of_le_of_lt (Nat.sub_le _ _) t.isLt)).2.2.1 (Attn.outsAt1 V c (t.val - 1) (Nat.lt_of_le_of_lt (Nat.sub_le _ _) t.isLt)).2.2.2 r h
      = Spec.tiles Spec.cK (ymat V c) b qi r h (min ((t.val - 1) % 4) qi.val + 1) :=
    inv V c (t.val - 1) ⟨t.val - 1, Nat.lt_of_le_of_lt (Nat.sub_le _ _) t.isLt⟩ rfl b qi
      (by show b.val = (t.val - 1) / 16; omega) (by show qi.val = (t.val - 1) / 4 % 4; omega) r h
  by_cases h2 : t.val % 4 = t.val / 4 % 4
  · rw [Attn.outsAt1_E V c t h0 h1 h2 h3]
    dsimp only [Attn.caseE]
    refine (Attn.out_E c _ _ _ _ _ _ _ _ _ _ _ _ _ _ _ _ _ _ _ _ _ _ _ _ _ r h d).trans ?_
    have key := tile_adv V c t b qi (⟨t.val % 4, Nat.mod_lt _ (by norm_num)⟩ : Fin 4) hb hq rfl (by show t.val % 4 ≤ qi.val; omega) true ((decide_eq_true (Fin.ext (h2.trans hq.symm))).symm) r h _
      (hprev.trans (congrArg (Spec.tiles Spec.cK (ymat V c) b qi r h) (by show min ((t.val - 1) % 4) qi.val + 1 = t.val % 4; omega)))
    rw [key, show (⟨t.val % 4, Nat.mod_lt _ (by norm_num)⟩ : Fin 4).val + 1 = qi.val + 1 from by show t.val % 4 + 1 = qi.val + 1; omega]
  · rw [Attn.outsAt1_G V c t h0 h1 h2 h3]
    dsimp only [Attn.caseG]
    refine (Attn.out_G c _ _ _ _ _ _ _ _ _ _ _ _ _ _ _ _ _ _ _ _ _ _ _ _ _ r h d).trans ?_
    rw [← hprev.trans (congrArg (Spec.tiles Spec.cK (ymat V c) b qi r h) (show min ((t.val - 1) % 4) qi.val + 1 = qi.val + 1 by omega))]
    rfl

end Invariant

section WriteBack

variable (V : (c : Dev nD) → (b : Ref sig .tc) → Buf (Elt Ideal) ((c : Thread nD τ).loc b))

abbrev attnOut (c : Dev nD) : S8192x1024.Idx → EReal :=
  fun i => Spec.heads Spec.attnT Spec.cK (ymat V c) ⟨(i 0).val, (i 0).isLt⟩ ⟨(i 1).val, (i 1).isLt⟩

theorem mem_blk3 (t : Fin cfg1.N) (i : S8192x1024.Idx) :
    i ∈ ((cfg1.win 3).blk t).view.set ↔ ∀ a : Fin 2, win1_3.index t a * S512x1024.size a ≤ (i a).val
      ∧ (i a).val < win1_3.index t a * S512x1024.size a + S512x1024.size a := by
  show i ∈ ((View.whole main_v5).slice (win1_3.rect t)).set ↔ _
  rw [View.set_slice_whole, Rect.mem_set_unit]
  exact Iff.rfl

theorem flushed_eq (q1 : Fin 4 → PosShare TreeShare) (c : Dev nD) (t : Fin cfg1.N) (hf : (cfg1.win 3).flush t = true) :
    (Attn.dat1 (F := Ideal) V q1 c).flushed 3 t = ((cfg1.win 3).blk t).view.read (Elt Ideal) (attnOut V c) := by
  have h3 : t.val % 4 = 3 := (flush1_3 t).mp hf
  have hN : t.val < 64 := lt_of_lt_of_eq t.isLt (show cfg1.N = 64 from N_1)
  obtain ⟨-, -, -, -, -, -, e0, e1⟩ := idx_facts t
  show (cfg1.win 3).cut (grid1.coords t) ((Attn.dat1 (F := Ideal) V q1 c).after 3 t) = _
  rw [Attn.after1_3]
  funext j
  have hj0 : (j 0).val < 512 := (j 0).isLt
  have hj1 : (j 1).val < 1024 := (j 1).isLt
  rw [View.read_apply]
  show ((Attn.outsAt1 (F := Ideal) V c t.val t.isLt).1 : S512x1024.Idx → EReal) (win1_3.xinj (grid1.coords t) j)
    = attnOut V c (((cfg1.win 3).blk t).view.emb j)
  obtain ⟨b, hb⟩ : ∃ b : Fin 4, b.val = t.val / 16 := ⟨⟨t.val / 16, by omega⟩, rfl⟩
  obtain ⟨qi, hq⟩ : ∃ qi : Fin 4, qi.val = t.val / 4 % 4 := ⟨⟨t.val / 4 % 4, by omega⟩, rfl⟩
  obtain ⟨r, hr⟩ : ∃ r : Fin 512, r.val = (j 0).val := ⟨⟨(j 0).val, hj0⟩, rfl⟩
  obtain ⟨h, hh⟩ : ∃ h : Fin 16, h.val = (j 1).val / 64 := ⟨⟨(j 1).val / 64, by omega⟩, rfl⟩
  obtain ⟨d, hd⟩ : ∃ d : Fin 64, d.val = (j 1).val % 64 := ⟨⟨(j 1).val % 64, by omega⟩, rfl⟩
  have ej : win1_3.xinj (grid1.coords t) j = ix2 r (Spec.bcol h d) := by
    funext a
    apply Fin.ext
    match a with
    | ⟨0, _⟩ => exact hr.symm
    | ⟨1, _⟩ => show (j 1).val = h.val * 64 + d.val; omega
  rw [ej, out_at V c t h3 b qi hb hq r h d, ← Spec.heads_attnT_eq_tiles]
  refine congrArg₂ (Spec.heads Spec.attnT Spec.cK (ymat V c)) (Fin.ext ?_) (Fin.ext ?_)
  · show b.val * 2048 + (512 * qi.val + r.val) = win1_3.index t 0 * 512 + 1 * (j 0).val
    rw [e0]; omega
  · show h.val * 64 + d.val = win1_3.index t 1 * 1024 + 1 * (j 1).val
    rw [e1]; omega

theorem cover (i : S8192x1024.Idx) :
    ∃ t : Fin cfg1.N, (cfg1.win 3).flush t = true ∧ i ∈ ((cfg1.win 3).blk t).view.set := by
  have hi0 : (i 0).val < 8192 := (i 0).isLt
  have hi1 : (i 1).val < 1024 := (i 1).isLt
  have hN : cfg1.N = 64 := N_1
  obtain ⟨t, ht⟩ : ∃ t : Fin cfg1.N, t.val = 16 * ((i 0).val / 2048) + 4 * ((i 0).val % 2048 / 512) + 3 :=
    ⟨⟨16 * ((i 0).val / 2048) + 4 * ((i 0).val % 2048 / 512) + 3, by rw [hN]; omega⟩, rfl⟩
  obtain ⟨-, -, -, -, -, -, e0, e1⟩ := idx_facts t
  refine ⟨t, (flush1_3 t).mpr (by rw [ht]; omega), ?_⟩
  rw [mem_blk3]
  intro a
  match a with
  | ⟨0, _⟩ =>
    show win1_3.index t 0 * 512 ≤ (i 0).val ∧ (i 0).val < win1_3.index t 0 * 512 + 512
    rw [e0, ht]; omega
  | ⟨1, _⟩ =>
    show win1_3.index t 1 * 1024 ≤ (i 1).val ∧ (i 1).val < win1_3.index t 1 * 1024 + 1024
    rw [e1]; omega

theorem final (q1 : Fin 4 → PosShare TreeShare) (c : Dev nD) :
    ((Attn.dat1 (F := Ideal) V q1 c).arrAt 3 cfg1.N : S8192x1024.Idx → EReal)
      = fun i => Spec.heads Spec.attnT Spec.cK (Spec.mat (V c main_v4)) ⟨(i 0).val, (i 0).isLt⟩ ⟨(i 1).val, (i 1).isLt⟩ :=
  (Attn.dat1 (F := Ideal) V q1 c).arrAt_eq_of_cover 3 (attnOut V c) (fun t hf => flushed_eq V q1 c t hf) cover

end WriteBack

end Cert.KernelIdeal.AttnVal

end
-- ==== Proof.KI.Compose.lean ====
import proofs.«414918_j3358664426109_3_alg».proof.Proof.Gen.KernelIdeal
import proofs.«414918_j3358664426109_3_alg».proof.Proof.Result
import proofs.«414918_j3358664426109_3_alg».proof.Proof.TileStep
import Idealize.ShloMosaic.Lib.Pipeline.Value
import Idealize.ShloMosaic.Lib.ValueIdx
import Idealize.ShloMosaic.Lib.ValueLayout

noncomputable section

namespace Cert.KernelIdeal.Compose

open Idealize.ShloMosaic Idealize.ShloMosaic.ValueIdx Cert.KernelIdeal Cert.KernelIdeal.Facts₀ Cert.KernelIdeal.Facts

theorem mat_reshape_x [Facts] (a0 : S4x2048x1024.Idx → EReal) :
    Cert.Spec.mat (shapeCast S8192x1024 a0 shapeCasts_S4x2048x1024_S8192x1024) = Cert.Spec.xMat a0 := by
  funext r k
  show shapeCast S8192x1024 a0 _ (ix2 r k)
    = a0 (ix3 (⟨r.val / 2048, _⟩ : Fin 4) (⟨r.val % 2048, _⟩ : Fin 2048) k)
  refine shapeCast_apply a0 _ _ _ ?_
  rw [Shape.rowMajor_val_three, Shape.rowMajor_val_two]
  show (r.val / 2048 * 2048 + r.val % 2048) * 1024 + k.val = r.val * 1024 + k.val
  rw [Nat.div_add_mod']

theorem vec_reshape {N : ℕ} (a : (⟨1, ![N]⟩ : Shape).Idx → EReal)
    (h : (⟨1, ![N]⟩ : Shape).ShapeCasts ⟨2, ![1, N]⟩) :
    (fun j => (shapeCast ⟨2, ![1, N]⟩ a h) (ix2 (0 : Fin 1) j)) = Cert.Spec.vec a :=
  funext fun j => shapeCast_a_1a_apply a h 0 j

theorem reshape_out [Facts] (y : S8192x1024.Idx → EReal) (i : S4x2048x1024.Idx) :
    shapeCast S4x2048x1024 y shapeCasts_S8192x1024_S4x2048x1024 i
      = y (ix2 (Cert.Spec.row ⟨(i 0).val, (i 0).isLt⟩ ⟨(i 1).val, (i 1).isLt⟩)
          (⟨(i 2).val, (i 2).isLt⟩ : Fin 1024)) := by
  refine shapeCast_apply y _ _ _ ?_
  rw [Shape.rowMajor_val_three, Shape.rowMajor_val_two]
  rfl

theorem result_eq [Facts] (a0 : FVec Ideal S4x2048x1024 .f32) (a1 : FVec Ideal S3072x1024 .f32)
    (a2 : FVec Ideal S3072 .f32) (a3 : FVec Ideal S1024x1024 .f32) (a4 : FVec Ideal S1024 .f32)
    (y4 : S8192x3072.Idx → EReal) (y5 y7 : S8192x1024.Idx → EReal)
    (h4 : y4 = fun i => Cert.Spec.linear
      (Cert.Spec.mat (shapeCast S8192x1024 a0 shapeCasts_S4x2048x1024_S8192x1024))
      (Cert.Spec.mat (truncf .bf16 a1 bitsLt_bf16_f32))
      (fun j => (shapeCast S1x3072 a2 shapeCasts_S3072_S1x3072) (ValueIdx.ix2 (0 : Fin 1) j))
      ⟨(i 0).val, (i 0).isLt⟩ ⟨(i 1).val, (i 1).isLt⟩)
    (h5 : y5 = fun i => Cert.Spec.heads Cert.Spec.attnT Cert.Spec.cK (Cert.Spec.mat y4)
      ⟨(i 0).val, (i 0).isLt⟩ ⟨(i 1).val, (i 1).isLt⟩)
    (h7 : y7 = fun i => Cert.Spec.linear (Cert.Spec.mat y5)
      (Cert.Spec.mat (truncf .bf16 a3 bitsLt_bf16_f32))
      (fun j => (shapeCast S1x1024 a4 shapeCasts_S1024_S1x1024) (ValueIdx.ix2 (0 : Fin 1) j))
      ⟨(i 0).val, (i 0).isLt⟩ ⟨(i 1).val, (i 1).isLt⟩) :
    shapeCast S4x2048x1024 y7 shapeCasts_S8192x1024_S4x2048x1024
      = Cert.Spec.result Cert.Spec.attnT Cert.Spec.cK a0 a1 a2 a3 a4 := by

  have e4 : Cert.Spec.mat y4
      = Cert.Spec.linear (Cert.Spec.xMat a0) (Cert.Spec.mat a1) (Cert.Spec.vec a2) := by
    rw [h4]
    funext r j
    change Cert.Spec.linear (Cert.Spec.mat (shapeCast S8192x1024 a0 shapeCasts_S4x2048x1024_S8192x1024))
      (Cert.Spec.mat (truncf .bf16 a1 bitsLt_bf16_f32))
      (fun j => (shapeCast S1x3072 a2 shapeCasts_S3072_S1x3072) (ix2 (0 : Fin 1) j)) r j = _
    rw [mat_reshape_x, vec_reshape]
    rfl

  have e5 : Cert.Spec.mat y5
      = Cert.Spec.heads Cert.Spec.attnT Cert.Spec.cK
          (Cert.Spec.linear (Cert.Spec.xMat a0) (Cert.Spec.mat a1) (Cert.Spec.vec a2)) := by
    rw [h5, e4]
    rfl
  funext i
  rw [reshape_out, h7]
  change Cert.Spec.linear (Cert.Spec.mat y5) (Cert.Spec.mat (truncf .bf16 a3 bitsLt_bf16_f32))
      (fun j => (shapeCast S1x1024 a4 shapeCasts_S1024_S1x1024) (ix2 (0 : Fin 1) j))
      (Cert.Spec.row ⟨(i 0).val, (i 0).isLt⟩ ⟨(i 1).val, (i 1).isLt⟩) ⟨(i 2).val, (i 2).isLt⟩ = _
  rw [e5, vec_reshape]
  rfl

end Cert.KernelIdeal.Compose

end
-- ==== Proof.KI.Value.lean ====
import proofs.«414918_j3358664426109_3_alg».proof.Proof.KI.Fold
import proofs.«414918_j3358664426109_3_alg».proof.Proof.KI.FoldArgs
import proofs.«414918_j3358664426109_3_alg».proof.Proof.KI.LinVal0
import proofs.«414918_j3358664426109_3_alg».proof.Proof.KI.LinVal2
import proofs.«414918_j3358664426109_3_alg».proof.Proof.KI.AttnVal
import proofs.«414918_j3358664426109_3_alg».proof.Proof.KI.Compose
import proofs.«414918_j3358664426109_3_alg».proof.Proof.Result
import Idealize.ShloMosaic.Lib.StableHlo.Run

noncomputable section

namespace Cert.KernelIdeal.Value

open Cert.KernelIdeal Cert.KernelIdeal.Gen
open Idealize.ShloMosaic Idealize.ShloMosaic.TcCoe
open Idealize.SL Idealize.SL.Sem

variable (m : (ℓ : Loc nD τ sig) → Buf (Elt Ideal) ℓ)

theorem V1_v0 (c : Dev nD) :
    (Fold.V1 m c main_v0 : S8192x1024.Idx → EReal)
      = shapeCast S8192x1024 (m ((c.tc : Thread nD τ).loc main_arg0)) shapeCasts_S4x2048x1024_S8192x1024 := by
  show StableHlo.after hostOps0 (Fold.W0 m c) (Proc.devRef .tc main_v0) = _
  after_results
  rfl

theorem V1_v1 (c : Dev nD) :
    (Fold.V1 m c main_v1 : S3072x1024.Idx → EReal)
      = truncf (F := Ideal) (φ := .f32) .bf16 (m ((c.tc : Thread nD τ).loc main_arg1)) bitsLt_bf16_f32 := by
  show StableHlo.after hostOps0 (Fold.W0 m c) (Proc.devRef .tc main_v1) = _
  after_results

theorem V1_v3 (c : Dev nD) :
    (Fold.V1 m c main_v3 : S1x3072.Idx → EReal)
      = shapeCast S1x3072 (m ((c.tc : Thread nD τ).loc main_arg2)) shapeCasts_S3072_S1x3072 := by
  show StableHlo.after hostOps0 (Fold.W0 m c) (Proc.devRef .tc main_v3) = _
  after_results
  rfl

theorem v4_eq (c : Dev nD) :
    (Fold.V2 m c main_v4 : S8192x3072.Idx → EReal)
      = fun i => Cert.Spec.linear
          (Cert.Spec.mat (shapeCast S8192x1024 (m ((c.tc : Thread nD τ).loc main_arg0)) shapeCasts_S4x2048x1024_S8192x1024))
          (Cert.Spec.mat (truncf (F := Ideal) (φ := .f32) .bf16 (m ((c.tc : Thread nD τ).loc main_arg1)) bitsLt_bf16_f32))
          (fun j => (shapeCast S1x3072 (m ((c.tc : Thread nD τ).loc main_arg2)) shapeCasts_S3072_S1x3072)
            (ValueIdx.ix2 (0 : Fin 1) j))
          ⟨(i 0).val, (i 0).isLt⟩ ⟨(i 1).val, (i 1).isLt⟩ :=
  (Fold.W2_arr m c 3).trans ((LinVal0.final (Fold.V1 m) c).trans (by rw [V1_v0, V1_v1, V1_v3]))

theorem v5_eq (c : Dev nD) :
    (Fold.V4 m c main_v5 : S8192x1024.Idx → EReal)
      = fun i => Cert.Spec.heads Cert.Spec.attnT Cert.Spec.cK
          (Cert.Spec.mat (Fold.V2 m c main_v4 : S8192x3072.Idx → EReal)) ⟨(i 0).val, (i 0).isLt⟩ ⟨(i 1).val, (i 1).isLt⟩ :=
  ((FoldArgs.W4_of m c main_v5 (by decide)).trans (Fold.W3_v5 m c)).trans (AttnVal.final (Fold.V2 m) Shares1.q1 c)

theorem V4_v2 (c : Dev nD) :
    (Fold.V4 m c main_v2 : S1024x1024.Idx → EReal)
      = truncf (F := Ideal) (φ := .f32) .bf16 (m ((c.tc : Thread nD τ).loc main_arg3)) bitsLt_bf16_f32 :=
  calc Fold.W4 m c (Proc.devRef .tc main_v2)
    _ = Fold.W3 m c (Proc.devRef .tc main_v2) := FoldArgs.W4_of m c main_v2 (by decide)
    _ = Fold.W2 m c (Proc.devRef .tc main_v2) := Fold.W3_of_ne m c main_v2 (by decide)
    _ = Fold.W1 m c (Proc.devRef .tc main_v2) := Fold.W2_of_ne m c main_v2 (by decide)
    _ = _ := by
      show StableHlo.after hostOps0 (Fold.W0 m c) (Proc.devRef .tc main_v2) = _
      after_results

theorem W3_arg4 (c : Dev nD) : Fold.W3 m c (Proc.devRef .tc main_arg4) = m ((c.tc : Thread nD τ).loc main_arg4) :=
  calc Fold.W3 m c (Proc.devRef .tc main_arg4)
    _ = Fold.W2 m c (Proc.devRef .tc main_arg4) := Fold.W3_of_ne m c main_arg4 (by decide)
    _ = Fold.W1 m c (Proc.devRef .tc main_arg4) := Fold.W2_of_ne m c main_arg4 (by decide)
    _ = Fold.W0 m c (Proc.devRef .tc main_arg4) :=
      FoldArgs.W1_of m c main_arg4 (by decide) (by decide) (by decide) (by decide)
    _ = _ := rfl

theorem V4_v6 (c : Dev nD) :
    (Fold.V4 m c main_v6 : S1x1024.Idx → EReal)
      = shapeCast S1x1024 (m ((c.tc : Thread nD τ).loc main_arg4)) shapeCasts_S1024_S1x1024 := by
  show StableHlo.after hostOps2 (Fold.W3 m c) (Proc.devRef .tc main_v6) = _
  after_results
  rw [W3_arg4]
  rfl

theorem v7_eq (c : Dev nD) :
    (Fold.V5 m c main_v7 : S8192x1024.Idx → EReal)
      = fun i => Cert.Spec.linear (Cert.Spec.mat (Fold.V4 m c main_v5 : S8192x1024.Idx → EReal))
          (Cert.Spec.mat (truncf (F := Ideal) (φ := .f32) .bf16 (m ((c.tc : Thread nD τ).loc main_arg3)) bitsLt_bf16_f32))
          (fun j => (shapeCast S1x1024 (m ((c.tc : Thread nD τ).loc main_arg4)) shapeCasts_S1024_S1x1024)
            (ValueIdx.ix2 (0 : Fin 1) j))
          ⟨(i 0).val, (i 0).isLt⟩ ⟨(i 1).val, (i 1).isLt⟩ :=
  (Fold.W5_arr m c 3).trans ((LinVal2.final (Fold.V4 m) c).trans (by rw [V4_v2, V4_v6]))

theorem v8_eq (c : Dev nD) :
    (Fold.W6 m c (Proc.devRef .tc main_v8) : S4x2048x1024.Idx → EReal)
      = shapeCast S4x2048x1024 (Fold.V5 m c main_v7 : S8192x1024.Idx → EReal) shapeCasts_S8192x1024_S4x2048x1024 := by
  show StableHlo.after hostOps3 (Fold.W5 m c) (Proc.devRef .tc main_v8) = _
  after_results
  rfl

theorem result (c : Dev nD) :
    Fold.W6 (F := Ideal) m c (Proc.devRef .tc main_v8)
      = Cert.Spec.result Cert.Spec.attnT Cert.Spec.cK (m ((c.tc : Thread nD τ).loc main_arg0))
          (m ((c.tc : Thread nD τ).loc main_arg1)) (m ((c.tc : Thread nD τ).loc main_arg2))
          (m ((c.tc : Thread nD τ).loc main_arg3)) (m ((c.tc : Thread nD τ).loc main_arg4)) :=
  (v8_eq m c).trans (Compose.result_eq _ _ _ _ _ _ _ _ (v4_eq m c) (v5_eq m c) (v7_eq m c))

end Cert.KernelIdeal.Value

end
-- ==== Proof.RefRead.lean ====
import proofs.«414918_j3358664426109_3_alg».proof.Proof.Gen.ReferenceIdeal.Run
import proofs.«414918_j3358664426109_3_alg».proof.Proof.Gen.ReferenceIdeal.Read
-- ==== Proof.Ref.lean ====
import proofs.«414918_j3358664426109_3_alg».proof.Proof.RefRead
import proofs.«414918_j3358664426109_3_alg».proof.Proof.Result
import Idealize.ShloMosaic.Lib.ValueIdx
import Idealize.ShloMosaic.Lib.Pipeline.Value
import Idealize.ShloMosaic.PureOps.Ideal.Laws
import Idealize.ShloMosaic.PureOps.Reduce
import Idealize.ShloMosaic.Lib.StableHlo.Run
import Idealize.ShloMosaic.Lib.StableHlo.Predicate

noncomputable section

namespace Cert.Ref

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx Cert.Spec

theorem ofBits_negInf : Ideal.ofBits .f32 0xFF800000#32 = (⊥ : EReal) := by
  simp [Ideal.ofBits, Ideal.ieee]

theorem ofBits_sixtyFour : Ideal.ofBits .f32 0x42800000#32 = ((64 : ℝ) : EReal) := by
  simp [Ideal.ofBits, Ideal.ieee, -EReal.coe_mul]; norm_num

theorem ofBits_one : Ideal.ofBits .f32 0x3F800000#32 = ((1 : ℝ) : EReal) := by
  simp [Ideal.ofBits, Ideal.ieee, -EReal.coe_mul]; norm_num

theorem sqrt_sixtyFour : Real.sqrt 64 = 8 := by
  rw [show (64 : ℝ) = 8 ^ 2 by norm_num]; exact Real.sqrt_sq (by norm_num)

theorem scale_eq : val_main_v14 (F := Ideal) ix0 = (((1/8 : ℝ)) : EReal) := by
  rw [val_main_v14_apply, val_main_cst_0_apply, val_main_v13_apply, val_main_cst_apply]
  simp only [Ideal.hostDivf_def, Ideal.hostUnary_sqrt_def, Ideal.ofBits_def, ofBits_sixtyFour, ofBits_one]
  rw [Ideal.sqrt_coe, if_neg (by norm_num), sqrt_sixtyFour, Ideal.div_coe (by norm_num)]
  rw [← EReal.coe_mul]; norm_num

theorem row_div (b : Fin 4) (t : Fin 2048) (h : (row b t).val / 2048 < 4) : (⟨(row b t).val / 2048, h⟩ : Fin 4) = b :=
  Fin.ext (by show (b.val * 2048 + t.val) / 2048 = b.val; omega)

theorem row_mod (b : Fin 4) (t : Fin 2048) (h : (row b t).val % 2048 < 2048) :
    (⟨(row b t).val % 2048, h⟩ : Fin 2048) = t :=
  Fin.ext (by show (b.val * 2048 + t.val) % 2048 = t.val; omega)

theorem xMat_row (a0 : FVec Ideal S4x2048x1024 .f32) (b : Fin 4) (t : Fin 2048) (k : Fin 1024) :
    xMat a0 (row b t) k = a0 (ix3 b t k) := by
  unfold xMat; rw [row_div, row_mod]

theorem v3_at (a0 : FVec Ideal S4x2048x1024 .f32) (a1 : FVec Ideal S3072x1024 .f32) (a2 : FVec Ideal S3072 .f32)
    (b : Fin 4) (t : Fin 2048) (j : Fin 3072) :
    val_main_v3 (F := Ideal) a0 a1 a2 (ix3 b t j) = linear (xMat a0) (mat a1) (vec a2) (row b t) j := by
  have e0 : ∀ k : Fin 1024, lidx_main_v0 (ix3 b t j) k = ix3 b t k := fun k => funext fun a => Fin.ext (by
    match a with | ⟨0, _⟩ => rfl | ⟨1, _⟩ => rfl | ⟨2, _⟩ => rfl)
  have e1 : ∀ k : Fin 1024, ridx_main_v0 (ix3 b t j) k = ix2 j k := fun k => funext fun a => Fin.ext (by
    match a with | ⟨0, _⟩ => rfl | ⟨1, _⟩ => rfl)
  have e2 : idx_main_v1 (idx_main_v2 (ix3 b t j)) = ix1 j := funext fun a => Fin.ext (by
    match a with | ⟨0, _⟩ => rfl)
  rw [val_main_v3_apply, val_main_v0_apply, val_main_v2_apply, val_main_v1_apply, e2]
  simp only [e0, e1, Ideal.addf_def]
  unfold linear mat vec
  simp only [xMat_row]

abbrev proj (a0 : FVec Ideal S4x2048x1024 .f32) (a1 : FVec Ideal S3072x1024 .f32) (a2 : FVec Ideal S3072 .f32) :
    Fin 8192 → Fin 3072 → EReal := linear (xMat a0) (mat a1) (vec a2)

theorem v8_at (a0 : FVec Ideal S4x2048x1024 .f32) (a1 : FVec Ideal S3072x1024 .f32) (a2 : FVec Ideal S3072 .f32)
    (b : Fin 4) (h : Fin 16) (t : Fin 2048) (d : Fin 64) :
    val_main_v8 (F := Ideal) a0 a1 a2 (ix4 b h t d) = proj a0 a1 a2 (row b t) (col 0 h d) := by
  have e : idx_main_v4 (idx_main_v7 (idx_main_v8 (ix4 b h t d))) = ix3 b t (col 0 h d) := funext fun a => Fin.ext (by
    have hb := b.isLt; have hh := h.isLt; have ht := t.isLt; have hd := d.isLt
    match a with
    | ⟨0, _⟩ => show (((b.val * 2048 + t.val) * 16 + h.val) * 64 + d.val) / 2097152 = b.val; omega
    | ⟨1, _⟩ => show (((b.val * 2048 + t.val) * 16 + h.val) * 64 + d.val) / 1024 % 2048 = t.val; omega
    | ⟨2, _⟩ => show (((b.val * 2048 + t.val) * 16 + h.val) * 64 + d.val) % 1024 = 0 * 1024 + h.val * 64 + d.val; omega)
  rw [val_main_v8_apply, val_main_v7_apply, val_main_v4_apply, e, v3_at]

theorem v10_at (a0 : FVec Ideal S4x2048x1024 .f32) (a1 : FVec Ideal S3072x1024 .f32) (a2 : FVec Ideal S3072 .f32)
    (b : Fin 4) (h : Fin 16) (t : Fin 2048) (d : Fin 64) :
    val_main_v10 (F := Ideal) a0 a1 a2 (ix4 b h t d) = proj a0 a1 a2 (row b t) (col 1 h d) := by
  have e : idx_main_v5 (idx_main_v9 (idx_main_v10 (ix4 b h t d))) = ix3 b t (col 1 h d) := funext fun a => Fin.ext (by
    have hb := b.isLt; have hh := h.isLt; have ht := t.isLt; have hd := d.isLt
    match a with
    | ⟨0, _⟩ => show (((b.val * 2048 + t.val) * 16 + h.val) * 64 + d.val) / 2097152 = b.val; omega
    | ⟨1, _⟩ => show (((b.val * 2048 + t.val) * 16 + h.val) * 64 + d.val) / 1024 % 2048 = t.val; omega
    | ⟨2, _⟩ =>
      show 1024 + (((b.val * 2048 + t.val) * 16 + h.val) * 64 + d.val) % 1024 = 1 * 1024 + h.val * 64 + d.val; omega)
  rw [val_main_v10_apply, val_main_v9_apply, val_main_v5_apply, e, v3_at]

theorem v12_at (a0 : FVec Ideal S4x2048x1024 .f32) (a1 : FVec Ideal S3072x1024 .f32) (a2 : FVec Ideal S3072 .f32)
    (b : Fin 4) (h : Fin 16) (t : Fin 2048) (d : Fin 64) :
    val_main_v12 (F := Ideal) a0 a1 a2 (ix4 b h t d) = proj a0 a1 a2 (row b t) (col 2 h d) := by
  have e : idx_main_v6 (idx_main_v11 (idx_main_v12 (ix4 b h t d))) = ix3 b t (col 2 h d) := funext fun a => Fin.ext (by
    have hb := b.isLt; have hh := h.isLt; have ht := t.isLt; have hd := d.isLt
    match a with
    | ⟨0, _⟩ => show (((b.val * 2048 + t.val) * 16 + h.val) * 64 + d.val) / 2097152 = b.val; omega
    | ⟨1, _⟩ => show (((b.val * 2048 + t.val) * 16 + h.val) * 64 + d.val) / 1024 % 2048 = t.val; omega
    | ⟨2, _⟩ =>
      show 2048 + (((b.val * 2048 + t.val) * 16 + h.val) * 64 + d.val) % 1024 = 2 * 1024 + h.val * 64 + d.val; omega)
  rw [val_main_v12_apply, val_main_v11_apply, val_main_v6_apply, e, v3_at]

theorem v17_at (a0 : FVec Ideal S4x2048x1024 .f32) (a1 : FVec Ideal S3072x1024 .f32) (a2 : FVec Ideal S3072 .f32)
    (b : Fin 4) (h : Fin 16) (q k : Fin 2048) :
    val_main_v17 (F := Ideal) a0 a1 a2 (ix4 b h q k) = score (((1/8 : ℝ)) : EReal) (proj a0 a1 a2) b h q k := by
  have el : ∀ d : Fin 64, lidx_main_v15 (ix4 b h q k) d = ix4 b h q d := fun d => funext fun a => Fin.ext (by
    match a with | ⟨0, _⟩ => rfl | ⟨1, _⟩ => rfl | ⟨2, _⟩ => rfl | ⟨3, _⟩ => rfl)
  have er : ∀ d : Fin 64, ridx_main_v15 (ix4 b h q k) d = ix4 b h k d := fun d => funext fun a => Fin.ext (by
    match a with | ⟨0, _⟩ => rfl | ⟨1, _⟩ => rfl | ⟨2, _⟩ => rfl | ⟨3, _⟩ => rfl)
  have es : idx_main_v16 (ix4 b h q k) = ix0 := rfl
  rw [val_main_v17_apply, val_main_v15_apply, val_main_v16_apply, es, scale_eq]
  simp only [el, er, v8_at, v10_at, Ideal.mulf_def]
  rfl

theorem mask_at (b : Fin 4) (h : Fin 16) (q k : Fin 2048) :
    val_main_call1_v1 (F := Ideal) (ix4 b h q k) = if k ≤ q then 1#1 else 0#1 := by
  have e : idx_main_v20 (idx_main_call1_v1 (ix4 b h q k)) = ix2 q k := funext fun a => Fin.ext (by
    match a with | ⟨0, _⟩ => rfl | ⟨1, _⟩ => rfl)
  rw [val_main_call1_v1_apply, val_main_v20_apply, e, val_main_v19_apply, val_main_call0_v4_apply,
    val_main_call0_v2_apply, val_main_call0_v0_apply, val_main_call0_v1_apply, val_main_call0_c_apply,
    val_main_call0_v3_apply, val_main_v18_apply, val_main_c_apply, val_main_call0_v5_apply, val_main_call0_c_0_apply]
  have hq := q.isLt; have hk := k.isLt
  have hc : IntOp.cmpi .sge (IntOp.addi (BitVec.ofNat 32 q.val) 0#32) (BitVec.ofNat 32 k.val) = 1#1 ↔ k ≤ q := by
    have h0 : IntOp.addi (BitVec.ofNat 32 q.val) 0#32 = BitVec.ofNat 32 q.val := by
      unfold IntOp.addi; exact BitVec.add_zero _
    rw [h0, Predicate.sge_iff_toNat (by rw [BitVec.toNat_ofNat]; omega) (by rw [BitVec.toNat_ofNat]; omega),
      BitVec.toNat_ofNat, BitVec.toNat_ofNat, Nat.mod_eq_of_lt (by omega), Nat.mod_eq_of_lt (by omega)]
    exact Fin.le_def.symm
  show Scalar.select (IntOp.cmpi .sge (IntOp.addi (BitVec.ofNat 32 q.val) 0#32) (BitVec.ofNat 32 k.val)) 1#1 0#1 = _
  by_cases hkq : k ≤ q
  · rw [hc.mpr hkq, if_pos hkq, select_one]
  · rw [eq_zero_of_ne_one (fun hh => hkq (hc.mp hh)), if_neg hkq, select_zero]

theorem v21_at (a0 : FVec Ideal S4x2048x1024 .f32) (a1 : FVec Ideal S3072x1024 .f32) (a2 : FVec Ideal S3072 .f32)
    (b : Fin 4) (h : Fin 16) (q k : Fin 2048) :
    val_main_v21 (F := Ideal) a0 a1 a2 (ix4 b h q k)
      = masked (score (((1/8 : ℝ)) : EReal) (proj a0 a1 a2) b h q) q k := by
  rw [val_main_v21_apply, mask_at, v17_at, val_main_call1_v2_apply, val_main_call1_v0_apply, val_main_cst_1_apply,
    Ideal.ofBits_def, ofBits_negInf]
  unfold masked
  by_cases hkq : k ≤ q
  · rw [if_pos hkq, if_pos hkq, select_one]
  · rw [if_neg hkq, if_neg hkq, select_zero]

theorem fold_max_bot (f : Fin 2048 → EReal) :
    (Finset.univ : Finset (Fin 2048)).fold max (⊥ : EReal) f = Finset.univ.sup f := rfl

theorem v22_at (a0 : FVec Ideal S4x2048x1024 .f32) (a1 : FVec Ideal S3072x1024 .f32) (a2 : FVec Ideal S3072 .f32)
    (b : Fin 4) (h : Fin 16) (q : Fin 2048) :
    val_main_v22 (F := Ideal) a0 a1 a2 (ix3 b h q)
      = Finset.univ.sup (masked (score (((1/8 : ℝ)) : EReal) (proj a0 a1 a2) b h q) q) := by
  have hr : S4x16x2048x2048.Reduces [3] S4x16x2048 := by decide
  have el : ∀ k : Fin 2048, hr.lift (ix3 b h q) k = ix4 b h q k := fun k => funext fun a => Fin.ext (by
    match a with | ⟨0, _⟩ => rfl | ⟨1, _⟩ => rfl | ⟨2, _⟩ => rfl | ⟨3, _⟩ => rfl)
  unfold val_main_v22
  rw [Host.reduce_eq_fold_single FloatOps.maximumf _ _ reducesTo_S4x16x2048x2048_S4x16x2048_d3 hr h_S_,
    val_main_cst_2_apply, Ideal.ofBits_def, ofBits_negInf]
  have hf : (val_main_v21 (F := Ideal) a0 a1 a2 ∘ hr.lift (ix3 b h q))
      = masked (score (((1/8 : ℝ)) : EReal) (proj a0 a1 a2) b h q) q :=
    funext fun (k : Fin 2048) =>
      (congrArg (val_main_v21 (F := Ideal) a0 a1 a2) (el k)).trans (v21_at a0 a1 a2 b h q k)
  rw [hf]
  exact fold_max_bot _

abbrev mrow (a0 : FVec Ideal S4x2048x1024 .f32) (a1 : FVec Ideal S3072x1024 .f32) (a2 : FVec Ideal S3072 .f32)
    (b : Fin 4) (h : Fin 16) (q : Fin 2048) : Fin 2048 → EReal :=
  masked (score (((1/8 : ℝ)) : EReal) (proj a0 a1 a2) b h q) q

theorem v24_at (a0 : FVec Ideal S4x2048x1024 .f32) (a1 : FVec Ideal S3072x1024 .f32) (a2 : FVec Ideal S3072 .f32)
    (b : Fin 4) (h : Fin 16) (q : Fin 2048) :
    val_main_v24 (F := Ideal) a0 a1 a2 (ix3 b h q) = max ⊥ (Finset.univ.sup (mrow a0 a1 a2 b h q)) := by
  rw [val_main_v24_apply, val_main_v23_apply, val_main_cst_3_apply, v22_at, Ideal.ofBits_def, ofBits_negInf,
    Ideal.maximumf_def]

theorem v28_at (a0 : FVec Ideal S4x2048x1024 .f32) (a1 : FVec Ideal S3072x1024 .f32) (a2 : FVec Ideal S3072 .f32)
    (b : Fin 4) (h : Fin 16) (q k : Fin 2048) :
    val_main_v28 (F := Ideal) a0 a1 a2 (ix4 b h q k)
      = Ideal.exp (mrow a0 a1 a2 b h q k - max ⊥ (Finset.univ.sup (mrow a0 a1 a2 b h q))) := by
  have e : idx_main_v25 (idx_main_v26 (ix4 b h q k)) = ix3 b h q := funext fun a => Fin.ext (by
    match a with | ⟨0, _⟩ => rfl | ⟨1, _⟩ => rfl | ⟨2, _⟩ => rfl)
  rw [val_main_v28_apply, val_main_v27_apply, val_main_v26_apply, val_main_v25_apply, e, v24_at, v21_at,
    Ideal.hostUnary_exp_def, Ideal.subf_def]

theorem v29_at (a0 : FVec Ideal S4x2048x1024 .f32) (a1 : FVec Ideal S3072x1024 .f32) (a2 : FVec Ideal S3072 .f32)
    (b : Fin 4) (h : Fin 16) (q : Fin 2048) :
    val_main_v29 (F := Ideal) a0 a1 a2 (ix3 b h q)
      = 0 + ∑ k' : Fin 2048, Ideal.exp (mrow a0 a1 a2 b h q k' - max ⊥ (Finset.univ.sup (mrow a0 a1 a2 b h q))) := by
  have e : ∀ k : Fin 2048, idx_main_v29 (ix3 b h q) k = ix4 b h q k := fun k => funext fun a => Fin.ext (by
    match a with | ⟨0, _⟩ => rfl | ⟨1, _⟩ => rfl | ⟨2, _⟩ => rfl | ⟨3, _⟩ => rfl)
  rw [val_main_v29_apply, val_main_cst_4_apply, Ideal.ofBits_def, Ideal.ofBits_zero_f32]
  simp only [e, v28_at]

theorem v32_at (a0 : FVec Ideal S4x2048x1024 .f32) (a1 : FVec Ideal S3072x1024 .f32) (a2 : FVec Ideal S3072 .f32)
    (b : Fin 4) (h : Fin 16) (q k : Fin 2048) :
    val_main_v32 (F := Ideal) a0 a1 a2 (ix4 b h q k)
      = Ideal.div (Ideal.exp (mrow a0 a1 a2 b h q k - max ⊥ (Finset.univ.sup (mrow a0 a1 a2 b h q))))
          (0 + ∑ k' : Fin 2048, Ideal.exp (mrow a0 a1 a2 b h q k' - max ⊥ (Finset.univ.sup (mrow a0 a1 a2 b h q)))) := by
  have e : idx_main_v30 (idx_main_v31 (ix4 b h q k)) = ix3 b h q := funext fun a => Fin.ext (by
    match a with | ⟨0, _⟩ => rfl | ⟨1, _⟩ => rfl | ⟨2, _⟩ => rfl)
  rw [val_main_v32_apply, val_main_v31_apply, val_main_v30_apply, e, v28_at, v29_at, Ideal.hostDivf_def]

theorem v33_at (a0 : FVec Ideal S4x2048x1024 .f32) (a1 : FVec Ideal S3072x1024 .f32) (a2 : FVec Ideal S3072 .f32)
    (b : Fin 4) (h : Fin 16) (q : Fin 2048) (d : Fin 64) :
    val_main_v33 (F := Ideal) a0 a1 a2 (ix4 b h q d)
      = attnR (score (((1/8 : ℝ)) : EReal) (proj a0 a1 a2) b h q) (value (proj a0 a1 a2) b h) q d := by
  have el : ∀ k : Fin 2048, lidx_main_v33 (ix4 b h q d) k = ix4 b h q k := fun k => funext fun a => Fin.ext (by
    match a with | ⟨0, _⟩ => rfl | ⟨1, _⟩ => rfl | ⟨2, _⟩ => rfl | ⟨3, _⟩ => rfl)
  have er : ∀ k : Fin 2048, ridx_main_v33 (ix4 b h q d) k = ix4 b h k d := fun k => funext fun a => Fin.ext (by
    match a with | ⟨0, _⟩ => rfl | ⟨1, _⟩ => rfl | ⟨2, _⟩ => rfl | ⟨3, _⟩ => rfl)
  rw [val_main_v33_apply]
  simp only [el, er, v32_at, v12_at]
  rfl

theorem v35_at (a0 : FVec Ideal S4x2048x1024 .f32) (a1 : FVec Ideal S3072x1024 .f32) (a2 : FVec Ideal S3072 .f32)
    (b : Fin 4) (t : Fin 2048) (j : Fin 1024) :
    val_main_v35 (F := Ideal) a0 a1 a2 (ix3 b t j) = heads attnR (((1/8 : ℝ)) : EReal) (proj a0 a1 a2) (row b t) j := by
  have hj := j.isLt
  have e : idx_main_v34 (idx_main_v35 (ix3 b t j))
      = ix4 b (⟨j.val / 64, by omega⟩ : Fin 16) t (⟨j.val % 64, Nat.mod_lt _ (by norm_num)⟩ : Fin 64) :=
    funext fun a => Fin.ext (by
      have hb := b.isLt; have ht := t.isLt
      match a with
      | ⟨0, _⟩ => show ((b.val * 2048 + t.val) * 1024 + j.val) / 2097152 = b.val; omega
      | ⟨1, _⟩ => show ((b.val * 2048 + t.val) * 1024 + j.val) / 64 % 16 = j.val / 64; omega
      | ⟨2, _⟩ => show ((b.val * 2048 + t.val) * 1024 + j.val) / 1024 % 2048 = t.val; omega
      | ⟨3, _⟩ => show ((b.val * 2048 + t.val) * 1024 + j.val) % 64 = j.val % 64; omega)
  rw [val_main_v35_apply, val_main_v34_apply, e, v33_at]
  unfold heads
  rw [row_div, row_mod]

theorem v39_at (a0 : FVec Ideal S4x2048x1024 .f32) (a1 : FVec Ideal S3072x1024 .f32) (a2 : FVec Ideal S3072 .f32)
    (a3 : FVec Ideal S1024x1024 .f32) (a4 : FVec Ideal S1024 .f32) (b : Fin 4) (t : Fin 2048) (j : Fin 1024) :
    val_main_v39 (F := Ideal) a0 a1 a2 a3 a4 (ix3 b t j)
      = layer attnR (((1/8 : ℝ)) : EReal) (xMat a0) (mat a1) (vec a2) (mat a3) (vec a4) (row b t) j := by
  have el : ∀ k : Fin 1024, lidx_main_v36 (ix3 b t j) k = ix3 b t k := fun k => funext fun a => Fin.ext (by
    match a with | ⟨0, _⟩ => rfl | ⟨1, _⟩ => rfl | ⟨2, _⟩ => rfl)
  have er : ∀ k : Fin 1024, ridx_main_v36 (ix3 b t j) k = ix2 j k := fun k => funext fun a => Fin.ext (by
    match a with | ⟨0, _⟩ => rfl | ⟨1, _⟩ => rfl)
  have eb : idx_main_v37 (idx_main_v38 (ix3 b t j)) = ix1 j := funext fun a => Fin.ext (by
    match a with | ⟨0, _⟩ => rfl)
  rw [val_main_v39_apply, val_main_v36_apply, val_main_v38_apply, val_main_v37_apply, eb]
  simp only [el, er, v35_at, Ideal.addf_def]
  rfl

theorem res_eq (a0 : FVec Ideal S4x2048x1024 .f32) (a1 : FVec Ideal S3072x1024 .f32) (a2 : FVec Ideal S3072 .f32)
    (a3 : FVec Ideal S1024x1024 .f32) (a4 : FVec Ideal S1024 .f32) :
    val_main_v39 (F := Ideal) a0 a1 a2 a3 a4 = Cert.Spec.result Cert.Spec.attnR (((1/8 : ℝ)) : EReal) a0 a1 a2 a3 a4 := by
  funext i
  obtain ⟨b, t, j, rfl⟩ : ∃ (b : Fin 4) (t : Fin 2048) (j : Fin 1024), i = ix3 b t j := ⟨i 0, i 1, i 2, eq_ix3 i⟩
  rw [v39_at]
  rfl

theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v39)
          = Cert.Spec.result Cert.Spec.attnR (((1/8 : ℝ)) : EReal) (m ((c.tc : Thread nD τ).loc main_arg0))
              (m ((c.tc : Thread nD τ).loc main_arg1)) (m ((c.tc : Thread nD τ).loc main_arg2))
              (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run _ _ _).mono (fun _ h c => ⟨((h c).1.trans (val_main_v39_eq m c)).trans (res_eq _ _ _ _ _), (h c).2⟩)
    (Cert.ReferenceIdeal.Value.run m ρ)

end Cert.Ref

end
-- ==== Proof.Algebra.lean ====
import proofs.«414918_j3358664426109_3_alg».proof.Proof.Spec
import Mathlib.Data.EReal.Basic
import Mathlib.Data.EReal.Operations
import Mathlib.Data.EReal.Inv

noncomputable section

namespace Cert.Alg

open Idealize.ShloMosaic Cert.Spec

theorem real_add {x y : EReal} (hx : ∃ a : ℝ, x = (a : EReal)) (hy : ∃ a : ℝ, y = (a : EReal)) :
    ∃ a : ℝ, x + y = (a : EReal) := by
  obtain ⟨a, rfl⟩ := hx
  obtain ⟨b, rfl⟩ := hy
  exact ⟨a + b, (EReal.coe_add a b).symm⟩

theorem real_mul {x y : EReal} (hx : ∃ a : ℝ, x = (a : EReal)) (hy : ∃ a : ℝ, y = (a : EReal)) :
    ∃ a : ℝ, x * y = (a : EReal) := by
  obtain ⟨a, rfl⟩ := hx
  obtain ⟨b, rfl⟩ := hy
  exact ⟨a * b, (EReal.coe_mul a b).symm⟩

theorem real_sum {ι : Type} (W : Finset ι) (f : ι → EReal) (hf : ∀ k ∈ W, ∃ a : ℝ, f k = (a : EReal)) :
    ∃ a : ℝ, ∑ k ∈ W, f k = (a : EReal) := by
  classical
  induction W using Finset.induction_on with
  | empty => exact ⟨0, by simp⟩
  | insert k W hk ih =>
    rw [Finset.sum_insert hk]
    exact real_add (hf k (Finset.mem_insert_self k W)) (ih fun j hj => hf j (Finset.mem_insert_of_mem hj))

theorem coe_sum {ι : Type} (W : Finset ι) (f : ι → ℝ) :
    ∑ k ∈ W, (f k : EReal) = ((∑ k ∈ W, f k : ℝ) : EReal) := by
  classical
  induction W using Finset.induction_on with
  | empty => simp
  | insert k W hk ih => rw [Finset.sum_insert hk, Finset.sum_insert hk, ih, EReal.coe_add]

theorem linear_real {M N K : ℕ} (x : Fin M → Fin K → EReal) (w : Fin N → Fin K → EReal) (b : Fin N → EReal)
    (hx : ∀ r k, ∃ a : ℝ, x r k = (a : EReal)) (hw : ∀ j k, ∃ a : ℝ, w j k = (a : EReal))
    (hb : ∀ j, ∃ a : ℝ, b j = (a : EReal)) : ∀ r j, ∃ a : ℝ, Cert.Spec.linear x w b r j = (a : EReal) := by
  intro r j
  unfold Cert.Spec.linear
  exact real_add (real_sum _ _ fun k _ => real_mul (hx r k) (hw j k)) (hb j)

theorem exp_sub_coe (a b : ℝ) : Ideal.exp ((a : EReal) - (b : EReal)) = ((Real.exp (a - b) : ℝ) : EReal) := by
  rw [← EReal.coe_sub, Ideal.exp_coe]

theorem exp_bot_sub (x : EReal) : Ideal.exp (⊥ - x) = 0 := by
  rw [EReal.bot_sub, Ideal.exp_bot]

def mx (sr : Fin 2048 → ℝ) (W : Finset (Fin 2048)) : EReal := W.sup fun k => (sr k : EReal)

theorem mx_real (sr : Fin 2048 → ℝ) {W : Finset (Fin 2048)} (hW : W.Nonempty) :
    ∃ M : ℝ, mx sr W = (M : EReal) := by
  obtain ⟨i, _, hi⟩ := Finset.exists_mem_eq_sup W hW fun k => (sr k : EReal)
  exact ⟨sr i, hi⟩

theorem sup_masked (sr : Fin 2048 → ℝ) (q : Fin 2048) (T : Finset (Fin 2048)) :
    T.sup (masked (fun k => (sr k : EReal)) q) = mx sr (T.filter fun k => k ≤ q) := by
  show T.sup (fun k => if k ≤ q then ((sr k : ℝ) : EReal) else ⊥) = _
  rw [Finset.sup_ite, Finset.sup_bot, sup_bot_eq]
  rfl

theorem sum_masked (sr : Fin 2048 → ℝ) (q : Fin 2048) (T : Finset (Fin 2048)) (M : ℝ) (g : Fin 2048 → ℝ) :
    ∑ k ∈ T, Ideal.exp (masked (fun k => (sr k : EReal)) q k - (M : EReal)) * (g k : EReal)
      = ((∑ k ∈ T.filter fun k => k ≤ q, Real.exp (sr k - M) * g k : ℝ) : EReal) := by
  rw [← coe_sum, Finset.sum_filter]
  refine Finset.sum_congr rfl fun k _ => ?_
  unfold masked
  by_cases h : k ≤ q
  · rw [if_pos h, if_pos h, exp_sub_coe, ← EReal.coe_mul]
  · rw [if_neg h, if_neg h, exp_bot_sub, zero_mul]

theorem sum_masked_one (sr : Fin 2048 → ℝ) (q : Fin 2048) (T : Finset (Fin 2048)) (M : ℝ) :
    ∑ k ∈ T, Ideal.exp (masked (fun k => (sr k : EReal)) q k - (M : EReal))
      = ((∑ k ∈ T.filter fun k => k ≤ q, Real.exp (sr k - M) : ℝ) : EReal) := by
  simpa using sum_masked sr q T M fun _ => 1

theorem rescale (sr : Fin 2048 → ℝ) (W : Finset (Fin 2048)) (g : Fin 2048 → ℝ) (N : ℝ) :
    Ideal.exp (mx sr W - (N : EReal)) * ((∑ k ∈ W, Real.exp (sr k - (mx sr W).toReal) * g k : ℝ) : EReal)
      = ((∑ k ∈ W, Real.exp (sr k - N) * g k : ℝ) : EReal) := by
  rcases W.eq_empty_or_nonempty with rfl | hW
  · simp [mx]
  · obtain ⟨M, hM⟩ := mx_real sr hW
    rw [hM, EReal.toReal_coe, exp_sub_coe, ← EReal.coe_mul, Finset.mul_sum]
    congr 1
    refine Finset.sum_congr rfl fun k _ => ?_
    rw [← mul_assoc, ← Real.exp_add]
    congr 2
    ring

theorem rescale_one (sr : Fin 2048 → ℝ) (W : Finset (Fin 2048)) (N : ℝ) :
    Ideal.exp (mx sr W - (N : EReal)) * ((∑ k ∈ W, Real.exp (sr k - (mx sr W).toReal) : ℝ) : EReal)
      = ((∑ k ∈ W, Real.exp (sr k - N) : ℝ) : EReal) := by
  simpa using rescale sr W (fun _ => 1) N

structure Good (sr : Fin 2048 → ℝ) (vr : Fin 2048 → Fin 64 → ℝ) (W : Finset (Fin 2048)) (st : St) : Prop where
  m : st.m = mx sr W
  l : st.l = ((∑ k ∈ W, Real.exp (sr k - (mx sr W).toReal) : ℝ) : EReal)
  acc : ∀ d, st.acc d = ((∑ k ∈ W, Real.exp (sr k - (mx sr W).toReal) * vr k d : ℝ) : EReal)

theorem Good.step {sr : Fin 2048 → ℝ} {vr : Fin 2048 → Fin 64 → ℝ} {W : Finset (Fin 2048)} {st : St}
    (h : Good sr vr W st) (q : Fin 2048) (n : ℕ)
    (hd : Disjoint W ((tile n).filter fun k => k ≤ q))
    (hne : (W ∪ (tile n).filter fun k => k ≤ q).Nonempty) :
    Good sr vr (W ∪ (tile n).filter fun k => k ≤ q)
      (St.step (masked (fun k => (sr k : EReal)) q) (fun k d => (vr k d : EReal)) n st) := by
  have hm : max st.m ((tile n).sup (masked (fun k => (sr k : EReal)) q))
      = mx sr (W ∪ (tile n).filter fun k => k ≤ q) := by
    rw [h.m, sup_masked]
    unfold mx
    rw [Finset.sup_union]
  obtain ⟨N, hN⟩ := mx_real sr hne
  refine ⟨hm, ?_, fun d => ?_⟩
  · show Ideal.exp (st.m - max st.m ((tile n).sup (masked (fun k => (sr k : EReal)) q))) * st.l
        + ∑ k ∈ tile n, Ideal.exp (masked (fun k => (sr k : EReal)) q k
            - max st.m ((tile n).sup (masked (fun k => (sr k : EReal)) q))) = _
    rw [hm, hN, EReal.toReal_coe, h.m, h.l, rescale_one, sum_masked_one, ← EReal.coe_add, Finset.sum_union hd]
  · show Ideal.exp (st.m - max st.m ((tile n).sup (masked (fun k => (sr k : EReal)) q))) * st.acc d
        + ∑ k ∈ tile n, Ideal.exp (masked (fun k => (sr k : EReal)) q k
            - max st.m ((tile n).sup (masked (fun k => (sr k : EReal)) q))) * ((vr k d : ℝ) : EReal) = _
    rw [hm, hN, EReal.toReal_coe, h.m, h.acc d, rescale sr W (fun k => vr k d) N,
      sum_masked sr q (tile n) N (fun k => vr k d), ← EReal.coe_add, Finset.sum_union hd]

def seen (q : Fin 2048) (n : ℕ) : Finset (Fin 2048) := Finset.univ.filter fun k => k.val / 512 < n ∧ k ≤ q

theorem seen_zero (q : Fin 2048) : seen q 0 = ∅ := by
  simp [seen]

theorem seen_succ (q : Fin 2048) (n : ℕ) : seen q (n + 1) = seen q n ∪ (tile n).filter fun k => k ≤ q := by
  ext k
  simp only [seen, tile, Finset.mem_union, Finset.mem_filter, Finset.mem_univ, true_and]
  rw [Nat.lt_succ_iff_lt_or_eq]
  tauto

theorem seen_disjoint (q : Fin 2048) (n : ℕ) : Disjoint (seen q n) ((tile n).filter fun k => k ≤ q) := by
  rw [Finset.disjoint_left]
  intro k hk hk'
  simp only [seen, tile, Finset.mem_filter, Finset.mem_univ, true_and] at hk hk'
  exact absurd hk'.1 (Nat.ne_of_lt hk.1)

theorem seen_nonempty (q : Fin 2048) (n : ℕ) : (seen q (n + 1)).Nonempty :=
  ⟨0, by simp [seen]⟩

theorem seen_last (q : Fin 2048) : seen q (q.val / 512 + 1) = vis q := by
  ext k
  simp only [seen, vis, Finset.mem_filter, Finset.mem_univ, true_and]
  constructor
  · exact fun h => h.2
  · intro h
    exact ⟨Nat.lt_succ_of_le (Nat.div_le_div_right h), h⟩

theorem good_online (sr : Fin 2048 → ℝ) (vr : Fin 2048 → Fin 64 → ℝ) (q : Fin 2048) :
    ∀ n, Good sr vr (seen q n) (online (masked (fun k => (sr k : EReal)) q) (fun k d => (vr k d : EReal)) n)
  | 0 => by
    rw [seen_zero]
    exact ⟨by simp [online, St.init, mx], by simp [online, St.init], fun d => by simp [online, St.init]⟩
  | n + 1 => by
    rw [seen_succ]
    exact (good_online sr vr q n).step q n (seen_disjoint q n) (by rw [← seen_succ]; exact seen_nonempty q n)

theorem vis_nonempty (q : Fin 2048) : (vis q).Nonempty := ⟨q, by simp [vis]⟩

theorem attnT_real (sr : Fin 2048 → ℝ) (vr : Fin 2048 → Fin 64 → ℝ) (q : Fin 2048) (d : Fin 64) :
    attnT (fun k => (sr k : EReal)) (fun k d => (vr k d : EReal)) q d
      = attnK (fun k => (sr k : EReal)) (fun k d => (vr k d : EReal)) q d := by
  have h := good_online sr vr q (q.val / 512 + 1)
  rw [seen_last] at h
  obtain ⟨M, hM⟩ := mx_real sr (vis_nonempty q)
  have hs : (vis q).sup (fun k => (sr k : EReal)) = (M : EReal) := hM
  unfold attnT attnK
  rw [h.l, h.acc d, hs, hM, EReal.toReal_coe]
  congr 1
  · rw [← coe_sum]
    refine Finset.sum_congr rfl fun k _ => ?_
    rw [exp_sub_coe, ← EReal.coe_mul]
  · rw [← coe_sum]
    refine Finset.sum_congr rfl fun k _ => ?_
    rw [exp_sub_coe]

theorem attnK_real (sr : Fin 2048 → ℝ) (vr : Fin 2048 → Fin 64 → ℝ) (q : Fin 2048) (d : Fin 64) :
    attnK (fun k => (sr k : EReal)) (fun k d => (vr k d : EReal)) q d
      = attnR (fun k => (sr k : EReal)) (fun k d => (vr k d : EReal)) q d := by
  obtain ⟨M, hM⟩ := mx_real sr (vis_nonempty q)
  have hs : (vis q).sup (fun k => (sr k : EReal)) = (M : EReal) := hM
  have hsup : Finset.univ.sup (masked (fun k => (sr k : EReal)) q) = (M : EReal) := by
    rw [sup_masked]
    exact hM

  have hL : (∑ k ∈ vis q, Real.exp (sr k - M)) ≠ 0 :=
    (Finset.sum_pos (fun k _ => Real.exp_pos _) (vis_nonempty q)).ne'
  have hLsum : ∑ k ∈ vis q, Ideal.exp ((sr k : EReal) - (M : EReal))
      = ((∑ k ∈ vis q, Real.exp (sr k - M) : ℝ) : EReal) := by
    rw [← coe_sum]
    exact Finset.sum_congr rfl fun k _ => exp_sub_coe _ _
  have hAsum : ∑ k ∈ vis q, Ideal.exp ((sr k : EReal) - (M : EReal)) * ((vr k d : ℝ) : EReal)
      = ((∑ k ∈ vis q, Real.exp (sr k - M) * vr k d : ℝ) : EReal) := by
    rw [← coe_sum]
    refine Finset.sum_congr rfl fun k _ => ?_
    rw [exp_sub_coe, ← EReal.coe_mul]
  unfold attnK attnR
  rw [hs, hsup, max_bot_left, zero_add, sum_masked_one sr q Finset.univ M, hLsum, hAsum]
  show _ = ∑ k : Fin 2048,
    Ideal.div (Ideal.exp (masked (fun k => (sr k : EReal)) q k - (M : EReal)))
      ((∑ k ∈ vis q, Real.exp (sr k - M) : ℝ) : EReal) * ((vr k d : ℝ) : EReal)

  rw [Ideal.div_coe hL, ← EReal.coe_mul, Finset.sum_mul, ← coe_sum]
  have hterm : ∀ k : Fin 2048,
      Ideal.div (Ideal.exp (masked (fun k => (sr k : EReal)) q k - (M : EReal)))
          ((∑ k ∈ vis q, Real.exp (sr k - M) : ℝ) : EReal) * ((vr k d : ℝ) : EReal)
        = if k ≤ q then ((Real.exp (sr k - M) * vr k d * (1 / ∑ k ∈ vis q, Real.exp (sr k - M)) : ℝ) : EReal)
          else 0 := by
    intro k
    rw [Ideal.div_coe hL]
    unfold masked
    by_cases h : k ≤ q
    · rw [if_pos h, if_pos h, exp_sub_coe, ← EReal.coe_mul, ← EReal.coe_mul]
      congr 1
      ring
    · rw [if_neg h, if_neg h, exp_bot_sub, zero_mul, zero_mul]
  rw [Finset.sum_congr rfl fun k _ => hterm k, ← Finset.sum_filter]
  rfl

theorem attnT_eq_attnK (s : Fin 2048 → EReal) (v : Fin 2048 → Fin 64 → EReal)
    (hs : ∀ k, ∃ a : ℝ, s k = (a : EReal)) (hv : ∀ k d, ∃ a : ℝ, v k d = (a : EReal))
    (q : Fin 2048) (d : Fin 64) : Cert.Spec.attnT s v q d = Cert.Spec.attnK s v q d := by
  choose sr hsr using hs
  choose vr hvr using hv
  obtain rfl : s = fun k => (sr k : EReal) := funext hsr
  obtain rfl : v = fun k d => (vr k d : EReal) := funext fun k => funext (hvr k)
  exact attnT_real sr vr q d

theorem attnK_eq_attnR (s : Fin 2048 → EReal) (v : Fin 2048 → Fin 64 → EReal)
    (hs : ∀ k, ∃ a : ℝ, s k = (a : EReal)) (hv : ∀ k d, ∃ a : ℝ, v k d = (a : EReal))
    (q : Fin 2048) (d : Fin 64) : Cert.Spec.attnK s v q d = Cert.Spec.attnR s v q d := by
  choose sr hsr using hs
  choose vr hvr using hv
  obtain rfl : s = fun k => (sr k : EReal) := funext hsr
  obtain rfl : v = fun k d => (vr k d : EReal) := funext fun k => funext (hvr k)
  exact attnK_real sr vr q d

theorem score_real (c : ℝ) (y : Fin 8192 → Fin 3072 → EReal) (hy : ∀ r j, ∃ a : ℝ, y r j = (a : EReal))
    (b : Fin 4) (h : Fin 16) (q k : Fin 2048) : ∃ a : ℝ, score (c : EReal) y b h q k = (a : EReal) := by
  unfold score
  exact real_mul (real_sum _ _ fun d _ => real_mul (hy _ _) (hy _ _)) ⟨c, rfl⟩

theorem layer_T_eq_R (c : ℝ) (x : Fin 8192 → Fin 1024 → EReal) (wqkv : Fin 3072 → Fin 1024 → EReal)
    (bqkv : Fin 3072 → EReal) (wo : Fin 1024 → Fin 1024 → EReal) (bo : Fin 1024 → EReal)
    (hx : ∀ r k, ∃ a : ℝ, x r k = (a : EReal)) (hw : ∀ j k, ∃ a : ℝ, wqkv j k = (a : EReal))
    (hb : ∀ j, ∃ a : ℝ, bqkv j = (a : EReal)) :
    Cert.Spec.layer Cert.Spec.attnT (c : EReal) x wqkv bqkv wo bo
      = Cert.Spec.layer Cert.Spec.attnR (c : EReal) x wqkv bqkv wo bo := by
  have hy := linear_real x wqkv bqkv hx hw hb
  have hheads : heads attnT (c : EReal) (linear x wqkv bqkv) = heads attnR (c : EReal) (linear x wqkv bqkv) := by
    funext r j
    unfold heads
    exact (attnT_eq_attnK _ _ (fun k => score_real c _ hy _ _ _ k) (fun k d => hy _ _) _ _).trans
      (attnK_eq_attnR _ _ (fun k => score_real c _ hy _ _ _ k) (fun k d => hy _ _) _ _)
  unfold layer
  rw [hheads]

end Cert.Alg

end
-- ==== Proof.Pre.lean ====
import proofs.«414918_j3358664426109_3_alg».proof.Proof.Gen.Pre_finite_inputs
import Idealize.ShloMosaic.Lib.ReduceAll
import Idealize.ShloMosaic.Lib.ValueIdx
import Idealize.ShloMosaic.PureOps.Ideal

namespace Cert.Pre

open Idealize.ShloMosaic

instance : Subsingleton Cert.Pre_finite_inputs.S_.Idx := ⟨fun a b => funext fun d => d.elim0⟩

theorem inf_eq_top : Ideal.ofBits .f32 0x7F800000#32 = (⊤ : EReal) := by
  simp [Ideal.ofBits, Ideal.ieee]

theorem real_of_abs_lt_top (x : EReal) (h : Ideal.cmp .olt (max x (-x)) ⊤ = 1#1) :
    ∃ r : ℝ, x = (r : EReal) := by
  induction x using EReal.rec with
  | bot => simp [Ideal.cmp] at h
  | coe r => exact ⟨r, rfl⟩
  | top => simp [Ideal.cmp] at h

theorem entry_real {s : Shape} (bc : Cert.Pre_finite_inputs.S_.BroadcastsInDim s (![] : Fin 0 → Fin s.rank))
    (a : FVec Ideal s .f32) (i : s.Idx)
    (h : cmpf (F := Ideal) .olt (Host.absf (F := Ideal) a)
          (broadcastInDim s ![] bc (constant (F := Ideal) Cert.Pre_finite_inputs.S_ .f32 0x7F800000#32)) i = 1#1) :
    ∃ r : ℝ, a i = (r : EReal) := by
  have h' : Ideal.cmp .olt (max (a i) (-(a i))) (Ideal.ofBits .f32 0x7F800000#32) = 1#1 := h
  rw [inf_eq_top] at h'
  exact real_of_abs_lt_top (a i) h'

open Cert.Pre_finite_inputs in

theorem finite_of_pre [Cert.Pre_finite_inputs.Facts]
    (a0 : FVec Ideal Cert.Pre_finite_inputs.S4x2048x1024 .f32)
    (a1 : FVec Ideal Cert.Pre_finite_inputs.S3072x1024 .f32)
    (a2 : FVec Ideal Cert.Pre_finite_inputs.S3072 .f32)
    (a3 : FVec Ideal Cert.Pre_finite_inputs.S1024x1024 .f32)
    (a4 : FVec Ideal Cert.Pre_finite_inputs.S1024 .f32)
    (h : Cert.Pre_finite_inputs.fn (F := Ideal) a0 a1 a2 a3 a4 = (fun _ => 1#1)) :
    (∀ i, ∃ x : ℝ, a0 i = (x : EReal)) ∧ (∀ i, ∃ x : ℝ, a1 i = (x : EReal)) ∧
    (∀ i, ∃ x : ℝ, a2 i = (x : EReal)) ∧ (∀ i, ∃ x : ℝ, a3 i = (x : EReal)) ∧
    (∀ i, ∃ x : ℝ, a4 i = (x : EReal)) := by
  have h0 := congrFun h ValueIdx.ix0
  dsimp only [Cert.Pre_finite_inputs.fn, Cert.Pre_finite_inputs.fn_part1, andi] at h0
  obtain ⟨h0123, e4⟩ := IntOp.andi_eq_one.1 h0
  obtain ⟨h012, e3⟩ := IntOp.andi_eq_one.1 h0123
  obtain ⟨h01, e2⟩ := IntOp.andi_eq_one.1 h012
  obtain ⟨e0, e1⟩ := IntOp.andi_eq_one.1 h01
  exact ⟨fun i => entry_real _ a0 i (Host.reduce_andi_all _ _ _ _ _ e0 i),
    fun i => entry_real _ a1 i (Host.reduce_andi_all _ _ _ _ _ e1 i),
    fun i => entry_real _ a2 i (Host.reduce_andi_all _ _ _ _ _ e2 i),
    fun i => entry_real _ a3 i (Host.reduce_andi_all _ _ _ _ _ e3 i),
    fun i => entry_real _ a4 i (Host.reduce_andi_all _ _ _ _ _ e4 i)⟩

end Cert.Pre
-- ==== Proof.lean ====
import proofs.«414918_j3358664426109_3_alg».proof.Defs
import proofs.«414918_j3358664426109_3_alg».proof.Proof.K.Run
import proofs.«414918_j3358664426109_3_alg».proof.Proof.K.FoldArgs
import proofs.«414918_j3358664426109_3_alg».proof.Proof.KI.Run
import proofs.«414918_j3358664426109_3_alg».proof.Proof.KI.FoldArgs
import proofs.«414918_j3358664426109_3_alg».proof.Proof.KI.Value
import proofs.«414918_j3358664426109_3_alg».proof.Proof.Ref
import proofs.«414918_j3358664426109_3_alg».proof.Proof.Algebra
import proofs.«414918_j3358664426109_3_alg».proof.Proof.Pre
import proofs.«414918_j3358664426109_3_alg».proof.Proof.KI.HeadStep
import proofs.«414918_j3358664426109_3_alg».proof.Proof.Gen.Kernel
import proofs.«414918_j3358664426109_3_alg».proof.Proof.Gen.KernelIdeal
import proofs.«414918_j3358664426109_3_alg».proof.Proof.Gen.ReferenceIdeal
import proofs.«414918_j3358664426109_3_alg».proof.Proof.Gen.Pre_finite_inputs
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ =>
  (θ_run Cert.Kernel.defs _ _).mono (fun r h c =>
    ⟨(h c _ (Cert.Kernel.Run.mem_uc Cert.Kernel.main_arg0 (by decide))).trans (Cert.Kernel.FoldArgs.arg0 m c),
     (h c _ (Cert.Kernel.Run.mem_uc Cert.Kernel.main_arg1 (by decide))).trans (Cert.Kernel.FoldArgs.arg1 m c),
     (h c _ (Cert.Kernel.Run.mem_uc Cert.Kernel.main_arg2 (by decide))).trans (Cert.Kernel.FoldArgs.arg2 m c),
     (h c _ (Cert.Kernel.Run.mem_uc Cert.Kernel.main_arg3 (by decide))).trans (Cert.Kernel.FoldArgs.arg3 m c),
     (h c _ (Cert.Kernel.Run.mem_uc Cert.Kernel.main_arg4 (by decide))).trans (Cert.Kernel.FoldArgs.arg4 m c)⟩)
    (Cert.Kernel.Run.run_main (F := Bits) m ρ)

theorem frame_ki : Cert.frame_KernelIdeal := fun m ρ _ =>
  (θ_run Cert.KernelIdeal.defs _ _).mono (fun r h c =>
    ⟨(h c _ (Cert.KernelIdeal.Run.mem_uc Cert.KernelIdeal.main_arg0 (by decide))).trans (Cert.KernelIdeal.FoldArgs.arg0 m c),
     (h c _ (Cert.KernelIdeal.Run.mem_uc Cert.KernelIdeal.main_arg1 (by decide))).trans (Cert.KernelIdeal.FoldArgs.arg1 m c),
     (h c _ (Cert.KernelIdeal.Run.mem_uc Cert.KernelIdeal.main_arg2 (by decide))).trans (Cert.KernelIdeal.FoldArgs.arg2 m c),
     (h c _ (Cert.KernelIdeal.Run.mem_uc Cert.KernelIdeal.main_arg3 (by decide))).trans (Cert.KernelIdeal.FoldArgs.arg3 m c),
     (h c _ (Cert.KernelIdeal.Run.mem_uc Cert.KernelIdeal.main_arg4 (by decide))).trans (Cert.KernelIdeal.FoldArgs.arg4 m c)⟩)
    (Cert.KernelIdeal.Run.run_main (F := Ideal) m ρ)

theorem frame_ri : Cert.frame_ReferenceIdeal := fun m ρ _ =>
  (θ_run Cert.ReferenceIdeal.defs _ _).mono (fun _ h c => (h c).2) (Cert.Ref.run m ρ)

theorem neg_big : IdealRules.named_const.Statement Cert.KernelIdeal.κ "neg_big" .f32 0xFF333332#32 ⊥ :=
  IdealRules.named_const.statement Cert.KernelIdeal.κ "neg_big" .f32 0xFF333332#32 ⊥ rfl

theorem preserves : Cert.preserves_Kernel_KernelIdeal :=
  ⟨neg_big, neg_big, neg_big, neg_big, neg_big, neg_big, neg_big, neg_big, neg_big, neg_big, neg_big, neg_big, neg_big, neg_big,
    neg_big, neg_big⟩

theorem result_T_eq_R (a0 : (⟨3, ![4, 2048, 1024]⟩ : Shape).Idx → EReal) (a1 : (⟨2, ![3072, 1024]⟩ : Shape).Idx → EReal)
    (a2 : (⟨1, ![3072]⟩ : Shape).Idx → EReal) (a3 : (⟨2, ![1024, 1024]⟩ : Shape).Idx → EReal)
    (a4 : (⟨1, ![1024]⟩ : Shape).Idx → EReal)
    (h0 : ∀ i, ∃ x : ℝ, a0 i = (x : EReal)) (h1 : ∀ i, ∃ x : ℝ, a1 i = (x : EReal)) (h2 : ∀ i, ∃ x : ℝ, a2 i = (x : EReal)) :
    Cert.Spec.result Cert.Spec.attnT Cert.Spec.cK a0 a1 a2 a3 a4
      = Cert.Spec.result Cert.Spec.attnR (((1 / 8 : ℝ)) : EReal) a0 a1 a2 a3 a4 := by
  have hx : ∀ r k, ∃ x : ℝ, Cert.Spec.xMat a0 r k = (x : EReal) := fun r k => by unfold Cert.Spec.xMat; exact h0 _
  have hw : ∀ j k, ∃ x : ℝ, Cert.Spec.mat a1 j k = (x : EReal) := fun j k => by unfold Cert.Spec.mat; exact h1 _
  have hb : ∀ j, ∃ x : ℝ, Cert.Spec.vec a2 j = (x : EReal) := fun j => by unfold Cert.Spec.vec; exact h2 _
  have hL := Cert.Alg.layer_T_eq_R (1 / 8) (Cert.Spec.xMat a0) (Cert.Spec.mat a1) (Cert.Spec.vec a2) (Cert.Spec.mat a3)
    (Cert.Spec.vec a4) hx hw hb
  funext i
  unfold Cert.Spec.result
  rw [Cert.Spec.cK_eq]
  exact congrFun (congrFun hL _) _

theorem algebraic : Cert.algebraic_KernelIdeal_ReferenceIdeal := by
  intro m ρ m' ρ' hpre hagree
  refine ⟨fun c => Cert.Spec.result Cert.Spec.attnT Cert.Spec.cK (m ((c.tc : Thread _ _).loc Cert.KernelIdeal.main_arg0))
      (m ((c.tc : Thread _ _).loc Cert.KernelIdeal.main_arg1)) (m ((c.tc : Thread _ _).loc Cert.KernelIdeal.main_arg2))
      (m ((c.tc : Thread _ _).loc Cert.KernelIdeal.main_arg3)) (m ((c.tc : Thread _ _).loc Cert.KernelIdeal.main_arg4)), ?_, ?_⟩
  · exact (θ_run Cert.KernelIdeal.defs _ _).mono (fun r h c =>
      ⟨(h c _ (Cert.KernelIdeal.Run.mem_uc Cert.KernelIdeal.main_v8 (by decide))).trans (Cert.KernelIdeal.Value.result m c),
       (h c _ (Cert.KernelIdeal.Run.mem_uc Cert.KernelIdeal.main_arg0 (by decide))).trans (Cert.KernelIdeal.FoldArgs.arg0 m c),
       (h c _ (Cert.KernelIdeal.Run.mem_uc Cert.KernelIdeal.main_arg1 (by decide))).trans (Cert.KernelIdeal.FoldArgs.arg1 m c),
       (h c _ (Cert.KernelIdeal.Run.mem_uc Cert.KernelIdeal.main_arg2 (by decide))).trans (Cert.KernelIdeal.FoldArgs.arg2 m c),
       (h c _ (Cert.KernelIdeal.Run.mem_uc Cert.KernelIdeal.main_arg3 (by decide))).trans (Cert.KernelIdeal.FoldArgs.arg3 m c),
       (h c _ (Cert.KernelIdeal.Run.mem_uc Cert.KernelIdeal.main_arg4 (by decide))).trans (Cert.KernelIdeal.FoldArgs.arg4 m c)⟩)
      (Cert.KernelIdeal.Run.run_main (F := Ideal) m ρ)
  · refine (θ_run Cert.ReferenceIdeal.defs _ _).mono (fun r h c => ⟨(h c).1.trans ?_, (h c).2⟩) (Cert.Ref.run m' ρ')
    obtain ⟨e0, e1, e2, e3, e4⟩ := hagree c
    obtain ⟨f0, f1, f2, -, -⟩ := Cert.Pre.finite_of_pre _ _ _ _ _ (hpre c)
    rw [e0, e1, e2, e3, e4]
    exact (result_T_eq_R _ _ _ _ _ f0 f1 f2).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
